-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v348)) (v1 : (c : Dev Cert.KernelIdeal.nD) → Buf (Elt Ideal) ((c.tc : Thread Cert.KernelIdeal.nD Cert.KernelIdeal.τ).loc Cert.KernelIdeal.main_v359)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v348) = v0 c
          ∧ r.2.mem ((c.tc : Thread Cert.KernelIdeal.nD Cert.KernelIdeal.τ).loc Cert.KernelIdeal.main_v359) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v582) = v0 c
          ∧ r.2.mem ((c.tc : Thread Cert.ReferenceIdeal.nD Cert.ReferenceIdeal.τ).loc Cert.ReferenceIdeal.main_v593) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x64 : Shape := ⟨2, ![100000, 64]⟩
abbrev S2000 : Shape := ⟨1, ![2000]⟩
abbrev S2x400000 : Shape := ⟨2, ![2, 400000]⟩
abbrev S2x200000 : Shape := ⟨2, ![2, 200000]⟩
abbrev S2x100000 : Shape := ⟨2, ![2, 100000]⟩
abbrev S400000 : Shape := ⟨1, ![400000]⟩
abbrev S200000 : Shape := ⟨1, ![200000]⟩
abbrev S1000x128 : Shape := ⟨2, ![1000, 128]⟩
abbrev S64x128 : Shape := ⟨2, ![64, 128]⟩
abbrev S128 : Shape := ⟨1, ![128]⟩
abbrev S1x128 : Shape := ⟨2, ![1, 128]⟩
abbrev S5x4x128x128 : Shape := ⟨4, ![5, 4, 128, 128]⟩
abbrev S5x4x128 : Shape := ⟨3, ![5, 4, 128]⟩
abbrev S128x3 : Shape := ⟨2, ![128, 3]⟩
abbrev S3 : Shape := ⟨1, ![3]⟩
abbrev S_ : Shape := ⟨0, ![]⟩
abbrev S1x400000 : Shape := ⟨2, ![1, 400000]⟩
abbrev S1x200000 : Shape := ⟨2, ![1, 200000]⟩
abbrev S1x100000 : Shape := ⟨2, ![1, 100000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S400000 : S_.BroadcastsInDim S400000 (![] : Fin 0 → Fin S400000.rank)
  reducesTo_S400000_S_d0 : S400000.ReducesTo [0] S_
  bcast_S_S200000 : S_.BroadcastsInDim S200000 (![] : Fin 0 → Fin S200000.rank)
  reducesTo_S200000_S_d0 : S200000.ReducesTo [0] S_
  bcast_S_S100000 : S_.BroadcastsInDim S100000 (![] : Fin 0 → Fin S100000.rank)
  reducesTo_S100000_S_d0 : S100000.ReducesTo [0] S_
  bcast_S_S1000x128 : S_.BroadcastsInDim S1000x128 (![] : Fin 0 → Fin S1000x128.rank)
  reducesTo_S1000x128_S_d0_1 : S1000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S5x4x128x128 : S_.BroadcastsInDim S5x4x128x128 (![] : Fin 0 → Fin S5x4x128x128.rank)
  reducesTo_S5x4x128x128_S_d0_1_2_3 : S5x4x128x128.ReducesTo [0, 1, 2, 3] S_
  bcast_S_S5x4x128 : S_.BroadcastsInDim S5x4x128 (![] : Fin 0 → Fin S5x4x128.rank)
  reducesTo_S5x4x128_S_d0_1_2 : S5x4x128.ReducesTo [0, 1, 2] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  slices_S2x400000_S1x400000_0_0 : S2x400000.Slices ![0, 0] S1x400000
  shapeCasts_S1x400000_S400000 : S1x400000.ShapeCasts S400000
  slices_S2x200000_S1x200000_0_0 : S2x200000.Slices ![0, 0] S1x200000
  shapeCasts_S1x200000_S200000 : S1x200000.ShapeCasts S200000
  slices_S2x100000_S1x100000_0_0 : S2x100000.Slices ![0, 0] S1x100000
  shapeCasts_S1x100000_S100000 : S1x100000.ShapeCasts S100000

variable [Facts]

def fn_part5 {F : FTy → Type} [FloatOps F] (main_arg6 : IVec S2x100000 32) (main_v85 : IVec S_ 1) : IVec S_ 1 :=
  let main_v86 : IVec S1x100000 32 := (extractStridedSlice S1x100000 ![0, 0] · slices_S2x100000_S1x100000_0_0) main_arg6
  let main_v87 : IVec S100000 32 := shapeCast S100000 main_v86 shapeCasts_S1x100000_S100000
  let main_c_32 : IVec S_ 32 := constantI S_ 32 0#32
  let main_v88 : IVec S100000 32 := broadcastInDim S100000 ![] bcast_S_S100000 main_c_32
  let main_v89 : IVec S100000 1 := cmpi .sge main_v87 main_v88
  let main_c_33 : IVec S_ 1 := constantI S_ 1 1#1
  let main_v90 : IVec S_ 1 := (fun x v => Host.reduce IntOp.andi x v reducesTo_S100000_S_d0 h_S_) main_v89 main_c_33
  let main_v91 : IVec S_ 1 := andi main_v85 main_v90
  main_v91

def fn_part4 {F : FTy → Type} [FloatOps F] (main_arg3 : IVec S2x400000 32) (main_arg4 : IVec S2x200000 32) (main_arg5 : IVec S2x200000 32) (main_arg6 : IVec S2x100000 32) (main_v67 : IVec S_ 1) : IVec S_ 1 :=
  let main_v68 : IVec S1x400000 32 := (extractStridedSlice S1x400000 ![0, 0] · slices_S2x400000_S1x400000_0_0) main_arg3
  let main_v69 : IVec S400000 32 := shapeCast S400000 main_v68 shapeCasts_S1x400000_S400000
  let main_c_26 : IVec S_ 32 := constantI S_ 32 0#32
  let main_v70 : IVec S400000 32 := broadcastInDim S400000 ![] bcast_S_S400000 main_c_26
  let main_v71 : IVec S400000 1 := cmpi .sge main_v69 main_v70
  let main_c_27 : IVec S_ 1 := constantI S_ 1 1#1
  let main_v72 : IVec S_ 1 := (fun x v => Host.reduce IntOp.andi x v reducesTo_S400000_S_d0 h_S_) main_v71 main_c_27
  let main_v73 : IVec S_ 1 := andi main_v67 main_v72
  let main_v74 : IVec S1x200000 32 := (extractStridedSlice S1x200000 ![0, 0] · slices_S2x200000_S1x200000_0_0) main_arg4
  let main_v75 : IVec S200000 32 := shapeCast S200000 main_v74 shapeCasts_S1x200000_S200000
  let main_c_28 : IVec S_ 32 := constantI S_ 32 0#32
  let main_v76 : IVec S200000 32 := broadcastInDim S200000 ![] bcast_S_S200000 main_c_28
  let main_v77 : IVec S200000 1 := cmpi .sge main_v75 main_v76
  let main_c_29 : IVec S_ 1 := constantI S_ 1 1#1
  let main_v78 : IVec S_ 1 := (fun x v => Host.reduce IntOp.andi x v reducesTo_S200000_S_d0 h_S_) main_v77 main_c_29
  let main_v79 : IVec S_ 1 := andi main_v73 main_v78
  let main_v80 : IVec S1x200000 32 := (extractStridedSlice S1x200000 ![0, 0] · slices_S2x200000_S1x200000_0_0) main_arg5
  let main_v81 : IVec S200000 32 := shapeCast S200000 main_v80 shapeCasts_S1x200000_S200000
  let main_c_30 : IVec S_ 32 := constantI S_ 32 0#32
  let main_v82 : IVec S200000 32 := broadcastInDim S200000 ![] bcast_S_S200000 main_c_30
  let main_v83 : IVec S200000 1 := cmpi .sge main_v81 main_v82
  let main_c_31 : IVec S_ 1 := constantI S_ 1 1#1
  let main_v84 : IVec S_ 1 := (fun x v => Host.reduce IntOp.andi x v reducesTo_S200000_S_d0 h_S_) main_v83 main_c_31
  let main_v85 : IVec S_ 1 := andi main_v79 main_v84
  fn_part5 (F := F) main_arg6 main_v85

def fn_part3 {F : FTy → Type} [FloatOps F] (main_arg0 : IVec S100000 32) (main_arg3 : IVec S2x400000 32) (main_arg4 : IVec S2x200000 32) (main_arg5 : IVec S2x200000 32) (main_arg6 : IVec S2x100000 32) (main_arg17 : FVec F S128x3 .f32) (main_arg18 : FVec F S3 .f32) (main_v48 : IVec S_ 1) (main_v49 : FVec F S5x4x128 .f32) (main_v50 : FVec F S5x4x128 .f32) : IVec S_ 1 :=
  let main_v51 : IVec S5x4x128 1 := cmpf .olt main_v49 main_v50
  let main_c_19 : IVec S_ 1 := constantI S_ 1 1#1
  let main_v52 : IVec S_ 1 := (fun x v => Host.reduce IntOp.andi x v reducesTo_S5x4x128_S_d0_1_2 h_S_) main_v51 main_c_19
  let main_v53 : IVec S_ 1 := andi main_v48 main_v52
  let main_v54 : FVec F S128x3 .f32 := Host.absf main_arg17
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg18
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_c_24 : IVec S_ 32 := constantI S_ 32 0#32
  let main_v64 : IVec S100000 32 := broadcastInDim S100000 ![] bcast_S_S100000 main_c_24
  let main_v65 : IVec S100000 1 := cmpi .sge main_arg0 main_v64
  let main_c_25 : IVec S_ 1 := constantI S_ 1 1#1
  let main_v66 : IVec S_ 1 := (fun x v => Host.reduce IntOp.andi x v reducesTo_S100000_S_d0 h_S_) main_v65 main_c_25
  let main_v67 : IVec S_ 1 := andi main_v63 main_v66
  fn_part4 (F := F) main_arg3 main_arg4 main_arg5 main_arg6 main_v67

def fn_part2 {F : FTy → Type} [FloatOps F] (main_arg0 : IVec S100000 32) (main_arg3 : IVec S2x400000 32) (main_arg4 : IVec S2x200000 32) (main_arg5 : IVec S2x200000 32) (main_arg6 : IVec S2x100000 32) (main_arg13 : FVec F S128 .f32) (main_arg14 : FVec F S1x128 .f32) (main_arg15 : FVec F S5x4x128x128 .f32) (main_arg16 : FVec F S5x4x128 .f32) (main_arg17 : FVec F S128x3 .f32) (main_arg18 : FVec F S3 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg14
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S5x4x128x128 .f32 := Host.absf main_arg15
  let main_cst_16 : FVec F S_ .f32 := constant S_ .f32 0x7F800000#32
  let main_v45 : FVec F S5x4x128x128 .f32 := broadcastInDim S5x4x128x128 ![] bcast_S_S5x4x128x128 main_cst_16
  let main_v46 : IVec S5x4x128x128 1 := cmpf .olt main_v44 main_v45
  let main_c_17 : IVec S_ 1 := constantI S_ 1 1#1
  let main_v47 : IVec S_ 1 := (fun x v => Host.reduce IntOp.andi x v reducesTo_S5x4x128x128_S_d0_1_2_3 h_S_) main_v46 main_c_17
  let main_v48 : IVec S_ 1 := andi main_v43 main_v47
  let main_v49 : FVec F S5x4x128 .f32 := Host.absf main_arg16
  let main_cst_18 : FVec F S_ .f32 := constant S_ .f32 0x7F800000#32
  let main_v50 : FVec F S5x4x128 .f32 := broadcastInDim S5x4x128 ![] bcast_S_S5x4x128 main_cst_18
  fn_part3 (F := F) main_arg0 main_arg3 main_arg4 main_arg5 main_arg6 main_arg17 main_arg18 main_v48 main_v49 main_v50

def fn_part1 {F : FTy → Type} [FloatOps F] (main_arg0 : IVec S100000 32) (main_arg3 : IVec S2x400000 32) (main_arg4 : IVec S2x200000 32) (main_arg5 : IVec S2x200000 32) (main_arg6 : IVec S2x100000 32) (main_arg10 : FVec F S100000 .f32) (main_arg11 : FVec F S1000x128 .f32) (main_arg12 : FVec F S64x128 .f32) (main_arg13 : FVec F S128 .f32) (main_arg14 : FVec F S1x128 .f32) (main_arg15 : FVec F S5x4x128x128 .f32) (main_arg16 : FVec F S5x4x128 .f32) (main_arg17 : FVec F S128x3 .f32) (main_arg18 : FVec F S3 .f32) (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  let main_v19 : FVec F S100000 .f32 := Host.absf main_arg10
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S1000x128 .f32 := Host.absf main_arg11
  let main_cst_8 : FVec F S_ .f32 := constant S_ .f32 0x7F800000#32
  let main_v25 : FVec F S1000x128 .f32 := broadcastInDim S1000x128 ![] bcast_S_S1000x128 main_cst_8
  let main_v26 : IVec S1000x128 1 := cmpf .olt main_v24 main_v25
  let main_c_9 : IVec S_ 1 := constantI S_ 1 1#1
  let main_v27 : IVec S_ 1 := (fun x v => Host.reduce IntOp.andi x v reducesTo_S1000x128_S_d0_1 h_S_) main_v26 main_c_9
  let main_v28 : IVec S_ 1 := andi main_v23 main_v27
  let main_v29 : FVec F S64x128 .f32 := Host.absf main_arg12
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg0 main_arg3 main_arg4 main_arg5 main_arg6 main_arg13 main_arg14 main_arg15 main_arg16 main_arg17 main_arg18 main_v33

def fn {F : FTy → Type} [FloatOps F] (main_arg0 : IVec S100000 32) (main_arg1 : FVec F S100000x64 .f32) (main_arg2 : IVec S2000 32) (main_arg3 : IVec S2x400000 32) (main_arg4 : IVec S2x200000 32) (main_arg5 : IVec S2x200000 32) (main_arg6 : IVec S2x100000 32) (main_arg7 : FVec F S400000 .f32) (main_arg8 : FVec F S200000 .f32) (main_arg9 : FVec F S200000 .f32) (main_arg10 : FVec F S100000 .f32) (main_arg11 : FVec F S1000x128 .f32) (main_arg12 : FVec F S64x128 .f32) (main_arg13 : FVec F S128 .f32) (main_arg14 : FVec F S1x128 .f32) (main_arg15 : FVec F S5x4x128x128 .f32) (main_arg16 : FVec F S5x4x128 .f32) (main_arg17 : FVec F S128x3 .f32) (main_arg18 : FVec F S3 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S400000 .f32 := Host.absf main_arg7
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S200000 .f32 := Host.absf main_arg8
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S200000 .f32 := Host.absf main_arg9
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_arg0 main_arg3 main_arg4 main_arg5 main_arg6 main_arg10 main_arg11 main_arg12 main_arg13 main_arg14 main_arg15 main_arg16 main_arg17 main_arg18 main_v13 main_v16
-- ==== Kernel.lean ====
abbrev S100000 : Shape := ⟨1, ![100000]⟩
abbrev S100000x64 : Shape := ⟨2, ![100000, 64]⟩
abbrev S2000 : Shape := ⟨1, ![2000]⟩
abbrev S2x400000 : Shape := ⟨2, ![2, 400000]⟩
abbrev S2x200000 : Shape := ⟨2, ![2, 200000]⟩
abbrev S2x100000 : Shape := ⟨2, ![2, 100000]⟩
abbrev S400000 : Shape := ⟨1, ![400000]⟩
abbrev S200000 : Shape := ⟨1, ![200000]⟩
abbrev S1000x128 : Shape := ⟨2, ![1000, 128]⟩
abbrev S64x128 : Shape := ⟨2, ![64, 128]⟩
abbrev S128 : Shape := ⟨1, ![128]⟩
abbrev S1x128 : Shape := ⟨2, ![1, 128]⟩
abbrev S5x4x128x128 : Shape := ⟨4, ![5, 4, 128, 128]⟩
abbrev S5x4x128 : Shape := ⟨3, ![5, 4, 128]⟩
abbrev S128x3 : Shape := ⟨2, ![128, 3]⟩
abbrev S3 : Shape := ⟨1, ![3]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S2000x1 : Shape := ⟨2, ![2000, 1]⟩
abbrev S2000x128 : Shape := ⟨2, ![2000, 128]⟩
abbrev S1x1x128x128 : Shape := ⟨4, ![1, 1, 128, 128]⟩
abbrev S128x128 : Shape := ⟨2, ![128, 128]⟩
abbrev S1x1x128 : Shape := ⟨3, ![1, 1, 128]⟩
abbrev S4000x128 : Shape := ⟨2, ![4000, 128]⟩
abbrev S1x400000 : Shape := ⟨2, ![1, 400000]⟩
abbrev S400000x1 : Shape := ⟨2, ![400000, 1]⟩
abbrev S400000x128 : Shape := ⟨2, ![400000, 128]⟩
abbrev S1x200000 : Shape := ⟨2, ![1, 200000]⟩
abbrev S200000x1 : Shape := ⟨2, ![200000, 1]⟩
abbrev S200000x128 : Shape := ⟨2, ![200000, 128]⟩
abbrev S_ : Shape := ⟨0, ![]⟩
abbrev S1x100000 : Shape := ⟨2, ![1, 100000]⟩
abbrev S100000x3 : Shape := ⟨2, ![100000, 3]⟩
abbrev S1x3 : Shape := ⟨2, ![1, 3]⟩

abbrev nBuf : Space → Nat
  | .hbm => 436
  | .vmem => 93
  | .smem => 0
  | _ => 0

abbrev hbmTy0_0 (i : Nat) : BufTy := match i % 128 with
  | 0 => ⟨S100000, .i32⟩
  | 1 => ⟨S100000x64, .f32⟩
  | 2 => ⟨S2000, .i32⟩
  | 3 => ⟨S2x400000, .i32⟩
  | 4 => ⟨S2x200000, .i32⟩
  | 5 => ⟨S2x200000, .i32⟩
  | 6 => ⟨S2x100000, .i32⟩
  | 7 => ⟨S400000, .f32⟩
  | 8 => ⟨S200000, .f32⟩
  | 9 => ⟨S200000, .f32⟩
  | 10 => ⟨S100000, .f32⟩
  | 11 => ⟨S1000x128, .f32⟩
  | 12 => ⟨S64x128, .f32⟩
  | 13 => ⟨S128, .f32⟩
  | 14 => ⟨S1x128, .f32⟩
  | 15 => ⟨S5x4x128x128, .f32⟩
  | 16 => ⟨S5x4x128, .f32⟩
  | 17 => ⟨S128x3, .f32⟩
  | 18 => ⟨S3, .f32⟩
  | 19 => ⟨S100000x1, .i32⟩
  | 20 => ⟨S100000x128, .f32⟩
  | 21 => ⟨S1x128, .f32⟩
  | 22 => ⟨S100000x128, .f32⟩
  | 23 => ⟨S2000x1, .i32⟩
  | 24 => ⟨S2000x128, .f32⟩
  | 25 => ⟨S1x1x128x128, .f32⟩
  | 26 => ⟨S128x128, .f32⟩
  | 27 => ⟨S1x1x128, .f32⟩
  | 28 => ⟨S128, .f32⟩
  | 29 => ⟨S1x1x128x128, .f32⟩
  | 30 => ⟨S128x128, .f32⟩
  | 31 => ⟨S1x1x128, .f32⟩
  | 32 => ⟨S128, .f32⟩
  | 33 => ⟨S1x128, .f32⟩
  | 34 => ⟨S1x128, .f32⟩
  | 35 => ⟨S100000x128, .f32⟩
  | 36 => ⟨S100000x128, .f32⟩
  | 37 => ⟨S1x1x128x128, .f32⟩
  | 38 => ⟨S128x128, .f32⟩
  | 39 => ⟨S1x1x128, .f32⟩
  | 40 => ⟨S128, .f32⟩
  | 41 => ⟨S1x1x128x128, .f32⟩
  | 42 => ⟨S128x128, .f32⟩
  | 43 => ⟨S1x1x128, .f32⟩
  | 44 => ⟨S128, .f32⟩
  | 45 => ⟨S1x128, .f32⟩
  | 46 => ⟨S1x128, .f32⟩
  | 47 => ⟨S2000x128, .f32⟩
  | 48 => ⟨S2000x128, .f32⟩
  | 49 => ⟨S1x400000, .i32⟩
  | 50 => ⟨S400000, .i32⟩
  | 51 => ⟨S400000x1, .i32⟩
  | 52 => ⟨S400000x128, .f32⟩
  | 53 => ⟨S400000x1, .f32⟩
  | 54 => ⟨S400000x128, .f32⟩
  | 55 => ⟨S400000x128, .f32⟩
  | 56 => ⟨S1x200000, .i32⟩
  | 57 => ⟨S200000, .i32⟩
  | 58 => ⟨S200000x1, .i32⟩
  | 59 => ⟨S200000x128, .f32⟩
  | 60 => ⟨S200000x1, .f32⟩
  | 61 => ⟨S200000x128, .f32⟩
  | 62 => ⟨S200000x128, .f32⟩
  | 63 => ⟨S1x400000, .i32⟩
  | 64 => ⟨S400000, .i32⟩
  | 65 => ⟨S_, .f32⟩
  | 66 => ⟨S100000x128, .f32⟩
  | 67 => ⟨S400000x1, .i32⟩
  | 68 => ⟨S100000x128, .f32⟩
  | 69 => ⟨S1x200000, .i32⟩
  | 70 => ⟨S200000, .i32⟩
  | 71 => ⟨S_, .f32⟩
  | 72 => ⟨S100000x128, .f32⟩
  | 73 => ⟨S200000x1, .i32⟩
  | 74 => ⟨S100000x128, .f32⟩
  | 75 => ⟨S100000x128, .f32⟩
  | 76 => ⟨S1x200000, .i32⟩
  | 77 => ⟨S200000, .i32⟩
  | 78 => ⟨S200000x1, .i32⟩
  | 79 => ⟨S200000x128, .f32⟩
  | 80 => ⟨S200000x1, .f32⟩
  | 81 => ⟨S200000x128, .f32⟩
  | 82 => ⟨S200000x128, .f32⟩
  | 83 => ⟨S1x100000, .i32⟩
  | 84 => ⟨S100000, .i32⟩
  | 85 => ⟨S100000x1, .i32⟩
  | 86 => ⟨S100000x128, .f32⟩
  | 87 => ⟨S100000x1, .f32⟩
  | 88 => ⟨S100000x128, .f32⟩
  | 89 => ⟨S100000x128, .f32⟩
  | 90 => ⟨S1x200000, .i32⟩
  | 91 => ⟨S200000, .i32⟩
  | 92 => ⟨S_, .f32⟩
  | 93 => ⟨S2000x128, .f32⟩
  | 94 => ⟨S200000x1, .i32⟩
  | 95 => ⟨S2000x128, .f32⟩
  | 96 => ⟨S1x100000, .i32⟩
  | 97 => ⟨S100000, .i32⟩
  | 98 => ⟨S_, .f32⟩
  | 99 => ⟨S2000x128, .f32⟩
  | 100 => ⟨S100000x1, .i32⟩
  | 101 => ⟨S2000x128, .f32⟩
  | 102 => ⟨S2000x128, .f32⟩
  | 103 => ⟨S1x1x128x128, .f32⟩
  | 104 => ⟨S128x128, .f32⟩
  | 105 => ⟨S1x1x128, .f32⟩
  | 106 => ⟨S128, .f32⟩
  | 107 => ⟨S1x1x128x128, .f32⟩
  | 108 => ⟨S128x128, .f32⟩
  | 109 => ⟨S1x1x128, .f32⟩
  | 110 => ⟨S128, .f32⟩
  | 111 => ⟨S1x128, .f32⟩
  | 112 => ⟨S1x128, .f32⟩
  | 113 => ⟨S100000x128, .f32⟩
  | 114 => ⟨S100000x128, .f32⟩
  | 115 => ⟨S1x1x128x128, .f32⟩
  | 116 => ⟨S128x128, .f32⟩
  | 117 => ⟨S1x1x128, .f32⟩
  | 118 => ⟨S128, .f32⟩
  | 119 => ⟨S1x1x128x128, .f32⟩
  | 120 => ⟨S128x128, .f32⟩
  | 121 => ⟨S1x1x128, .f32⟩
  | 122 => ⟨S128, .f32⟩
  | 123 => ⟨S1x128, .f32⟩
  | 124 => ⟨S1x128, .f32⟩
  | 125 => ⟨S2000x128, .f32⟩
  | 126 => ⟨S2000x128, .f32⟩
  | 127 => ⟨S1x400000, .i32⟩
  | _ => ⟨S100000, .i32⟩

abbrev hbmTy0_1 (i : Nat) : BufTy := match i % 128 with
  | 0 => ⟨S400000, .i32⟩
  | 1 => ⟨S400000x1, .i32⟩
  | 2 => ⟨S400000x128, .f32⟩
  | 3 => ⟨S400000x1, .f32⟩
  | 4 => ⟨S400000x128, .f32⟩
  | 5 => ⟨S400000x128, .f32⟩
  | 6 => ⟨S1x200000, .i32⟩
  | 7 => ⟨S200000, .i32⟩
  | 8 => ⟨S200000x1, .i32⟩
  | 9 => ⟨S200000x128, .f32⟩
  | 10 => ⟨S200000x1, .f32⟩
  | 11 => ⟨S200000x128, .f32⟩
  | 12 => ⟨S200000x128, .f32⟩
  | 13 => ⟨S1x400000, .i32⟩
  | 14 => ⟨S400000, .i32⟩
  | 15 => ⟨S_, .f32⟩
  | 16 => ⟨S100000x128, .f32⟩
  | 17 => ⟨S400000x1, .i32⟩
  | 18 => ⟨S100000x128, .f32⟩
  | 19 => ⟨S1x200000, .i32⟩
  | 20 => ⟨S200000, .i32⟩
  | 21 => ⟨S_, .f32⟩
  | 22 => ⟨S100000x128, .f32⟩
  | 23 => ⟨S200000x1, .i32⟩
  | 24 => ⟨S100000x128, .f32⟩
  | 25 => ⟨S100000x128, .f32⟩
  | 26 => ⟨S1x200000, .i32⟩
  | 27 => ⟨S200000, .i32⟩
  | 28 => ⟨S200000x1, .i32⟩
  | 29 => ⟨S200000x128, .f32⟩
  | 30 => ⟨S200000x1, .f32⟩
  | 31 => ⟨S200000x128, .f32⟩
  | 32 => ⟨S200000x128, .f32⟩
  | 33 => ⟨S1x100000, .i32⟩
  | 34 => ⟨S100000, .i32⟩
  | 35 => ⟨S100000x1, .i32⟩
  | 36 => ⟨S100000x128, .f32⟩
  | 37 => ⟨S100000x1, .f32⟩
  | 38 => ⟨S100000x128, .f32⟩
  | 39 => ⟨S100000x128, .f32⟩
  | 40 => ⟨S1x200000, .i32⟩
  | 41 => ⟨S200000, .i32⟩
  | 42 => ⟨S_, .f32⟩
  | 43 => ⟨S2000x128, .f32⟩
  | 44 => ⟨S200000x1, .i32⟩
  | 45 => ⟨S2000x128, .f32⟩
  | 46 => ⟨S1x100000, .i32⟩
  | 47 => ⟨S100000, .i32⟩
  | 48 => ⟨S_, .f32⟩
  | 49 => ⟨S2000x128, .f32⟩
  | 50 => ⟨S100000x1, .i32⟩
  | 51 => ⟨S2000x128, .f32⟩
  | 52 => ⟨S2000x128, .f32⟩
  | 53 => ⟨S1x1x128x128, .f32⟩
  | 54 => ⟨S128x128, .f32⟩
  | 55 => ⟨S1x1x128, .f32⟩
  | 56 => ⟨S128, .f32⟩
  | 57 => ⟨S1x1x128x128, .f32⟩
  | 58 => ⟨S128x128, .f32⟩
  | 59 => ⟨S1x1x128, .f32⟩
  | 60 => ⟨S128, .f32⟩
  | 61 => ⟨S1x128, .f32⟩
  | 62 => ⟨S1x128, .f32⟩
  | 63 => ⟨S100000x128, .f32⟩
  | 64 => ⟨S100000x128, .f32⟩
  | 65 => ⟨S1x1x128x128, .f32⟩
  | 66 => ⟨S128x128, .f32⟩
  | 67 => ⟨S1x1x128, .f32⟩
  | 68 => ⟨S128, .f32⟩
  | 69 => ⟨S1x1x128x128, .f32⟩
  | 70 => ⟨S128x128, .f32⟩
  | 71 => ⟨S1x1x128, .f32⟩
  | 72 => ⟨S128, .f32⟩
  | 73 => ⟨S1x128, .f32⟩
  | 74 => ⟨S1x128, .f32⟩
  | 75 => ⟨S2000x128, .f32⟩
  | 76 => ⟨S2000x128, .f32⟩
  | 77 => ⟨S1x400000, .i32⟩
  | 78 => ⟨S400000, .i32⟩
  | 79 => ⟨S400000x1, .i32⟩
  | 80 => ⟨S400000x128, .f32⟩
  | 81 => ⟨S400000x1, .f32⟩
  | 82 => ⟨S400000x128, .f32⟩
  | 83 => ⟨S400000x128, .f32⟩
  | 84 => ⟨S1x200000, .i32⟩
  | 85 => ⟨S200000, .i32⟩
  | 86 => ⟨S200000x1, .i32⟩
  | 87 => ⟨S200000x128, .f32⟩
  | 88 => ⟨S200000x1, .f32⟩
  | 89 => ⟨S200000x128, .f32⟩
  | 90 => ⟨S200000x128, .f32⟩
  | 91 => ⟨S1x400000, .i32⟩
  | 92 => ⟨S400000, .i32⟩
  | 93 => ⟨S_, .f32⟩
  | 94 => ⟨S100000x128, .f32⟩
  | 95 => ⟨S400000x1, .i32⟩
  | 96 => ⟨S100000x128, .f32⟩
  | 97 => ⟨S1x200000, .i32⟩
  | 98 => ⟨S200000, .i32⟩
  | 99 => ⟨S_, .f32⟩
  | 100 => ⟨S100000x128, .f32⟩
  | 101 => ⟨S200000x1, .i32⟩
  | 102 => ⟨S100000x128, .f32⟩
  | 103 => ⟨S100000x128, .f32⟩
  | 104 => ⟨S1x200000, .i32⟩
  | 105 => ⟨S200000, .i32⟩
  | 106 => ⟨S200000x1, .i32⟩
  | 107 => ⟨S200000x128, .f32⟩
  | 108 => ⟨S200000x1, .f32⟩
  | 109 => ⟨S200000x128, .f32⟩
  | 110 => ⟨S200000x128, .f32⟩
  | 111 => ⟨S1x100000, .i32⟩
  | 112 => ⟨S100000, .i32⟩
  | 113 => ⟨S100000x1, .i32⟩
  | 114 => ⟨S100000x128, .f32⟩
  | 115 => ⟨S100000x1, .f32⟩
  | 116 => ⟨S100000x128, .f32⟩
  | 117 => ⟨S100000x128, .f32⟩
  | 118 => ⟨S1x200000, .i32⟩
  | 119 => ⟨S200000, .i32⟩
  | 120 => ⟨S_, .f32⟩
  | 121 => ⟨S2000x128, .f32⟩
  | 122 => ⟨S200000x1, .i32⟩
  | 123 => ⟨S2000x128, .f32⟩
  | 124 => ⟨S1x100000, .i32⟩
  | 125 => ⟨S100000, .i32⟩
  | 126 => ⟨S_, .f32⟩
  | 127 => ⟨S2000x128, .f32⟩
  | _ => ⟨S100000, .i32⟩

abbrev hbmTy0_2 (i : Nat) : BufTy := match i % 128 with
  | 0 => ⟨S100000x1, .i32⟩
  | 1 => ⟨S2000x128, .f32⟩
  | 2 => ⟨S2000x128, .f32⟩
  | 3 => ⟨S1x1x128x128, .f32⟩
  | 4 => ⟨S128x128, .f32⟩
  | 5 => ⟨S1x1x128, .f32⟩
  | 6 => ⟨S128, .f32⟩
  | 7 => ⟨S1x1x128x128, .f32⟩
  | 8 => ⟨S128x128, .f32⟩
  | 9 => ⟨S1x1x128, .f32⟩
  | 10 => ⟨S128, .f32⟩
  | 11 => ⟨S1x128, .f32⟩
  | 12 => ⟨S1x128, .f32⟩
  | 13 => ⟨S100000x128, .f32⟩
  | 14 => ⟨S100000x128, .f32⟩
  | 15 => ⟨S1x1x128x128, .f32⟩
  | 16 => ⟨S128x128, .f32⟩
  | 17 => ⟨S1x1x128, .f32⟩
  | 18 => ⟨S128, .f32⟩
  | 19 => ⟨S1x1x128x128, .f32⟩
  | 20 => ⟨S128x128, .f32⟩
  | 21 => ⟨S1x1x128, .f32⟩
  | 22 => ⟨S128, .f32⟩
  | 23 => ⟨S1x128, .f32⟩
  | 24 => ⟨S1x128, .f32⟩
  | 25 => ⟨S2000x128, .f32⟩
  | 26 => ⟨S2000x128, .f32⟩
  | 27 => ⟨S1x400000, .i32⟩
  | 28 => ⟨S400000, .i32⟩
  | 29 => ⟨S400000x1, .i32⟩
  | 30 => ⟨S400000x128, .f32⟩
  | 31 => ⟨S400000x1, .f32⟩
  | 32 => ⟨S400000x128, .f32⟩
  | 33 => ⟨S400000x128, .f32⟩
  | 34 => ⟨S1x200000, .i32⟩
  | 35 => ⟨S200000, .i32⟩
  | 36 => ⟨S200000x1, .i32⟩
  | 37 => ⟨S200000x128, .f32⟩
  | 38 => ⟨S200000x1, .f32⟩
  | 39 => ⟨S200000x128, .f32⟩
  | 40 => ⟨S200000x128, .f32⟩
  | 41 => ⟨S1x400000, .i32⟩
  | 42 => ⟨S400000, .i32⟩
  | 43 => ⟨S_, .f32⟩
  | 44 => ⟨S100000x128, .f32⟩
  | 45 => ⟨S400000x1, .i32⟩
  | 46 => ⟨S100000x128, .f32⟩
  | 47 => ⟨S1x200000, .i32⟩
  | 48 => ⟨S200000, .i32⟩
  | 49 => ⟨S_, .f32⟩
  | 50 => ⟨S100000x128, .f32⟩
  | 51 => ⟨S200000x1, .i32⟩
  | 52 => ⟨S100000x128, .f32⟩
  | 53 => ⟨S100000x128, .f32⟩
  | 54 => ⟨S1x200000, .i32⟩
  | 55 => ⟨S200000, .i32⟩
  | 56 => ⟨S200000x1, .i32⟩
  | 57 => ⟨S200000x128, .f32⟩
  | 58 => ⟨S200000x1, .f32⟩
  | 59 => ⟨S200000x128, .f32⟩
  | 60 => ⟨S200000x128, .f32⟩
  | 61 => ⟨S1x100000, .i32⟩
  | 62 => ⟨S100000, .i32⟩
  | 63 => ⟨S100000x1, .i32⟩
  | 64 => ⟨S100000x128, .f32⟩
  | 65 => ⟨S100000x1, .f32⟩
  | 66 => ⟨S100000x128, .f32⟩
  | 67 => ⟨S100000x128, .f32⟩
  | 68 => ⟨S1x200000, .i32⟩
  | 69 => ⟨S200000, .i32⟩
  | 70 => ⟨S_, .f32⟩
  | 71 => ⟨S2000x128, .f32⟩
  | 72 => ⟨S200000x1, .i32⟩
  | 73 => ⟨S2000x128, .f32⟩
  | 74 => ⟨S1x100000, .i32⟩
  | 75 => ⟨S100000, .i32⟩
  | 76 => ⟨S_, .f32⟩
  | 77 => ⟨S2000x128, .f32⟩
  | 78 => ⟨S100000x1, .i32⟩
  | 79 => ⟨S2000x128, .f32⟩
  | 80 => ⟨S2000x128, .f32⟩
  | 81 => ⟨S1x1x128x128, .f32⟩
  | 82 => ⟨S128x128, .f32⟩
  | 83 => ⟨S1x1x128, .f32⟩
  | 84 => ⟨S128, .f32⟩
  | 85 => ⟨S1x1x128x128, .f32⟩
  | 86 => ⟨S128x128, .f32⟩
  | 87 => ⟨S1x1x128, .f32⟩
  | 88 => ⟨S128, .f32⟩
  | 89 => ⟨S1x128, .f32⟩
  | 90 => ⟨S1x128, .f32⟩
  | 91 => ⟨S100000x128, .f32⟩
  | 92 => ⟨S100000x128, .f32⟩
  | 93 => ⟨S1x1x128x128, .f32⟩
  | 94 => ⟨S128x128, .f32⟩
  | 95 => ⟨S1x1x128, .f32⟩
  | 96 => ⟨S128, .f32⟩
  | 97 => ⟨S1x1x128x128, .f32⟩
  | 98 => ⟨S128x128, .f32⟩
  | 99 => ⟨S1x1x128, .f32⟩
  | 100 => ⟨S128, .f32⟩
  | 101 => ⟨S1x128, .f32⟩
  | 102 => ⟨S1x128, .f32⟩
  | 103 => ⟨S2000x128, .f32⟩
  | 104 => ⟨S2000x128, .f32⟩
  | 105 => ⟨S1x400000, .i32⟩
  | 106 => ⟨S400000, .i32⟩
  | 107 => ⟨S400000x1, .i32⟩
  | 108 => ⟨S400000x128, .f32⟩
  | 109 => ⟨S400000x1, .f32⟩
  | 110 => ⟨S400000x128, .f32⟩
  | 111 => ⟨S400000x128, .f32⟩
  | 112 => ⟨S1x200000, .i32⟩
  | 113 => ⟨S200000, .i32⟩
  | 114 => ⟨S200000x1, .i32⟩
  | 115 => ⟨S200000x128, .f32⟩
  | 116 => ⟨S200000x1, .f32⟩
  | 117 => ⟨S200000x128, .f32⟩
  | 118 => ⟨S200000x128, .f32⟩
  | 119 => ⟨S1x400000, .i32⟩
  | 120 => ⟨S400000, .i32⟩
  | 121 => ⟨S_, .f32⟩
  | 122 => ⟨S100000x128, .f32⟩
  | 123 => ⟨S400000x1, .i32⟩
  | 124 => ⟨S100000x128, .f32⟩
  | 125 => ⟨S1x200000, .i32⟩
  | 126 => ⟨S200000, .i32⟩
  | 127 => ⟨S_, .f32⟩
  | _ => ⟨S100000, .i32⟩

abbrev hbmTy0_3 (i : Nat) : BufTy := match i % 128 with
  | 0 => ⟨S100000x128, .f32⟩
  | 1 => ⟨S200000x1, .i32⟩
  | 2 => ⟨S100000x128, .f32⟩
  | 3 => ⟨S100000x128, .f32⟩
  | 4 => ⟨S1x200000, .i32⟩
  | 5 => ⟨S200000, .i32⟩
  | 6 => ⟨S200000x1, .i32⟩
  | 7 => ⟨S200000x128, .f32⟩
  | 8 => ⟨S200000x1, .f32⟩
  | 9 => ⟨S200000x128, .f32⟩
  | 10 => ⟨S200000x128, .f32⟩
  | 11 => ⟨S1x100000, .i32⟩
  | 12 => ⟨S100000, .i32⟩
  | 13 => ⟨S100000x1, .i32⟩
  | 14 => ⟨S100000x128, .f32⟩
  | 15 => ⟨S100000x1, .f32⟩
  | 16 => ⟨S100000x128, .f32⟩
  | 17 => ⟨S100000x128, .f32⟩
  | 18 => ⟨S1x200000, .i32⟩
  | 19 => ⟨S200000, .i32⟩
  | 20 => ⟨S_, .f32⟩
  | 21 => ⟨S2000x128, .f32⟩
  | 22 => ⟨S200000x1, .i32⟩
  | 23 => ⟨S2000x128, .f32⟩
  | 24 => ⟨S1x100000, .i32⟩
  | 25 => ⟨S100000, .i32⟩
  | 26 => ⟨S_, .f32⟩
  | 27 => ⟨S2000x128, .f32⟩
  | 28 => ⟨S100000x1, .i32⟩
  | 29 => ⟨S2000x128, .f32⟩
  | 30 => ⟨S2000x128, .f32⟩
  | 31 => ⟨S_, .f32⟩
  | 32 => ⟨S100000x128, .f32⟩
  | 33 => ⟨S100000x128, .f32⟩
  | 34 => ⟨S100000x3, .f32⟩
  | 35 => ⟨S1x3, .f32⟩
  | 36 => ⟨S100000x3, .f32⟩
  | 37 => ⟨S100000x3, .f32⟩
  | 38 => ⟨S_, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x3, .f32⟩
  | 45 => ⟨S100000x3, .f32⟩
  | 46 => ⟨S100000x3, .f32⟩
  | 47 => ⟨S_, .f32⟩
  | 48 => ⟨S100000, .f32⟩
  | 49 => ⟨S100000x1, .f32⟩
  | 50 => ⟨S100000x3, .f32⟩
  | 51 => ⟨S100000x3, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S4000x128, .f32⟩
  | .local _ .vmem, ⟨26, _⟩ => ⟨S4000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S4000x128, .f32⟩
  | .local _ .vmem, ⟨43, _⟩ => ⟨S4000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S2000x128, .f32⟩
  | .local _ .vmem, ⟨53, _⟩ => ⟨S128x128, .f32⟩
  | .local _ .vmem, ⟨54, _⟩ => ⟨S1x128, .f32⟩
  | .local _ .vmem, ⟨55, _⟩ => ⟨S128x128, .f32⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | .local _ .vmem, ⟨59, _⟩ => ⟨S4000x128, .f32⟩
  | .local _ .vmem, ⟨60, _⟩ => ⟨S4000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S1x128, .f32⟩
  | .local _ .vmem, ⟨65, _⟩ => ⟨S4000x128, .f32⟩
  | .local _ .vmem, ⟨66, _⟩ => ⟨S4000x128, .f32⟩
  | .local _ .vmem, ⟨67, _⟩ => ⟨S4000x128, .f32⟩
  | .local _ .vmem, ⟨68, _⟩ => ⟨S4000x128, .f32⟩
  | .local _ .vmem, ⟨69, _⟩ => ⟨S2000x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S4000x128, .f32⟩
  | .local _ .vmem, ⟨77, _⟩ => ⟨S4000x128, .f32⟩
  | .local _ .vmem, ⟨78, _⟩ => ⟨S128x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S4000x128, .f32⟩
  | .local _ .vmem, ⟨83, _⟩ => ⟨S4000x128, .f32⟩
  | .local _ .vmem, ⟨84, _⟩ => ⟨S4000x128, .f32⟩
  | .local _ .vmem, ⟨85, _⟩ => ⟨S4000x128, .f32⟩
  | .local _ .vmem, ⟨86, _⟩ => ⟨S2000x128, .f32⟩
  | .local _ .vmem, ⟨87, _⟩ => ⟨S128x128, .f32⟩
  | .local _ .vmem, ⟨88, _⟩ => ⟨S1x128, .f32⟩
  | .local _ .vmem, ⟨89, _⟩ => ⟨S128x128, .f32⟩
  | .local _ .vmem, ⟨90, _⟩ => ⟨S1x128, .f32⟩
  | .local _ .vmem, ⟨91, _⟩ => ⟨S2000x128, .f32⟩
  | .local _ .vmem, ⟨92, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v26 : Ref sig .tc := ⟨.hbm, 49, rfl⟩
abbrev main_v27 : Ref sig .tc := ⟨.hbm, 50, rfl⟩
abbrev main_call2_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call3_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call4_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call5_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_1 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82_0 : Ref sig .tc := ⟨.hbm, 113, rfl⟩
abbrev main_v82_1 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93_0 : Ref sig .tc := ⟨.hbm, 125, rfl⟩
abbrev main_v93_1 : Ref sig .tc := ⟨.hbm, 126, rfl⟩
abbrev main_v94 : Ref sig .tc := ⟨.hbm, 127, rfl⟩
abbrev main_v95 : Ref sig .tc := ⟨.hbm, 128, rfl⟩
abbrev main_call6_v0 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_call7_v0 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_3 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_4 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_call8_v0 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call9_v0 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_5 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_6 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150_0 : Ref sig .tc := ⟨.hbm, 191, rfl⟩
abbrev main_v150_1 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161_0 : Ref sig .tc := ⟨.hbm, 203, rfl⟩
abbrev main_v161_1 : Ref sig .tc := ⟨.hbm, 204, rfl⟩
abbrev main_v162 : Ref sig .tc := ⟨.hbm, 205, rfl⟩
abbrev main_v163 : Ref sig .tc := ⟨.hbm, 206, rfl⟩
abbrev main_call10_v0 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_call11_v0 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_7 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_8 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_call12_v0 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_call13_v0 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_cst_9 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_10 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218_0 : Ref sig .tc := ⟨.hbm, 269, rfl⟩
abbrev main_v218_1 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229_0 : Ref sig .tc := ⟨.hbm, 281, rfl⟩
abbrev main_v229_1 : Ref sig .tc := ⟨.hbm, 282, rfl⟩
abbrev main_v230 : Ref sig .tc := ⟨.hbm, 283, rfl⟩
abbrev main_v231 : Ref sig .tc := ⟨.hbm, 284, rfl⟩
abbrev main_call14_v0 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_call15_v0 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_cst_11 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_cst_12 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_call16_v0 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_call17_v0 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_cst_13 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_cst_14 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286_0 : Ref sig .tc := ⟨.hbm, 347, rfl⟩
abbrev main_v286_1 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297_0 : Ref sig .tc := ⟨.hbm, 359, rfl⟩
abbrev main_v297_1 : Ref sig .tc := ⟨.hbm, 360, rfl⟩
abbrev main_v298 : Ref sig .tc := ⟨.hbm, 361, rfl⟩
abbrev main_v299 : Ref sig .tc := ⟨.hbm, 362, rfl⟩
abbrev main_call18_v0 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_call19_v0 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_cst_15 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_cst_16 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_call20_v0 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_call21_v0 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_cst_17 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_cst_18 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_call22_cst : Ref sig .tc := ⟨.hbm, 415, rfl⟩
abbrev main_call22_v0 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_cst_19 : Ref sig .tc := ⟨.hbm, 422, rfl⟩
abbrev main_v349 : Ref sig .tc := ⟨.hbm, 423, rfl⟩
abbrev main_cst_20 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_cst_21 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg5_1 : Ref sig .tc := ⟨.vmem, 66, rfl⟩
abbrev cc7_stg6_0 : Ref sig .tc := ⟨.vmem, 67, rfl⟩
abbrev cc7_stg6_1 : Ref sig .tc := ⟨.vmem, 68, rfl⟩
abbrev cc8_stg0_0 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg6_0 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg5_1 : Ref sig .tc := ⟨.vmem, 83, rfl⟩
abbrev cc9_stg6_0 : Ref sig .tc := ⟨.vmem, 84, rfl⟩
abbrev cc9_stg6_1 : Ref sig .tc := ⟨.vmem, 85, rfl⟩
abbrev cc10_stg0_0 : Ref sig .tc := ⟨.vmem, 86, rfl⟩
abbrev cc10_stg1_0 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg6_0 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc3_sem6_1 : DmaSem sig := 34
abbrev cc4_sem0_0 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem1_0 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc7_sem0_0 : DmaSem sig := 59
abbrev cc7_sem0_1 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem5_1 : DmaSem sig := 66
abbrev cc7_sem6_0 : DmaSem sig := 67
abbrev cc7_sem6_1 : DmaSem sig := 68
abbrev cc8_sem0_0 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem6_0 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem5_1 : DmaSem sig := 83
abbrev cc9_sem6_0 : DmaSem sig := 84
abbrev cc9_sem6_1 : DmaSem sig := 85
abbrev cc10_sem0_0 : DmaSem sig := 86
abbrev cc10_sem1_0 : DmaSem sig := 87
abbrev cc10_sem2_0 : DmaSem sig := 88
abbrev cc10_sem3_0 : DmaSem sig := 89
abbrev cc10_sem4_0 : DmaSem sig := 90
abbrev cc10_sem5_0 : DmaSem sig := 91
abbrev cc10_sem6_0 : DmaSem sig := 92

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2000x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S2000x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2000x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S2000x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S2000x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S2000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S2000x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .vmem S2000x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S4000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S2000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S2000x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev stage10_6 : Fin 1 → Memref sig .tc .vmem S2000x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![true]

class Facts₀ : Prop where
  bcast_S100000_S100000x1_0 : S100000.BroadcastsInDim S100000x1 (![0] : Fin 1 → Fin S100000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S2000_S2000x1_0 : S2000.BroadcastsInDim S2000x1 (![0] : Fin 1 → Fin S2000x1.rank)
  slices_S5x4x128x128_S1x1x128x128_0_0_0_0 : S5x4x128x128.Slices ![0, 0, 0, 0] S1x1x128x128
  shapeCasts_S1x1x128x128_S128x128 : S1x1x128x128.ShapeCasts S128x128
  slices_S5x4x128_S1x1x128_0_0_0 : S5x4x128.Slices ![0, 0, 0] S1x1x128
  shapeCasts_S1x1x128_S128 : S1x1x128.ShapeCasts S128
  slices_S5x4x128x128_S1x1x128x128_0_2_0_0 : S5x4x128x128.Slices ![0, 2, 0, 0] S1x1x128x128
  slices_S5x4x128_S1x1x128_0_2_0 : S5x4x128.Slices ![0, 2, 0] S1x1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  slices_S5x4x128x128_S1x1x128x128_0_1_0_0 : S5x4x128x128.Slices ![0, 1, 0, 0] S1x1x128x128
  slices_S5x4x128_S1x1x128_0_1_0 : S5x4x128.Slices ![0, 1, 0] S1x1x128
  slices_S5x4x128x128_S1x1x128x128_0_3_0_0 : S5x4x128x128.Slices ![0, 3, 0, 0] S1x1x128x128
  slices_S5x4x128_S1x1x128_0_3_0 : S5x4x128.Slices ![0, 3, 0] S1x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  slices_S2x400000_S1x400000_0_0 : S2x400000.Slices ![0, 0] S1x400000
  shapeCasts_S1x400000_S400000 : S1x400000.ShapeCasts S400000
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  slices_S2x200000_S1x200000_0_0 : S2x200000.Slices ![0, 0] S1x200000
  shapeCasts_S1x200000_S200000 : S1x200000.ShapeCasts S200000
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S2x400000_S1x400000_1_0 : S2x400000.Slices ![1, 0] S1x400000
  bcast_S_S100000x128 : S_.BroadcastsInDim S100000x128 (![] : Fin 0 → Fin S100000x128.rank)
  slices_S2x200000_S1x200000_1_0 : S2x200000.Slices ![1, 0] S1x200000
  slices_S2x100000_S1x100000_0_0 : S2x100000.Slices ![0, 0] S1x100000
  shapeCasts_S1x100000_S100000 : S1x100000.ShapeCasts S100000
  bcast_S100000x1_S100000x128_0_1 : S100000x1.BroadcastsInDim S100000x128 (![0, 1] : Fin 2 → Fin S100000x128.rank)
  bcast_S_S2000x128 : S_.BroadcastsInDim S2000x128 (![] : Fin 0 → Fin S2000x128.rank)
  slices_S2x100000_S1x100000_1_0 : S2x100000.Slices ![1, 0] S1x100000
  slices_S5x4x128x128_S1x1x128x128_1_0_0_0 : S5x4x128x128.Slices ![1, 0, 0, 0] S1x1x128x128
  slices_S5x4x128_S1x1x128_1_0_0 : S5x4x128.Slices ![1, 0, 0] S1x1x128
  slices_S5x4x128x128_S1x1x128x128_1_2_0_0 : S5x4x128x128.Slices ![1, 2, 0, 0] S1x1x128x128
  slices_S5x4x128_S1x1x128_1_2_0 : S5x4x128.Slices ![1, 2, 0] S1x1x128
  slices_S5x4x128x128_S1x1x128x128_1_1_0_0 : S5x4x128x128.Slices ![1, 1, 0, 0] S1x1x128x128
  slices_S5x4x128_S1x1x128_1_1_0 : S5x4x128.Slices ![1, 1, 0] S1x1x128
  slices_S5x4x128x128_S1x1x128x128_1_3_0_0 : S5x4x128x128.Slices ![1, 3, 0, 0] S1x1x128x128
  slices_S5x4x128_S1x1x128_1_3_0 : S5x4x128.Slices ![1, 3, 0] S1x1x128
  slices_S5x4x128x128_S1x1x128x128_2_0_0_0 : S5x4x128x128.Slices ![2, 0, 0, 0] S1x1x128x128
  slices_S5x4x128_S1x1x128_2_0_0 : S5x4x128.Slices ![2, 0, 0] S1x1x128
  slices_S5x4x128x128_S1x1x128x128_2_2_0_0 : S5x4x128x128.Slices ![2, 2, 0, 0] S1x1x128x128
  slices_S5x4x128_S1x1x128_2_2_0 : S5x4x128.Slices ![2, 2, 0] S1x1x128
  slices_S5x4x128x128_S1x1x128x128_2_1_0_0 : S5x4x128x128.Slices ![2, 1, 0, 0] S1x1x128x128
  slices_S5x4x128_S1x1x128_2_1_0 : S5x4x128.Slices ![2, 1, 0] S1x1x128
  slices_S5x4x128x128_S1x1x128x128_2_3_0_0 : S5x4x128x128.Slices ![2, 3, 0, 0] S1x1x128x128
  slices_S5x4x128_S1x1x128_2_3_0 : S5x4x128.Slices ![2, 3, 0] S1x1x128
  slices_S5x4x128x128_S1x1x128x128_3_0_0_0 : S5x4x128x128.Slices ![3, 0, 0, 0] S1x1x128x128
  slices_S5x4x128_S1x1x128_3_0_0 : S5x4x128.Slices ![3, 0, 0] S1x1x128
  slices_S5x4x128x128_S1x1x128x128_3_2_0_0 : S5x4x128x128.Slices ![3, 2, 0, 0] S1x1x128x128
  slices_S5x4x128_S1x1x128_3_2_0 : S5x4x128.Slices ![3, 2, 0] S1x1x128
  slices_S5x4x128x128_S1x1x128x128_3_1_0_0 : S5x4x128x128.Slices ![3, 1, 0, 0] S1x1x128x128
  slices_S5x4x128_S1x1x128_3_1_0 : S5x4x128.Slices ![3, 1, 0] S1x1x128
  slices_S5x4x128x128_S1x1x128x128_3_3_0_0 : S5x4x128x128.Slices ![3, 3, 0, 0] S1x1x128x128
  slices_S5x4x128_S1x1x128_3_3_0 : S5x4x128.Slices ![3, 3, 0] S1x1x128
  slices_S5x4x128x128_S1x1x128x128_4_0_0_0 : S5x4x128x128.Slices ![4, 0, 0, 0] S1x1x128x128
  slices_S5x4x128_S1x1x128_4_0_0 : S5x4x128.Slices ![4, 0, 0] S1x1x128
  slices_S5x4x128x128_S1x1x128x128_4_2_0_0 : S5x4x128x128.Slices ![4, 2, 0, 0] S1x1x128x128
  slices_S5x4x128_S1x1x128_4_2_0 : S5x4x128.Slices ![4, 2, 0] S1x1x128
  slices_S5x4x128x128_S1x1x128x128_4_1_0_0 : S5x4x128x128.Slices ![4, 1, 0, 0] S1x1x128x128
  slices_S5x4x128_S1x1x128_4_1_0 : S5x4x128.Slices ![4, 1, 0] S1x1x128
  slices_S5x4x128x128_S1x1x128x128_4_3_0_0 : S5x4x128x128.Slices ![4, 3, 0, 0] S1x1x128x128
  slices_S5x4x128_S1x1x128_4_3_0 : S5x4x128.Slices ![4, 3, 0] S1x1x128
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S_S100000 : S_.BroadcastsInDim S100000 (![] : Fin 0 → Fin S100000.rank)
  bcast_S100000x1_S100000x3_0_1 : S100000x1.BroadcastsInDim S100000x3 (![0, 1] : Fin 2 → Fin S100000x3.rank)
  gather_S1000x128_S100000x1_S100000x128_1_0_n_n_0_1_1128_wf : GatherDims.WF S1000x128 S100000x1 S100000x128 [1] [0] [] [0] [] 1 ![1, 128]
  dot_S5000x64_S64x128_S5000x128_1_0_0_1_n_n_wf : DotDims.WF S5000x64 S64x128 S5000x128 [1] [0] [0] [1] [] []
  gather_S1x128_S2000x1_S2000x128_1_0_n_n_0_1_1128_wf : GatherDims.WF S1x128 S2000x1 S2000x128 [1] [0] [] [0] [] 1 ![1, 128]
  dot_S4000x128_S128x128_S4000x128_1_0_0_1_n_n_wf : DotDims.WF S4000x128 S128x128 S4000x128 [1] [0] [0] [1] [] []
  dot_S2000x128_S128x128_S2000x128_1_0_0_1_n_n_wf : DotDims.WF S2000x128 S128x128 S2000x128 [1] [0] [0] [1] [] []
  gather_S100000x128_S400000x1_S400000x128_1_0_n_n_0_1_1128_wf : GatherDims.WF S100000x128 S400000x1 S400000x128 [1] [0] [] [0] [] 1 ![1, 128]
  gather_S2000x128_S200000x1_S200000x128_1_0_n_n_0_1_1128_wf : GatherDims.WF S2000x128 S200000x1 S200000x128 [1] [0] [] [0] [] 1 ![1, 128]
  scatter_S100000x128_S400000x1_S400000x128_1_0_0_1_wf : ScatterDims.WF S100000x128 S400000x1 S400000x128 [1] [0] [0] 1
  scatter_S100000x128_S200000x1_S200000x128_1_0_0_1_wf : ScatterDims.WF S100000x128 S200000x1 S200000x128 [1] [0] [0] 1
  gather_S100000x128_S200000x1_S200000x128_1_0_n_n_0_1_1128_wf : GatherDims.WF S100000x128 S200000x1 S200000x128 [1] [0] [] [0] [] 1 ![1, 128]
  gather_S2000x128_S100000x1_S100000x128_1_0_n_n_0_1_1128_wf : GatherDims.WF S2000x128 S100000x1 S100000x128 [1] [0] [] [0] [] 1 ![1, 128]
  scatter_S2000x128_S200000x1_S200000x128_1_0_0_1_wf : ScatterDims.WF S2000x128 S200000x1 S200000x128 [1] [0] [0] 1
  scatter_S2000x128_S100000x1_S100000x128_1_0_0_1_wf : ScatterDims.WF S2000x128 S100000x1 S100000x128 [1] [0] [0] 1
  dot_S100000x128_S128x3_S100000x3_1_0_0_1_n_n_wf : DotDims.WF S100000x128 S128x3 S100000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S2000x128.size a
  hwx2_0 : ∀ i : grid2.Coords, EltTy.bits .f32 = 32 ∨ (Rect.block (s := S2000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S2000x128.size a
  hwx2_5 : ∀ i : grid2.Coords, EltTy.bits .f32 = 32 ∨ (Rect.block (s := S2000x128) S2000x128.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S2000x128.size a
  hwx2_6 : ∀ i : grid2.Coords, EltTy.bits .f32 = 32 ∨ (Rect.block (s := S2000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S2000x128.size a
  hwx4_0 : ∀ i : grid4.Coords, EltTy.bits .f32 = 32 ∨ (Rect.block (s := S2000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 1
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S2000x128.size a
  hwx4_5 : ∀ i : grid4.Coords, EltTy.bits .f32 = 32 ∨ (Rect.block (s := S2000x128) S2000x128.size (cc4_transform_5 i) (hinb4_5 i)).WholeWords (EltTy.packing .f32)
  hstage4_6 : ∀ j, (stage4_6 j).IsWhole
  nbuf4_6 : grid4.bufCount reads4_6 false = 1
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S2000x128.size a
  hwx4_6 : ∀ i : grid4.Coords, EltTy.bits .f32 = 32 ∨ (Rect.block (s := S2000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S2000x128.size a
  hwx6_0 : ∀ i : grid6.Coords, EltTy.bits .f32 = 32 ∨ (Rect.block (s := S2000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 1
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S2000x128.size a
  hwx6_5 : ∀ i : grid6.Coords, EltTy.bits .f32 = 32 ∨ (Rect.block (s := S2000x128) S2000x128.size (cc6_transform_5 i) (hinb6_5 i)).WholeWords (EltTy.packing .f32)
  hstage6_6 : ∀ j, (stage6_6 j).IsWhole
  nbuf6_6 : grid6.bufCount reads6_6 false = 1
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S2000x128.size a
  hwx6_6 : ∀ i : grid6.Coords, EltTy.bits .f32 = 32 ∨ (Rect.block (s := S2000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x128.size a ≤ S100000x128.size a
  hwx7_5 : ∀ i : grid7.Coords, EltTy.bits .f32 = 32 ∨ (Rect.block (s := S100000x128) S4000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4000x128.size a ≤ S100000x128.size a
  hwx7_6 : ∀ i : grid7.Coords, EltTy.bits .f32 = 32 ∨ (Rect.block (s := S100000x128) S4000x128.size (cc7_transform_6 i) (hinb7_6 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S2000x128.size a
  hwx8_0 : ∀ i : grid8.Coords, EltTy.bits .f32 = 32 ∨ (Rect.block (s := S2000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 1
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S2000x128.size a
  hwx8_5 : ∀ i : grid8.Coords, EltTy.bits .f32 = 32 ∨ (Rect.block (s := S2000x128) S2000x128.size (cc8_transform_5 i) (hinb8_5 i)).WholeWords (EltTy.packing .f32)
  hstage8_6 : ∀ j, (stage8_6 j).IsWhole
  nbuf8_6 : grid8.bufCount reads8_6 false = 1
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S2000x128.size a
  hwx8_6 : ∀ i : grid8.Coords, EltTy.bits .f32 = 32 ∨ (Rect.block (s := S2000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x128.size a ≤ S100000x128.size a
  hwx9_5 : ∀ i : grid9.Coords, EltTy.bits .f32 = 32 ∨ (Rect.block (s := S100000x128) S4000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S4000x128.size a ≤ S100000x128.size a
  hwx9_6 : ∀ i : grid9.Coords, EltTy.bits .f32 = 32 ∨ (Rect.block (s := S100000x128) S4000x128.size (cc9_transform_6 i) (hinb9_6 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S2000x128.size a
  hwx10_0 : ∀ i : grid10.Coords, EltTy.bits .f32 = 32 ∨ (Rect.block (s := S2000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S2000x128.size a
  hwx10_5 : ∀ i : grid10.Coords, EltTy.bits .f32 = 32 ∨ (Rect.block (s := S2000x128) S2000x128.size (cc10_transform_5 i) (hinb10_5 i)).WholeWords (EltTy.packing .f32)
  hstage10_6 : ∀ j, (stage10_6 j).IsWhole
  nbuf10_6 : grid10.bufCount reads10_6 false = 1
  hreads10_6 : ∀ i i' : grid10.Coords, (∀ a, reads10_6 a = true → i a = i' a) → cc10_transform_6 i = cc10_transform_6 i'
  hinb10_6 : ∀ (i : grid10.Coords) a, (cc10_transform_6 i a + 1) * S2000x128.size a ≤ S2000x128.size a
  hwx10_6 : ∀ i : grid10.Coords, EltTy.bits .f32 = 32 ∨ (Rect.block (s := S2000x128) S2000x128.size (cc10_transform_6 i) (hinb10_6 i)).WholeWords (EltTy.packing .f32)

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S1x128_S2000x1_S2000x128_1_0_n_n_0_1_1128 : GatherDims S1x128 S2000x1 S2000x128 where
  offsetDims := [1]
  collapsedSliceDims := [0]
  operandBatchingDims := []
  startIndicesBatchingDims := []
  startIndexMap := [0]
  indexVectorDim := 1
  sliceSizes := ![1, 128]
  wf := gather_S1x128_S2000x1_S2000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S2000x128_S200000x1_S200000x128_1_0_n_n_0_1_1128 : GatherDims S2000x128 S200000x1 S200000x128 where
  offsetDims := [1]
  collapsedSliceDims := [0]
  operandBatchingDims := []
  startIndicesBatchingDims := []
  startIndexMap := [0]
  indexVectorDim := 1
  sliceSizes := ![1, 128]
  wf := gather_S2000x128_S200000x1_S200000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S2000x128_S200000x1_S200000x128_1_0_0_1 : ScatterDims S2000x128 S200000x1 S200000x128 where
  updateWindowDims := [1]
  insertedWindowDims := [0]
  scatterDimsToOperandDims := [0]
  indexVectorDim := 1
  wf := scatter_S2000x128_S200000x1_S200000x128_1_0_0_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v3) S2000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_0) S2000x128.size cc2_transform_5 reads2_5 true false 1 stage2_5 sem2_5
    hrank2 hreads2_5 hinb2_5 nbuf2_5 (Memref.isWhole_whole _) hwx2_5 hstage2_5

abbrev win2_6 : Pipeline.Window sig grid2 :=
  Pipeline.Window.ofSpec (Memref.whole main_v25_1) S2000x128.size cc2_transform_6 reads2_6 true false 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82_0) S4000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v82_1) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v71) S2000x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v84) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93_0) S2000x128.size cc4_transform_5 reads4_5 true false 1 stage4_5 sem4_5
    hrank4 hreads4_5 hinb4_5 nbuf4_5 (Memref.isWhole_whole _) hwx4_5 hstage4_5

abbrev win4_6 : Pipeline.Window sig grid4 :=
  Pipeline.Window.ofSpec (Memref.whole main_v93_1) S2000x128.size cc4_transform_6 reads4_6 true false 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v116) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v141) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v148) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v145) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v149) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v150_0) S4000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v150_1) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v139) S2000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v152) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v159) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v156) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v160) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v161_0) S2000x128.size cc6_transform_5 reads6_5 true false 1 stage6_5 sem6_5
    hrank6 hreads6_5 hinb6_5 nbuf6_5 (Memref.isWhole_whole _) hwx6_5 hstage6_5

abbrev win6_6 : Pipeline.Window sig grid6 :=
  Pipeline.Window.ofSpec (Memref.whole main_v161_1) S2000x128.size cc6_transform_6 reads6_6 true false 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v184) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v209) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v216) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v213) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v217) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v218_0) S4000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v218_1) S4000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v207) S2000x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v220) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v227) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v224) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v228) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v229_0) S2000x128.size cc8_transform_5 reads8_5 true false 1 stage8_5 sem8_5
    hrank8 hreads8_5 hinb8_5 nbuf8_5 (Memref.isWhole_whole _) hwx8_5 hstage8_5

abbrev win8_6 : Pipeline.Window sig grid8 :=
  Pipeline.Window.ofSpec (Memref.whole main_v229_1) S2000x128.size cc8_transform_6 reads8_6 true false 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v252) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v277) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v284) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v281) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v285) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v286_0) S4000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v286_1) S4000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v275) S2000x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v288) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v295) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v292) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v296) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v297_0) S2000x128.size cc10_transform_5 reads10_5 true false 1 stage10_5 sem10_5
    hrank10 hreads10_5 hinb10_5 nbuf10_5 (Memref.isWhole_whole _) hwx10_5 hstage10_5

abbrev win10_6 : Pipeline.Window sig grid10 :=
  Pipeline.Window.ofSpec (Memref.whole main_v297_1) S2000x128.size cc10_transform_6 reads10_6 true false 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

class Facts : Prop extends Facts₀ where

variable [Facts]
-- ==== ReferenceIdeal.lean ====
abbrev S100000 : Shape := ⟨1, ![100000]⟩
abbrev S100000x64 : Shape := ⟨2, ![100000, 64]⟩
abbrev S2000 : Shape := ⟨1, ![2000]⟩
abbrev S2x400000 : Shape := ⟨2, ![2, 400000]⟩
abbrev S2x200000 : Shape := ⟨2, ![2, 200000]⟩
abbrev S2x100000 : Shape := ⟨2, ![2, 100000]⟩
abbrev S400000 : Shape := ⟨1, ![400000]⟩
abbrev S200000 : Shape := ⟨1, ![200000]⟩
abbrev S1000x128 : Shape := ⟨2, ![1000, 128]⟩
abbrev S64x128 : Shape := ⟨2, ![64, 128]⟩
abbrev S128 : Shape := ⟨1, ![128]⟩
abbrev S1x128 : Shape := ⟨2, ![1, 128]⟩
abbrev S5x4x128x128 : Shape := ⟨4, ![5, 4, 128, 128]⟩
abbrev S5x4x128 : Shape := ⟨3, ![5, 4, 128]⟩
abbrev S128x3 : Shape := ⟨2, ![128, 3]⟩
abbrev S3 : Shape := ⟨1, ![3]⟩
abbrev S_ : Shape := ⟨0, ![]⟩
abbrev S100000x1 : Shape := ⟨2, ![100000, 1]⟩
abbrev S100000x128 : Shape := ⟨2, ![100000, 128]⟩
abbrev S2000x1 : Shape := ⟨2, ![2000, 1]⟩
abbrev S2000x128 : Shape := ⟨2, ![2000, 128]⟩
abbrev S1x1x128x128 : Shape := ⟨4, ![1, 1, 128, 128]⟩
abbrev S128x128 : Shape := ⟨2, ![128, 128]⟩
abbrev S1x1x128 : Shape := ⟨3, ![1, 1, 128]⟩
abbrev S1x400000 : Shape := ⟨2, ![1, 400000]⟩
abbrev S400000x1 : Shape := ⟨2, ![400000, 1]⟩
abbrev S400000x128 : Shape := ⟨2, ![400000, 128]⟩
abbrev S1x200000 : Shape := ⟨2, ![1, 200000]⟩
abbrev S200000x1 : Shape := ⟨2, ![200000, 1]⟩
abbrev S200000x128 : Shape := ⟨2, ![200000, 128]⟩
abbrev S1x100000 : Shape := ⟨2, ![1, 100000]⟩
abbrev S100000x3 : Shape := ⟨2, ![100000, 3]⟩
abbrev S1x3 : Shape := ⟨2, ![1, 3]⟩

abbrev nBuf : Space → Nat
  | .hbm => 750
  | .vmem => 0
  | .smem => 0
  | _ => 0

abbrev hbmTy0_0 (i : Nat) : BufTy := match i % 128 with
  | 0 => ⟨S100000, .i32⟩
  | 1 => ⟨S100000x64, .f32⟩
  | 2 => ⟨S2000, .i32⟩
  | 3 => ⟨S2x400000, .i32⟩
  | 4 => ⟨S2x200000, .i32⟩
  | 5 => ⟨S2x200000, .i32⟩
  | 6 => ⟨S2x100000, .i32⟩
  | 7 => ⟨S400000, .f32⟩
  | 8 => ⟨S200000, .f32⟩
  | 9 => ⟨S200000, .f32⟩
  | 10 => ⟨S100000, .f32⟩
  | 11 => ⟨S1000x128, .f32⟩
  | 12 => ⟨S64x128, .f32⟩
  | 13 => ⟨S128, .f32⟩
  | 14 => ⟨S1x128, .f32⟩
  | 15 => ⟨S5x4x128x128, .f32⟩
  | 16 => ⟨S5x4x128, .f32⟩
  | 17 => ⟨S128x3, .f32⟩
  | 18 => ⟨S3, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .i32⟩
  | 34 => ⟨S2000, .i32⟩
  | 35 => ⟨S2000, .i1⟩
  | 36 => ⟨S_, .i32⟩
  | 37 => ⟨S2000, .i32⟩
  | 38 => ⟨S2000, .i32⟩
  | 39 => ⟨S2000, .i32⟩
  | 40 => ⟨S2000x1, .i32⟩
  | 41 => ⟨S2000x128, .f32⟩
  | 42 => ⟨S_, .f32⟩
  | 43 => ⟨S100000x128, .f32⟩
  | 44 => ⟨S_, .f32⟩
  | 45 => ⟨S2000x128, .f32⟩
  | 46 => ⟨S1x1x128x128, .f32⟩
  | 47 => ⟨S128x128, .f32⟩
  | 48 => ⟨S100000x128, .f32⟩
  | 49 => ⟨S1x1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S1x400000, .i32⟩
  | 58 => ⟨S400000, .i32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S400000x1, .f32⟩
  | 69 => ⟨S400000x128, .f32⟩
  | 70 => ⟨S400000x128, .f32⟩
  | 71 => ⟨S1x400000, .i32⟩
  | 72 => ⟨S400000, .i32⟩
  | 73 => ⟨S_, .f32⟩
  | 74 => ⟨S100000x128, .f32⟩
  | 75 => ⟨S400000x1, .i32⟩
  | 76 => ⟨S100000x128, .f32⟩
  | 77 => ⟨S100000x128, .f32⟩
  | 78 => ⟨S1x1x128x128, .f32⟩
  | 79 => ⟨S128x128, .f32⟩
  | 80 => ⟨S2000x128, .f32⟩
  | 81 => ⟨S1x1x128, .f32⟩
  | 82 => ⟨S128, .f32⟩
  | 83 => ⟨S1x128, .f32⟩
  | 84 => ⟨S2000x128, .f32⟩
  | 85 => ⟨S2000x128, .f32⟩
  | 86 => ⟨S_, .f32⟩
  | 87 => ⟨S2000x128, .f32⟩
  | 88 => ⟨S2000x128, .f32⟩
  | 89 => ⟨S1x200000, .i32⟩
  | 90 => ⟨S200000, .i32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S200000x128, .f32⟩
  | 100 => ⟨S200000x1, .f32⟩
  | 101 => ⟨S200000x128, .f32⟩
  | 102 => ⟨S200000x128, .f32⟩
  | 103 => ⟨S1x200000, .i32⟩
  | 104 => ⟨S200000, .i32⟩
  | 105 => ⟨S_, .f32⟩
  | 106 => ⟨S100000x128, .f32⟩
  | 107 => ⟨S200000x1, .i32⟩
  | 108 => ⟨S100000x128, .f32⟩
  | 109 => ⟨S100000x128, .f32⟩
  | 110 => ⟨S1x1x128x128, .f32⟩
  | 111 => ⟨S128x128, .f32⟩
  | 112 => ⟨S100000x128, .f32⟩
  | 113 => ⟨S1x1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S100000, .i32⟩

abbrev hbmTy0_1 (i : Nat) : BufTy := match i % 128 with
  | 0 => ⟨S200000, .i32⟩
  | 1 => ⟨S200000, .i32⟩
  | 2 => ⟨S200000x1, .i32⟩
  | 3 => ⟨S200000x128, .f32⟩
  | 4 => ⟨S200000x1, .f32⟩
  | 5 => ⟨S200000x128, .f32⟩
  | 6 => ⟨S200000x128, .f32⟩
  | 7 => ⟨S1x200000, .i32⟩
  | 8 => ⟨S200000, .i32⟩
  | 9 => ⟨S_, .f32⟩
  | 10 => ⟨S2000x128, .f32⟩
  | 11 => ⟨S200000x1, .i32⟩
  | 12 => ⟨S2000x128, .f32⟩
  | 13 => ⟨S2000x128, .f32⟩
  | 14 => ⟨S1x1x128x128, .f32⟩
  | 15 => ⟨S128x128, .f32⟩
  | 16 => ⟨S2000x128, .f32⟩
  | 17 => ⟨S1x1x128, .f32⟩
  | 18 => ⟨S128, .f32⟩
  | 19 => ⟨S1x128, .f32⟩
  | 20 => ⟨S2000x128, .f32⟩
  | 21 => ⟨S2000x128, .f32⟩
  | 22 => ⟨S_, .f32⟩
  | 23 => ⟨S2000x128, .f32⟩
  | 24 => ⟨S2000x128, .f32⟩
  | 25 => ⟨S1x100000, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S100000x1, .f32⟩
  | 37 => ⟨S100000x128, .f32⟩
  | 38 => ⟨S100000x128, .f32⟩
  | 39 => ⟨S1x100000, .i32⟩
  | 40 => ⟨S100000, .i32⟩
  | 41 => ⟨S_, .f32⟩
  | 42 => ⟨S2000x128, .f32⟩
  | 43 => ⟨S100000x1, .i32⟩
  | 44 => ⟨S2000x128, .f32⟩
  | 45 => ⟨S2000x128, .f32⟩
  | 46 => ⟨S_, .f32⟩
  | 47 => ⟨S100000x128, .f32⟩
  | 48 => ⟨S100000x128, .f32⟩
  | 49 => ⟨S_, .f32⟩
  | 50 => ⟨S2000x128, .f32⟩
  | 51 => ⟨S2000x128, .f32⟩
  | 52 => ⟨S_, .f32⟩
  | 53 => ⟨S100000x128, .f32⟩
  | 54 => ⟨S_, .f32⟩
  | 55 => ⟨S2000x128, .f32⟩
  | 56 => ⟨S1x1x128x128, .f32⟩
  | 57 => ⟨S128x128, .f32⟩
  | 58 => ⟨S100000x128, .f32⟩
  | 59 => ⟨S1x1x128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S1x400000, .i32⟩
  | 68 => ⟨S400000, .i32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x128, .f32⟩
  | 78 => ⟨S400000x1, .f32⟩
  | 79 => ⟨S400000x128, .f32⟩
  | 80 => ⟨S400000x128, .f32⟩
  | 81 => ⟨S1x400000, .i32⟩
  | 82 => ⟨S400000, .i32⟩
  | 83 => ⟨S_, .f32⟩
  | 84 => ⟨S100000x128, .f32⟩
  | 85 => ⟨S400000x1, .i32⟩
  | 86 => ⟨S100000x128, .f32⟩
  | 87 => ⟨S100000x128, .f32⟩
  | 88 => ⟨S1x1x128x128, .f32⟩
  | 89 => ⟨S128x128, .f32⟩
  | 90 => ⟨S2000x128, .f32⟩
  | 91 => ⟨S1x1x128, .f32⟩
  | 92 => ⟨S128, .f32⟩
  | 93 => ⟨S1x128, .f32⟩
  | 94 => ⟨S2000x128, .f32⟩
  | 95 => ⟨S2000x128, .f32⟩
  | 96 => ⟨S_, .f32⟩
  | 97 => ⟨S2000x128, .f32⟩
  | 98 => ⟨S2000x128, .f32⟩
  | 99 => ⟨S1x200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .f32⟩
  | 110 => ⟨S200000x1, .f32⟩
  | 111 => ⟨S200000x128, .f32⟩
  | 112 => ⟨S200000x128, .f32⟩
  | 113 => ⟨S1x200000, .i32⟩
  | 114 => ⟨S200000, .i32⟩
  | 115 => ⟨S_, .f32⟩
  | 116 => ⟨S100000x128, .f32⟩
  | 117 => ⟨S200000x1, .i32⟩
  | 118 => ⟨S100000x128, .f32⟩
  | 119 => ⟨S100000x128, .f32⟩
  | 120 => ⟨S1x1x128x128, .f32⟩
  | 121 => ⟨S128x128, .f32⟩
  | 122 => ⟨S100000x128, .f32⟩
  | 123 => ⟨S1x1x128, .f32⟩
  | 124 => ⟨S128, .f32⟩
  | 125 => ⟨S1x128, .f32⟩
  | 126 => ⟨S100000x128, .f32⟩
  | 127 => ⟨S100000x128, .f32⟩
  | _ => ⟨S100000, .i32⟩

abbrev hbmTy0_2 (i : Nat) : BufTy := match i % 128 with
  | 0 => ⟨S_, .f32⟩
  | 1 => ⟨S100000x128, .f32⟩
  | 2 => ⟨S100000x128, .f32⟩
  | 3 => ⟨S1x200000, .i32⟩
  | 4 => ⟨S200000, .i32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x128, .f32⟩
  | 14 => ⟨S200000x1, .f32⟩
  | 15 => ⟨S200000x128, .f32⟩
  | 16 => ⟨S200000x128, .f32⟩
  | 17 => ⟨S1x200000, .i32⟩
  | 18 => ⟨S200000, .i32⟩
  | 19 => ⟨S_, .f32⟩
  | 20 => ⟨S2000x128, .f32⟩
  | 21 => ⟨S200000x1, .i32⟩
  | 22 => ⟨S2000x128, .f32⟩
  | 23 => ⟨S2000x128, .f32⟩
  | 24 => ⟨S1x1x128x128, .f32⟩
  | 25 => ⟨S128x128, .f32⟩
  | 26 => ⟨S2000x128, .f32⟩
  | 27 => ⟨S1x1x128, .f32⟩
  | 28 => ⟨S128, .f32⟩
  | 29 => ⟨S1x128, .f32⟩
  | 30 => ⟨S2000x128, .f32⟩
  | 31 => ⟨S2000x128, .f32⟩
  | 32 => ⟨S_, .f32⟩
  | 33 => ⟨S2000x128, .f32⟩
  | 34 => ⟨S2000x128, .f32⟩
  | 35 => ⟨S1x100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S100000x1, .f32⟩
  | 47 => ⟨S100000x128, .f32⟩
  | 48 => ⟨S100000x128, .f32⟩
  | 49 => ⟨S1x100000, .i32⟩
  | 50 => ⟨S100000, .i32⟩
  | 51 => ⟨S_, .f32⟩
  | 52 => ⟨S2000x128, .f32⟩
  | 53 => ⟨S100000x1, .i32⟩
  | 54 => ⟨S2000x128, .f32⟩
  | 55 => ⟨S2000x128, .f32⟩
  | 56 => ⟨S_, .f32⟩
  | 57 => ⟨S100000x128, .f32⟩
  | 58 => ⟨S100000x128, .f32⟩
  | 59 => ⟨S_, .f32⟩
  | 60 => ⟨S2000x128, .f32⟩
  | 61 => ⟨S2000x128, .f32⟩
  | 62 => ⟨S_, .f32⟩
  | 63 => ⟨S100000x128, .f32⟩
  | 64 => ⟨S_, .f32⟩
  | 65 => ⟨S2000x128, .f32⟩
  | 66 => ⟨S1x1x128x128, .f32⟩
  | 67 => ⟨S128x128, .f32⟩
  | 68 => ⟨S100000x128, .f32⟩
  | 69 => ⟨S1x1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x400000, .i32⟩
  | 78 => ⟨S400000, .i32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x128, .f32⟩
  | 88 => ⟨S400000x1, .f32⟩
  | 89 => ⟨S400000x128, .f32⟩
  | 90 => ⟨S400000x128, .f32⟩
  | 91 => ⟨S1x400000, .i32⟩
  | 92 => ⟨S400000, .i32⟩
  | 93 => ⟨S_, .f32⟩
  | 94 => ⟨S100000x128, .f32⟩
  | 95 => ⟨S400000x1, .i32⟩
  | 96 => ⟨S100000x128, .f32⟩
  | 97 => ⟨S100000x128, .f32⟩
  | 98 => ⟨S1x1x128x128, .f32⟩
  | 99 => ⟨S128x128, .f32⟩
  | 100 => ⟨S2000x128, .f32⟩
  | 101 => ⟨S1x1x128, .f32⟩
  | 102 => ⟨S128, .f32⟩
  | 103 => ⟨S1x128, .f32⟩
  | 104 => ⟨S2000x128, .f32⟩
  | 105 => ⟨S2000x128, .f32⟩
  | 106 => ⟨S_, .f32⟩
  | 107 => ⟨S2000x128, .f32⟩
  | 108 => ⟨S2000x128, .f32⟩
  | 109 => ⟨S1x200000, .i32⟩
  | 110 => ⟨S200000, .i32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x128, .f32⟩
  | 120 => ⟨S200000x1, .f32⟩
  | 121 => ⟨S200000x128, .f32⟩
  | 122 => ⟨S200000x128, .f32⟩
  | 123 => ⟨S1x200000, .i32⟩
  | 124 => ⟨S200000, .i32⟩
  | 125 => ⟨S_, .f32⟩
  | 126 => ⟨S100000x128, .f32⟩
  | 127 => ⟨S200000x1, .i32⟩
  | _ => ⟨S100000, .i32⟩

abbrev hbmTy0_3 (i : Nat) : BufTy := match i % 128 with
  | 0 => ⟨S100000x128, .f32⟩
  | 1 => ⟨S100000x128, .f32⟩
  | 2 => ⟨S1x1x128x128, .f32⟩
  | 3 => ⟨S128x128, .f32⟩
  | 4 => ⟨S100000x128, .f32⟩
  | 5 => ⟨S1x1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S1x200000, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S200000x1, .f32⟩
  | 25 => ⟨S200000x128, .f32⟩
  | 26 => ⟨S200000x128, .f32⟩
  | 27 => ⟨S1x200000, .i32⟩
  | 28 => ⟨S200000, .i32⟩
  | 29 => ⟨S_, .f32⟩
  | 30 => ⟨S2000x128, .f32⟩
  | 31 => ⟨S200000x1, .i32⟩
  | 32 => ⟨S2000x128, .f32⟩
  | 33 => ⟨S2000x128, .f32⟩
  | 34 => ⟨S1x1x128x128, .f32⟩
  | 35 => ⟨S128x128, .f32⟩
  | 36 => ⟨S2000x128, .f32⟩
  | 37 => ⟨S1x1x128, .f32⟩
  | 38 => ⟨S128, .f32⟩
  | 39 => ⟨S1x128, .f32⟩
  | 40 => ⟨S2000x128, .f32⟩
  | 41 => ⟨S2000x128, .f32⟩
  | 42 => ⟨S_, .f32⟩
  | 43 => ⟨S2000x128, .f32⟩
  | 44 => ⟨S2000x128, .f32⟩
  | 45 => ⟨S1x100000, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x128, .f32⟩
  | 56 => ⟨S100000x1, .f32⟩
  | 57 => ⟨S100000x128, .f32⟩
  | 58 => ⟨S100000x128, .f32⟩
  | 59 => ⟨S1x100000, .i32⟩
  | 60 => ⟨S100000, .i32⟩
  | 61 => ⟨S_, .f32⟩
  | 62 => ⟨S2000x128, .f32⟩
  | 63 => ⟨S100000x1, .i32⟩
  | 64 => ⟨S2000x128, .f32⟩
  | 65 => ⟨S2000x128, .f32⟩
  | 66 => ⟨S_, .f32⟩
  | 67 => ⟨S100000x128, .f32⟩
  | 68 => ⟨S100000x128, .f32⟩
  | 69 => ⟨S_, .f32⟩
  | 70 => ⟨S2000x128, .f32⟩
  | 71 => ⟨S2000x128, .f32⟩
  | 72 => ⟨S_, .f32⟩
  | 73 => ⟨S100000x128, .f32⟩
  | 74 => ⟨S_, .f32⟩
  | 75 => ⟨S2000x128, .f32⟩
  | 76 => ⟨S1x1x128x128, .f32⟩
  | 77 => ⟨S128x128, .f32⟩
  | 78 => ⟨S100000x128, .f32⟩
  | 79 => ⟨S1x1x128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x400000, .i32⟩
  | 88 => ⟨S400000, .i32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S400000x1, .f32⟩
  | 99 => ⟨S400000x128, .f32⟩
  | 100 => ⟨S400000x128, .f32⟩
  | 101 => ⟨S1x400000, .i32⟩
  | 102 => ⟨S400000, .i32⟩
  | 103 => ⟨S_, .f32⟩
  | 104 => ⟨S100000x128, .f32⟩
  | 105 => ⟨S400000x1, .i32⟩
  | 106 => ⟨S100000x128, .f32⟩
  | 107 => ⟨S100000x128, .f32⟩
  | 108 => ⟨S1x1x128x128, .f32⟩
  | 109 => ⟨S128x128, .f32⟩
  | 110 => ⟨S2000x128, .f32⟩
  | 111 => ⟨S1x1x128, .f32⟩
  | 112 => ⟨S128, .f32⟩
  | 113 => ⟨S1x128, .f32⟩
  | 114 => ⟨S2000x128, .f32⟩
  | 115 => ⟨S2000x128, .f32⟩
  | 116 => ⟨S_, .f32⟩
  | 117 => ⟨S2000x128, .f32⟩
  | 118 => ⟨S2000x128, .f32⟩
  | 119 => ⟨S1x200000, .i32⟩
  | 120 => ⟨S200000, .i32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S100000, .i32⟩

abbrev hbmTy0_4 (i : Nat) : BufTy := match i % 128 with
  | 0 => ⟨S200000x1, .i32⟩
  | 1 => ⟨S200000x128, .f32⟩
  | 2 => ⟨S200000x1, .f32⟩
  | 3 => ⟨S200000x128, .f32⟩
  | 4 => ⟨S200000x128, .f32⟩
  | 5 => ⟨S1x200000, .i32⟩
  | 6 => ⟨S200000, .i32⟩
  | 7 => ⟨S_, .f32⟩
  | 8 => ⟨S100000x128, .f32⟩
  | 9 => ⟨S200000x1, .i32⟩
  | 10 => ⟨S100000x128, .f32⟩
  | 11 => ⟨S100000x128, .f32⟩
  | 12 => ⟨S1x1x128x128, .f32⟩
  | 13 => ⟨S128x128, .f32⟩
  | 14 => ⟨S100000x128, .f32⟩
  | 15 => ⟨S1x1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S1x200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x128, .f32⟩
  | 34 => ⟨S200000x1, .f32⟩
  | 35 => ⟨S200000x128, .f32⟩
  | 36 => ⟨S200000x128, .f32⟩
  | 37 => ⟨S1x200000, .i32⟩
  | 38 => ⟨S200000, .i32⟩
  | 39 => ⟨S_, .f32⟩
  | 40 => ⟨S2000x128, .f32⟩
  | 41 => ⟨S200000x1, .i32⟩
  | 42 => ⟨S2000x128, .f32⟩
  | 43 => ⟨S2000x128, .f32⟩
  | 44 => ⟨S1x1x128x128, .f32⟩
  | 45 => ⟨S128x128, .f32⟩
  | 46 => ⟨S2000x128, .f32⟩
  | 47 => ⟨S1x1x128, .f32⟩
  | 48 => ⟨S128, .f32⟩
  | 49 => ⟨S1x128, .f32⟩
  | 50 => ⟨S2000x128, .f32⟩
  | 51 => ⟨S2000x128, .f32⟩
  | 52 => ⟨S_, .f32⟩
  | 53 => ⟨S2000x128, .f32⟩
  | 54 => ⟨S2000x128, .f32⟩
  | 55 => ⟨S1x100000, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S100000x1, .f32⟩
  | 67 => ⟨S100000x128, .f32⟩
  | 68 => ⟨S100000x128, .f32⟩
  | 69 => ⟨S1x100000, .i32⟩
  | 70 => ⟨S100000, .i32⟩
  | 71 => ⟨S_, .f32⟩
  | 72 => ⟨S2000x128, .f32⟩
  | 73 => ⟨S100000x1, .i32⟩
  | 74 => ⟨S2000x128, .f32⟩
  | 75 => ⟨S2000x128, .f32⟩
  | 76 => ⟨S_, .f32⟩
  | 77 => ⟨S100000x128, .f32⟩
  | 78 => ⟨S100000x128, .f32⟩
  | 79 => ⟨S_, .f32⟩
  | 80 => ⟨S2000x128, .f32⟩
  | 81 => ⟨S2000x128, .f32⟩
  | 82 => ⟨S_, .f32⟩
  | 83 => ⟨S100000x128, .f32⟩
  | 84 => ⟨S_, .f32⟩
  | 85 => ⟨S2000x128, .f32⟩
  | 86 => ⟨S1x1x128x128, .f32⟩
  | 87 => ⟨S128x128, .f32⟩
  | 88 => ⟨S100000x128, .f32⟩
  | 89 => ⟨S1x1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x400000, .i32⟩
  | 98 => ⟨S400000, .i32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S400000x1, .f32⟩
  | 109 => ⟨S400000x128, .f32⟩
  | 110 => ⟨S400000x128, .f32⟩
  | 111 => ⟨S1x400000, .i32⟩
  | 112 => ⟨S400000, .i32⟩
  | 113 => ⟨S_, .f32⟩
  | 114 => ⟨S100000x128, .f32⟩
  | 115 => ⟨S400000x1, .i32⟩
  | 116 => ⟨S100000x128, .f32⟩
  | 117 => ⟨S100000x128, .f32⟩
  | 118 => ⟨S1x1x128x128, .f32⟩
  | 119 => ⟨S128x128, .f32⟩
  | 120 => ⟨S2000x128, .f32⟩
  | 121 => ⟨S1x1x128, .f32⟩
  | 122 => ⟨S128, .f32⟩
  | 123 => ⟨S1x128, .f32⟩
  | 124 => ⟨S2000x128, .f32⟩
  | 125 => ⟨S2000x128, .f32⟩
  | 126 => ⟨S_, .f32⟩
  | 127 => ⟨S2000x128, .f32⟩
  | _ => ⟨S100000, .i32⟩

abbrev hbmTy0_5 (i : Nat) : BufTy := match i % 128 with
  | 0 => ⟨S2000x128, .f32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x128, .f32⟩
  | 12 => ⟨S200000x1, .f32⟩
  | 13 => ⟨S200000x128, .f32⟩
  | 14 => ⟨S200000x128, .f32⟩
  | 15 => ⟨S1x200000, .i32⟩
  | 16 => ⟨S200000, .i32⟩
  | 17 => ⟨S_, .f32⟩
  | 18 => ⟨S100000x128, .f32⟩
  | 19 => ⟨S200000x1, .i32⟩
  | 20 => ⟨S100000x128, .f32⟩
  | 21 => ⟨S100000x128, .f32⟩
  | 22 => ⟨S1x1x128x128, .f32⟩
  | 23 => ⟨S128x128, .f32⟩
  | 24 => ⟨S100000x128, .f32⟩
  | 25 => ⟨S1x1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S1x200000, .i32⟩
  | 34 => ⟨S200000, .i32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S200000x1, .f32⟩
  | 45 => ⟨S200000x128, .f32⟩
  | 46 => ⟨S200000x128, .f32⟩
  | 47 => ⟨S1x200000, .i32⟩
  | 48 => ⟨S200000, .i32⟩
  | 49 => ⟨S_, .f32⟩
  | 50 => ⟨S2000x128, .f32⟩
  | 51 => ⟨S200000x1, .i32⟩
  | 52 => ⟨S2000x128, .f32⟩
  | 53 => ⟨S2000x128, .f32⟩
  | 54 => ⟨S1x1x128x128, .f32⟩
  | 55 => ⟨S128x128, .f32⟩
  | 56 => ⟨S2000x128, .f32⟩
  | 57 => ⟨S1x1x128, .f32⟩
  | 58 => ⟨S128, .f32⟩
  | 59 => ⟨S1x128, .f32⟩
  | 60 => ⟨S2000x128, .f32⟩
  | 61 => ⟨S2000x128, .f32⟩
  | 62 => ⟨S_, .f32⟩
  | 63 => ⟨S2000x128, .f32⟩
  | 64 => ⟨S2000x128, .f32⟩
  | 65 => ⟨S1x100000, .i32⟩
  | 66 => ⟨S100000, .i32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x128, .f32⟩
  | 76 => ⟨S100000x1, .f32⟩
  | 77 => ⟨S100000x128, .f32⟩
  | 78 => ⟨S100000x128, .f32⟩
  | 79 => ⟨S1x100000, .i32⟩
  | 80 => ⟨S100000, .i32⟩
  | 81 => ⟨S_, .f32⟩
  | 82 => ⟨S2000x128, .f32⟩
  | 83 => ⟨S100000x1, .i32⟩
  | 84 => ⟨S2000x128, .f32⟩
  | 85 => ⟨S2000x128, .f32⟩
  | 86 => ⟨S_, .f32⟩
  | 87 => ⟨S100000x128, .f32⟩
  | 88 => ⟨S100000x128, .f32⟩
  | 89 => ⟨S_, .f32⟩
  | 90 => ⟨S2000x128, .f32⟩
  | 91 => ⟨S2000x128, .f32⟩
  | 92 => ⟨S100000x3, .f32⟩
  | 93 => ⟨S1x3, .f32⟩
  | 94 => ⟨S100000x3, .f32⟩
  | 95 => ⟨S100000x3, .f32⟩
  | 96 => ⟨S_, .f32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x3, .f32⟩
  | 103 => ⟨S100000x3, .f32⟩
  | 104 => ⟨S100000x3, .f32⟩
  | 105 => ⟨S_, .f32⟩
  | 106 => ⟨S100000, .f32⟩
  | 107 => ⟨S100000x1, .f32⟩
  | 108 => ⟨S100000x3, .f32⟩
  | 109 => ⟨S100000x3, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call0_cst : Ref sig .tc := ⟨.hbm, 54, rfl⟩
abbrev main_call0_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_cst : Ref sig .tc := ⟨.hbm, 86, rfl⟩
abbrev main_call1_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_7 : Ref sig .tc := ⟨.hbm, 91, rfl⟩
abbrev main_v59 : Ref sig .tc := ⟨.hbm, 92, rfl⟩
abbrev main_v60 : Ref sig .tc := ⟨.hbm, 93, rfl⟩
abbrev main_c_8 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call2_cst : Ref sig .tc := ⟨.hbm, 118, rfl⟩
abbrev main_call2_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_10 : Ref sig .tc := ⟨.hbm, 123, rfl⟩
abbrev main_v86 : Ref sig .tc := ⟨.hbm, 124, rfl⟩
abbrev main_v87 : Ref sig .tc := ⟨.hbm, 125, rfl⟩
abbrev main_c_11 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_12 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_13 : Ref sig .tc := ⟨.hbm, 155, rfl⟩
abbrev main_v113 : Ref sig .tc := ⟨.hbm, 156, rfl⟩
abbrev main_v114 : Ref sig .tc := ⟨.hbm, 157, rfl⟩
abbrev main_c_14 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_15 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_call4_cst : Ref sig .tc := ⟨.hbm, 174, rfl⟩
abbrev main_call4_v0 : Ref sig .tc := ⟨.hbm, 175, rfl⟩
abbrev main_v129 : Ref sig .tc := ⟨.hbm, 176, rfl⟩
abbrev main_call5_cst : Ref sig .tc := ⟨.hbm, 177, rfl⟩
abbrev main_call5_v0 : Ref sig .tc := ⟨.hbm, 178, rfl⟩
abbrev main_v130 : Ref sig .tc := ⟨.hbm, 179, rfl⟩
abbrev main_cst_16 : Ref sig .tc := ⟨.hbm, 180, rfl⟩
abbrev main_v131 : Ref sig .tc := ⟨.hbm, 181, rfl⟩
abbrev main_cst_17 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_call6_cst : Ref sig .tc := ⟨.hbm, 192, rfl⟩
abbrev main_call6_v0 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_c_18 : Ref sig .tc := ⟨.hbm, 197, rfl⟩
abbrev main_v144 : Ref sig .tc := ⟨.hbm, 198, rfl⟩
abbrev main_v145 : Ref sig .tc := ⟨.hbm, 199, rfl⟩
abbrev main_c_19 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_20 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_call7_cst : Ref sig .tc := ⟨.hbm, 224, rfl⟩
abbrev main_call7_v0 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_c_21 : Ref sig .tc := ⟨.hbm, 229, rfl⟩
abbrev main_v171 : Ref sig .tc := ⟨.hbm, 230, rfl⟩
abbrev main_v172 : Ref sig .tc := ⟨.hbm, 231, rfl⟩
abbrev main_c_22 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_23 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_call8_cst : Ref sig .tc := ⟨.hbm, 256, rfl⟩
abbrev main_call8_v0 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_24 : Ref sig .tc := ⟨.hbm, 261, rfl⟩
abbrev main_v198 : Ref sig .tc := ⟨.hbm, 262, rfl⟩
abbrev main_v199 : Ref sig .tc := ⟨.hbm, 263, rfl⟩
abbrev main_c_25 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_26 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_call9_cst : Ref sig .tc := ⟨.hbm, 288, rfl⟩
abbrev main_call9_v0 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_c_27 : Ref sig .tc := ⟨.hbm, 293, rfl⟩
abbrev main_v225 : Ref sig .tc := ⟨.hbm, 294, rfl⟩
abbrev main_v226 : Ref sig .tc := ⟨.hbm, 295, rfl⟩
abbrev main_c_28 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_cst_29 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_call10_cst : Ref sig .tc := ⟨.hbm, 312, rfl⟩
abbrev main_call10_v0 : Ref sig .tc := ⟨.hbm, 313, rfl⟩
abbrev main_v241 : Ref sig .tc := ⟨.hbm, 314, rfl⟩
abbrev main_call11_cst : Ref sig .tc := ⟨.hbm, 315, rfl⟩
abbrev main_call11_v0 : Ref sig .tc := ⟨.hbm, 316, rfl⟩
abbrev main_v242 : Ref sig .tc := ⟨.hbm, 317, rfl⟩
abbrev main_cst_30 : Ref sig .tc := ⟨.hbm, 318, rfl⟩
abbrev main_v243 : Ref sig .tc := ⟨.hbm, 319, rfl⟩
abbrev main_cst_31 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_call12_cst : Ref sig .tc := ⟨.hbm, 330, rfl⟩
abbrev main_call12_v0 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_c_32 : Ref sig .tc := ⟨.hbm, 335, rfl⟩
abbrev main_v256 : Ref sig .tc := ⟨.hbm, 336, rfl⟩
abbrev main_v257 : Ref sig .tc := ⟨.hbm, 337, rfl⟩
abbrev main_c_33 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_cst_34 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_call13_cst : Ref sig .tc := ⟨.hbm, 362, rfl⟩
abbrev main_call13_v0 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_c_35 : Ref sig .tc := ⟨.hbm, 367, rfl⟩
abbrev main_v283 : Ref sig .tc := ⟨.hbm, 368, rfl⟩
abbrev main_v284 : Ref sig .tc := ⟨.hbm, 369, rfl⟩
abbrev main_c_36 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_cst_37 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_call14_cst : Ref sig .tc := ⟨.hbm, 394, rfl⟩
abbrev main_call14_v0 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_c_38 : Ref sig .tc := ⟨.hbm, 399, rfl⟩
abbrev main_v310 : Ref sig .tc := ⟨.hbm, 400, rfl⟩
abbrev main_v311 : Ref sig .tc := ⟨.hbm, 401, rfl⟩
abbrev main_c_39 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_cst_40 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_call15_cst : Ref sig .tc := ⟨.hbm, 426, rfl⟩
abbrev main_call15_v0 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_c_41 : Ref sig .tc := ⟨.hbm, 431, rfl⟩
abbrev main_v337 : Ref sig .tc := ⟨.hbm, 432, rfl⟩
abbrev main_v338 : Ref sig .tc := ⟨.hbm, 433, rfl⟩
abbrev main_c_42 : Ref sig .tc := ⟨.hbm, 434, rfl⟩
abbrev main_v339 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_cst_43 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_call16_cst : Ref sig .tc := ⟨.hbm, 450, rfl⟩
abbrev main_call16_v0 : Ref sig .tc := ⟨.hbm, 451, rfl⟩
abbrev main_v353 : Ref sig .tc := ⟨.hbm, 452, rfl⟩
abbrev main_call17_cst : Ref sig .tc := ⟨.hbm, 453, rfl⟩
abbrev main_call17_v0 : Ref sig .tc := ⟨.hbm, 454, rfl⟩
abbrev main_v354 : Ref sig .tc := ⟨.hbm, 455, rfl⟩
abbrev main_cst_44 : Ref sig .tc := ⟨.hbm, 456, rfl⟩
abbrev main_v355 : Ref sig .tc := ⟨.hbm, 457, rfl⟩
abbrev main_cst_45 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_call18_cst : Ref sig .tc := ⟨.hbm, 468, rfl⟩
abbrev main_call18_v0 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_c_46 : Ref sig .tc := ⟨.hbm, 473, rfl⟩
abbrev main_v368 : Ref sig .tc := ⟨.hbm, 474, rfl⟩
abbrev main_v369 : Ref sig .tc := ⟨.hbm, 475, rfl⟩
abbrev main_c_47 : Ref sig .tc := ⟨.hbm, 476, rfl⟩
abbrev main_v370 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_cst_48 : Ref sig .tc := ⟨.hbm, 487, rfl⟩
abbrev main_v380 : Ref sig .tc := ⟨.hbm, 488, rfl⟩
abbrev main_v381 : Ref sig .tc := ⟨.hbm, 489, rfl⟩
abbrev main_v382 : Ref sig .tc := ⟨.hbm, 490, rfl⟩
abbrev main_v383 : Ref sig .tc := ⟨.hbm, 491, rfl⟩
abbrev main_v384 : Ref sig .tc := ⟨.hbm, 492, rfl⟩
abbrev main_v385 : Ref sig .tc := ⟨.hbm, 493, rfl⟩
abbrev main_v386 : Ref sig .tc := ⟨.hbm, 494, rfl⟩
abbrev main_v387 : Ref sig .tc := ⟨.hbm, 495, rfl⟩
abbrev main_v388 : Ref sig .tc := ⟨.hbm, 496, rfl⟩
abbrev main_v389 : Ref sig .tc := ⟨.hbm, 497, rfl⟩
abbrev main_v390 : Ref sig .tc := ⟨.hbm, 498, rfl⟩
abbrev main_v391 : Ref sig .tc := ⟨.hbm, 499, rfl⟩
abbrev main_call19_cst : Ref sig .tc := ⟨.hbm, 500, rfl⟩
abbrev main_call19_v0 : Ref sig .tc := ⟨.hbm, 501, rfl⟩
abbrev main_v392 : Ref sig .tc := ⟨.hbm, 502, rfl⟩
abbrev main_v393 : Ref sig .tc := ⟨.hbm, 503, rfl⟩
abbrev main_v394 : Ref sig .tc := ⟨.hbm, 504, rfl⟩
abbrev main_c_49 : Ref sig .tc := ⟨.hbm, 505, rfl⟩
abbrev main_v395 : Ref sig .tc := ⟨.hbm, 506, rfl⟩
abbrev main_v396 : Ref sig .tc := ⟨.hbm, 507, rfl⟩
abbrev main_c_50 : Ref sig .tc := ⟨.hbm, 508, rfl⟩
abbrev main_v397 : Ref sig .tc := ⟨.hbm, 509, rfl⟩
abbrev main_v398 : Ref sig .tc := ⟨.hbm, 510, rfl⟩
abbrev main_v399 : Ref sig .tc := ⟨.hbm, 511, rfl⟩
abbrev main_v400 : Ref sig .tc := ⟨.hbm, 512, rfl⟩
abbrev main_v401 : Ref sig .tc := ⟨.hbm, 513, rfl⟩
abbrev main_v402 : Ref sig .tc := ⟨.hbm, 514, rfl⟩
abbrev main_v403 : Ref sig .tc := ⟨.hbm, 515, rfl⟩
abbrev main_v404 : Ref sig .tc := ⟨.hbm, 516, rfl⟩
abbrev main_v405 : Ref sig .tc := ⟨.hbm, 517, rfl⟩
abbrev main_v406 : Ref sig .tc := ⟨.hbm, 518, rfl⟩
abbrev main_cst_51 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_v411 : Ref sig .tc := ⟨.hbm, 524, rfl⟩
abbrev main_v412 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_v416 : Ref sig .tc := ⟨.hbm, 529, rfl⟩
abbrev main_v417 : Ref sig .tc := ⟨.hbm, 530, rfl⟩
abbrev main_v418 : Ref sig .tc := ⟨.hbm, 531, rfl⟩
abbrev main_call20_cst : Ref sig .tc := ⟨.hbm, 532, rfl⟩
abbrev main_call20_v0 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_52 : Ref sig .tc := ⟨.hbm, 537, rfl⟩
abbrev main_v422 : Ref sig .tc := ⟨.hbm, 538, rfl⟩
abbrev main_v423 : Ref sig .tc := ⟨.hbm, 539, rfl⟩
abbrev main_c_53 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_cst_54 : Ref sig .tc := ⟨.hbm, 551, rfl⟩
abbrev main_v434 : Ref sig .tc := ⟨.hbm, 552, rfl⟩
abbrev main_v435 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_call21_cst : Ref sig .tc := ⟨.hbm, 564, rfl⟩
abbrev main_call21_v0 : Ref sig .tc := ⟨.hbm, 565, rfl⟩
abbrev main_v446 : Ref sig .tc := ⟨.hbm, 566, rfl⟩
abbrev main_v447 : Ref sig .tc := ⟨.hbm, 567, rfl⟩
abbrev main_v448 : Ref sig .tc := ⟨.hbm, 568, rfl⟩
abbrev main_c_55 : Ref sig .tc := ⟨.hbm, 569, rfl⟩
abbrev main_v449 : Ref sig .tc := ⟨.hbm, 570, rfl⟩
abbrev main_v450 : Ref sig .tc := ⟨.hbm, 571, rfl⟩
abbrev main_c_56 : Ref sig .tc := ⟨.hbm, 572, rfl⟩
abbrev main_v451 : Ref sig .tc := ⟨.hbm, 573, rfl⟩
abbrev main_v452 : Ref sig .tc := ⟨.hbm, 574, rfl⟩
abbrev main_v453 : Ref sig .tc := ⟨.hbm, 575, rfl⟩
abbrev main_v454 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_v460 : Ref sig .tc := ⟨.hbm, 582, rfl⟩
abbrev main_cst_57 : Ref sig .tc := ⟨.hbm, 583, rfl⟩
abbrev main_v461 : Ref sig .tc := ⟨.hbm, 584, rfl⟩
abbrev main_v462 : Ref sig .tc := ⟨.hbm, 585, rfl⟩
abbrev main_v463 : Ref sig .tc := ⟨.hbm, 586, rfl⟩
abbrev main_v464 : Ref sig .tc := ⟨.hbm, 587, rfl⟩
abbrev main_call22_cst : Ref sig .tc := ⟨.hbm, 588, rfl⟩
abbrev main_call22_v0 : Ref sig .tc := ⟨.hbm, 589, rfl⟩
abbrev main_v465 : Ref sig .tc := ⟨.hbm, 590, rfl⟩
abbrev main_call23_cst : Ref sig .tc := ⟨.hbm, 591, rfl⟩
abbrev main_call23_v0 : Ref sig .tc := ⟨.hbm, 592, rfl⟩
abbrev main_v466 : Ref sig .tc := ⟨.hbm, 593, rfl⟩
abbrev main_cst_58 : Ref sig .tc := ⟨.hbm, 594, rfl⟩
abbrev main_v467 : Ref sig .tc := ⟨.hbm, 595, rfl⟩
abbrev main_cst_59 : Ref sig .tc := ⟨.hbm, 596, rfl⟩
abbrev main_v468 : Ref sig .tc := ⟨.hbm, 597, rfl⟩
abbrev main_v469 : Ref sig .tc := ⟨.hbm, 598, rfl⟩
abbrev main_v470 : Ref sig .tc := ⟨.hbm, 599, rfl⟩
abbrev main_v471 : Ref sig .tc := ⟨.hbm, 600, rfl⟩
abbrev main_v472 : Ref sig .tc := ⟨.hbm, 601, rfl⟩
abbrev main_v473 : Ref sig .tc := ⟨.hbm, 602, rfl⟩
abbrev main_v474 : Ref sig .tc := ⟨.hbm, 603, rfl⟩
abbrev main_v475 : Ref sig .tc := ⟨.hbm, 604, rfl⟩
abbrev main_v476 : Ref sig .tc := ⟨.hbm, 605, rfl⟩
abbrev main_call24_cst : Ref sig .tc := ⟨.hbm, 606, rfl⟩
abbrev main_call24_v0 : Ref sig .tc := ⟨.hbm, 607, rfl⟩
abbrev main_v477 : Ref sig .tc := ⟨.hbm, 608, rfl⟩
abbrev main_v478 : Ref sig .tc := ⟨.hbm, 609, rfl⟩
abbrev main_v479 : Ref sig .tc := ⟨.hbm, 610, rfl⟩
abbrev main_c_60 : Ref sig .tc := ⟨.hbm, 611, rfl⟩
abbrev main_v480 : Ref sig .tc := ⟨.hbm, 612, rfl⟩
abbrev main_v481 : Ref sig .tc := ⟨.hbm, 613, rfl⟩
abbrev main_c_61 : Ref sig .tc := ⟨.hbm, 614, rfl⟩
abbrev main_v482 : Ref sig .tc := ⟨.hbm, 615, rfl⟩
abbrev main_v483 : Ref sig .tc := ⟨.hbm, 616, rfl⟩
abbrev main_v484 : Ref sig .tc := ⟨.hbm, 617, rfl⟩
abbrev main_v485 : Ref sig .tc := ⟨.hbm, 618, rfl⟩
abbrev main_v486 : Ref sig .tc := ⟨.hbm, 619, rfl⟩
abbrev main_v487 : Ref sig .tc := ⟨.hbm, 620, rfl⟩
abbrev main_v488 : Ref sig .tc := ⟨.hbm, 621, rfl⟩
abbrev main_v489 : Ref sig .tc := ⟨.hbm, 622, rfl⟩
abbrev main_v490 : Ref sig .tc := ⟨.hbm, 623, rfl⟩
abbrev main_v491 : Ref sig .tc := ⟨.hbm, 624, rfl⟩
abbrev main_cst_62 : Ref sig .tc := ⟨.hbm, 625, rfl⟩
abbrev main_v492 : Ref sig .tc := ⟨.hbm, 626, rfl⟩
abbrev main_v493 : Ref sig .tc := ⟨.hbm, 627, rfl⟩
abbrev main_v494 : Ref sig .tc := ⟨.hbm, 628, rfl⟩
abbrev main_v495 : Ref sig .tc := ⟨.hbm, 629, rfl⟩
abbrev main_v496 : Ref sig .tc := ⟨.hbm, 630, rfl⟩
abbrev main_v497 : Ref sig .tc := ⟨.hbm, 631, rfl⟩
abbrev main_v498 : Ref sig .tc := ⟨.hbm, 632, rfl⟩
abbrev main_v499 : Ref sig .tc := ⟨.hbm, 633, rfl⟩
abbrev main_v500 : Ref sig .tc := ⟨.hbm, 634, rfl⟩
abbrev main_v501 : Ref sig .tc := ⟨.hbm, 635, rfl⟩
abbrev main_v502 : Ref sig .tc := ⟨.hbm, 636, rfl⟩
abbrev main_v503 : Ref sig .tc := ⟨.hbm, 637, rfl⟩
abbrev main_call25_cst : Ref sig .tc := ⟨.hbm, 638, rfl⟩
abbrev main_call25_v0 : Ref sig .tc := ⟨.hbm, 639, rfl⟩
abbrev main_v504 : Ref sig .tc := ⟨.hbm, 640, rfl⟩
abbrev main_v505 : Ref sig .tc := ⟨.hbm, 641, rfl⟩
abbrev main_v506 : Ref sig .tc := ⟨.hbm, 642, rfl⟩
abbrev main_c_63 : Ref sig .tc := ⟨.hbm, 643, rfl⟩
abbrev main_v507 : Ref sig .tc := ⟨.hbm, 644, rfl⟩
abbrev main_v508 : Ref sig .tc := ⟨.hbm, 645, rfl⟩
abbrev main_c_64 : Ref sig .tc := ⟨.hbm, 646, rfl⟩
abbrev main_v509 : Ref sig .tc := ⟨.hbm, 647, rfl⟩
abbrev main_v510 : Ref sig .tc := ⟨.hbm, 648, rfl⟩
abbrev main_v511 : Ref sig .tc := ⟨.hbm, 649, rfl⟩
abbrev main_v512 : Ref sig .tc := ⟨.hbm, 650, rfl⟩
abbrev main_v513 : Ref sig .tc := ⟨.hbm, 651, rfl⟩
abbrev main_v514 : Ref sig .tc := ⟨.hbm, 652, rfl⟩
abbrev main_v515 : Ref sig .tc := ⟨.hbm, 653, rfl⟩
abbrev main_v516 : Ref sig .tc := ⟨.hbm, 654, rfl⟩
abbrev main_v517 : Ref sig .tc := ⟨.hbm, 655, rfl⟩
abbrev main_v518 : Ref sig .tc := ⟨.hbm, 656, rfl⟩
abbrev main_cst_65 : Ref sig .tc := ⟨.hbm, 657, rfl⟩
abbrev main_v519 : Ref sig .tc := ⟨.hbm, 658, rfl⟩
abbrev main_v520 : Ref sig .tc := ⟨.hbm, 659, rfl⟩
abbrev main_v521 : Ref sig .tc := ⟨.hbm, 660, rfl⟩
abbrev main_v522 : Ref sig .tc := ⟨.hbm, 661, rfl⟩
abbrev main_v523 : Ref sig .tc := ⟨.hbm, 662, rfl⟩
abbrev main_v524 : Ref sig .tc := ⟨.hbm, 663, rfl⟩
abbrev main_v525 : Ref sig .tc := ⟨.hbm, 664, rfl⟩
abbrev main_v526 : Ref sig .tc := ⟨.hbm, 665, rfl⟩
abbrev main_v527 : Ref sig .tc := ⟨.hbm, 666, rfl⟩
abbrev main_v528 : Ref sig .tc := ⟨.hbm, 667, rfl⟩
abbrev main_v529 : Ref sig .tc := ⟨.hbm, 668, rfl⟩
abbrev main_v530 : Ref sig .tc := ⟨.hbm, 669, rfl⟩
abbrev main_call26_cst : Ref sig .tc := ⟨.hbm, 670, rfl⟩
abbrev main_call26_v0 : Ref sig .tc := ⟨.hbm, 671, rfl⟩
abbrev main_v531 : Ref sig .tc := ⟨.hbm, 672, rfl⟩
abbrev main_v532 : Ref sig .tc := ⟨.hbm, 673, rfl⟩
abbrev main_v533 : Ref sig .tc := ⟨.hbm, 674, rfl⟩
abbrev main_c_66 : Ref sig .tc := ⟨.hbm, 675, rfl⟩
abbrev main_v534 : Ref sig .tc := ⟨.hbm, 676, rfl⟩
abbrev main_v535 : Ref sig .tc := ⟨.hbm, 677, rfl⟩
abbrev main_c_67 : Ref sig .tc := ⟨.hbm, 678, rfl⟩
abbrev main_v536 : Ref sig .tc := ⟨.hbm, 679, rfl⟩
abbrev main_v537 : Ref sig .tc := ⟨.hbm, 680, rfl⟩
abbrev main_v538 : Ref sig .tc := ⟨.hbm, 681, rfl⟩
abbrev main_v539 : Ref sig .tc := ⟨.hbm, 682, rfl⟩
abbrev main_v540 : Ref sig .tc := ⟨.hbm, 683, rfl⟩
abbrev main_v541 : Ref sig .tc := ⟨.hbm, 684, rfl⟩
abbrev main_v542 : Ref sig .tc := ⟨.hbm, 685, rfl⟩
abbrev main_v543 : Ref sig .tc := ⟨.hbm, 686, rfl⟩
abbrev main_v544 : Ref sig .tc := ⟨.hbm, 687, rfl⟩
abbrev main_v545 : Ref sig .tc := ⟨.hbm, 688, rfl⟩
abbrev main_cst_68 : Ref sig .tc := ⟨.hbm, 689, rfl⟩
abbrev main_v546 : Ref sig .tc := ⟨.hbm, 690, rfl⟩
abbrev main_v547 : Ref sig .tc := ⟨.hbm, 691, rfl⟩
abbrev main_v548 : Ref sig .tc := ⟨.hbm, 692, rfl⟩
abbrev main_v549 : Ref sig .tc := ⟨.hbm, 693, rfl⟩
abbrev main_v550 : Ref sig .tc := ⟨.hbm, 694, rfl⟩
abbrev main_v551 : Ref sig .tc := ⟨.hbm, 695, rfl⟩
abbrev main_v552 : Ref sig .tc := ⟨.hbm, 696, rfl⟩
abbrev main_v553 : Ref sig .tc := ⟨.hbm, 697, rfl⟩
abbrev main_v554 : Ref sig .tc := ⟨.hbm, 698, rfl⟩
abbrev main_v555 : Ref sig .tc := ⟨.hbm, 699, rfl⟩
abbrev main_v556 : Ref sig .tc := ⟨.hbm, 700, rfl⟩
abbrev main_v557 : Ref sig .tc := ⟨.hbm, 701, rfl⟩
abbrev main_call27_cst : Ref sig .tc := ⟨.hbm, 702, rfl⟩
abbrev main_call27_v0 : Ref sig .tc := ⟨.hbm, 703, rfl⟩
abbrev main_v558 : Ref sig .tc := ⟨.hbm, 704, rfl⟩
abbrev main_v559 : Ref sig .tc := ⟨.hbm, 705, rfl⟩
abbrev main_v560 : Ref sig .tc := ⟨.hbm, 706, rfl⟩
abbrev main_c_69 : Ref sig .tc := ⟨.hbm, 707, rfl⟩
abbrev main_v561 : Ref sig .tc := ⟨.hbm, 708, rfl⟩
abbrev main_v562 : Ref sig .tc := ⟨.hbm, 709, rfl⟩
abbrev main_c_70 : Ref sig .tc := ⟨.hbm, 710, rfl⟩
abbrev main_v563 : Ref sig .tc := ⟨.hbm, 711, rfl⟩
abbrev main_v564 : Ref sig .tc := ⟨.hbm, 712, rfl⟩
abbrev main_v565 : Ref sig .tc := ⟨.hbm, 713, rfl⟩
abbrev main_v566 : Ref sig .tc := ⟨.hbm, 714, rfl⟩
abbrev main_v567 : Ref sig .tc := ⟨.hbm, 715, rfl⟩
abbrev main_v568 : Ref sig .tc := ⟨.hbm, 716, rfl⟩
abbrev main_v569 : Ref sig .tc := ⟨.hbm, 717, rfl⟩
abbrev main_v570 : Ref sig .tc := ⟨.hbm, 718, rfl⟩
abbrev main_v571 : Ref sig .tc := ⟨.hbm, 719, rfl⟩
abbrev main_v572 : Ref sig .tc := ⟨.hbm, 720, rfl⟩
abbrev main_cst_71 : Ref sig .tc := ⟨.hbm, 721, rfl⟩
abbrev main_v573 : Ref sig .tc := ⟨.hbm, 722, rfl⟩
abbrev main_v574 : Ref sig .tc := ⟨.hbm, 723, rfl⟩
abbrev main_v575 : Ref sig .tc := ⟨.hbm, 724, rfl⟩
abbrev main_v576 : Ref sig .tc := ⟨.hbm, 725, rfl⟩
abbrev main_call28_cst : Ref sig .tc := ⟨.hbm, 726, rfl⟩
abbrev main_call28_v0 : Ref sig .tc := ⟨.hbm, 727, rfl⟩
abbrev main_v577 : Ref sig .tc := ⟨.hbm, 728, rfl⟩
abbrev main_call29_cst : Ref sig .tc := ⟨.hbm, 729, rfl⟩
abbrev main_call29_v0 : Ref sig .tc := ⟨.hbm, 730, rfl⟩
abbrev main_v578 : Ref sig .tc := ⟨.hbm, 731, rfl⟩
abbrev main_v579 : Ref sig .tc := ⟨.hbm, 732, rfl⟩
abbrev main_v580 : Ref sig .tc := ⟨.hbm, 733, rfl⟩
abbrev main_v581 : Ref sig .tc := ⟨.hbm, 734, rfl⟩
abbrev main_v582 : Ref sig .tc := ⟨.hbm, 735, rfl⟩
abbrev main_cst_72 : Ref sig .tc := ⟨.hbm, 736, rfl⟩
abbrev main_v583 : Ref sig .tc := ⟨.hbm, 737, rfl⟩
abbrev main_cst_73 : Ref sig .tc := ⟨.hbm, 738, rfl⟩
abbrev main_v584 : Ref sig .tc := ⟨.hbm, 739, rfl⟩
abbrev main_v585 : Ref sig .tc := ⟨.hbm, 740, rfl⟩
abbrev main_v586 : Ref sig .tc := ⟨.hbm, 741, rfl⟩
abbrev main_v587 : Ref sig .tc := ⟨.hbm, 742, rfl⟩
abbrev main_v588 : Ref sig .tc := ⟨.hbm, 743, rfl⟩
abbrev main_v589 : Ref sig .tc := ⟨.hbm, 744, rfl⟩
abbrev main_cst_74 : Ref sig .tc := ⟨.hbm, 745, rfl⟩
abbrev main_v590 : Ref sig .tc := ⟨.hbm, 746, rfl⟩
abbrev main_v591 : Ref sig .tc := ⟨.hbm, 747, rfl⟩
abbrev main_v592 : Ref sig .tc := ⟨.hbm, 748, rfl⟩
abbrev main_v593 : Ref sig .tc := ⟨.hbm, 749, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S_S100000x128 : S_.BroadcastsInDim S100000x128 (![] : Fin 0 → Fin S100000x128.rank)
  bcast_S_S2000x128 : S_.BroadcastsInDim S2000x128 (![] : Fin 0 → Fin S2000x128.rank)
  slices_S5x4x128x128_S1x1x128x128_0_0_0_0 : S5x4x128x128.Slices ![0, 0, 0, 0] S1x1x128x128
  shapeCasts_S1x1x128x128_S128x128 : S1x1x128x128.ShapeCasts S128x128
  slices_S5x4x128_S1x1x128_0_0_0 : S5x4x128.Slices ![0, 0, 0] S1x1x128
  shapeCasts_S1x1x128_S128 : S1x1x128.ShapeCasts S128
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  slices_S2x400000_S1x400000_1_0 : S2x400000.Slices ![1, 0] S1x400000
  slices_S5x4x128x128_S1x1x128x128_0_1_0_0 : S5x4x128x128.Slices ![0, 1, 0, 0] S1x1x128x128
  slices_S5x4x128_S1x1x128_0_1_0 : S5x4x128.Slices ![0, 1, 0] S1x1x128
  bcast_S1x128_S2000x128_0_1 : S1x128.BroadcastsInDim S2000x128 (![0, 1] : Fin 2 → Fin S2000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S2x200000_S1x200000_1_0 : S2x200000.Slices ![1, 0] S1x200000
  slices_S5x4x128x128_S1x1x128x128_0_2_0_0 : S5x4x128x128.Slices ![0, 2, 0, 0] S1x1x128x128
  slices_S5x4x128_S1x1x128_0_2_0 : S5x4x128.Slices ![0, 2, 0] S1x1x128
  slices_S5x4x128x128_S1x1x128x128_0_3_0_0 : S5x4x128x128.Slices ![0, 3, 0, 0] S1x1x128x128
  slices_S5x4x128_S1x1x128_0_3_0 : S5x4x128.Slices ![0, 3, 0] S1x1x128
  slices_S2x100000_S1x100000_0_0 : S2x100000.Slices ![0, 0] S1x100000
  shapeCasts_S1x100000_S100000 : S1x100000.ShapeCasts S100000
  bcast_S100000x1_S100000x128_0_1 : S100000x1.BroadcastsInDim S100000x128 (![0, 1] : Fin 2 → Fin S100000x128.rank)
  slices_S2x100000_S1x100000_1_0 : S2x100000.Slices ![1, 0] S1x100000
  slices_S5x4x128x128_S1x1x128x128_1_0_0_0 : S5x4x128x128.Slices ![1, 0, 0, 0] S1x1x128x128
  slices_S5x4x128_S1x1x128_1_0_0 : S5x4x128.Slices ![1, 0, 0] S1x1x128
  slices_S5x4x128x128_S1x1x128x128_1_1_0_0 : S5x4x128x128.Slices ![1, 1, 0, 0] S1x1x128x128
  slices_S5x4x128_S1x1x128_1_1_0 : S5x4x128.Slices ![1, 1, 0] S1x1x128
  slices_S5x4x128x128_S1x1x128x128_1_2_0_0 : S5x4x128x128.Slices ![1, 2, 0, 0] S1x1x128x128
  slices_S5x4x128_S1x1x128_1_2_0 : S5x4x128.Slices ![1, 2, 0] S1x1x128
  slices_S5x4x128x128_S1x1x128x128_1_3_0_0 : S5x4x128x128.Slices ![1, 3, 0, 0] S1x1x128x128
  slices_S5x4x128_S1x1x128_1_3_0 : S5x4x128.Slices ![1, 3, 0] S1x1x128
  slices_S5x4x128x128_S1x1x128x128_2_0_0_0 : S5x4x128x128.Slices ![2, 0, 0, 0] S1x1x128x128
  slices_S5x4x128_S1x1x128_2_0_0 : S5x4x128.Slices ![2, 0, 0] S1x1x128
  slices_S5x4x128x128_S1x1x128x128_2_1_0_0 : S5x4x128x128.Slices ![2, 1, 0, 0] S1x1x128x128
  slices_S5x4x128_S1x1x128_2_1_0 : S5x4x128.Slices ![2, 1, 0] S1x1x128
  slices_S5x4x128x128_S1x1x128x128_2_2_0_0 : S5x4x128x128.Slices ![2, 2, 0, 0] S1x1x128x128
  slices_S5x4x128_S1x1x128_2_2_0 : S5x4x128.Slices ![2, 2, 0] S1x1x128
  slices_S5x4x128x128_S1x1x128x128_2_3_0_0 : S5x4x128x128.Slices ![2, 3, 0, 0] S1x1x128x128
  slices_S5x4x128_S1x1x128_2_3_0 : S5x4x128.Slices ![2, 3, 0] S1x1x128
  slices_S5x4x128x128_S1x1x128x128_3_0_0_0 : S5x4x128x128.Slices ![3, 0, 0, 0] S1x1x128x128
  slices_S5x4x128_S1x1x128_3_0_0 : S5x4x128.Slices ![3, 0, 0] S1x1x128
  slices_S5x4x128x128_S1x1x128x128_3_1_0_0 : S5x4x128x128.Slices ![3, 1, 0, 0] S1x1x128x128
  slices_S5x4x128_S1x1x128_3_1_0 : S5x4x128.Slices ![3, 1, 0] S1x1x128
  slices_S5x4x128x128_S1x1x128x128_3_2_0_0 : S5x4x128x128.Slices ![3, 2, 0, 0] S1x1x128x128
  slices_S5x4x128_S1x1x128_3_2_0 : S5x4x128.Slices ![3, 2, 0] S1x1x128
  slices_S5x4x128x128_S1x1x128x128_3_3_0_0 : S5x4x128x128.Slices ![3, 3, 0, 0] S1x1x128x128
  slices_S5x4x128_S1x1x128_3_3_0 : S5x4x128.Slices ![3, 3, 0] S1x1x128
  slices_S5x4x128x128_S1x1x128x128_4_0_0_0 : S5x4x128x128.Slices ![4, 0, 0, 0] S1x1x128x128
  slices_S5x4x128_S1x1x128_4_0_0 : S5x4x128.Slices ![4, 0, 0] S1x1x128
  slices_S5x4x128x128_S1x1x128x128_4_1_0_0 : S5x4x128x128.Slices ![4, 1, 0, 0] S1x1x128x128
  slices_S5x4x128_S1x1x128_4_1_0 : S5x4x128.Slices ![4, 1, 0] S1x1x128
  slices_S5x4x128x128_S1x1x128x128_4_2_0_0 : S5x4x128x128.Slices ![4, 2, 0, 0] S1x1x128x128
  slices_S5x4x128_S1x1x128_4_2_0 : S5x4x128.Slices ![4, 2, 0] S1x1x128
  slices_S5x4x128x128_S1x1x128x128_4_3_0_0 : S5x4x128x128.Slices ![4, 3, 0, 0] S1x1x128x128
  slices_S5x4x128_S1x1x128_4_3_0 : S5x4x128.Slices ![4, 3, 0] S1x1x128
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000x1_S100000x3_0_1 : S100000x1.BroadcastsInDim S100000x3 (![0, 1] : Fin 2 → Fin S100000x3.rank)
  gather_S1000x128_S100000x1_S100000x128_1_0_n_n_0_1_1128_wf : GatherDims.WF S1000x128 S100000x1 S100000x128 [1] [0] [] [0] [] 1 ![1, 128]
  dot_S100000x64_S64x128_S100000x128_1_0_0_1_n_n_wf : DotDims.WF S100000x64 S64x128 S100000x128 [1] [0] [0] [1] [] []
  gather_S1x128_S2000x1_S2000x128_1_0_n_n_0_1_1128_wf : GatherDims.WF S1x128 S2000x1 S2000x128 [1] [0] [] [0] [] 1 ![1, 128]
  dot_S100000x128_S128x128_S100000x128_1_0_0_1_n_n_wf : DotDims.WF S100000x128 S128x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x128_S2000x128_1_0_0_1_n_n_wf : DotDims.WF S2000x128 S128x128 S2000x128 [1] [0] [0] [1] [] []
  gather_S2000x128_S200000x1_S200000x128_1_0_n_n_0_1_1128_wf : GatherDims.WF S2000x128 S200000x1 S200000x128 [1] [0] [] [0] [] 1 ![1, 128]
  scatter_S100000x128_S200000x1_S200000x128_1_0_0_1_wf : ScatterDims.WF S100000x128 S200000x1 S200000x128 [1] [0] [0] 1
  gather_S100000x128_S200000x1_S200000x128_1_0_n_n_0_1_1128_wf : GatherDims.WF S100000x128 S200000x1 S200000x128 [1] [0] [] [0] [] 1 ![1, 128]
  scatter_S2000x128_S200000x1_S200000x128_1_0_0_1_wf : ScatterDims.WF S2000x128 S200000x1 S200000x128 [1] [0] [0] 1
  gather_S2000x128_S100000x1_S100000x128_1_0_n_n_0_1_1128_wf : GatherDims.WF S2000x128 S100000x1 S100000x128 [1] [0] [] [0] [] 1 ![1, 128]
  scatter_S2000x128_S100000x1_S100000x128_1_0_0_1_wf : ScatterDims.WF S2000x128 S100000x1 S100000x128 [1] [0] [0] 1
  dot_S100000x128_S128x3_S100000x3_1_0_0_1_n_n_wf : DotDims.WF S100000x128 S128x3 S100000x3 [1] [0] [0] [1] [] []

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S1x128_S2000x1_S2000x128_1_0_n_n_0_1_1128 : GatherDims S1x128 S2000x1 S2000x128 where
  offsetDims := [1]
  collapsedSliceDims := [0]
  operandBatchingDims := []
  startIndicesBatchingDims := []
  startIndexMap := [0]
  indexVectorDim := 1
  sliceSizes := ![1, 128]
  wf := gather_S1x128_S2000x1_S2000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S2000x128_S200000x1_S200000x128_1_0_n_n_0_1_1128 : GatherDims S2000x128 S200000x1 S200000x128 where
  offsetDims := [1]
  collapsedSliceDims := [0]
  operandBatchingDims := []
  startIndicesBatchingDims := []
  startIndexMap := [0]
  indexVectorDim := 1
  sliceSizes := ![1, 128]
  wf := gather_S2000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S2000x128_S200000x1_S200000x128_1_0_0_1 : ScatterDims S2000x128 S200000x1 S200000x128 where
  updateWindowDims := [1]
  insertedWindowDims := [0]
  scatterDimsToOperandDims := [0]
  indexVectorDim := 1
  wf := scatter_S2000x128_S200000x1_S200000x128_1_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.Spec.lean ====
import Idealize.ShloMosaic.PureOps.Ideal.Laws
import Idealize.ShloMosaic.Lib.ValueIdx

noncomputable section

namespace Cert.Spec

open Idealize.ShloMosaic Idealize.ShloMosaic.ValueIdx

abbrev S0 : Shape := ⟨0, ![]⟩

def relu {S : Shape} (x : FVec Ideal S .f32) : FVec Ideal S .f32 := fun i => max (x i) 0

def mlp {M K : Nat} (x : FVec Ideal ⟨2, ![M, K]⟩ .f32) (w : FVec Ideal ⟨2, ![K, 128]⟩ .f32) (b : FVec Ideal ⟨1, ![128]⟩ .f32) :
    FVec Ideal ⟨2, ![M, 128]⟩ .f32 :=
  fun i => max ((∑ k : Fin K, x (ix2 (i 0) k) * w (ix2 k (i 1))) + b (ix1 (i 1))) 0

def mlpRow {M K : Nat} (x : FVec Ideal ⟨2, ![M, K]⟩ .f32) (w : FVec Ideal ⟨2, ![K, 128]⟩ .f32) (b : FVec Ideal ⟨2, ![1, 128]⟩ .f32) :
    FVec Ideal ⟨2, ![M, 128]⟩ .f32 :=
  fun i => max ((∑ k : Fin K, x (ix2 (i 0) k) * w (ix2 k (i 1))) + b (ix2 0 (i 1))) 0

def encRow {M K : Nat} (a : FVec Ideal ⟨2, ![M, K]⟩ .f32) (w : FVec Ideal ⟨2, ![K, 128]⟩ .f32) (b : FVec Ideal ⟨2, ![1, 128]⟩ .f32)
    (e : FVec Ideal ⟨2, ![M, 128]⟩ .f32) : FVec Ideal ⟨2, ![M, 128]⟩ .f32 :=
  fun i => ((∑ k : Fin K, a (ix2 (i 0) k) * w (ix2 k (i 1))) + b (ix2 0 (i 1))) + e i

def enc {M K : Nat} (a : FVec Ideal ⟨2, ![M, K]⟩ .f32) (w : FVec Ideal ⟨2, ![K, 128]⟩ .f32) (b : FVec Ideal ⟨1, ![128]⟩ .f32)
    (e : FVec Ideal ⟨2, ![M, 128]⟩ .f32) : FVec Ideal ⟨2, ![M, 128]⟩ .f32 :=
  fun i => ((∑ k : Fin K, a (ix2 (i 0) k) * w (ix2 k (i 1))) + b (ix1 (i 1))) + e i

def agg {N M E : Nat} (gd : GatherDims ⟨2, ![N, 128]⟩ ⟨2, ![E, 1]⟩ ⟨2, ![E, 128]⟩)
    (sd : ScatterDims ⟨2, ![M, 128]⟩ ⟨2, ![E, 1]⟩ ⟨2, ![E, 128]⟩)
    (hz : S0.BroadcastsInDim ⟨2, ![M, 128]⟩ (![] : Fin 0 → Fin 2))
    (hi : (⟨1, ![E]⟩ : Shape).BroadcastsInDim ⟨2, ![E, 1]⟩ (![0] : Fin 1 → Fin 2))
    (hw : (⟨2, ![E, 1]⟩ : Shape).BroadcastsInDim ⟨2, ![E, 128]⟩ (![0, 1] : Fin 2 → Fin 2))
    (m : FVec Ideal ⟨2, ![N, 128]⟩ .f32) (src tgt : IVec ⟨1, ![E]⟩ 32) (wt : FVec Ideal ⟨1, ![E]⟩ .f32) :
    FVec Ideal ⟨2, ![M, 128]⟩ .f32 :=
  Host.scatterAdd sd (broadcastInDim ⟨2, ![M, 128]⟩ ![] hz (constant S0 .f32 0x00000000#32))
    (broadcastInDim ⟨2, ![E, 1]⟩ ![0] hi tgt)
    (mulf (Host.gather gd m (broadcastInDim ⟨2, ![E, 1]⟩ ![0] hi src))
      (broadcastInDim ⟨2, ![E, 128]⟩ ![0, 1] hw (broadcastInDim ⟨2, ![E, 1]⟩ ![0] hi wt)))

def wrap {E : Nat} (hc : S0.BroadcastsInDim ⟨1, ![E]⟩ (![] : Fin 0 → Fin 1)) (n : BitVec 32) (idx : IVec ⟨1, ![E]⟩ 32) :
    IVec ⟨1, ![E]⟩ 32 :=
  select (cmpi .slt idx (broadcastInDim ⟨1, ![E]⟩ ![] hc (constantI S0 32 0#32)))
    (addi idx (broadcastInDim ⟨1, ![E]⟩ ![] hc (constantI S0 32 n))) idx

end Cert.Spec

end
-- ==== Proof.SpecK.lean ====
import proofs.«409564_j17119739642177_3_alg».proof.KernelIdeal
import proofs.«409564_j17119739642177_3_alg».proof.Proof.Spec

noncomputable section

namespace Cert.KernelIdeal.SpecK

open Idealize.ShloMosaic Cert.KernelIdeal Cert.Spec

variable [Facts]
open Facts₀ Facts

def row400000 (r : Nat) (h : S2x400000.Slices ![r, 0] S1x400000) (es : IVec S2x400000 32) : IVec S400000 32 :=
  shapeCast S400000 (extractStridedSlice S1x400000 ![r, 0] es h) shapeCasts_S1x400000_S400000
def row200000 (r : Nat) (h : S2x200000.Slices ![r, 0] S1x200000) (es : IVec S2x200000 32) : IVec S200000 32 :=
  shapeCast S200000 (extractStridedSlice S1x200000 ![r, 0] es h) shapeCasts_S1x200000_S200000
def row100000 (r : Nat) (h : S2x100000.Slices ![r, 0] S1x100000) (es : IVec S2x100000 32) : IVec S100000 32 :=
  shapeCast S100000 (extractStridedSlice S1x100000 ![r, 0] es h) shapeCasts_S1x100000_S100000

def agg0 (m : FVec Ideal S100000x128 .f32) (src tgt : IVec S400000 32) (wt : FVec Ideal S400000 .f32) : FVec Ideal S100000x128 .f32 :=
  Spec.agg gather_S100000x128_S400000x1_S400000x128_1_0_n_n_0_1_1128 scatter_S100000x128_S400000x1_S400000x128_1_0_0_1
    bcast_S_S100000x128 bcast_S400000_S400000x1_0 bcast_S400000x1_S400000x128_0_1 m src tgt wt

def agg1 (m : FVec Ideal S2000x128 .f32) (src tgt : IVec S200000 32) (wt : FVec Ideal S200000 .f32) : FVec Ideal S100000x128 .f32 :=
  Spec.agg gather_S2000x128_S200000x1_S200000x128_1_0_n_n_0_1_1128 scatter_S100000x128_S200000x1_S200000x128_1_0_0_1
    bcast_S_S100000x128 bcast_S200000_S200000x1_0 bcast_S200000x1_S200000x128_0_1 m src tgt wt

def agg2 (m : FVec Ideal S100000x128 .f32) (src tgt : IVec S200000 32) (wt : FVec Ideal S200000 .f32) : FVec Ideal S2000x128 .f32 :=
  Spec.agg gather_S100000x128_S200000x1_S200000x128_1_0_n_n_0_1_1128 scatter_S2000x128_S200000x1_S200000x128_1_0_0_1
    bcast_S_S2000x128 bcast_S200000_S200000x1_0 bcast_S200000x1_S200000x128_0_1 m src tgt wt

def agg3 (m : FVec Ideal S2000x128 .f32) (src tgt : IVec S100000 32) (wt : FVec Ideal S100000 .f32) : FVec Ideal S2000x128 .f32 :=
  Spec.agg gather_S2000x128_S100000x1_S100000x128_1_0_n_n_0_1_1128 scatter_S2000x128_S100000x1_S100000x128_1_0_0_1
    bcast_S_S2000x128 bcast_S100000_S100000x1_0 bcast_S100000x1_S100000x128_0_1 m src tgt wt

def out0 (m0 : FVec Ideal S100000x128 .f32) (m1 : FVec Ideal S2000x128 .f32) (es0 : IVec S2x400000 32) (es1 : IVec S2x200000 32)
    (w0 : FVec Ideal S400000 .f32) (w1 : FVec Ideal S200000 .f32) : FVec Ideal S100000x128 .f32 :=
  addf (agg0 m0 (row400000 0 slices_S2x400000_S1x400000_0_0 es0) (row400000 1 slices_S2x400000_S1x400000_1_0 es0) w0)
    (agg1 m1 (row200000 0 slices_S2x200000_S1x200000_0_0 es1) (row200000 1 slices_S2x200000_S1x200000_1_0 es1) w1)

def out1 (m2 : FVec Ideal S100000x128 .f32) (m3 : FVec Ideal S2000x128 .f32) (es2 : IVec S2x200000 32) (es3 : IVec S2x100000 32)
    (w2 : FVec Ideal S200000 .f32) (w3 : FVec Ideal S100000 .f32) : FVec Ideal S2000x128 .f32 :=
  addf (agg2 m2 (row200000 0 slices_S2x200000_S1x200000_0_0 es2) (row200000 1 slices_S2x200000_S1x200000_1_0 es2) w2)
    (agg3 m3 (row100000 0 slices_S2x100000_S1x100000_0_0 es3) (row100000 1 slices_S2x100000_S1x100000_1_0 es3) w3)

def wsl (off : Fin 4 → Nat) (h : S5x4x128x128.Slices off S1x1x128x128) (W : FVec Ideal S5x4x128x128 .f32) : FVec Ideal S128x128 .f32 :=
  shapeCast S128x128 (extractStridedSlice S1x1x128x128 off W h) shapeCasts_S1x1x128x128_S128x128

def bsl (off : Fin 3 → Nat) (h : S5x4x128.Slices off S1x1x128) (B : FVec Ideal S5x4x128 .f32) : FVec Ideal S128 .f32 :=
  shapeCast S128 (extractStridedSlice S1x1x128 off B h) shapeCasts_S1x1x128_S128

def last (a : FVec Ideal S100000x128 .f32) (dw : FVec Ideal S128x3 .f32) (db : FVec Ideal S3 .f32) : FVec Ideal S100000x3 .f32 :=
  addf (Host.dotGeneral dot_S100000x128_S128x3_S100000x3_1_0_0_1_n_n none a dw)
    (broadcastInDim S100000x3 ![0, 1] bcast_S1x3_S100000x3_0_1 (broadcastInDim S1x3 ![1] bcast_S3_S1x3_1 db))

def rowMax (l : FVec Ideal S100000x3 .f32) : FVec Ideal S100000 .f32 :=
  maximumf (broadcastInDim S100000 ![] bcast_S_S100000 (constant S_ .f32 0xFF800000#32))
    (Host.reduce FloatOps.maximumf l (constant S_ .f32 0xFF800000#32) reducesTo_S100000x3_S100000_d1 h_S_)

def expShift (l : FVec Ideal S100000x3 .f32) : FVec Ideal S100000x3 .f32 :=
  Host.exp (subf l (broadcastInDim S100000x3 ![0, 1] bcast_S100000x1_S100000x3_0_1
    (broadcastInDim S100000x1 ![0] bcast_S100000_S100000x1_0 (rowMax l))))

def soft (l : FVec Ideal S100000x3 .f32) : FVec Ideal S100000x3 .f32 :=
  Host.divf (expShift l) (broadcastInDim S100000x3 ![0, 1] bcast_S100000x1_S100000x3_0_1
    (broadcastInDim S100000x1 ![0] bcast_S100000_S100000x1_0
      (Host.reduceAdd (expShift l) (constant S_ .f32 0x00000000#32) reducesTo_S100000x3_S100000_d1 h_S_)))

end Cert.KernelIdeal.SpecK

end
-- ==== Proof.KNames.lean ====
import proofs.«409564_j17119739642177_3_alg».proof.Proof.FrameKI
import proofs.«409564_j17119739642177_3_alg».proof.Proof.SpecK

noncomputable section

namespace Cert.KernelIdeal.KV

open Idealize.ShloMosaic Idealize.ShloMosaic.TcCoe Idealize.SL.Sem Cert.KernelIdeal Cert.KernelIdeal.Gen Cert.KernelIdeal.GenP

variable (m : (ℓ : Loc nD τ sig) → Buf (Elt Ideal) ℓ) (ρ : Dev nD → PrngReg) (c : Dev nD)

abbrev aAl : IVec S100000 32 := m ((c : Thread nD τ).loc main_arg0)

abbrev aAc : FVec Ideal S100000x64 .f32 := m ((c : Thread nD τ).loc main_arg1)

abbrev aT : IVec S2000 32 := m ((c : Thread nD τ).loc main_arg2)

abbrev aEs0 : IVec S2x400000 32 := m ((c : Thread nD τ).loc main_arg3)

abbrev aEs1 : IVec S2x200000 32 := m ((c : Thread nD τ).loc main_arg4)

abbrev aEs2 : IVec S2x200000 32 := m ((c : Thread nD τ).loc main_arg5)

abbrev aEs3 : IVec S2x100000 32 := m ((c : Thread nD τ).loc main_arg6)

abbrev aW0 : FVec Ideal S400000 .f32 := m ((c : Thread nD τ).loc main_arg7)

abbrev aW1 : FVec Ideal S200000 .f32 := m ((c : Thread nD τ).loc main_arg8)

abbrev aW2 : FVec Ideal S200000 .f32 := m ((c : Thread nD τ).loc main_arg9)

abbrev aW3 : FVec Ideal S100000 .f32 := m ((c : Thread nD τ).loc main_arg10)

abbrev aEncAl : FVec Ideal S1000x128 .f32 := m ((c : Thread nD τ).loc main_arg11)

abbrev aEncW : FVec Ideal S64x128 .f32 := m ((c : Thread nD τ).loc main_arg12)

abbrev aEncB : FVec Ideal S128 .f32 := m ((c : Thread nD τ).loc main_arg13)

abbrev aEmbT : FVec Ideal S1x128 .f32 := m ((c : Thread nD τ).loc main_arg14)

abbrev aMW : FVec Ideal S5x4x128x128 .f32 := m ((c : Thread nD τ).loc main_arg15)

abbrev aMB : FVec Ideal S5x4x128 .f32 := m ((c : Thread nD τ).loc main_arg16)

abbrev aDecW : FVec Ideal S128x3 .f32 := m ((c : Thread nD τ).loc main_arg17)

abbrev aDecB : FVec Ideal S3 .f32 := m ((c : Thread nD τ).loc main_arg18)

abbrev kx0 : FVec Ideal S100000x128 .f32 := W3 (F := Ideal) m ρ c (Proc.devRef .tc main_v2)

abbrev kx1 : FVec Ideal S2000x128 .f32 := W5 (F := Ideal) m ρ c (Proc.devRef .tc main_v3)

abbrev ko0_0 : FVec Ideal S100000x128 .f32 := W17 (F := Ideal) m ρ c (Proc.devRef .tc main_v48)

abbrev ko1_0 : FVec Ideal S2000x128 .f32 := W17 (F := Ideal) m ρ c (Proc.devRef .tc main_v71)

abbrev ko0_1 : FVec Ideal S100000x128 .f32 := W29 (F := Ideal) m ρ c (Proc.devRef .tc main_v116)

abbrev ko1_1 : FVec Ideal S2000x128 .f32 := W29 (F := Ideal) m ρ c (Proc.devRef .tc main_v139)

abbrev ko0_2 : FVec Ideal S100000x128 .f32 := W41 (F := Ideal) m ρ c (Proc.devRef .tc main_v184)

abbrev ko1_2 : FVec Ideal S2000x128 .f32 := W41 (F := Ideal) m ρ c (Proc.devRef .tc main_v207)

abbrev ko0_3 : FVec Ideal S100000x128 .f32 := W53 (F := Ideal) m ρ c (Proc.devRef .tc main_v252)

abbrev ko1_3 : FVec Ideal S2000x128 .f32 := W53 (F := Ideal) m ρ c (Proc.devRef .tc main_v275)

abbrev ko0_4 : FVec Ideal S100000x128 .f32 := W65 (F := Ideal) m ρ c (Proc.devRef .tc main_v320)

abbrev ko1_4 : FVec Ideal S2000x128 .f32 := W65 (F := Ideal) m ρ c (Proc.devRef .tc main_v343)

abbrev kLast : FVec Ideal S100000x3 .f32 := W67 (F := Ideal) m ρ c (Proc.devRef .tc main_v348)

abbrev kSoft : FVec Ideal S100000x3 .f32 := W67 (F := Ideal) m ρ c (Proc.devRef .tc main_v359)

end Cert.KernelIdeal.KV

end
-- ==== Proof.KArgs.lean ====
import proofs.«409564_j17119739642177_3_alg».proof.Proof.FrameKI

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg)

def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

theorem devRef_ne_of_arg {b r : Ref sig .tc} (hb : b ∈ argRefs) (hr : r ∉ argRefs) :
    Proc.devRef (τ := τ) .tc b ≠ Proc.devRef .tc r :=
  StableHlo.devRef_ne_of_ne fun e => hr (e ▸ hb)

theorem ne_arg_of_forall_not_mem {W : Nat} (f : Fin W → Ref sig .tc) (h : ∀ w, f w ∉ argRefs)
    {b : Ref sig .tc} (hb : b ∈ argRefs) : ∀ w, f w ≠ b :=
  fun w e => h w (e ▸ hb)

local macro "host_frame " ops:ident hb:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact devRef_ne_of_arg $hb (by decide))))

theorem W0_arg (c : Dev nD) (b : Ref sig .tc) (hb : b ∈ argRefs) :
    W0 m ρ c (Proc.devRef .tc b) = m ((c : Thread nD τ).loc b) := rfl

set_option maxHeartbeats 1000000 in
theorem W1_arg (c : Dev nD) (b : Ref sig .tc) (hb : b ∈ argRefs) :
    W1 m ρ c (Proc.devRef .tc b) = m ((c : Thread nD τ).loc b) := by
  have h : W1 m ρ c (Proc.devRef .tc b) = W0 m ρ c (Proc.devRef .tc b) := by host_frame hostOps0 hb
  exact h.trans (W0_arg m ρ c b hb)

set_option maxHeartbeats 1000000 in
theorem W2_arg (c : Dev nD) (b : Ref sig .tc) (hb : b ∈ argRefs) :
    W2 m ρ c (Proc.devRef .tc b) = m ((c : Thread nD τ).loc b) := by
  have h : W2 m ρ c (Proc.devRef .tc b) = W1 m ρ c (Proc.devRef .tc b) := by host_frame hostOps0_1 hb
  exact h.trans (W1_arg m ρ c b hb)

theorem W3_arg (c : Dev nD) (b : Ref sig .tc) (hb : b ∈ argRefs) :
    W3 m ρ c (Proc.devRef .tc b) = m ((c : Thread nD τ).loc b) := by
  by_cases h1 : b = main_arg1
  · subst h1
    exact ((W3_arr m ρ c 0).trans (((dat0 (V2 m ρ) c).arrAt_in 0 rfl _).trans (A_eq0 (V2 m ρ) c 0))).trans
      (W2_arg m ρ c main_arg1 hb)
  by_cases h12 : b = main_arg12
  · subst h12
    exact ((W3_arr m ρ c 1).trans (((dat0 (V2 m ρ) c).arrAt_in 1 rfl _).trans (A_eq0 (V2 m ρ) c 1))).trans
      (W2_arg m ρ c main_arg12 hb)
  · have hw : ∀ w, Pipeline.arrRef spec0 w ∈ argRefs →
        Pipeline.arrRef spec0 w = main_arg1 ∨ Pipeline.arrRef spec0 w = main_arg12 := by decide
    have hne : ∀ w, Pipeline.arrRef spec0 w ≠ b := fun w e => by
      rcases hw w (e ▸ hb) with h | h
      · exact h1 (e.symm.trans h)
      · exact h12 (e.symm.trans h)
    exact (W3_of_ne m ρ c b hne).trans (W2_arg m ρ c b hb)

set_option maxHeartbeats 1000000 in
theorem W4_arg (c : Dev nD) (b : Ref sig .tc) (hb : b ∈ argRefs) :
    W4 m ρ c (Proc.devRef .tc b) = m ((c : Thread nD τ).loc b) := by
  have h : W4 m ρ c (Proc.devRef .tc b) = W3 m ρ c (Proc.devRef .tc b) := by host_frame hostOps1 hb
  exact h.trans (W3_arg m ρ c b hb)

set_option maxHeartbeats 1000000 in
theorem W5_arg (c : Dev nD) (b : Ref sig .tc) (hb : b ∈ argRefs) :
    W5 m ρ c (Proc.devRef .tc b) = m ((c : Thread nD τ).loc b) := by
  have h : W5 m ρ c (Proc.devRef .tc b) = W4 m ρ c (Proc.devRef .tc b) := by host_frame hostOps1_1 hb
  exact h.trans (W4_arg m ρ c b hb)

theorem W6_arg (c : Dev nD) (b : Ref sig .tc) (hb : b ∈ argRefs) :
    W6 m ρ c (Proc.devRef .tc b) = m ((c : Thread nD τ).loc b) :=
  (W6_of_ne m ρ c b (ne_arg_of_forall_not_mem (Pipeline.arrRef spec1) (by decide) hb)).trans (W5_arg m ρ c b hb)

set_option maxHeartbeats 1000000 in
theorem W7_arg (c : Dev nD) (b : Ref sig .tc) (hb : b ∈ argRefs) :
    W7 m ρ c (Proc.devRef .tc b) = m ((c : Thread nD τ).loc b) := by
  have h : W7 m ρ c (Proc.devRef .tc b) = W6 m ρ c (Proc.devRef .tc b) := by host_frame hostOps2 hb
  exact h.trans (W6_arg m ρ c b hb)

theorem W8_arg (c : Dev nD) (b : Ref sig .tc) (hb : b ∈ argRefs) :
    W8 m ρ c (Proc.devRef .tc b) = m ((c : Thread nD τ).loc b) :=
  (W8_of_ne m ρ c b (ne_arg_of_forall_not_mem (Pipeline.arrRef spec2) (by decide) hb)).trans (W7_arg m ρ c b hb)

set_option maxHeartbeats 1000000 in
theorem W9_arg (c : Dev nD) (b : Ref sig .tc) (hb : b ∈ argRefs) :
    W9 m ρ c (Proc.devRef .tc b) = m ((c : Thread nD τ).loc b) := by
  have h : W9 m ρ c (Proc.devRef .tc b) = W8 m ρ c (Proc.devRef .tc b) := by host_frame hostOps3 hb
  exact h.trans (W8_arg m ρ c b hb)

set_option maxHeartbeats 1000000 in
theorem W10_arg (c : Dev nD) (b : Ref sig .tc) (hb : b ∈ argRefs) :
    W10 m ρ c (Proc.devRef .tc b) = m ((c : Thread nD τ).loc b) := by
  have h : W10 m ρ c (Proc.devRef .tc b) = W9 m ρ c (Proc.devRef .tc b) := by host_frame hostOps3_1 hb
  exact h.trans (W9_arg m ρ c b hb)

set_option maxHeartbeats 1000000 in
theorem W11_arg (c : Dev nD) (b : Ref sig .tc) (hb : b ∈ argRefs) :
    W11 m ρ c (Proc.devRef .tc b) = m ((c : Thread nD τ).loc b) := by
  have h : W11 m ρ c (Proc.devRef .tc b) = W10 m ρ c (Proc.devRef .tc b) := by host_frame hostOps3_2 hb
  exact h.trans (W10_arg m ρ c b hb)

set_option maxHeartbeats 1000000 in
theorem W12_arg (c : Dev nD) (b : Ref sig .tc) (hb : b ∈ argRefs) :
    W12 m ρ c (Proc.devRef .tc b) = m ((c : Thread nD τ).loc b) := by
  have h : W12 m ρ c (Proc.devRef .tc b) = W11 m ρ c (Proc.devRef .tc b) := by host_frame hostOps3_3 hb
  exact h.trans (W11_arg m ρ c b hb)

set_option maxHeartbeats 1000000 in
theorem W13_arg (c : Dev nD) (b : Ref sig .tc) (hb : b ∈ argRefs) :
    W13 m ρ c (Proc.devRef .tc b) = m ((c : Thread nD τ).loc b) := by
  have h : W13 m ρ c (Proc.devRef .tc b) = W12 m ρ c (Proc.devRef .tc b) := by host_frame hostOps3_4 hb
  exact h.trans (W12_arg m ρ c b hb)

set_option maxHeartbeats 1000000 in
theorem W14_arg (c : Dev nD) (b : Ref sig .tc) (hb : b ∈ argRefs) :
    W14 m ρ c (Proc.devRef .tc b) = m ((c : Thread nD τ).loc b) := by
  have h : W14 m ρ c (Proc.devRef .tc b) = W13 m ρ c (Proc.devRef .tc b) := by host_frame hostOps3_5 hb
  exact h.trans (W13_arg m ρ c b hb)

set_option maxHeartbeats 1000000 in
theorem W15_arg (c : Dev nD) (b : Ref sig .tc) (hb : b ∈ argRefs) :
    W15 m ρ c (Proc.devRef .tc b) = m ((c : Thread nD τ).loc b) := by
  have h : W15 m ρ c (Proc.devRef .tc b) = W14 m ρ c (Proc.devRef .tc b) := by host_frame hostOps3_6 hb
  exact h.trans (W14_arg m ρ c b hb)

set_option maxHeartbeats 1000000 in
theorem W16_arg (c : Dev nD) (b : Ref sig .tc) (hb : b ∈ argRefs) :
    W16 m ρ c (Proc.devRef .tc b) = m ((c : Thread nD τ).loc b) := by
  have h : W16 m ρ c (Proc.devRef .tc b) = W15 m ρ c (Proc.devRef .tc b) := by host_frame hostOps3_7 hb
  exact h.trans (W15_arg m ρ c b hb)

set_option maxHeartbeats 1000000 in
theorem W17_arg (c : Dev nD) (b : Ref sig .tc) (hb : b ∈ argRefs) :
    W17 m ρ c (Proc.devRef .tc b) = m ((c : Thread nD τ).loc b) := by
  have h : W17 m ρ c (Proc.devRef .tc b) = W16 m ρ c (Proc.devRef .tc b) := by host_frame hostOps3_8 hb
  exact h.trans (W16_arg m ρ c b hb)

theorem W18_arg (c : Dev nD) (b : Ref sig .tc) (hb : b ∈ argRefs) :
    W18 m ρ c (Proc.devRef .tc b) = m ((c : Thread nD τ).loc b) :=
  (W18_of_ne m ρ c b (ne_arg_of_forall_not_mem (Pipeline.arrRef spec3) (by decide) hb)).trans (W17_arg m ρ c b hb)

set_option maxHeartbeats 1000000 in
theorem W19_arg (c : Dev nD) (b : Ref sig .tc) (hb : b ∈ argRefs) :
    W19 m ρ c (Proc.devRef .tc b) = m ((c : Thread nD τ).loc b) := by
  have h : W19 m ρ c (Proc.devRef .tc b) = W18 m ρ c (Proc.devRef .tc b) := by host_frame hostOps4 hb
  exact h.trans (W18_arg m ρ c b hb)

theorem W20_arg (c : Dev nD) (b : Ref sig .tc) (hb : b ∈ argRefs) :
    W20 m ρ c (Proc.devRef .tc b) = m ((c : Thread nD τ).loc b) :=
  (W20_of_ne m ρ c b (ne_arg_of_forall_not_mem (Pipeline.arrRef spec4) (by decide) hb)).trans (W19_arg m ρ c b hb)

set_option maxHeartbeats 1000000 in
theorem W21_arg (c : Dev nD) (b : Ref sig .tc) (hb : b ∈ argRefs) :
    W21 m ρ c (Proc.devRef .tc b) = m ((c : Thread nD τ).loc b) := by
  have h : W21 m ρ c (Proc.devRef .tc b) = W20 m ρ c (Proc.devRef .tc b) := by host_frame hostOps5 hb
  exact h.trans (W20_arg m ρ c b hb)

set_option maxHeartbeats 1000000 in
theorem W22_arg (c : Dev nD) (b : Ref sig .tc) (hb : b ∈ argRefs) :
    W22 m ρ c (Proc.devRef .tc b) = m ((c : Thread nD τ).loc b) := by
  have h : W22 m ρ c (Proc.devRef .tc b) = W21 m ρ c (Proc.devRef .tc b) := by host_frame hostOps5_1 hb
  exact h.trans (W21_arg m ρ c b hb)

set_option maxHeartbeats 1000000 in
theorem W23_arg (c : Dev nD) (b : Ref sig .tc) (hb : b ∈ argRefs) :
    W23 m ρ c (Proc.devRef .tc b) = m ((c : Thread nD τ).loc b) := by
  have h : W23 m ρ c (Proc.devRef .tc b) = W22 m ρ c (Proc.devRef .tc b) := by host_frame hostOps5_2 hb
  exact h.trans (W22_arg m ρ c b hb)

set_option maxHeartbeats 1000000 in
theorem W24_arg (c : Dev nD) (b : Ref sig .tc) (hb : b ∈ argRefs) :
    W24 m ρ c (Proc.devRef .tc b) = m ((c : Thread nD τ).loc b) := by
  have h : W24 m ρ c (Proc.devRef .tc b) = W23 m ρ c (Proc.devRef .tc b) := by host_frame hostOps5_3 hb
  exact h.trans (W23_arg m ρ c b hb)

set_option maxHeartbeats 1000000 in
theorem W25_arg (c : Dev nD) (b : Ref sig .tc) (hb : b ∈ argRefs) :
    W25 m ρ c (Proc.devRef .tc b) = m ((c : Thread nD τ).loc b) := by
  have h : W25 m ρ c (Proc.devRef .tc b) = W24 m ρ c (Proc.devRef .tc b) := by host_frame hostOps5_4 hb
  exact h.trans (W24_arg m ρ c b hb)

set_option maxHeartbeats 1000000 in
theorem W26_arg (c : Dev nD) (b : Ref sig .tc) (hb : b ∈ argRefs) :
    W26 m ρ c (Proc.devRef .tc b) = m ((c : Thread nD τ).loc b) := by
  have h : W26 m ρ c (Proc.devRef .tc b) = W25 m ρ c (Proc.devRef .tc b) := by host_frame hostOps5_5 hb
  exact h.trans (W25_arg m ρ c b hb)

set_option maxHeartbeats 1000000 in
theorem W27_arg (c : Dev nD) (b : Ref sig .tc) (hb : b ∈ argRefs) :
    W27 m ρ c (Proc.devRef .tc b) = m ((c : Thread nD τ).loc b) := by
  have h : W27 m ρ c (Proc.devRef .tc b) = W26 m ρ c (Proc.devRef .tc b) := by host_frame hostOps5_6 hb
  exact h.trans (W26_arg m ρ c b hb)

set_option maxHeartbeats 1000000 in
theorem W28_arg (c : Dev nD) (b : Ref sig .tc) (hb : b ∈ argRefs) :
    W28 m ρ c (Proc.devRef .tc b) = m ((c : Thread nD τ).loc b) := by
  have h : W28 m ρ c (Proc.devRef .tc b) = W27 m ρ c (Proc.devRef .tc b) := by host_frame hostOps5_7 hb
  exact h.trans (W27_arg m ρ c b hb)

set_option maxHeartbeats 1000000 in
theorem W29_arg (c : Dev nD) (b : Ref sig .tc) (hb : b ∈ argRefs) :
    W29 m ρ c (Proc.devRef .tc b) = m ((c : Thread nD τ).loc b) := by
  have h : W29 m ρ c (Proc.devRef .tc b) = W28 m ρ c (Proc.devRef .tc b) := by host_frame hostOps5_8 hb
  exact h.trans (W28_arg m ρ c b hb)

theorem W30_arg (c : Dev nD) (b : Ref sig .tc) (hb : b ∈ argRefs) :
    W30 m ρ c (Proc.devRef .tc b) = m ((c : Thread nD τ).loc b) :=
  (W30_of_ne m ρ c b (ne_arg_of_forall_not_mem (Pipeline.arrRef spec5) (by decide) hb)).trans (W29_arg m ρ c b hb)

set_option maxHeartbeats 1000000 in
theorem W31_arg (c : Dev nD) (b : Ref sig .tc) (hb : b ∈ argRefs) :
    W31 m ρ c (Proc.devRef .tc b) = m ((c : Thread nD τ).loc b) := by
  have h : W31 m ρ c (Proc.devRef .tc b) = W30 m ρ c (Proc.devRef .tc b) := by host_frame hostOps6 hb
  exact h.trans (W30_arg m ρ c b hb)

theorem W32_arg (c : Dev nD) (b : Ref sig .tc) (hb : b ∈ argRefs) :
    W32 m ρ c (Proc.devRef .tc b) = m ((c : Thread nD τ).loc b) :=
  (W32_of_ne m ρ c b (ne_arg_of_forall_not_mem (Pipeline.arrRef spec6) (by decide) hb)).trans (W31_arg m ρ c b hb)

set_option maxHeartbeats 1000000 in
theorem W33_arg (c : Dev nD) (b : Ref sig .tc) (hb : b ∈ argRefs) :
    W33 m ρ c (Proc.devRef .tc b) = m ((c : Thread nD τ).loc b) := by
  have h : W33 m ρ c (Proc.devRef .tc b) = W32 m ρ c (Proc.devRef .tc b) := by host_frame hostOps7 hb
  exact h.trans (W32_arg m ρ c b hb)

set_option maxHeartbeats 1000000 in
theorem W34_arg (c : Dev nD) (b : Ref sig .tc) (hb : b ∈ argRefs) :
    W34 m ρ c (Proc.devRef .tc b) = m ((c : Thread nD τ).loc b) := by
  have h : W34 m ρ c (Proc.devRef .tc b) = W33 m ρ c (Proc.devRef .tc b) := by host_frame hostOps7_1 hb
  exact h.trans (W33_arg m ρ c b hb)

set_option maxHeartbeats 1000000 in
theorem W35_arg (c : Dev nD) (b : Ref sig .tc) (hb : b ∈ argRefs) :
    W35 m ρ c (Proc.devRef .tc b) = m ((c : Thread nD τ).loc b) := by
  have h : W35 m ρ c (Proc.devRef .tc b) = W34 m ρ c (Proc.devRef .tc b) := by host_frame hostOps7_2 hb
  exact h.trans (W34_arg m ρ c b hb)

set_option maxHeartbeats 1000000 in
theorem W36_arg (c : Dev nD) (b : Ref sig .tc) (hb : b ∈ argRefs) :
    W36 m ρ c (Proc.devRef .tc b) = m ((c : Thread nD τ).loc b) := by
  have h : W36 m ρ c (Proc.devRef .tc b) = W35 m ρ c (Proc.devRef .tc b) := by host_frame hostOps7_3 hb
  exact h.trans (W35_arg m ρ c b hb)

set_option maxHeartbeats 1000000 in
theorem W37_arg (c : Dev nD) (b : Ref sig .tc) (hb : b ∈ argRefs) :
    W37 m ρ c (Proc.devRef .tc b) = m ((c : Thread nD τ).loc b) := by
  have h : W37 m ρ c (Proc.devRef .tc b) = W36 m ρ c (Proc.devRef .tc b) := by host_frame hostOps7_4 hb
  exact h.trans (W36_arg m ρ c b hb)

set_option maxHeartbeats 1000000 in
theorem W38_arg (c : Dev nD) (b : Ref sig .tc) (hb : b ∈ argRefs) :
    W38 m ρ c (Proc.devRef .tc b) = m ((c : Thread nD τ).loc b) := by
  have h : W38 m ρ c (Proc.devRef .tc b) = W37 m ρ c (Proc.devRef .tc b) := by host_frame hostOps7_5 hb
  exact h.trans (W37_arg m ρ c b hb)

set_option maxHeartbeats 1000000 in
theorem W39_arg (c : Dev nD) (b : Ref sig .tc) (hb : b ∈ argRefs) :
    W39 m ρ c (Proc.devRef .tc b) = m ((c : Thread nD τ).loc b) := by
  have h : W39 m ρ c (Proc.devRef .tc b) = W38 m ρ c (Proc.devRef .tc b) := by host_frame hostOps7_6 hb
  exact h.trans (W38_arg m ρ c b hb)

set_option maxHeartbeats 1000000 in
theorem W40_arg (c : Dev nD) (b : Ref sig .tc) (hb : b ∈ argRefs) :
    W40 m ρ c (Proc.devRef .tc b) = m ((c : Thread nD τ).loc b) := by
  have h : W40 m ρ c (Proc.devRef .tc b) = W39 m ρ c (Proc.devRef .tc b) := by host_frame hostOps7_7 hb
  exact h.trans (W39_arg m ρ c b hb)

set_option maxHeartbeats 1000000 in
theorem W41_arg (c : Dev nD) (b : Ref sig .tc) (hb : b ∈ argRefs) :
    W41 m ρ c (Proc.devRef .tc b) = m ((c : Thread nD τ).loc b) := by
  have h : W41 m ρ c (Proc.devRef .tc b) = W40 m ρ c (Proc.devRef .tc b) := by host_frame hostOps7_8 hb
  exact h.trans (W40_arg m ρ c b hb)

theorem W42_arg (c : Dev nD) (b : Ref sig .tc) (hb : b ∈ argRefs) :
    W42 m ρ c (Proc.devRef .tc b) = m ((c : Thread nD τ).loc b) :=
  (W42_of_ne m ρ c b (ne_arg_of_forall_not_mem (Pipeline.arrRef spec7) (by decide) hb)).trans (W41_arg m ρ c b hb)

set_option maxHeartbeats 1000000 in
theorem W43_arg (c : Dev nD) (b : Ref sig .tc) (hb : b ∈ argRefs) :
    W43 m ρ c (Proc.devRef .tc b) = m ((c : Thread nD τ).loc b) := by
  have h : W43 m ρ c (Proc.devRef .tc b) = W42 m ρ c (Proc.devRef .tc b) := by host_frame hostOps8 hb
  exact h.trans (W42_arg m ρ c b hb)

theorem W44_arg (c : Dev nD) (b : Ref sig .tc) (hb : b ∈ argRefs) :
    W44 m ρ c (Proc.devRef .tc b) = m ((c : Thread nD τ).loc b) :=
  (W44_of_ne m ρ c b (ne_arg_of_forall_not_mem (Pipeline.arrRef spec8) (by decide) hb)).trans (W43_arg m ρ c b hb)

set_option maxHeartbeats 1000000 in
theorem W45_arg (c : Dev nD) (b : Ref sig .tc) (hb : b ∈ argRefs) :
    W45 m ρ c (Proc.devRef .tc b) = m ((c : Thread nD τ).loc b) := by
  have h : W45 m ρ c (Proc.devRef .tc b) = W44 m ρ c (Proc.devRef .tc b) := by host_frame hostOps9 hb
  exact h.trans (W44_arg m ρ c b hb)

set_option maxHeartbeats 1000000 in
theorem W46_arg (c : Dev nD) (b : Ref sig .tc) (hb : b ∈ argRefs) :
    W46 m ρ c (Proc.devRef .tc b) = m ((c : Thread nD τ).loc b) := by
  have h : W46 m ρ c (Proc.devRef .tc b) = W45 m ρ c (Proc.devRef .tc b) := by host_frame hostOps9_1 hb
  exact h.trans (W45_arg m ρ c b hb)

set_option maxHeartbeats 1000000 in
theorem W47_arg (c : Dev nD) (b : Ref sig .tc) (hb : b ∈ argRefs) :
    W47 m ρ c (Proc.devRef .tc b) = m ((c : Thread nD τ).loc b) := by
  have h : W47 m ρ c (Proc.devRef .tc b) = W46 m ρ c (Proc.devRef .tc b) := by host_frame hostOps9_2 hb
  exact h.trans (W46_arg m ρ c b hb)

set_option maxHeartbeats 1000000 in
theorem W48_arg (c : Dev nD) (b : Ref sig .tc) (hb : b ∈ argRefs) :
    W48 m ρ c (Proc.devRef .tc b) = m ((c : Thread nD τ).loc b) := by
  have h : W48 m ρ c (Proc.devRef .tc b) = W47 m ρ c (Proc.devRef .tc b) := by host_frame hostOps9_3 hb
  exact h.trans (W47_arg m ρ c b hb)

set_option maxHeartbeats 1000000 in
theorem W49_arg (c : Dev nD) (b : Ref sig .tc) (hb : b ∈ argRefs) :
    W49 m ρ c (Proc.devRef .tc b) = m ((c : Thread nD τ).loc b) := by
  have h : W49 m ρ c (Proc.devRef .tc b) = W48 m ρ c (Proc.devRef .tc b) := by host_frame hostOps9_4 hb
  exact h.trans (W48_arg m ρ c b hb)

set_option maxHeartbeats 1000000 in
theorem W50_arg (c : Dev nD) (b : Ref sig .tc) (hb : b ∈ argRefs) :
    W50 m ρ c (Proc.devRef .tc b) = m ((c : Thread nD τ).loc b) := by
  have h : W50 m ρ c (Proc.devRef .tc b) = W49 m ρ c (Proc.devRef .tc b) := by host_frame hostOps9_5 hb
  exact h.trans (W49_arg m ρ c b hb)

set_option maxHeartbeats 1000000 in
theorem W51_arg (c : Dev nD) (b : Ref sig .tc) (hb : b ∈ argRefs) :
    W51 m ρ c (Proc.devRef .tc b) = m ((c : Thread nD τ).loc b) := by
  have h : W51 m ρ c (Proc.devRef .tc b) = W50 m ρ c (Proc.devRef .tc b) := by host_frame hostOps9_6 hb
  exact h.trans (W50_arg m ρ c b hb)

set_option maxHeartbeats 1000000 in
theorem W52_arg (c : Dev nD) (b : Ref sig .tc) (hb : b ∈ argRefs) :
    W52 m ρ c (Proc.devRef .tc b) = m ((c : Thread nD τ).loc b) := by
  have h : W52 m ρ c (Proc.devRef .tc b) = W51 m ρ c (Proc.devRef .tc b) := by host_frame hostOps9_7 hb
  exact h.trans (W51_arg m ρ c b hb)

set_option maxHeartbeats 1000000 in
theorem W53_arg (c : Dev nD) (b : Ref sig .tc) (hb : b ∈ argRefs) :
    W53 m ρ c (Proc.devRef .tc b) = m ((c : Thread nD τ).loc b) := by
  have h : W53 m ρ c (Proc.devRef .tc b) = W52 m ρ c (Proc.devRef .tc b) := by host_frame hostOps9_8 hb
  exact h.trans (W52_arg m ρ c b hb)

theorem W54_arg (c : Dev nD) (b : Ref sig .tc) (hb : b ∈ argRefs) :
    W54 m ρ c (Proc.devRef .tc b) = m ((c : Thread nD τ).loc b) :=
  (W54_of_ne m ρ c b (ne_arg_of_forall_not_mem (Pipeline.arrRef spec9) (by decide) hb)).trans (W53_arg m ρ c b hb)

set_option maxHeartbeats 1000000 in
theorem W55_arg (c : Dev nD) (b : Ref sig .tc) (hb : b ∈ argRefs) :
    W55 m ρ c (Proc.devRef .tc b) = m ((c : Thread nD τ).loc b) := by
  have h : W55 m ρ c (Proc.devRef .tc b) = W54 m ρ c (Proc.devRef .tc b) := by host_frame hostOps10 hb
  exact h.trans (W54_arg m ρ c b hb)

theorem W56_arg (c : Dev nD) (b : Ref sig .tc) (hb : b ∈ argRefs) :
    W56 m ρ c (Proc.devRef .tc b) = m ((c : Thread nD τ).loc b) :=
  (W56_of_ne m ρ c b (ne_arg_of_forall_not_mem (Pipeline.arrRef spec10) (by decide) hb)).trans (W55_arg m ρ c b hb)

set_option maxHeartbeats 1000000 in
theorem W57_arg (c : Dev nD) (b : Ref sig .tc) (hb : b ∈ argRefs) :
    W57 m ρ c (Proc.devRef .tc b) = m ((c : Thread nD τ).loc b) := by
  have h : W57 m ρ c (Proc.devRef .tc b) = W56 m ρ c (Proc.devRef .tc b) := by host_frame hostOps11 hb
  exact h.trans (W56_arg m ρ c b hb)

set_option maxHeartbeats 1000000 in
theorem W58_arg (c : Dev nD) (b : Ref sig .tc) (hb : b ∈ argRefs) :
    W58 m ρ c (Proc.devRef .tc b) = m ((c : Thread nD τ).loc b) := by
  have h : W58 m ρ c (Proc.devRef .tc b) = W57 m ρ c (Proc.devRef .tc b) := by host_frame hostOps11_1 hb
  exact h.trans (W57_arg m ρ c b hb)

set_option maxHeartbeats 1000000 in
theorem W59_arg (c : Dev nD) (b : Ref sig .tc) (hb : b ∈ argRefs) :
    W59 m ρ c (Proc.devRef .tc b) = m ((c : Thread nD τ).loc b) := by
  have h : W59 m ρ c (Proc.devRef .tc b) = W58 m ρ c (Proc.devRef .tc b) := by host_frame hostOps11_2 hb
  exact h.trans (W58_arg m ρ c b hb)

set_option maxHeartbeats 1000000 in
theorem W60_arg (c : Dev nD) (b : Ref sig .tc) (hb : b ∈ argRefs) :
    W60 m ρ c (Proc.devRef .tc b) = m ((c : Thread nD τ).loc b) := by
  have h : W60 m ρ c (Proc.devRef .tc b) = W59 m ρ c (Proc.devRef .tc b) := by host_frame hostOps11_3 hb
  exact h.trans (W59_arg m ρ c b hb)

set_option maxHeartbeats 1000000 in
theorem W61_arg (c : Dev nD) (b : Ref sig .tc) (hb : b ∈ argRefs) :
    W61 m ρ c (Proc.devRef .tc b) = m ((c : Thread nD τ).loc b) := by
  have h : W61 m ρ c (Proc.devRef .tc b) = W60 m ρ c (Proc.devRef .tc b) := by host_frame hostOps11_4 hb
  exact h.trans (W60_arg m ρ c b hb)

set_option maxHeartbeats 1000000 in
theorem W62_arg (c : Dev nD) (b : Ref sig .tc) (hb : b ∈ argRefs) :
    W62 m ρ c (Proc.devRef .tc b) = m ((c : Thread nD τ).loc b) := by
  have h : W62 m ρ c (Proc.devRef .tc b) = W61 m ρ c (Proc.devRef .tc b) := by host_frame hostOps11_5 hb
  exact h.trans (W61_arg m ρ c b hb)

set_option maxHeartbeats 1000000 in
theorem W63_arg (c : Dev nD) (b : Ref sig .tc) (hb : b ∈ argRefs) :
    W63 m ρ c (Proc.devRef .tc b) = m ((c : Thread nD τ).loc b) := by
  have h : W63 m ρ c (Proc.devRef .tc b) = W62 m ρ c (Proc.devRef .tc b) := by host_frame hostOps11_6 hb
  exact h.trans (W62_arg m ρ c b hb)

set_option maxHeartbeats 1000000 in
theorem W64_arg (c : Dev nD) (b : Ref sig .tc) (hb : b ∈ argRefs) :
    W64 m ρ c (Proc.devRef .tc b) = m ((c : Thread nD τ).loc b) := by
  have h : W64 m ρ c (Proc.devRef .tc b) = W63 m ρ c (Proc.devRef .tc b) := by host_frame hostOps11_7 hb
  exact h.trans (W63_arg m ρ c b hb)

set_option maxHeartbeats 1000000 in
theorem W65_arg (c : Dev nD) (b : Ref sig .tc) (hb : b ∈ argRefs) :
    W65 m ρ c (Proc.devRef .tc b) = m ((c : Thread nD τ).loc b) := by
  have h : W65 m ρ c (Proc.devRef .tc b) = W64 m ρ c (Proc.devRef .tc b) := by host_frame hostOps11_8 hb
  exact h.trans (W64_arg m ρ c b hb)

set_option maxHeartbeats 1000000 in
theorem W66_arg (c : Dev nD) (b : Ref sig .tc) (hb : b ∈ argRefs) :
    W66 m ρ c (Proc.devRef .tc b) = m ((c : Thread nD τ).loc b) := by
  have h : W66 m ρ c (Proc.devRef .tc b) = W65 m ρ c (Proc.devRef .tc b) := by host_frame hostOps11_9 hb
  exact h.trans (W65_arg m ρ c b hb)

set_option maxHeartbeats 1000000 in
theorem W67_arg (c : Dev nD) (b : Ref sig .tc) (hb : b ∈ argRefs) :
    W67 m ρ c (Proc.devRef .tc b) = m ((c : Thread nD τ).loc b) := by
  have h : W67 m ρ c (Proc.devRef .tc b) = W66 m ρ c (Proc.devRef .tc b) := by host_frame hostOps11_10 hb
  exact h.trans (W66_arg m ρ c b hb)

end Cert.KernelIdeal.KV

end
-- ==== Proof.LibDotSum.lean ====
import Idealize.ShloMosaic.PureOps.Ideal.Laws
import Idealize.ShloMosaic.Lib.ValueIdx

noncomputable section

namespace Cert.Lib

open Idealize.ShloMosaic Idealize.ShloMosaic.ValueIdx

variable {M K N : Nat}

def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.SpecLemmas.lean ====
import proofs.«409564_j17119739642177_3_alg».proof.Proof.Spec
import proofs.«409564_j17119739642177_3_alg».proof.Proof.LibDotSum
import Idealize.ShloMosaic.Lib.Pipeline.Value
import Idealize.ShloMosaic.Lib.ValueLayout

noncomputable section

namespace Cert.Spec

open Idealize.ShloMosaic Idealize.ShloMosaic.ValueIdx

theorem hrelu_eq {S : Shape} (h : S0.BroadcastsInDim S (![] : Fin 0 → Fin S.rank)) (x : FVec Ideal S .f32) :
    maximumf x (broadcastInDim S ![] h (constant S0 .f32 0x00000000#32)) = relu x := by
  funext i
  show max (x i) (Ideal.ofBits .f32 0x00000000#32) = max (x i) 0
  rw [Ideal.ofBits_zero_f32]

theorem zero_addf {S : Shape} (h : S0.BroadcastsInDim S (![] : Fin 0 → Fin S.rank)) (x : FVec Ideal S .f32) :
    addf (broadcastInDim S ![] h (constant S0 .f32 0x00000000#32)) x = x := by
  funext i
  show Ideal.ofBits .f32 0x00000000#32 + x i = x i
  rw [Ideal.ofBits_zero_f32, zero_add]

private theorem cast_row (b : FVec Ideal ⟨1, ![128]⟩ .f32) (h : (⟨1, ![128]⟩ : Shape).ShapeCasts ⟨2, ![1, 128]⟩) (c : Fin 128) :
    shapeCast ⟨2, ![1, 128]⟩ b h (ix2 0 c) = b (ix1 c) := by
  refine shapeCast_apply b h (ix2 0 c) (ix1 c) ?_
  rw [Shape.rowMajor_val_one, Shape.rowMajor_val_two]
  show c.val = 0 * 128 + c.val
  omega

theorem mlpRow_cast {M K : Nat} (x : FVec Ideal ⟨2, ![M, K]⟩ .f32) (w : FVec Ideal ⟨2, ![K, 128]⟩ .f32)
    (b : FVec Ideal ⟨1, ![128]⟩ .f32) (h : (⟨1, ![128]⟩ : Shape).ShapeCasts ⟨2, ![1, 128]⟩) :
    mlpRow x w (shapeCast ⟨2, ![1, 128]⟩ b h) = mlp x w b := by
  funext i
  unfold mlpRow mlp
  rw [cast_row b h (i 1)]

theorem encRow_cast {M K : Nat} (a : FVec Ideal ⟨2, ![M, K]⟩ .f32) (w : FVec Ideal ⟨2, ![K, 128]⟩ .f32)
    (b : FVec Ideal ⟨1, ![128]⟩ .f32) (h : (⟨1, ![128]⟩ : Shape).ShapeCasts ⟨2, ![1, 128]⟩) (e : FVec Ideal ⟨2, ![M, 128]⟩ .f32) :
    encRow a w (shapeCast ⟨2, ![1, 128]⟩ b h) e = enc a w b e := by
  funext i
  unfold encRow enc
  rw [cast_row b h (i 1)]

private theorem bias_bcast {M : Nat}
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (b : FVec Ideal ⟨1, ![128]⟩ .f32) (r : Fin M) (c : Fin 128) :
    broadcastInDim ⟨2, ![M, 128]⟩ ![0, 1] h2 (broadcastInDim ⟨2, ![1, 128]⟩ ![1] h1 b) (ix2 r c) = b (ix1 c) := by
  rw [broadcastInDim_apply ![0, 1] h2 _ (ix2 r c) (ix2 0 c) (by
    intro a
    match a with
    | ⟨0, _⟩ => rfl
    | ⟨1, _⟩ => rfl)]
  exact broadcastInDim_apply ![1] h1 b (ix2 0 c) (ix1 c) (by
    intro a
    match a with
    | ⟨0, _⟩ => rfl)

theorem mlpHost_eq {M K : Nat} (d : DotDims ⟨2, ![M, K]⟩ ⟨2, ![K, 128]⟩ ⟨2, ![M, 128]⟩)
    (hlc : d.lhsContracting = [1]) (hrc : d.rhsContracting = [0])
    (hln : d.lhsNonContracting = [0]) (hrn : d.rhsNonContracting = [1])
    (hlb : d.lhsBatch = []) (hrb : d.rhsBatch = [])
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (h0 : S0.BroadcastsInDim ⟨2, ![M, 128]⟩ (![] : Fin 0 → Fin 2))
    (x : FVec Ideal ⟨2, ![M, K]⟩ .f32) (w : FVec Ideal ⟨2, ![K, 128]⟩ .f32) (b : FVec Ideal ⟨1, ![128]⟩ .f32) :
    maximumf (addf (Host.dotGeneral d none x w)
        (broadcastInDim ⟨2, ![M, 128]⟩ ![0, 1] h2 (broadcastInDim ⟨2, ![1, 128]⟩ ![1] h1 b)))
      (broadcastInDim ⟨2, ![M, 128]⟩ ![] h0 (constant S0 .f32 0x00000000#32)) = mlp x w b := by
  funext i
  obtain ⟨r, c, rfl⟩ : ∃ (r : Fin M) (c : Fin 128), i = ix2 r c := ⟨i 0, i 1, eq_ix2 i⟩
  rw [maximumf_apply, addf_apply, Cert.Lib.dotGeneral_rc_apply d hlc hrc hln hrn hlb hrb, bias_bcast h1 h2 b r c]
  show max _ (Ideal.ofBits .f32 0x00000000#32) = _
  rw [Ideal.ofBits_zero_f32]
  rfl

theorem encHost_eq {M K : Nat} (d : DotDims ⟨2, ![M, K]⟩ ⟨2, ![K, 128]⟩ ⟨2, ![M, 128]⟩)
    (hlc : d.lhsContracting = [1]) (hrc : d.rhsContracting = [0])
    (hln : d.lhsNonContracting = [0]) (hrn : d.rhsNonContracting = [1])
    (hlb : d.lhsBatch = []) (hrb : d.rhsBatch = [])
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (a : FVec Ideal ⟨2, ![M, K]⟩ .f32) (w : FVec Ideal ⟨2, ![K, 128]⟩ .f32) (b : FVec Ideal ⟨1, ![128]⟩ .f32)
    (e : FVec Ideal ⟨2, ![M, 128]⟩ .f32) :
    addf (addf e (Host.dotGeneral d none a w))
      (broadcastInDim ⟨2, ![M, 128]⟩ ![0, 1] h2 (broadcastInDim ⟨2, ![1, 128]⟩ ![1] h1 b)) = enc a w b e := by
  funext i
  obtain ⟨r, c, rfl⟩ : ∃ (r : Fin M) (c : Fin 128), i = ix2 r c := ⟨i 0, i 1, eq_ix2 i⟩
  rw [addf_apply, addf_apply, Cert.Lib.dotGeneral_rc_apply d hlc hrc hln hrn hlb hrb, bias_bcast h1 h2 b r c]
  show _ = ((∑ k : Fin K, a (ix2 r k) * w (ix2 k c)) + b (ix1 c)) + e (ix2 r c)
  rw [add_comm (e (ix2 r c)), add_right_comm]

theorem wrap_eq {E : Nat} (hc : S0.BroadcastsInDim ⟨1, ![E]⟩ (![] : Fin 0 → Fin 1)) (n : BitVec 32) (idx : IVec ⟨1, ![E]⟩ 32)
    (hpos : ∀ i, cmpi .sge idx (broadcastInDim ⟨1, ![E]⟩ ![] hc (constantI S0 32 0#32)) i = 1#1) :
    wrap hc n idx = idx := by
  funext i
  have h : BitVec.ofBool ((0#32).sle (idx i)) = 1#1 := hpos i
  have hs : (idx i).slt 0#32 = false := by
    cases hb : (0#32).sle (idx i) with
    | false => rw [hb] at h; exact absurd h (by decide)
    | true =>
      rw [BitVec.sle, decide_eq_true_eq] at hb
      rw [BitVec.slt, decide_eq_false_iff_not]
      omega
  show Scalar.select (BitVec.ofBool ((idx i).slt 0#32)) _ (idx i) = idx i
  rw [hs]
  exact select_zero _ _

theorem gather_one_row {R : Nat} (gd : GatherDims ⟨2, ![1, 128]⟩ ⟨2, ![R, 1]⟩ ⟨2, ![R, 128]⟩)
    (hom : gd.offsetDims = [1]) (hcs : gd.collapsedSliceDims = [0]) (hsm : gd.startIndexMap = [0])
    (hob : gd.operandBatchingDims = []) (hsb : gd.startIndicesBatchingDims = [])
    (x : FVec Ideal ⟨2, ![1, 128]⟩ .f32) (i j : IVec ⟨2, ![R, 1]⟩ 32) :
    Host.gather gd x i = Host.gather gd x j := by
  funext y
  unfold Host.gather
  congr 1
  funext a
  refine Fin.ext ?_
  show gd.start y i a + gd.batchCoord y a + gd.offCoord y a = gd.start y j a + gd.batchCoord y a + gd.offCoord y a
  have hst : ∀ (v : IVec ⟨2, ![R, 1]⟩ 32), gd.start y v a = 0 := by
    intro v
    by_cases ha : a ∈ gd.startIndexMap
    · rw [hsm, List.mem_singleton] at ha
      subst ha
      have hlt := gd.lt y v 0
      have h1 : (⟨2, ![1, 128]⟩ : Shape).size 0 = 1 := rfl
      omega
    · unfold GatherDims.start
      rw [dif_neg ha]
  rw [hst i, hst j]

end Cert.Spec

end
-- ==== Proof.Reg0.lean ====
import proofs.«409564_j17119739642177_3_alg».proof.Proof.FrameKI
import proofs.«409564_j17119739642177_3_alg».proof.Proof.Spec
import proofs.«409564_j17119739642177_3_alg».proof.Proof.LibDotSum
import Idealize.ShloMosaic.Lib.Pipeline.Value
import Idealize.ShloMosaic.Lib.ValueLayout

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem r0_hz : (![0, 0] : Fin 2 → Nat) = fun _ => 0 := funext fun a => by fin_cases a <;> rfl

theorem r0_pay_at (x0 : Vec Ideal S5000x64 .f32) (x1 : Vec Ideal S64x128 .f32) (x2 : Vec Ideal S1x128 .f32)
    (x3 : Vec Ideal S5000x128 .f32) (p : Fin 5000) (q : Fin 128) :
    k0_pay1 (F := Ideal) x0 x1 x2 x3 (ix2 p q)
      = ((∑ k : Fin 64, x0 (ix2 p k) * x1 (ix2 k q)) + x2 (ix2 0 q)) + x3 (ix2 p q) := by
  unfold k0_pay1
  rw [shapeCast_self, shapeCast_self]
  show (matmul (F := Ideal) dot_S5000x64_S64x128_S5000x128_1_0_0_1_n_n none (truncf (F := Ideal) (φ := .f32) .bf16 x0 bitsLt_bf16_f32)
      (truncf (F := Ideal) (φ := .f32) .bf16 x1 bitsLt_bf16_f32)
      (constant (F := Ideal) S5000x128 .f32 0x00000000#32) (ix2 p q) + broadcastTo S5000x128 x2 broadcasts_S1x128_S5000x128 (ix2 p q)) + x3 (ix2 p q) = _
  rw [Cert.Lib.matmul_rc_apply dot_S5000x64_S64x128_S5000x128_1_0_0_1_n_n rfl rfl rfl rfl rfl rfl none
      (truncf (F := Ideal) (φ := .f32) .bf16 x0 bitsLt_bf16_f32) (truncf (F := Ideal) (φ := .f32) .bf16 x1 bitsLt_bf16_f32) p q,
    broadcastTo_apply x2 broadcasts_S1x128_S5000x128 (ix2 p q) (ix2 0 q) (fun a => by
      match a with
      | ⟨0, _⟩ => rfl
      | ⟨1, _⟩ => rfl)]
  rfl

theorem r0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem r0_rows_at (c : Dev nD) (t : Fin cfg0.N) (p : Fin 5000) (k : Fin 64) (r : Fin 100000)
    (hr : r.val = t.val * 5000 + p.val) :
    iblk0 V c 0 t (ix2 p k) = V c (Pipeline.arrRef spec0 0) (ix2 r k) := by
  obtain ⟨e00, e01, -⟩ := r0_idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = r.val; rw [e00, hr]; omega
  | ⟨1, _⟩ => show win0_0.index t (1 : Fin 2) * 64 + 1 * k.val = k.val; rw [e01]; omega

theorem r0_mat_at (c : Dev nD) (t : Fin cfg0.N) (k : Fin 64) (q : Fin 128) :
    iblk0 V c 1 t (ix2 k q) = V c (Pipeline.arrRef spec0 1) (ix2 k q) := by
  obtain ⟨-, -, e10, e11, -⟩ := r0_idx_facts t
  show V c (Pipeline.arrRef spec0 1) (((cfg0.win 1).blk t).view.emb (ix2 k q)) = _
  refine congrArg _ (funext fun a => Fin.ext ?_)
  match a with
  | ⟨0, _⟩ => show win0_1.index t (0 : Fin 2) * 64 + 1 * k.val = k.val; rw [e10]; omega
  | ⟨1, _⟩ => show win0_1.index t (1 : Fin 2) * 128 + 1 * q.val = q.val; rw [e11]; omega

theorem r0_bias_at (c : Dev nD) (t : Fin cfg0.N) (z : Fin 1) (q : Fin 128) :
    iblk0 V c 2 t (ix2 z q) = V c (Pipeline.arrRef spec0 2) (ix2 z q) := by
  obtain ⟨-, -, -, -, e20, e21, -⟩ := r0_idx_facts t
  show V c (Pipeline.arrRef spec0 2) (((cfg0.win 2).blk t).view.emb (ix2 z q)) = _
  refine congrArg _ (funext fun a => Fin.ext ?_)
  match a with
  | ⟨0, _⟩ => show win0_2.index t (0 : Fin 2) * 1 + 1 * z.val = z.val; rw [e20]; omega
  | ⟨1, _⟩ => show win0_2.index t (1 : Fin 2) * 128 + 1 * q.val = q.val; rw [e21]; omega

theorem r0_emb_at (c : Dev nD) (t : Fin cfg0.N) (p : Fin 5000) (q : Fin 128) (r : Fin 100000)
    (hr : r.val = t.val * 5000 + p.val) :
    iblk0 V c 3 t (ix2 p q) = V c (Pipeline.arrRef spec0 3) (ix2 r q) := by
  obtain ⟨-, -, -, -, -, -, e30, e31, -⟩ := r0_idx_facts t
  show V c (Pipeline.arrRef spec0 3) (((cfg0.win 3).blk t).view.emb (ix2 p q)) = _
  refine congrArg _ (funext fun a => Fin.ext ?_)
  match a with
  | ⟨0, _⟩ => show win0_3.index t (0 : Fin 2) * 5000 + 1 * p.val = r.val; rw [e30, hr]; omega
  | ⟨1, _⟩ => show win0_3.index t (1 : Fin 2) * 128 + 1 * q.val = q.val; rw [e31]; omega

theorem r0_out_at (t : Fin cfg0.N) (p : Fin 5000) (q : Fin 128) :
    ∃ r : Fin 100000, r.val = t.val * 5000 + p.val ∧ ((cfg0.win 4).blk t).view.emb (ix2 p q) = ix2 r q := by
  obtain ⟨-, -, -, -, -, -, -, -, e40, e41⟩ := r0_idx_facts t
  have ht : t.val < grid0.N := t.isLt
  rw [N_0] at ht
  refine ⟨⟨t.val * 5000 + p.val, by omega⟩, rfl, funext fun a => Fin.ext ?_⟩
  match a with
  | ⟨0, _⟩ => show win0_4.index t (0 : Fin 2) * 5000 + 1 * p.val = t.val * 5000 + p.val; rw [e40]; omega
  | ⟨1, _⟩ => show win0_4.index t (1 : Fin 2) * 128 + 1 * q.val = q.val; rw [e41]; omega

theorem r0_enc_at (a : FVec Ideal ⟨2, ![100000, 64]⟩ .f32) (w : FVec Ideal ⟨2, ![64, 128]⟩ .f32) (b : FVec Ideal ⟨2, ![1, 128]⟩ .f32)
    (e : FVec Ideal ⟨2, ![100000, 128]⟩ .f32) (r : Fin 100000) (q : Fin 128) :
    Spec.encRow a w b e (ix2 r q) = ((∑ k : Fin 64, a (ix2 r k) * w (ix2 k q)) + b (ix2 0 q)) + e (ix2 r q) := rfl

theorem r0_flushed_eq (c : Dev nD) (t : Fin cfg0.N) :
    (dat0 (F := Ideal) V c).flushed 4 t = ((cfg0.win 4).blk t).view.read (Elt Ideal)
      (Spec.encRow (M := 100000) (K := 64) (V c (Pipeline.arrRef spec0 0)) (V c (Pipeline.arrRef spec0 1))
        (V c (Pipeline.arrRef spec0 2)) (V c (Pipeline.arrRef spec0 3))) := by
  show (cfg0.win 4).cut (grid0.coords t) ((dat0 (F := Ideal) V c).after 4 t) = _
  rw [after0_4]
  unfold out0_4
  rw [View.canon_unit_zero r0_hz]
  simp only [View.ld_unit_zero (S := S5000x64) r0_hz, View.ld_unit_zero (S := S64x128) r0_hz,
    View.ld_unit_zero (S := S1x128) r0_hz, View.ld_unit_zero (S := S5000x128) r0_hz]
  funext j
  obtain ⟨p, q, rfl⟩ : ∃ (p : Fin 5000) (q : Fin 128), j = ix2 p q := ⟨j 0, j 1, eq_ix2 j⟩
  refine (r0_pay_at (iblk0 V c 0 t) (iblk0 V c 1 t) (iblk0 V c 2 t) (iblk0 V c 3 t) p q).trans ?_
  obtain ⟨r, hr, hemb⟩ := r0_out_at t p q
  show _ = Spec.encRow (M := 100000) (K := 64) (V c (Pipeline.arrRef spec0 0)) (V c (Pipeline.arrRef spec0 1))
    (V c (Pipeline.arrRef spec0 2)) (V c (Pipeline.arrRef spec0 3)) (((cfg0.win 4).blk t).view.emb (ix2 p q))
  rw [hemb, r0_enc_at, r0_emb_at V c t p q r hr, r0_bias_at V c t 0 q]
  refine congrArg₂ _ (congrArg₂ _ ?_ rfl) rfl
  refine Finset.sum_congr rfl fun k _ => ?_
  rw [r0_rows_at V c t p k r hr, r0_mat_at V c t k q]

theorem r0_mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

theorem r0_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, -, -, -, -, e0, e1⟩ := r0_idx_facts t
  refine ⟨t, flush0_4 t, ?_⟩
  rw [r0_mem_blk]
  intro a
  match a with
  | ⟨0, _⟩ => show win0_4.index t (0 : Fin 2) * 5000 ≤ (i 0).val ∧ (i 0).val < win0_4.index t (0 : Fin 2) * 5000 + 5000; rw [e0]; show (i 0).val / 5000 * 5000 ≤ (i 0).val ∧ (i 0).val < (i 0).val / 5000 * 5000 + 5000; omega
  | ⟨1, _⟩ => show win0_4.index t (1 : Fin 2) * 128 ≤ (i 1).val ∧ (i 1).val < win0_4.index t (1 : Fin 2) * 128 + 128; rw [e1]; omega

theorem final0_4 (c : Dev nD) :
    (dat0 (F := Ideal) V c).arrAt 4 cfg0.N
      = Spec.encRow (M := 100000) (K := 64) (V c (Pipeline.arrRef spec0 0)) (V c (Pipeline.arrRef spec0 1))
          (V c (Pipeline.arrRef spec0 2)) (V c (Pipeline.arrRef spec0 3)) :=
  (dat0 (F := Ideal) V c).arrAt_eq_of_cover 4
    (Spec.encRow (M := 100000) (K := 64) (V c (Pipeline.arrRef spec0 0)) (V c (Pipeline.arrRef spec0 1))
      (V c (Pipeline.arrRef spec0 2)) (V c (Pipeline.arrRef spec0 3)))
    (fun t _ => r0_flushed_eq V c t) r0_cover

end Cert.KernelIdeal.RegVal

end
-- ==== Proof.RegLib.lean ====
import proofs.«409564_j17119739642177_3_alg».proof.Proof.Spec
import proofs.«409564_j17119739642177_3_alg».proof.Proof.LibDotSum
import Idealize.ShloMosaic.Lib.Pipeline.Value
import Idealize.ShloMosaic.Lib.ValueLayout

noncomputable section

namespace Cert.RegLib

open Idealize.ShloMosaic Idealize.ShloMosaic.TcCoe Idealize.ShloMosaic.ValueIdx

variable {R M N : Nat}

theorem hz : (![0, 0] : Fin 2 → Nat) = fun _ => 0 := funext fun a => by fin_cases a <;> rfl

/-- A one-row array broadcast down the rows holds, at (p, q), the row's entry at q. -/
theorem bias_at (x : Vec Ideal ⟨2, ![1, 128]⟩ .f32) (h : (⟨2, ![1, 128]⟩ : Shape).Broadcasts ⟨2, ![R, 128]⟩)
    (p : Fin R) (q : Fin 128) : broadcastTo ⟨2, ![R, 128]⟩ x h (ix2 p q) = x (ix2 0 q) := by
  refine broadcastTo_apply x _ (ix2 p q) (ix2 0 q) fun a => ?_
  match a with
  | ⟨0, _⟩ => rfl
  | ⟨1, _⟩ => rfl

/-- A block holding rows n·R … n·R + R − 1 of X, beside the whole matrix and bias: its row transform at (p, q) is X's at
    (n·R + p, q), since row p of the block is row n·R + p of X. `g` is applied to the rows first (the identity, or max (·, 0)). -/
theorem mlp_at (g : EReal → EReal) (X : FVec Ideal ⟨2, ![M, 128]⟩ .f32) (w : FVec Ideal ⟨2, ![128, 128]⟩ .f32)
    (b : FVec Ideal ⟨2, ![1, 128]⟩ .f32) (b0 : Vec Ideal ⟨2, ![R, 128]⟩ .f32) (bm : Vec Ideal ⟨2, ![128, 128]⟩ .f32)
    (bb : Vec Ideal ⟨2, ![1, 128]⟩ .f32) (n : Nat)
    (h0 : ∀ (y : (⟨2, ![R, 128]⟩ : Shape).Idx) (i : (⟨2, ![M, 128]⟩ : Shape).Idx),
      (i 0).val = n * R + (y 0).val → (i 1).val = (y 1).val → b0 y = X i)
    (hm : bm = w) (hb : bb = b) (p : Fin R) (q : Fin 128) (i : (⟨2, ![M, 128]⟩ : Shape).Idx)
    (hr : (i 0).val = n * R + p.val) (hc : (i 1).val = q.val) :
    max ((∑ k : Fin 128, g (b0 (ix2 p k)) * bm (ix2 k q)) + bb (ix2 0 q)) 0
      = Spec.mlpRow (fun j => g (X j)) w b i := by
  subst hm hb
  obtain rfl : q = i 1 := Fin.ext hc.symm
  exact congrArg (fun s => max (s + bb (ix2 0 (i 1))) 0)
    (Finset.sum_congr rfl fun k _ => by rw [h0 (ix2 p k) (ix2 (i 0) k) hr rfl])

/-- Blocks of R rows tile N·R rows: row r lies in block r / R. -/
theorem rows_cover (hR : 0 < R) (hM : M = N * R) (S : Fin N → Finset (⟨2, ![M, 128]⟩ : Shape).Idx)
    (idx : Fin N → Fin 2 → Nat) (hidx : ∀ t, idx t 0 = t.val ∧ idx t 1 = 0)
    (hmem : ∀ t i, i ∈ S t ↔ ∀ a : Fin 2, idx t a * (![R, 128] : Fin 2 → Nat) a ≤ (i a).val
      ∧ (i a).val < idx t a * (![R, 128] : Fin 2 → Nat) a + (![R, 128] : Fin 2 → Nat) a)
    (i : (⟨2, ![M, 128]⟩ : Shape).Idx) : ∃ t, i ∈ S t := by
  have hi0 : (i 0).val < M := (i 0).isLt
  have hi1 : (i 1).val < 128 := (i 1).isLt
  have ht : (i 0).val / R < N := Nat.div_lt_of_lt_mul (by rw [Nat.mul_comm, ← hM]; exact hi0)
  obtain ⟨e0, e1⟩ := hidx ⟨(i 0).val / R, ht⟩
  have e0 : idx ⟨(i 0).val / R, ht⟩ 0 = (i 0).val / R := e0
  refine ⟨⟨(i 0).val / R, ht⟩, (hmem _ i).mpr fun a => ?_⟩
  have hd := Nat.div_add_mod (i 0).val R
  have hm := Nat.mod_lt (i 0).val hR
  match a with
  | ⟨0, _⟩ =>
    show idx _ 0 * R ≤ (i 0).val ∧ (i 0).val < idx _ 0 * R + R
    rw [e0, Nat.mul_comm]
    exact ⟨by omega, by omega⟩
  | ⟨1, _⟩ =>
    show idx _ 1 * 128 ≤ (i 1).val ∧ (i 1).val < idx _ 1 * 128 + 128
    rw [e1]
    exact ⟨by omega, by omega⟩

end Cert.RegLib

end
-- ==== Proof.RegPay.lean ====
import proofs.«409564_j17119739642177_3_alg».proof.Proof.Gen.KernelIdeal.Skeleton
import proofs.«409564_j17119739642177_3_alg».proof.Proof.RegLib

set_option maxRecDepth 16384

noncomputable section

namespace Cert.KernelIdeal.RegVal

open Idealize.ShloMosaic Idealize.ShloMosaic.TcCoe Idealize.ShloMosaic.ValueIdx
open Cert.KernelIdeal Cert.KernelIdeal.Gen

/-! What a transform region stores, at an index of its block: max (Σ_k g (x0 (p, k)) · x1 (k, q) + x2 (0, q), 0), the product
    read as a sum over the one contracted coordinate. There are four bodies (4000 or 2000 rows a block; rows taken as they
    are, or rectified first); each region's two stores, and the same body in another layer, are the same term. -/

theorem pay_a (x0 : Vec Ideal S4000x128 .f32) (x1 : Vec Ideal S128x128 .f32) (x2 : Vec Ideal S1x128 .f32)
    (p : Fin 4000) (q : Fin 128) :
    k1_pay2 (F := Ideal) x0 x1 x2 (ix2 p q) = max ((∑ k : Fin 128, x0 (ix2 p k) * x1 (ix2 k q)) + x2 (ix2 0 q)) 0 := by
  simp only [k1_pay2, k1_pay1, shapeCast_self]
  rw [maximumf_apply, addf_apply, broadcast_apply, RegLib.bias_at,
    Cert.Lib.matmul_rc_apply dot_S4000x128_S128x128_S4000x128_1_0_0_1_n_n rfl rfl rfl rfl rfl rfl]
  simp only [truncf_apply]
  rw [show (FloatOps.ofBits (F := Ideal) .f32 0x00000000#32) = 0 from Ideal.ofBits_zero_f32]

theorem pay_b (x0 : Vec Ideal S2000x128 .f32) (x1 : Vec Ideal S128x128 .f32) (x2 : Vec Ideal S1x128 .f32)
    (p : Fin 2000) (q : Fin 128) :
    k2_pay2 (F := Ideal) x0 x1 x2 (ix2 p q) = max ((∑ k : Fin 128, x0 (ix2 p k) * x1 (ix2 k q)) + x2 (ix2 0 q)) 0 := by
  simp only [k2_pay2, k2_pay1, shapeCast_self]
  rw [maximumf_apply, addf_apply, broadcast_apply, RegLib.bias_at,
    Cert.Lib.matmul_rc_apply dot_S2000x128_S128x128_S2000x128_1_0_0_1_n_n rfl rfl rfl rfl rfl rfl]
  simp only [truncf_apply]
  rw [show (FloatOps.ofBits (F := Ideal) .f32 0x00000000#32) = 0 from Ideal.ofBits_zero_f32]

theorem pay_c (x0 : Vec Ideal S4000x128 .f32) (x1 : Vec Ideal S128x128 .f32) (x2 : Vec Ideal S1x128 .f32)
    (p : Fin 4000) (q : Fin 128) :
    k3_pay2 (F := Ideal) x0 x1 x2 (ix2 p q)
      = max ((∑ k : Fin 128, max (x0 (ix2 p k)) 0 * x1 (ix2 k q)) + x2 (ix2 0 q)) 0 := by
  simp only [k3_pay2, k3_pay1, shapeCast_self]
  rw [maximumf_apply, addf_apply, broadcast_apply, RegLib.bias_at,
    Cert.Lib.matmul_rc_apply dot_S4000x128_S128x128_S4000x128_1_0_0_1_n_n rfl rfl rfl rfl rfl rfl]
  simp only [truncf_apply, maximumf_apply, broadcast_apply]
  rw [show (FloatOps.ofBits (F := Ideal) .f32 0x00000000#32) = 0 from Ideal.ofBits_zero_f32]

theorem pay_d (x0 : Vec Ideal S2000x128 .f32) (x1 : Vec Ideal S128x128 .f32) (x2 : Vec Ideal S1x128 .f32)
    (p : Fin 2000) (q : Fin 128) :
    k4_pay2 (F := Ideal) x0 x1 x2 (ix2 p q)
      = max ((∑ k : Fin 128, max (x0 (ix2 p k)) 0 * x1 (ix2 k q)) + x2 (ix2 0 q)) 0 := by
  simp only [k4_pay2, k4_pay1, shapeCast_self]
  rw [maximumf_apply, addf_apply, broadcast_apply, RegLib.bias_at,
    Cert.Lib.matmul_rc_apply dot_S2000x128_S128x128_S2000x128_1_0_0_1_n_n rfl rfl rfl rfl rfl rfl]
  simp only [truncf_apply, maximumf_apply, broadcast_apply]
  rw [show (FloatOps.ofBits (F := Ideal) .f32 0x00000000#32) = 0 from Ideal.ofBits_zero_f32]

end Cert.KernelIdeal.RegVal

end
-- ==== Proof.Reg1.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r1_idx : ∀ t : Fin cfg1.N,
    (∀ a, win1_1.index t a = 0) ∧ (∀ a, win1_2.index t a = 0) ∧ (∀ a, win1_3.index t a = 0) ∧ (∀ a, win1_4.index t a = 0)
      ∧ (win1_0.index t 0 = t.val ∧ win1_0.index t 1 = 0) ∧ (win1_5.index t 0 = t.val ∧ win1_5.index t 1 = 0)
      ∧ (win1_6.index t 0 = t.val ∧ win1_6.index t 1 = 0) :=
  (by decide +kernel : ∀ t : Fin grid1.N, _)

theorem r1_read0 (c : Dev nD) (t : Fin cfg1.N) (y : S4000x128.Idx) (i : S100000x128.Idx)
    (hr : (i 0).val = t.val * 4000 + (y 0).val) (hc : (i 1).val = (y 1).val) :
    iblk1 (F := Ideal) V c 0 t y = V c (Pipeline.arrRef spec1 0) i := by
  obtain ⟨-, -, -, -, ⟨e0, e1⟩, -⟩ := r1_idx t
  unfold iblk1
  refine congrArg (V c (Pipeline.arrRef spec1 0)) (funext fun a => Fin.ext ?_)
  match a with
  | ⟨0, _⟩ => show win1_0.index t (0 : Fin 2) * 4000 + 1 * (y 0).val = (i 0).val; omega
  | ⟨1, _⟩ => show win1_0.index t (1 : Fin 2) * 128 + 1 * (y 1).val = (i 1).val; omega

theorem r1_read1 (c : Dev nD) (t : Fin cfg1.N) : iblk1 (F := Ideal) V c 1 t = V c (Pipeline.arrRef spec1 1) :=
  funext fun y => congrArg (V c (Pipeline.arrRef spec1 1)) (funext fun a => Fin.ext
    (Window.rect_emb_val_of_index_zero win1_1 t a ((r1_idx t).1 a) y))

theorem r1_read2 (c : Dev nD) (t : Fin cfg1.N) : iblk1 (F := Ideal) V c 2 t = V c (Pipeline.arrRef spec1 2) :=
  funext fun y => congrArg (V c (Pipeline.arrRef spec1 2)) (funext fun a => Fin.ext
    (Window.rect_emb_val_of_index_zero win1_2 t a ((r1_idx t).2.1 a) y))

theorem r1_read3 (c : Dev nD) (t : Fin cfg1.N) : iblk1 (F := Ideal) V c 3 t = V c (Pipeline.arrRef spec1 3) :=
  funext fun y => congrArg (V c (Pipeline.arrRef spec1 3)) (funext fun a => Fin.ext
    (Window.rect_emb_val_of_index_zero win1_3 t a ((r1_idx t).2.2.1 a) y))

theorem r1_read4 (c : Dev nD) (t : Fin cfg1.N) : iblk1 (F := Ideal) V c 4 t = V c (Pipeline.arrRef spec1 4) :=
  funext fun y => congrArg (V c (Pipeline.arrRef spec1 4)) (funext fun a => Fin.ext
    (Window.rect_emb_val_of_index_zero win1_4 t a ((r1_idx t).2.2.2.1 a) y))

theorem r1_stored5 (c : Dev nD) (t : Fin cfg1.N) : (dat1 (F := Ideal) V c).flushed 5 t
    = k1_pay2 (F := Ideal) (iblk1 V c 0 t) (iblk1 V c 1 t) (iblk1 V c 2 t) := by
  show (cfg1.win 5).cut (grid1.coords t) ((dat1 V c).after 5 t) = _
  rw [after1_5]
  unfold out1_5
  rw [View.canon_unit_zero RegLib.hz]
  simp only [View.ld_unit_zero (S := S4000x128) RegLib.hz, View.ld_unit_zero (S := S128x128) RegLib.hz,
    View.ld_unit_zero (S := S1x128) RegLib.hz]
  rfl

theorem r1_stored6 (c : Dev nD) (t : Fin cfg1.N) : (dat1 (F := Ideal) V c).flushed 6 t
    = k1_pay3 (F := Ideal) (iblk1 V c 0 t) (iblk1 V c 3 t) (iblk1 V c 4 t) := by
  show (cfg1.win 6).cut (grid1.coords t) ((dat1 V c).after 6 t) = _
  rw [after1_6]
  unfold out1_6
  rw [View.canon_unit_zero RegLib.hz]
  simp only [View.ld_unit_zero (S := S4000x128) RegLib.hz, View.ld_unit_zero (S := S128x128) RegLib.hz,
    View.ld_unit_zero (S := S1x128) RegLib.hz]
  rfl

/-- What point t writes back through output window 5 is block t of the transform of the arrays the region finds. -/
theorem r1_flushed5 (c : Dev nD) (t : Fin cfg1.N) :
    (dat1 (F := Ideal) V c).flushed 5 t = ((cfg1.win 5).blk t).view.read (Elt Ideal)
      (Spec.mlpRow (M := 100000) (K := 128) (V c (Pipeline.arrRef spec1 0))
        (V c (Pipeline.arrRef spec1 1)) (V c (Pipeline.arrRef spec1 2))) := by
  refine (r1_stored5 V c t).trans (funext fun j => ?_)
  obtain ⟨p, q, rfl⟩ : ∃ (p : Fin 4000) (q : Fin 128), j = ix2 p q := ⟨j 0, j 1, eq_ix2 j⟩
  obtain ⟨-, -, -, -, -, ⟨e0, e1⟩, -⟩ := r1_idx t
  refine (pay_a (iblk1 V c 0 t) (iblk1 V c 1 t) (iblk1 V c 2 t) p q).trans ?_
  exact RegLib.mlp_at (fun x => x) (V c (Pipeline.arrRef spec1 0)) (V c (Pipeline.arrRef spec1 1))
    (V c (Pipeline.arrRef spec1 2)) (iblk1 V c 0 t) (iblk1 V c 1 t) (iblk1 V c 2 t) t.val (r1_read0 V c t)
    (r1_read1 V c t) (r1_read2 V c t) p q (((cfg1.win 5).blk t).view.emb (ix2 p q))
    (show win1_5.index t (0 : Fin 2) * 4000 + 1 * p.val = t.val * 4000 + p.val by omega)
    (show win1_5.index t (1 : Fin 2) * 128 + 1 * q.val = q.val by omega)

theorem r1_flushed6 (c : Dev nD) (t : Fin cfg1.N) :
    (dat1 (F := Ideal) V c).flushed 6 t = ((cfg1.win 6).blk t).view.read (Elt Ideal)
      (Spec.mlpRow (M := 100000) (K := 128) (V c (Pipeline.arrRef spec1 0))
        (V c (Pipeline.arrRef spec1 3)) (V c (Pipeline.arrRef spec1 4))) := by
  refine (r1_stored6 V c t).trans (funext fun j => ?_)
  obtain ⟨p, q, rfl⟩ : ∃ (p : Fin 4000) (q : Fin 128), j = ix2 p q := ⟨j 0, j 1, eq_ix2 j⟩
  obtain ⟨-, -, -, -, -, -, e0, e1⟩ := r1_idx t
  refine (pay_a (iblk1 V c 0 t) (iblk1 V c 3 t) (iblk1 V c 4 t) p q).trans ?_
  exact RegLib.mlp_at (fun x => x) (V c (Pipeline.arrRef spec1 0)) (V c (Pipeline.arrRef spec1 3))
    (V c (Pipeline.arrRef spec1 4)) (iblk1 V c 0 t) (iblk1 V c 3 t) (iblk1 V c 4 t) t.val (r1_read0 V c t)
    (r1_read3 V c t) (r1_read4 V c t) p q (((cfg1.win 6).blk t).view.emb (ix2 p q))
    (show win1_6.index t (0 : Fin 2) * 4000 + 1 * p.val = t.val * 4000 + p.val by omega)
    (show win1_6.index t (1 : Fin 2) * 128 + 1 * q.val = q.val by omega)

theorem r1_cover5 (i : S100000x128.Idx) :
    ∃ t : Fin cfg1.N, (cfg1.win 5).flush t = true ∧ i ∈ ((cfg1.win 5).blk t).view.set :=
  let ⟨t, ht⟩ := RegLib.rows_cover (R := 4000) (by decide) (by rw [show cfg1.grid.N = 25 from N_1])
    (fun t => ((cfg1.win 5).blk t).view.set) win1_5.index (fun t => (r1_idx t).2.2.2.2.2.1) (fun t i => by
      show i ∈ ((View.whole (Pipeline.arrRef spec1 5)).slice (win1_5.rect t)).set ↔ _
      rw [View.set_slice_whole, Rect.mem_set_unit]
      exact Iff.rfl) i
  ⟨t, flush1_5 t, ht⟩

theorem r1_cover6 (i : S100000x128.Idx) :
    ∃ t : Fin cfg1.N, (cfg1.win 6).flush t = true ∧ i ∈ ((cfg1.win 6).blk t).view.set :=
  let ⟨t, ht⟩ := RegLib.rows_cover (R := 4000) (by decide) (by rw [show cfg1.grid.N = 25 from N_1])
    (fun t => ((cfg1.win 6).blk t).view.set) win1_6.index (fun t => (r1_idx t).2.2.2.2.2.2) (fun t i => by
      show i ∈ ((View.whole (Pipeline.arrRef spec1 6)).slice (win1_6.rect t)).set ↔ _
      rw [View.set_slice_whole, Rect.mem_set_unit]
      exact Iff.rfl) i
  ⟨t, flush1_6 t, ht⟩

/-- Output window 5 ends at the transform with the first matrix (window 1) and bias (window 2). -/
theorem final1_5 (c : Dev nD) :
    (dat1 (F := Ideal) V c).arrAt 5 cfg1.N
      = Spec.mlpRow (M := 100000) (K := 128) (V c (Pipeline.arrRef spec1 0))
          (V c (Pipeline.arrRef spec1 1)) (V c (Pipeline.arrRef spec1 2)) :=
  (dat1 (F := Ideal) V c).arrAt_eq_of_cover 5 _ (fun t _ => r1_flushed5 V c t) r1_cover5

/-- Output window 6 ends at the transform with the second matrix (window 3) and bias (window 4). -/
theorem final1_6 (c : Dev nD) :
    (dat1 (F := Ideal) V c).arrAt 6 cfg1.N
      = Spec.mlpRow (M := 100000) (K := 128) (V c (Pipeline.arrRef spec1 0))
          (V c (Pipeline.arrRef spec1 3)) (V c (Pipeline.arrRef spec1 4)) :=
  (dat1 (F := Ideal) V c).arrAt_eq_of_cover 6 _ (fun t _ => r1_flushed6 V c t) r1_cover6

end Cert.KernelIdeal.RegVal

end
-- ==== Proof.Reg2.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r2_idx : ∀ t : Fin cfg2.N,
    (∀ a, win2_1.index t a = 0) ∧ (∀ a, win2_2.index t a = 0) ∧ (∀ a, win2_3.index t a = 0) ∧ (∀ a, win2_4.index t a = 0)
      ∧ (win2_0.index t 0 = t.val ∧ win2_0.index t 1 = 0) ∧ (win2_5.index t 0 = t.val ∧ win2_5.index t 1 = 0)
      ∧ (win2_6.index t 0 = t.val ∧ win2_6.index t 1 = 0) :=
  (by decide +kernel : ∀ t : Fin grid2.N, _)

theorem r2_read0 (c : Dev nD) (t : Fin cfg2.N) (y : S2000x128.Idx) (i : S2000x128.Idx)
    (hr : (i 0).val = t.val * 2000 + (y 0).val) (hc : (i 1).val = (y 1).val) :
    iblk2 (F := Ideal) V c 0 t y = V c (Pipeline.arrRef spec2 0) i := by
  obtain ⟨-, -, -, -, ⟨e0, e1⟩, -⟩ := r2_idx t
  unfold iblk2
  refine congrArg (V c (Pipeline.arrRef spec2 0)) (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

theorem r2_read1 (c : Dev nD) (t : Fin cfg2.N) : iblk2 (F := Ideal) V c 1 t = V c (Pipeline.arrRef spec2 1) :=
  funext fun y => congrArg (V c (Pipeline.arrRef spec2 1)) (funext fun a => Fin.ext
    (Window.rect_emb_val_of_index_zero win2_1 t a ((r2_idx t).1 a) y))

theorem r2_read2 (c : Dev nD) (t : Fin cfg2.N) : iblk2 (F := Ideal) V c 2 t = V c (Pipeline.arrRef spec2 2) :=
  funext fun y => congrArg (V c (Pipeline.arrRef spec2 2)) (funext fun a => Fin.ext
    (Window.rect_emb_val_of_index_zero win2_2 t a ((r2_idx t).2.1 a) y))

theorem r2_read3 (c : Dev nD) (t : Fin cfg2.N) : iblk2 (F := Ideal) V c 3 t = V c (Pipeline.arrRef spec2 3) :=
  funext fun y => congrArg (V c (Pipeline.arrRef spec2 3)) (funext fun a => Fin.ext
    (Window.rect_emb_val_of_index_zero win2_3 t a ((r2_idx t).2.2.1 a) y))

theorem r2_read4 (c : Dev nD) (t : Fin cfg2.N) : iblk2 (F := Ideal) V c 4 t = V c (Pipeline.arrRef spec2 4) :=
  funext fun y => congrArg (V c (Pipeline.arrRef spec2 4)) (funext fun a => Fin.ext
    (Window.rect_emb_val_of_index_zero win2_4 t a ((r2_idx t).2.2.2.1 a) y))

theorem r2_stored5 (c : Dev nD) (t : Fin cfg2.N) : (dat2 (F := Ideal) V c).flushed 5 t
    = k2_pay2 (F := Ideal) (iblk2 V c 0 t) (iblk2 V c 1 t) (iblk2 V c 2 t) := by
  show (cfg2.win 5).cut (grid2.coords t) ((dat2 V c).after 5 t) = _
  rw [after2_5]
  unfold out2_5
  rw [View.canon_unit_zero RegLib.hz]
  simp only [View.ld_unit_zero (S := S2000x128) RegLib.hz, View.ld_unit_zero (S := S128x128) RegLib.hz,
    View.ld_unit_zero (S := S1x128) RegLib.hz]
  rfl

theorem r2_stored6 (c : Dev nD) (t : Fin cfg2.N) : (dat2 (F := Ideal) V c).flushed 6 t
    = k2_pay3 (F := Ideal) (iblk2 V c 0 t) (iblk2 V c 3 t) (iblk2 V c 4 t) := by
  show (cfg2.win 6).cut (grid2.coords t) ((dat2 V c).after 6 t) = _
  rw [after2_6]
  unfold out2_6
  rw [View.canon_unit_zero RegLib.hz]
  simp only [View.ld_unit_zero (S := S2000x128) RegLib.hz, View.ld_unit_zero (S := S128x128) RegLib.hz,
    View.ld_unit_zero (S := S1x128) RegLib.hz]
  rfl

/-- What point t writes back through output window 5 is block t of the transform of the arrays the region finds. -/
theorem r2_flushed5 (c : Dev nD) (t : Fin cfg2.N) :
    (dat2 (F := Ideal) V c).flushed 5 t = ((cfg2.win 5).blk t).view.read (Elt Ideal)
      (Spec.mlpRow (M := 2000) (K := 128) (V c (Pipeline.arrRef spec2 0))
        (V c (Pipeline.arrRef spec2 1)) (V c (Pipeline.arrRef spec2 2))) := by
  refine (r2_stored5 V c t).trans (funext fun j => ?_)
  obtain ⟨p, q, rfl⟩ : ∃ (p : Fin 2000) (q : Fin 128), j = ix2 p q := ⟨j 0, j 1, eq_ix2 j⟩
  obtain ⟨-, -, -, -, -, ⟨e0, e1⟩, -⟩ := r2_idx t
  refine (pay_b (iblk2 V c 0 t) (iblk2 V c 1 t) (iblk2 V c 2 t) p q).trans ?_
  exact RegLib.mlp_at (fun x => x) (V c (Pipeline.arrRef spec2 0)) (V c (Pipeline.arrRef spec2 1))
    (V c (Pipeline.arrRef spec2 2)) (iblk2 V c 0 t) (iblk2 V c 1 t) (iblk2 V c 2 t) t.val (r2_read0 V c t)
    (r2_read1 V c t) (r2_read2 V c t) p q (((cfg2.win 5).blk t).view.emb (ix2 p q))
    (show win2_5.index t (0 : Fin 2) * 2000 + 1 * p.val = t.val * 2000 + p.val by omega)
    (show win2_5.index t (1 : Fin 2) * 128 + 1 * q.val = q.val by omega)

theorem r2_flushed6 (c : Dev nD) (t : Fin cfg2.N) :
    (dat2 (F := Ideal) V c).flushed 6 t = ((cfg2.win 6).blk t).view.read (Elt Ideal)
      (Spec.mlpRow (M := 2000) (K := 128) (V c (Pipeline.arrRef spec2 0))
        (V c (Pipeline.arrRef spec2 3)) (V c (Pipeline.arrRef spec2 4))) := by
  refine (r2_stored6 V c t).trans (funext fun j => ?_)
  obtain ⟨p, q, rfl⟩ : ∃ (p : Fin 2000) (q : Fin 128), j = ix2 p q := ⟨j 0, j 1, eq_ix2 j⟩
  obtain ⟨-, -, -, -, -, -, e0, e1⟩ := r2_idx t
  refine (pay_b (iblk2 V c 0 t) (iblk2 V c 3 t) (iblk2 V c 4 t) p q).trans ?_
  exact RegLib.mlp_at (fun x => x) (V c (Pipeline.arrRef spec2 0)) (V c (Pipeline.arrRef spec2 3))
    (V c (Pipeline.arrRef spec2 4)) (iblk2 V c 0 t) (iblk2 V c 3 t) (iblk2 V c 4 t) t.val (r2_read0 V c t)
    (r2_read3 V c t) (r2_read4 V c t) p q (((cfg2.win 6).blk t).view.emb (ix2 p q))
    (show win2_6.index t (0 : Fin 2) * 2000 + 1 * p.val = t.val * 2000 + p.val by omega)
    (show win2_6.index t (1 : Fin 2) * 128 + 1 * q.val = q.val by omega)

theorem r2_cover5 (i : S2000x128.Idx) :
    ∃ t : Fin cfg2.N, (cfg2.win 5).flush t = true ∧ i ∈ ((cfg2.win 5).blk t).view.set :=
  let ⟨t, ht⟩ := RegLib.rows_cover (R := 2000) (by decide) (by rw [show cfg2.grid.N = 1 from N_2])
    (fun t => ((cfg2.win 5).blk t).view.set) win2_5.index (fun t => (r2_idx t).2.2.2.2.2.1) (fun t i => by
      show i ∈ ((View.whole (Pipeline.arrRef spec2 5)).slice (win2_5.rect t)).set ↔ _
      rw [View.set_slice_whole, Rect.mem_set_unit]
      exact Iff.rfl) i
  ⟨t, flush2_5 t, ht⟩

theorem r2_cover6 (i : S2000x128.Idx) :
    ∃ t : Fin cfg2.N, (cfg2.win 6).flush t = true ∧ i ∈ ((cfg2.win 6).blk t).view.set :=
  let ⟨t, ht⟩ := RegLib.rows_cover (R := 2000) (by decide) (by rw [show cfg2.grid.N = 1 from N_2])
    (fun t => ((cfg2.win 6).blk t).view.set) win2_6.index (fun t => (r2_idx t).2.2.2.2.2.2) (fun t i => by
      show i ∈ ((View.whole (Pipeline.arrRef spec2 6)).slice (win2_6.rect t)).set ↔ _
      rw [View.set_slice_whole, Rect.mem_set_unit]
      exact Iff.rfl) i
  ⟨t, flush2_6 t, ht⟩

/-- Output window 5 ends at the transform with the first matrix (window 1) and bias (window 2). -/
theorem final2_5 (c : Dev nD) :
    (dat2 (F := Ideal) V c).arrAt 5 cfg2.N
      = Spec.mlpRow (M := 2000) (K := 128) (V c (Pipeline.arrRef spec2 0))
          (V c (Pipeline.arrRef spec2 1)) (V c (Pipeline.arrRef spec2 2)) :=
  (dat2 (F := Ideal) V c).arrAt_eq_of_cover 5 _ (fun t _ => r2_flushed5 V c t) r2_cover5

/-- Output window 6 ends at the transform with the second matrix (window 3) and bias (window 4). -/
theorem final2_6 (c : Dev nD) :
    (dat2 (F := Ideal) V c).arrAt 6 cfg2.N
      = Spec.mlpRow (M := 2000) (K := 128) (V c (Pipeline.arrRef spec2 0))
          (V c (Pipeline.arrRef spec2 3)) (V c (Pipeline.arrRef spec2 4)) :=
  (dat2 (F := Ideal) V c).arrAt_eq_of_cover 6 _ (fun t _ => r2_flushed6 V c t) r2_cover6

end Cert.KernelIdeal.RegVal

end
-- ==== Proof.KL0.lean ====
import proofs.«409564_j17119739642177_3_alg».proof.Proof.KNames
import proofs.«409564_j17119739642177_3_alg».proof.Proof.KArgs
import proofs.«409564_j17119739642177_3_alg».proof.Proof.SpecLemmas
import proofs.«409564_j17119739642177_3_alg».proof.Proof.Reg0
import proofs.«409564_j17119739642177_3_alg».proof.Proof.Reg1
import proofs.«409564_j17119739642177_3_alg».proof.Proof.Reg2

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK Cert.KernelIdeal.RegVal

variable (m : (ℓ : Loc nD τ sig) → Buf (Elt Ideal) ℓ) (ρ : Dev nD → PrngReg) (c : Dev nD)

theorem l0_enc_b : W2 (F := Ideal) m ρ c (Proc.devRef .tc main_v1)
    = shapeCast S1x128 (aEncB m c) shapeCasts_S128_S1x128 := by
  have h : W2 (F := Ideal) m ρ c (Proc.devRef .tc main_v1)
      = shapeCast S1x128 (W1 (F := Ideal) m ρ c (Proc.devRef .tc main_arg13) : FVec Ideal S128 .f32) shapeCasts_S128_S1x128 := by
    dsimp only [W2]
    simp only [hostOps0_1]
    after_results_simp
    rfl
  rw [h, W1_arg m ρ c main_arg13 (by decide)]

theorem l0_enc_e : W2 (F := Ideal) m ρ c (Proc.devRef .tc main_v0)
    = Host.gather gather_S1000x128_S100000x1_S100000x128_1_0_n_n_0_1_1128 (aEncAl m c)
        (broadcastInDim S100000x1 ![0] bcast_S100000_S100000x1_0 (aAl m c)) := by
  have h : W2 (F := Ideal) m ρ c (Proc.devRef .tc main_v0)
      = Host.gather gather_S1000x128_S100000x1_S100000x128_1_0_n_n_0_1_1128 (W0 (F := Ideal) m ρ c (Proc.devRef .tc main_arg11) : FVec Ideal S1000x128 .f32)
          (broadcastInDim S100000x1 ![0] bcast_S100000_S100000x1_0 (W0 (F := Ideal) m ρ c (Proc.devRef .tc main_arg0) : IVec S100000 32)) := by
    dsimp only [W2, W1]
    simp only [hostOps0, hostOps0_1]
    after_results_simp
    rfl
  rw [h, W0_arg m ρ c main_arg11 (by decide), W0_arg m ρ c main_arg0 (by decide)]

theorem enc_val : kx0 m ρ c
    = Spec.enc (aAc m c) (aEncW m c) (aEncB m c)
        (Host.gather gather_S1000x128_S100000x1_S100000x128_1_0_n_n_0_1_1128 (aEncAl m c)
          (broadcastInDim S100000x1 ![0] bcast_S100000_S100000x1_0 (aAl m c))) := by
  have e0 : V2 (F := Ideal) m ρ c (Pipeline.arrRef spec0 0) = aAc m c := W2_arg m ρ c main_arg1 (by decide)
  have e1 : V2 (F := Ideal) m ρ c (Pipeline.arrRef spec0 1) = aEncW m c := W2_arg m ρ c main_arg12 (by decide)
  have e2 : V2 (F := Ideal) m ρ c (Pipeline.arrRef spec0 2) = shapeCast S1x128 (aEncB m c) shapeCasts_S128_S1x128 :=
    l0_enc_b m ρ c
  have e3 : V2 (F := Ideal) m ρ c (Pipeline.arrRef spec0 3)
      = Host.gather gather_S1000x128_S100000x1_S100000x128_1_0_n_n_0_1_1128 (aEncAl m c)
          (broadcastInDim S100000x1 ![0] bcast_S100000_S100000x1_0 (aAl m c)) := l0_enc_e m ρ c
  refine (W3_arr (F := Ideal) m ρ c 4).trans ((final0_4 (V2 (F := Ideal) m ρ) c).trans ?_)
  rw [e0, e1, e2, e3]
  exact Spec.encRow_cast (aAc m c) (aEncW m c) (aEncB m c) shapeCasts_S128_S1x128 _

theorem x1_val : kx1 m ρ c
    = Host.gather gather_S1x128_S2000x1_S2000x128_1_0_n_n_0_1_1128 (aEmbT m c)
        (broadcastInDim S2000x1 ![0] bcast_S2000_S2000x1_0 (aT m c)) := by
  have h : W5 (F := Ideal) m ρ c (Proc.devRef .tc main_v3)
      = Host.gather gather_S1x128_S2000x1_S2000x128_1_0_n_n_0_1_1128 (W3 (F := Ideal) m ρ c (Proc.devRef .tc main_arg14) : FVec Ideal S1x128 .f32)
          (broadcastInDim S2000x1 ![0] bcast_S2000_S2000x1_0 (W3 (F := Ideal) m ρ c (Proc.devRef .tc main_arg2) : IVec S2000 32)) := by
    dsimp only [W5, W4]
    simp only [hostOps1, hostOps1_1]
    after_results_simp
    rfl
  refine h.trans ?_
  rw [W3_arg m ρ c main_arg14 (by decide), W3_arg m ρ c main_arg2 (by decide)]

theorem l0_r1_x : V5 (F := Ideal) m ρ c (Pipeline.arrRef spec1 0) = kx0 m ρ c := by
  show W5 (F := Ideal) m ρ c (Proc.devRef .tc main_v2) = W3 (F := Ideal) m ρ c (Proc.devRef .tc main_v2)
  dsimp only [W5, W4]
  simp only [hostOps1, hostOps1_1]
  after_results_simp

theorem l0_r1_w0 : V5 (F := Ideal) m ρ c (Pipeline.arrRef spec1 1) = wsl ![0, 0, 0, 0] slices_S5x4x128x128_S1x1x128x128_0_0_0_0 (aMW m c) := by
  have h : W5 (F := Ideal) m ρ c (Proc.devRef .tc main_v5) = wsl ![0, 0, 0, 0] slices_S5x4x128x128_S1x1x128x128_0_0_0_0 (W4 (F := Ideal) m ρ c (Proc.devRef .tc main_arg15) : FVec Ideal S5x4x128x128 .f32) := by
    dsimp only [W5]
    simp only [hostOps1_1]
    after_results_simp
    rfl
  refine h.trans ?_
  rw [W4_arg m ρ c main_arg15 (by decide)]

theorem l0_r1_b0 : V5 (F := Ideal) m ρ c (Pipeline.arrRef spec1 2)
    = shapeCast S1x128 (bsl ![0, 0, 0] slices_S5x4x128_S1x1x128_0_0_0 (aMB m c)) shapeCasts_S128_S1x128 := by
  have h : W5 (F := Ideal) m ρ c (Proc.devRef .tc main_v12)
      = shapeCast S1x128 (bsl ![0, 0, 0] slices_S5x4x128_S1x1x128_0_0_0 (W4 (F := Ideal) m ρ c (Proc.devRef .tc main_arg16) : FVec Ideal S5x4x128 .f32)) shapeCasts_S128_S1x128 := by
    dsimp only [W5]
    simp only [hostOps1_1]
    after_results_simp
    rfl
  refine h.trans ?_
  rw [W4_arg m ρ c main_arg16 (by decide)]

theorem l0_r1_w2 : V5 (F := Ideal) m ρ c (Pipeline.arrRef spec1 3) = wsl ![0, 2, 0, 0] slices_S5x4x128x128_S1x1x128x128_0_2_0_0 (aMW m c) := by
  have h : W5 (F := Ideal) m ρ c (Proc.devRef .tc main_v9) = wsl ![0, 2, 0, 0] slices_S5x4x128x128_S1x1x128x128_0_2_0_0 (W4 (F := Ideal) m ρ c (Proc.devRef .tc main_arg15) : FVec Ideal S5x4x128x128 .f32) := by
    dsimp only [W5]
    simp only [hostOps1_1]
    after_results_simp
    rfl
  refine h.trans ?_
  rw [W4_arg m ρ c main_arg15 (by decide)]

theorem l0_r1_b2 : V5 (F := Ideal) m ρ c (Pipeline.arrRef spec1 4)
    = shapeCast S1x128 (bsl ![0, 2, 0] slices_S5x4x128_S1x1x128_0_2_0 (aMB m c)) shapeCasts_S128_S1x128 := by
  have h : W5 (F := Ideal) m ρ c (Proc.devRef .tc main_v13)
      = shapeCast S1x128 (bsl ![0, 2, 0] slices_S5x4x128_S1x1x128_0_2_0 (W4 (F := Ideal) m ρ c (Proc.devRef .tc main_arg16) : FVec Ideal S5x4x128 .f32)) shapeCasts_S128_S1x128 := by
    dsimp only [W5]
    simp only [hostOps1_1]
    after_results_simp
    rfl
  refine h.trans ?_
  rw [W4_arg m ρ c main_arg16 (by decide)]

theorem l0_m0 : W6 (F := Ideal) m ρ c (Proc.devRef .tc main_v14_0)
    = Spec.mlp (kx0 m ρ c) (wsl ![0, 0, 0, 0] slices_S5x4x128x128_S1x1x128x128_0_0_0_0 (aMW m c)) (bsl ![0, 0, 0] slices_S5x4x128_S1x1x128_0_0_0 (aMB m c)) := by
  refine (W6_arr (F := Ideal) m ρ c 5).trans ((final1_5 (V5 (F := Ideal) m ρ) c).trans ?_)
  rw [l0_r1_x m ρ c, l0_r1_w0 m ρ c, l0_r1_b0 m ρ c]
  exact Spec.mlpRow_cast _ _ _ _

theorem l0_m2 : W6 (F := Ideal) m ρ c (Proc.devRef .tc main_v14_1)
    = Spec.mlp (kx0 m ρ c) (wsl ![0, 2, 0, 0] slices_S5x4x128x128_S1x1x128x128_0_2_0_0 (aMW m c)) (bsl ![0, 2, 0] slices_S5x4x128_S1x1x128_0_2_0 (aMB m c)) := by
  refine (W6_arr (F := Ideal) m ρ c 6).trans ((final1_6 (V5 (F := Ideal) m ρ) c).trans ?_)
  rw [l0_r1_x m ρ c, l0_r1_w2 m ρ c, l0_r1_b2 m ρ c]
  exact Spec.mlpRow_cast _ _ _ _

theorem l0_r2_x : V7 (F := Ideal) m ρ c (Pipeline.arrRef spec2 0) = kx1 m ρ c := by
  show W7 (F := Ideal) m ρ c (Proc.devRef .tc main_v3) = W5 (F := Ideal) m ρ c (Proc.devRef .tc main_v3)
  refine Eq.trans ?_ (W6_of_ne (F := Ideal) m ρ c main_v3 (by decide))
  dsimp only [W7]
  simp only [hostOps2]
  after_results_simp

theorem l0_r2_w1 : V7 (F := Ideal) m ρ c (Pipeline.arrRef spec2 1) = wsl ![0, 1, 0, 0] slices_S5x4x128x128_S1x1x128x128_0_1_0_0 (aMW m c) := by
  have h : W7 (F := Ideal) m ρ c (Proc.devRef .tc main_v16) = wsl ![0, 1, 0, 0] slices_S5x4x128x128_S1x1x128x128_0_1_0_0 (W6 (F := Ideal) m ρ c (Proc.devRef .tc main_arg15) : FVec Ideal S5x4x128x128 .f32) := by
    dsimp only [W7]
    simp only [hostOps2]
    after_results_simp
    rfl
  refine h.trans ?_
  rw [W6_arg m ρ c main_arg15 (by decide)]

theorem l0_r2_b1 : V7 (F := Ideal) m ρ c (Pipeline.arrRef spec2 2)
    = shapeCast S1x128 (bsl ![0, 1, 0] slices_S5x4x128_S1x1x128_0_1_0 (aMB m c)) shapeCasts_S128_S1x128 := by
  have h : W7 (F := Ideal) m ρ c (Proc.devRef .tc main_v23)
      = shapeCast S1x128 (bsl ![0, 1, 0] slices_S5x4x128_S1x1x128_0_1_0 (W6 (F := Ideal) m ρ c (Proc.devRef .tc main_arg16) : FVec Ideal S5x4x128 .f32)) shapeCasts_S128_S1x128 := by
    dsimp only [W7]
    simp only [hostOps2]
    after_results_simp
    rfl
  refine h.trans ?_
  rw [W6_arg m ρ c main_arg16 (by decide)]

theorem l0_r2_w3 : V7 (F := Ideal) m ρ c (Pipeline.arrRef spec2 3) = wsl ![0, 3, 0, 0] slices_S5x4x128x128_S1x1x128x128_0_3_0_0 (aMW m c) := by
  have h : W7 (F := Ideal) m ρ c (Proc.devRef .tc main_v20) = wsl ![0, 3, 0, 0] slices_S5x4x128x128_S1x1x128x128_0_3_0_0 (W6 (F := Ideal) m ρ c (Proc.devRef .tc main_arg15) : FVec Ideal S5x4x128x128 .f32) := by
    dsimp only [W7]
    simp only [hostOps2]
    after_results_simp
    rfl
  refine h.trans ?_
  rw [W6_arg m ρ c main_arg15 (by decide)]

theorem l0_r2_b3 : V7 (F := Ideal) m ρ c (Pipeline.arrRef spec2 4)
    = shapeCast S1x128 (bsl ![0, 3, 0] slices_S5x4x128_S1x1x128_0_3_0 (aMB m c)) shapeCasts_S128_S1x128 := by
  have h : W7 (F := Ideal) m ρ c (Proc.devRef .tc main_v24)
      = shapeCast S1x128 (bsl ![0, 3, 0] slices_S5x4x128_S1x1x128_0_3_0 (W6 (F := Ideal) m ρ c (Proc.devRef .tc main_arg16) : FVec Ideal S5x4x128 .f32)) shapeCasts_S128_S1x128 := by
    dsimp only [W7]
    simp only [hostOps2]
    after_results_simp
    rfl
  refine h.trans ?_
  rw [W6_arg m ρ c main_arg16 (by decide)]

theorem l0_m1 : W8 (F := Ideal) m ρ c (Proc.devRef .tc main_v25_0)
    = Spec.mlp (kx1 m ρ c) (wsl ![0, 1, 0, 0] slices_S5x4x128x128_S1x1x128x128_0_1_0_0 (aMW m c)) (bsl ![0, 1, 0] slices_S5x4x128_S1x1x128_0_1_0 (aMB m c)) := by
  refine (W8_arr (F := Ideal) m ρ c 5).trans ((final2_5 (V7 (F := Ideal) m ρ) c).trans ?_)
  rw [l0_r2_x m ρ c, l0_r2_w1 m ρ c, l0_r2_b1 m ρ c]
  exact Spec.mlpRow_cast _ _ _ _

theorem l0_m3 : W8 (F := Ideal) m ρ c (Proc.devRef .tc main_v25_1)
    = Spec.mlp (kx1 m ρ c) (wsl ![0, 3, 0, 0] slices_S5x4x128x128_S1x1x128x128_0_3_0_0 (aMW m c)) (bsl ![0, 3, 0] slices_S5x4x128_S1x1x128_0_3_0 (aMB m c)) := by
  refine (W8_arr (F := Ideal) m ρ c 6).trans ((final2_6 (V7 (F := Ideal) m ρ) c).trans ?_)
  rw [l0_r2_x m ρ c, l0_r2_w3 m ρ c, l0_r2_b3 m ρ c]
  exact Spec.mlpRow_cast _ _ _ _

theorem l0_m0_at8 : W8 (F := Ideal) m ρ c (Proc.devRef .tc main_v14_0) = W6 (F := Ideal) m ρ c (Proc.devRef .tc main_v14_0) := by
  refine (W8_of_ne (F := Ideal) m ρ c main_v14_0 (by decide)).trans ?_
  dsimp only [W7]
  simp only [hostOps2]
  after_results_simp

theorem l0_m2_at8 : W8 (F := Ideal) m ρ c (Proc.devRef .tc main_v14_1) = W6 (F := Ideal) m ρ c (Proc.devRef .tc main_v14_1) := by
  refine (W8_of_ne (F := Ideal) m ρ c main_v14_1 (by decide)).trans ?_
  dsimp only [W7]
  simp only [hostOps2]
  after_results_simp

theorem l0_agg01 : W17 (F := Ideal) m ρ c (Proc.devRef .tc main_v48)
    = out0 (W8 (F := Ideal) m ρ c (Proc.devRef .tc main_v14_0)) (W8 (F := Ideal) m ρ c (Proc.devRef .tc main_v25_0))
        (W8 (F := Ideal) m ρ c (Proc.devRef .tc main_arg3) : IVec S2x400000 32) (W8 (F := Ideal) m ρ c (Proc.devRef .tc main_arg4) : IVec S2x200000 32)
        (W8 (F := Ideal) m ρ c (Proc.devRef .tc main_arg7) : FVec Ideal S400000 .f32) (W8 (F := Ideal) m ρ c (Proc.devRef .tc main_arg8) : FVec Ideal S200000 .f32) := by
  dsimp only [W17, W16, W15, W14, W13, W12, W11, W10, W9]
  simp only [hostOps3, hostOps3_1, hostOps3_2, hostOps3_3, hostOps3_4, hostOps3_5, hostOps3_6, hostOps3_7, hostOps3_8]
  after_results_simp
  rfl

theorem l0_agg23 : W17 (F := Ideal) m ρ c (Proc.devRef .tc main_v71)
    = out1 (W8 (F := Ideal) m ρ c (Proc.devRef .tc main_v14_1)) (W8 (F := Ideal) m ρ c (Proc.devRef .tc main_v25_1))
        (W8 (F := Ideal) m ρ c (Proc.devRef .tc main_arg5) : IVec S2x200000 32) (W8 (F := Ideal) m ρ c (Proc.devRef .tc main_arg6) : IVec S2x100000 32)
        (W8 (F := Ideal) m ρ c (Proc.devRef .tc main_arg9) : FVec Ideal S200000 .f32) (W8 (F := Ideal) m ρ c (Proc.devRef .tc main_arg10) : FVec Ideal S100000 .f32) := by
  dsimp only [W17, W16, W15, W14, W13, W12, W11, W10, W9]
  simp only [hostOps3, hostOps3_1, hostOps3_2, hostOps3_3, hostOps3_4, hostOps3_5, hostOps3_6, hostOps3_7, hostOps3_8]
  after_results_simp
  rfl

theorem layer0_0 : ko0_0 m ρ c
    = out0 (Spec.mlp (kx0 m ρ c) (wsl ![0, 0, 0, 0] slices_S5x4x128x128_S1x1x128x128_0_0_0_0 (aMW m c)) (bsl ![0, 0, 0] slices_S5x4x128_S1x1x128_0_0_0 (aMB m c)))
        (Spec.mlp (kx1 m ρ c) (wsl ![0, 1, 0, 0] slices_S5x4x128x128_S1x1x128x128_0_1_0_0 (aMW m c)) (bsl ![0, 1, 0] slices_S5x4x128_S1x1x128_0_1_0 (aMB m c)))
        (aEs0 m c) (aEs1 m c) (aW0 m c) (aW1 m c) := by
  refine (l0_agg01 m ρ c).trans ?_
  rw [l0_m0_at8 m ρ c, l0_m0 m ρ c, l0_m1 m ρ c, W8_arg m ρ c main_arg3 (by decide), W8_arg m ρ c main_arg4 (by decide),
    W8_arg m ρ c main_arg7 (by decide), W8_arg m ρ c main_arg8 (by decide)]

theorem layer0_1 : ko1_0 m ρ c
    = out1 (Spec.mlp (kx0 m ρ c) (wsl ![0, 2, 0, 0] slices_S5x4x128x128_S1x1x128x128_0_2_0_0 (aMW m c)) (bsl ![0, 2, 0] slices_S5x4x128_S1x1x128_0_2_0 (aMB m c)))
        (Spec.mlp (kx1 m ρ c) (wsl ![0, 3, 0, 0] slices_S5x4x128x128_S1x1x128x128_0_3_0_0 (aMW m c)) (bsl ![0, 3, 0] slices_S5x4x128_S1x1x128_0_3_0 (aMB m c)))
        (aEs2 m c) (aEs3 m c) (aW2 m c) (aW3 m c) := by
  refine (l0_agg23 m ρ c).trans ?_
  rw [l0_m2_at8 m ρ c, l0_m2 m ρ c, l0_m3 m ρ c, W8_arg m ρ c main_arg5 (by decide), W8_arg m ρ c main_arg6 (by decide),
    W8_arg m ρ c main_arg9 (by decide), W8_arg m ρ c main_arg10 (by decide)]

end Cert.KernelIdeal.KV

end
-- ==== Proof.Reg3.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r3_idx : ∀ t : Fin cfg3.N,
    (∀ a, win3_1.index t a = 0) ∧ (∀ a, win3_2.index t a = 0) ∧ (∀ a, win3_3.index t a = 0) ∧ (∀ a, win3_4.index t a = 0)
      ∧ (win3_0.index t 0 = t.val ∧ win3_0.index t 1 = 0) ∧ (win3_5.index t 0 = t.val ∧ win3_5.index t 1 = 0)
      ∧ (win3_6.index t 0 = t.val ∧ win3_6.index t 1 = 0) :=
  (by decide +kernel : ∀ t : Fin grid3.N, _)

theorem r3_read0 (c : Dev nD) (t : Fin cfg3.N) (y : S4000x128.Idx) (i : S100000x128.Idx)
    (hr : (i 0).val = t.val * 4000 + (y 0).val) (hc : (i 1).val = (y 1).val) :
    iblk3 (F := Ideal) V c 0 t y = V c (Pipeline.arrRef spec3 0) i := by
  obtain ⟨-, -, -, -, ⟨e0, e1⟩, -⟩ := r3_idx t
  unfold iblk3
  refine congrArg (V c (Pipeline.arrRef spec3 0)) (funext fun a => Fin.ext ?_)
  match a with
  | ⟨0, _⟩ => show win3_0.index t (0 : Fin 2) * 4000 + 1 * (y 0).val = (i 0).val; omega
  | ⟨1, _⟩ => show win3_0.index t (1 : Fin 2) * 128 + 1 * (y 1).val = (i 1).val; omega

theorem r3_read1 (c : Dev nD) (t : Fin cfg3.N) : iblk3 (F := Ideal) V c 1 t = V c (Pipeline.arrRef spec3 1) :=
  funext fun y => congrArg (V c (Pipeline.arrRef spec3 1)) (funext fun a => Fin.ext
    (Window.rect_emb_val_of_index_zero win3_1 t a ((r3_idx t).1 a) y))

theorem r3_read2 (c : Dev nD) (t : Fin cfg3.N) : iblk3 (F := Ideal) V c 2 t = V c (Pipeline.arrRef spec3 2) :=
  funext fun y => congrArg (V c (Pipeline.arrRef spec3 2)) (funext fun a => Fin.ext
    (Window.rect_emb_val_of_index_zero win3_2 t a ((r3_idx t).2.1 a) y))

theorem r3_read3 (c : Dev nD) (t : Fin cfg3.N) : iblk3 (F := Ideal) V c 3 t = V c (Pipeline.arrRef spec3 3) :=
  funext fun y => congrArg (V c (Pipeline.arrRef spec3 3)) (funext fun a => Fin.ext
    (Window.rect_emb_val_of_index_zero win3_3 t a ((r3_idx t).2.2.1 a) y))

theorem r3_read4 (c : Dev nD) (t : Fin cfg3.N) : iblk3 (F := Ideal) V c 4 t = V c (Pipeline.arrRef spec3 4) :=
  funext fun y => congrArg (V c (Pipeline.arrRef spec3 4)) (funext fun a => Fin.ext
    (Window.rect_emb_val_of_index_zero win3_4 t a ((r3_idx t).2.2.2.1 a) y))

theorem r3_stored5 (c : Dev nD) (t : Fin cfg3.N) : (dat3 (F := Ideal) V c).flushed 5 t
    = k3_pay2 (F := Ideal) (iblk3 V c 0 t) (iblk3 V c 1 t) (iblk3 V c 2 t) := by
  show (cfg3.win 5).cut (grid3.coords t) ((dat3 V c).after 5 t) = _
  rw [after3_5]
  unfold out3_5
  rw [View.canon_unit_zero RegLib.hz]
  simp only [View.ld_unit_zero (S := S4000x128) RegLib.hz, View.ld_unit_zero (S := S128x128) RegLib.hz,
    View.ld_unit_zero (S := S1x128) RegLib.hz]
  rfl

theorem r3_stored6 (c : Dev nD) (t : Fin cfg3.N) : (dat3 (F := Ideal) V c).flushed 6 t
    = k3_pay3 (F := Ideal) (iblk3 V c 0 t) (iblk3 V c 3 t) (iblk3 V c 4 t) := by
  show (cfg3.win 6).cut (grid3.coords t) ((dat3 V c).after 6 t) = _
  rw [after3_6]
  unfold out3_6
  rw [View.canon_unit_zero RegLib.hz]
  simp only [View.ld_unit_zero (S := S4000x128) RegLib.hz, View.ld_unit_zero (S := S128x128) RegLib.hz,
    View.ld_unit_zero (S := S1x128) RegLib.hz]
  rfl

/-- What point t writes back through output window 5 is block t of the transform of the arrays the region finds. -/
theorem r3_flushed5 (c : Dev nD) (t : Fin cfg3.N) :
    (dat3 (F := Ideal) V c).flushed 5 t = ((cfg3.win 5).blk t).view.read (Elt Ideal)
      (Spec.mlpRow (M := 100000) (K := 128) (Spec.relu (V c (Pipeline.arrRef spec3 0)))
        (V c (Pipeline.arrRef spec3 1)) (V c (Pipeline.arrRef spec3 2))) := by
  refine (r3_stored5 V c t).trans (funext fun j => ?_)
  obtain ⟨p, q, rfl⟩ : ∃ (p : Fin 4000) (q : Fin 128), j = ix2 p q := ⟨j 0, j 1, eq_ix2 j⟩
  obtain ⟨-, -, -, -, -, ⟨e0, e1⟩, -⟩ := r3_idx t
  refine (pay_c (iblk3 V c 0 t) (iblk3 V c 1 t) (iblk3 V c 2 t) p q).trans ?_
  exact RegLib.mlp_at (fun x => max x 0) (V c (Pipeline.arrRef spec3 0)) (V c (Pipeline.arrRef spec3 1))
    (V c (Pipeline.arrRef spec3 2)) (iblk3 V c 0 t) (iblk3 V c 1 t) (iblk3 V c 2 t) t.val (r3_read0 V c t)
    (r3_read1 V c t) (r3_read2 V c t) p q (((cfg3.win 5).blk t).view.emb (ix2 p q))
    (show win3_5.index t (0 : Fin 2) * 4000 + 1 * p.val = t.val * 4000 + p.val by omega)
    (show win3_5.index t (1 : Fin 2) * 128 + 1 * q.val = q.val by omega)

theorem r3_flushed6 (c : Dev nD) (t : Fin cfg3.N) :
    (dat3 (F := Ideal) V c).flushed 6 t = ((cfg3.win 6).blk t).view.read (Elt Ideal)
      (Spec.mlpRow (M := 100000) (K := 128) (Spec.relu (V c (Pipeline.arrRef spec3 0)))
        (V c (Pipeline.arrRef spec3 3)) (V c (Pipeline.arrRef spec3 4))) := by
  refine (r3_stored6 V c t).trans (funext fun j => ?_)
  obtain ⟨p, q, rfl⟩ : ∃ (p : Fin 4000) (q : Fin 128), j = ix2 p q := ⟨j 0, j 1, eq_ix2 j⟩
  obtain ⟨-, -, -, -, -, -, e0, e1⟩ := r3_idx t
  refine (pay_c (iblk3 V c 0 t) (iblk3 V c 3 t) (iblk3 V c 4 t) p q).trans ?_
  exact RegLib.mlp_at (fun x => max x 0) (V c (Pipeline.arrRef spec3 0)) (V c (Pipeline.arrRef spec3 3))
    (V c (Pipeline.arrRef spec3 4)) (iblk3 V c 0 t) (iblk3 V c 3 t) (iblk3 V c 4 t) t.val (r3_read0 V c t)
    (r3_read3 V c t) (r3_read4 V c t) p q (((cfg3.win 6).blk t).view.emb (ix2 p q))
    (show win3_6.index t (0 : Fin 2) * 4000 + 1 * p.val = t.val * 4000 + p.val by omega)
    (show win3_6.index t (1 : Fin 2) * 128 + 1 * q.val = q.val by omega)

theorem r3_cover5 (i : S100000x128.Idx) :
    ∃ t : Fin cfg3.N, (cfg3.win 5).flush t = true ∧ i ∈ ((cfg3.win 5).blk t).view.set :=
  let ⟨t, ht⟩ := RegLib.rows_cover (R := 4000) (by decide) (by rw [show cfg3.grid.N = 25 from N_3])
    (fun t => ((cfg3.win 5).blk t).view.set) win3_5.index (fun t => (r3_idx t).2.2.2.2.2.1) (fun t i => by
      show i ∈ ((View.whole (Pipeline.arrRef spec3 5)).slice (win3_5.rect t)).set ↔ _
      rw [View.set_slice_whole, Rect.mem_set_unit]
      exact Iff.rfl) i
  ⟨t, flush3_5 t, ht⟩

theorem r3_cover6 (i : S100000x128.Idx) :
    ∃ t : Fin cfg3.N, (cfg3.win 6).flush t = true ∧ i ∈ ((cfg3.win 6).blk t).view.set :=
  let ⟨t, ht⟩ := RegLib.rows_cover (R := 4000) (by decide) (by rw [show cfg3.grid.N = 25 from N_3])
    (fun t => ((cfg3.win 6).blk t).view.set) win3_6.index (fun t => (r3_idx t).2.2.2.2.2.2) (fun t i => by
      show i ∈ ((View.whole (Pipeline.arrRef spec3 6)).slice (win3_6.rect t)).set ↔ _
      rw [View.set_slice_whole, Rect.mem_set_unit]
      exact Iff.rfl) i
  ⟨t, flush3_6 t, ht⟩

/-- Output window 5 ends at the transform with the first matrix (window 1) and bias (window 2). -/
theorem final3_5 (c : Dev nD) :
    (dat3 (F := Ideal) V c).arrAt 5 cfg3.N
      = Spec.mlpRow (M := 100000) (K := 128) (Spec.relu (V c (Pipeline.arrRef spec3 0)))
          (V c (Pipeline.arrRef spec3 1)) (V c (Pipeline.arrRef spec3 2)) :=
  (dat3 (F := Ideal) V c).arrAt_eq_of_cover 5 _ (fun t _ => r3_flushed5 V c t) r3_cover5

/-- Output window 6 ends at the transform with the second matrix (window 3) and bias (window 4). -/
theorem final3_6 (c : Dev nD) :
    (dat3 (F := Ideal) V c).arrAt 6 cfg3.N
      = Spec.mlpRow (M := 100000) (K := 128) (Spec.relu (V c (Pipeline.arrRef spec3 0)))
          (V c (Pipeline.arrRef spec3 3)) (V c (Pipeline.arrRef spec3 4)) :=
  (dat3 (F := Ideal) V c).arrAt_eq_of_cover 6 _ (fun t _ => r3_flushed6 V c t) r3_cover6

end Cert.KernelIdeal.RegVal

end
-- ==== Proof.Reg4.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r4_idx : ∀ t : Fin cfg4.N,
    (∀ a, win4_1.index t a = 0) ∧ (∀ a, win4_2.index t a = 0) ∧ (∀ a, win4_3.index t a = 0) ∧ (∀ a, win4_4.index t a = 0)
      ∧ (win4_0.index t 0 = t.val ∧ win4_0.index t 1 = 0) ∧ (win4_5.index t 0 = t.val ∧ win4_5.index t 1 = 0)
      ∧ (win4_6.index t 0 = t.val ∧ win4_6.index t 1 = 0) :=
  (by decide +kernel : ∀ t : Fin grid4.N, _)

theorem r4_read0 (c : Dev nD) (t : Fin cfg4.N) (y : S2000x128.Idx) (i : S2000x128.Idx)
    (hr : (i 0).val = t.val * 2000 + (y 0).val) (hc : (i 1).val = (y 1).val) :
    iblk4 (F := Ideal) V c 0 t y = V c (Pipeline.arrRef spec4 0) i := by
  obtain ⟨-, -, -, -, ⟨e0, e1⟩, -⟩ := r4_idx t
  unfold iblk4
  refine congrArg (V c (Pipeline.arrRef spec4 0)) (funext fun a => Fin.ext ?_)
  match a with
  | ⟨0, _⟩ => show win4_0.index t (0 : Fin 2) * 2000 + 1 * (y 0).val = (i 0).val; omega
  | ⟨1, _⟩ => show win4_0.index t (1 : Fin 2) * 128 + 1 * (y 1).val = (i 1).val; omega

theorem r4_read1 (c : Dev nD) (t : Fin cfg4.N) : iblk4 (F := Ideal) V c 1 t = V c (Pipeline.arrRef spec4 1) :=
  funext fun y => congrArg (V c (Pipeline.arrRef spec4 1)) (funext fun a => Fin.ext
    (Window.rect_emb_val_of_index_zero win4_1 t a ((r4_idx t).1 a) y))

theorem r4_read2 (c : Dev nD) (t : Fin cfg4.N) : iblk4 (F := Ideal) V c 2 t = V c (Pipeline.arrRef spec4 2) :=
  funext fun y => congrArg (V c (Pipeline.arrRef spec4 2)) (funext fun a => Fin.ext
    (Window.rect_emb_val_of_index_zero win4_2 t a ((r4_idx t).2.1 a) y))

theorem r4_read3 (c : Dev nD) (t : Fin cfg4.N) : iblk4 (F := Ideal) V c 3 t = V c (Pipeline.arrRef spec4 3) :=
  funext fun y => congrArg (V c (Pipeline.arrRef spec4 3)) (funext fun a => Fin.ext
    (Window.rect_emb_val_of_index_zero win4_3 t a ((r4_idx t).2.2.1 a) y))

theorem r4_read4 (c : Dev nD) (t : Fin cfg4.N) : iblk4 (F := Ideal) V c 4 t = V c (Pipeline.arrRef spec4 4) :=
  funext fun y => congrArg (V c (Pipeline.arrRef spec4 4)) (funext fun a => Fin.ext
    (Window.rect_emb_val_of_index_zero win4_4 t a ((r4_idx t).2.2.2.1 a) y))

theorem r4_stored5 (c : Dev nD) (t : Fin cfg4.N) : (dat4 (F := Ideal) V c).flushed 5 t
    = k4_pay2 (F := Ideal) (iblk4 V c 0 t) (iblk4 V c 1 t) (iblk4 V c 2 t) := by
  show (cfg4.win 5).cut (grid4.coords t) ((dat4 V c).after 5 t) = _
  rw [after4_5]
  unfold out4_5
  rw [View.canon_unit_zero RegLib.hz]
  simp only [View.ld_unit_zero (S := S2000x128) RegLib.hz, View.ld_unit_zero (S := S128x128) RegLib.hz,
    View.ld_unit_zero (S := S1x128) RegLib.hz]
  rfl

theorem r4_stored6 (c : Dev nD) (t : Fin cfg4.N) : (dat4 (F := Ideal) V c).flushed 6 t
    = k4_pay3 (F := Ideal) (iblk4 V c 0 t) (iblk4 V c 3 t) (iblk4 V c 4 t) := by
  show (cfg4.win 6).cut (grid4.coords t) ((dat4 V c).after 6 t) = _
  rw [after4_6]
  unfold out4_6
  rw [View.canon_unit_zero RegLib.hz]
  simp only [View.ld_unit_zero (S := S2000x128) RegLib.hz, View.ld_unit_zero (S := S128x128) RegLib.hz,
    View.ld_unit_zero (S := S1x128) RegLib.hz]
  rfl

/-- What point t writes back through output window 5 is block t of the transform of the arrays the region finds. -/
theorem r4_flushed5 (c : Dev nD) (t : Fin cfg4.N) :
    (dat4 (F := Ideal) V c).flushed 5 t = ((cfg4.win 5).blk t).view.read (Elt Ideal)
      (Spec.mlpRow (M := 2000) (K := 128) (Spec.relu (V c (Pipeline.arrRef spec4 0)))
        (V c (Pipeline.arrRef spec4 1)) (V c (Pipeline.arrRef spec4 2))) := by
  refine (r4_stored5 V c t).trans (funext fun j => ?_)
  obtain ⟨p, q, rfl⟩ : ∃ (p : Fin 2000) (q : Fin 128), j = ix2 p q := ⟨j 0, j 1, eq_ix2 j⟩
  obtain ⟨-, -, -, -, -, ⟨e0, e1⟩, -⟩ := r4_idx t
  refine (pay_d (iblk4 V c 0 t) (iblk4 V c 1 t) (iblk4 V c 2 t) p q).trans ?_
  exact RegLib.mlp_at (fun x => max x 0) (V c (Pipeline.arrRef spec4 0)) (V c (Pipeline.arrRef spec4 1))
    (V c (Pipeline.arrRef spec4 2)) (iblk4 V c 0 t) (iblk4 V c 1 t) (iblk4 V c 2 t) t.val (r4_read0 V c t)
    (r4_read1 V c t) (r4_read2 V c t) p q (((cfg4.win 5).blk t).view.emb (ix2 p q))
    (show win4_5.index t (0 : Fin 2) * 2000 + 1 * p.val = t.val * 2000 + p.val by omega)
    (show win4_5.index t (1 : Fin 2) * 128 + 1 * q.val = q.val by omega)

theorem r4_flushed6 (c : Dev nD) (t : Fin cfg4.N) :
    (dat4 (F := Ideal) V c).flushed 6 t = ((cfg4.win 6).blk t).view.read (Elt Ideal)
      (Spec.mlpRow (M := 2000) (K := 128) (Spec.relu (V c (Pipeline.arrRef spec4 0)))
        (V c (Pipeline.arrRef spec4 3)) (V c (Pipeline.arrRef spec4 4))) := by
  refine (r4_stored6 V c t).trans (funext fun j => ?_)
  obtain ⟨p, q, rfl⟩ : ∃ (p : Fin 2000) (q : Fin 128), j = ix2 p q := ⟨j 0, j 1, eq_ix2 j⟩
  obtain ⟨-, -, -, -, -, -, e0, e1⟩ := r4_idx t
  refine (pay_d (iblk4 V c 0 t) (iblk4 V c 3 t) (iblk4 V c 4 t) p q).trans ?_
  exact RegLib.mlp_at (fun x => max x 0) (V c (Pipeline.arrRef spec4 0)) (V c (Pipeline.arrRef spec4 3))
    (V c (Pipeline.arrRef spec4 4)) (iblk4 V c 0 t) (iblk4 V c 3 t) (iblk4 V c 4 t) t.val (r4_read0 V c t)
    (r4_read3 V c t) (r4_read4 V c t) p q (((cfg4.win 6).blk t).view.emb (ix2 p q))
    (show win4_6.index t (0 : Fin 2) * 2000 + 1 * p.val = t.val * 2000 + p.val by omega)
    (show win4_6.index t (1 : Fin 2) * 128 + 1 * q.val = q.val by omega)

theorem r4_cover5 (i : S2000x128.Idx) :
    ∃ t : Fin cfg4.N, (cfg4.win 5).flush t = true ∧ i ∈ ((cfg4.win 5).blk t).view.set :=
  let ⟨t, ht⟩ := RegLib.rows_cover (R := 2000) (by decide) (by rw [show cfg4.grid.N = 1 from N_4])
    (fun t => ((cfg4.win 5).blk t).view.set) win4_5.index (fun t => (r4_idx t).2.2.2.2.2.1) (fun t i => by
      show i ∈ ((View.whole (Pipeline.arrRef spec4 5)).slice (win4_5.rect t)).set ↔ _
      rw [View.set_slice_whole, Rect.mem_set_unit]
      exact Iff.rfl) i
  ⟨t, flush4_5 t, ht⟩

theorem r4_cover6 (i : S2000x128.Idx) :
    ∃ t : Fin cfg4.N, (cfg4.win 6).flush t = true ∧ i ∈ ((cfg4.win 6).blk t).view.set :=
  let ⟨t, ht⟩ := RegLib.rows_cover (R := 2000) (by decide) (by rw [show cfg4.grid.N = 1 from N_4])
    (fun t => ((cfg4.win 6).blk t).view.set) win4_6.index (fun t => (r4_idx t).2.2.2.2.2.2) (fun t i => by
      show i ∈ ((View.whole (Pipeline.arrRef spec4 6)).slice (win4_6.rect t)).set ↔ _
      rw [View.set_slice_whole, Rect.mem_set_unit]
      exact Iff.rfl) i
  ⟨t, flush4_6 t, ht⟩

/-- Output window 5 ends at the transform with the first matrix (window 1) and bias (window 2). -/
theorem final4_5 (c : Dev nD) :
    (dat4 (F := Ideal) V c).arrAt 5 cfg4.N
      = Spec.mlpRow (M := 2000) (K := 128) (Spec.relu (V c (Pipeline.arrRef spec4 0)))
          (V c (Pipeline.arrRef spec4 1)) (V c (Pipeline.arrRef spec4 2)) :=
  (dat4 (F := Ideal) V c).arrAt_eq_of_cover 5 _ (fun t _ => r4_flushed5 V c t) r4_cover5

/-- Output window 6 ends at the transform with the second matrix (window 3) and bias (window 4). -/
theorem final4_6 (c : Dev nD) :
    (dat4 (F := Ideal) V c).arrAt 6 cfg4.N
      = Spec.mlpRow (M := 2000) (K := 128) (Spec.relu (V c (Pipeline.arrRef spec4 0)))
          (V c (Pipeline.arrRef spec4 3)) (V c (Pipeline.arrRef spec4 4)) :=
  (dat4 (F := Ideal) V c).arrAt_eq_of_cover 6 _ (fun t _ => r4_flushed6 V c t) r4_cover6

end Cert.KernelIdeal.RegVal

end
-- ==== Proof.KL1.lean ====
import proofs.«409564_j17119739642177_3_alg».proof.Proof.KNames
import proofs.«409564_j17119739642177_3_alg».proof.Proof.SpecLemmas
import proofs.«409564_j17119739642177_3_alg».proof.Proof.Reg3
import proofs.«409564_j17119739642177_3_alg».proof.Proof.Reg4
import proofs.«409564_j17119739642177_3_alg».proof.Proof.KArgs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK Cert.KernelIdeal.RegVal

variable (m : (ℓ : Loc nD τ sig) → Buf (Elt Ideal) ℓ) (ρ : Dev nD → PrngReg) (c : Dev nD)

theorem l1_h3_8_v73 (V : Valuation τ sig (Elt Ideal)) :
    StableHlo.after (hostOps3_8 (F := Ideal)) V (Proc.devRef .tc main_v73)
      = wsl ![1, 0, 0, 0] slices_S5x4x128x128_S1x1x128x128_1_0_0_0 (V (Proc.devRef .tc main_arg15)) := by
  simp only [hostOps3_8]
  after_results
  rfl

theorem l1_h3_8_v80 (V : Valuation τ sig (Elt Ideal)) :
    StableHlo.after (hostOps3_8 (F := Ideal)) V (Proc.devRef .tc main_v80)
      = shapeCast S1x128 (bsl ![1, 0, 0] slices_S5x4x128_S1x1x128_1_0_0 (V (Proc.devRef .tc main_arg16))) shapeCasts_S128_S1x128 := by
  simp only [hostOps3_8]
  after_results
  rfl

theorem l1_h3_8_v77 (V : Valuation τ sig (Elt Ideal)) :
    StableHlo.after (hostOps3_8 (F := Ideal)) V (Proc.devRef .tc main_v77)
      = wsl ![1, 2, 0, 0] slices_S5x4x128x128_S1x1x128x128_1_2_0_0 (V (Proc.devRef .tc main_arg15)) := by
  simp only [hostOps3_8]
  after_results
  rfl

theorem l1_h3_8_v81 (V : Valuation τ sig (Elt Ideal)) :
    StableHlo.after (hostOps3_8 (F := Ideal)) V (Proc.devRef .tc main_v81)
      = shapeCast S1x128 (bsl ![1, 2, 0] slices_S5x4x128_S1x1x128_1_2_0 (V (Proc.devRef .tc main_arg16))) shapeCasts_S128_S1x128 := by
  simp only [hostOps3_8]
  after_results
  rfl

theorem l1_r3_v82_0 : W18 (F := Ideal) m ρ c (Proc.devRef .tc main_v82_0)
    = Spec.mlp (Spec.relu (ko0_0 m ρ c)) (wsl ![1, 0, 0, 0] slices_S5x4x128x128_S1x1x128x128_1_0_0_0 (aMW m c))
        (bsl ![1, 0, 0] slices_S5x4x128_S1x1x128_1_0_0 (aMB m c)) := by
  have e0 : V17 (F := Ideal) m ρ c (Pipeline.arrRef spec3 0) = ko0_0 m ρ c := rfl
  have e1 : V17 (F := Ideal) m ρ c (Pipeline.arrRef spec3 1)
      = wsl ![1, 0, 0, 0] slices_S5x4x128x128_S1x1x128x128_1_0_0_0 (aMW m c) := by
    refine (l1_h3_8_v73 (W16 (F := Ideal) m ρ c)).trans ?_
    rw [W16_arg m ρ c main_arg15 (by decide)]
  have e2 : V17 (F := Ideal) m ρ c (Pipeline.arrRef spec3 2)
      = shapeCast S1x128 (bsl ![1, 0, 0] slices_S5x4x128_S1x1x128_1_0_0 (aMB m c)) shapeCasts_S128_S1x128 := by
    refine (l1_h3_8_v80 (W16 (F := Ideal) m ρ c)).trans ?_
    rw [W16_arg m ρ c main_arg16 (by decide)]
  refine ((W18_arr (F := Ideal) m ρ c 5).trans (final3_5 (V17 (F := Ideal) m ρ) c)).trans ?_
  rw [e0, e1, e2]
  exact Spec.mlpRow_cast _ _ _ _

theorem l1_r3_v82_1 : W18 (F := Ideal) m ρ c (Proc.devRef .tc main_v82_1)
    = Spec.mlp (Spec.relu (ko0_0 m ρ c)) (wsl ![1, 2, 0, 0] slices_S5x4x128x128_S1x1x128x128_1_2_0_0 (aMW m c))
        (bsl ![1, 2, 0] slices_S5x4x128_S1x1x128_1_2_0 (aMB m c)) := by
  have e0 : V17 (F := Ideal) m ρ c (Pipeline.arrRef spec3 0) = ko0_0 m ρ c := rfl
  have e3 : V17 (F := Ideal) m ρ c (Pipeline.arrRef spec3 3)
      = wsl ![1, 2, 0, 0] slices_S5x4x128x128_S1x1x128x128_1_2_0_0 (aMW m c) := by
    refine (l1_h3_8_v77 (W16 (F := Ideal) m ρ c)).trans ?_
    rw [W16_arg m ρ c main_arg15 (by decide)]
  have e4 : V17 (F := Ideal) m ρ c (Pipeline.arrRef spec3 4)
      = shapeCast S1x128 (bsl ![1, 2, 0] slices_S5x4x128_S1x1x128_1_2_0 (aMB m c)) shapeCasts_S128_S1x128 := by
    refine (l1_h3_8_v81 (W16 (F := Ideal) m ρ c)).trans ?_
    rw [W16_arg m ρ c main_arg16 (by decide)]
  refine ((W18_arr (F := Ideal) m ρ c 6).trans (final3_6 (V17 (F := Ideal) m ρ) c)).trans ?_
  rw [e0, e3, e4]
  exact Spec.mlpRow_cast _ _ _ _

theorem l1_h4_v84 (V : Valuation τ sig (Elt Ideal)) :
    StableHlo.after (hostOps4 (F := Ideal)) V (Proc.devRef .tc main_v84)
      = wsl ![1, 1, 0, 0] slices_S5x4x128x128_S1x1x128x128_1_1_0_0 (V (Proc.devRef .tc main_arg15)) := by
  simp only [hostOps4]
  after_results
  rfl

theorem l1_h4_v91 (V : Valuation τ sig (Elt Ideal)) :
    StableHlo.after (hostOps4 (F := Ideal)) V (Proc.devRef .tc main_v91)
      = shapeCast S1x128 (bsl ![1, 1, 0] slices_S5x4x128_S1x1x128_1_1_0 (V (Proc.devRef .tc main_arg16))) shapeCasts_S128_S1x128 := by
  simp only [hostOps4]
  after_results
  rfl

theorem l1_h4_v88 (V : Valuation τ sig (Elt Ideal)) :
    StableHlo.after (hostOps4 (F := Ideal)) V (Proc.devRef .tc main_v88)
      = wsl ![1, 3, 0, 0] slices_S5x4x128x128_S1x1x128x128_1_3_0_0 (V (Proc.devRef .tc main_arg15)) := by
  simp only [hostOps4]
  after_results
  rfl

theorem l1_h4_v92 (V : Valuation τ sig (Elt Ideal)) :
    StableHlo.after (hostOps4 (F := Ideal)) V (Proc.devRef .tc main_v92)
      = shapeCast S1x128 (bsl ![1, 3, 0] slices_S5x4x128_S1x1x128_1_3_0 (V (Proc.devRef .tc main_arg16))) shapeCasts_S128_S1x128 := by
  simp only [hostOps4]
  after_results
  rfl

theorem l1_h4_v71 (V : Valuation τ sig (Elt Ideal)) :
    StableHlo.after (hostOps4 (F := Ideal)) V (Proc.devRef .tc main_v71) = V (Proc.devRef .tc main_v71) := by
  simp only [hostOps4]
  after_results
theorem l1_h4_v82_0 (V : Valuation τ sig (Elt Ideal)) :
    StableHlo.after (hostOps4 (F := Ideal)) V (Proc.devRef .tc main_v82_0) = V (Proc.devRef .tc main_v82_0) := by
  simp only [hostOps4]
  after_results
theorem l1_h4_v82_1 (V : Valuation τ sig (Elt Ideal)) :
    StableHlo.after (hostOps4 (F := Ideal)) V (Proc.devRef .tc main_v82_1) = V (Proc.devRef .tc main_v82_1) := by
  simp only [hostOps4]
  after_results

theorem l1_r4_rows : V19 (F := Ideal) m ρ c (Pipeline.arrRef spec4 0) = ko1_0 m ρ c :=
  (l1_h4_v71 (W18 (F := Ideal) m ρ c)).trans (W18_of_ne (F := Ideal) m ρ c main_v71 (by decide))

theorem l1_r4_v93_0 : W20 (F := Ideal) m ρ c (Proc.devRef .tc main_v93_0)
    = Spec.mlp (Spec.relu (ko1_0 m ρ c)) (wsl ![1, 1, 0, 0] slices_S5x4x128x128_S1x1x128x128_1_1_0_0 (aMW m c))
        (bsl ![1, 1, 0] slices_S5x4x128_S1x1x128_1_1_0 (aMB m c)) := by
  have e1 : V19 (F := Ideal) m ρ c (Pipeline.arrRef spec4 1)
      = wsl ![1, 1, 0, 0] slices_S5x4x128x128_S1x1x128x128_1_1_0_0 (aMW m c) := by
    refine (l1_h4_v84 (W18 (F := Ideal) m ρ c)).trans ?_
    rw [W18_arg m ρ c main_arg15 (by decide)]
  have e2 : V19 (F := Ideal) m ρ c (Pipeline.arrRef spec4 2)
      = shapeCast S1x128 (bsl ![1, 1, 0] slices_S5x4x128_S1x1x128_1_1_0 (aMB m c)) shapeCasts_S128_S1x128 := by
    refine (l1_h4_v91 (W18 (F := Ideal) m ρ c)).trans ?_
    rw [W18_arg m ρ c main_arg16 (by decide)]
  refine ((W20_arr (F := Ideal) m ρ c 5).trans (final4_5 (V19 (F := Ideal) m ρ) c)).trans ?_
  rw [l1_r4_rows m ρ c, e1, e2]
  exact Spec.mlpRow_cast _ _ _ _

theorem l1_r4_v93_1 : W20 (F := Ideal) m ρ c (Proc.devRef .tc main_v93_1)
    = Spec.mlp (Spec.relu (ko1_0 m ρ c)) (wsl ![1, 3, 0, 0] slices_S5x4x128x128_S1x1x128x128_1_3_0_0 (aMW m c))
        (bsl ![1, 3, 0] slices_S5x4x128_S1x1x128_1_3_0 (aMB m c)) := by
  have e3 : V19 (F := Ideal) m ρ c (Pipeline.arrRef spec4 3)
      = wsl ![1, 3, 0, 0] slices_S5x4x128x128_S1x1x128x128_1_3_0_0 (aMW m c) := by
    refine (l1_h4_v88 (W18 (F := Ideal) m ρ c)).trans ?_
    rw [W18_arg m ρ c main_arg15 (by decide)]
  have e4 : V19 (F := Ideal) m ρ c (Pipeline.arrRef spec4 4)
      = shapeCast S1x128 (bsl ![1, 3, 0] slices_S5x4x128_S1x1x128_1_3_0 (aMB m c)) shapeCasts_S128_S1x128 := by
    refine (l1_h4_v92 (W18 (F := Ideal) m ρ c)).trans ?_
    rw [W18_arg m ρ c main_arg16 (by decide)]
  refine ((W20_arr (F := Ideal) m ρ c 6).trans (final4_6 (V19 (F := Ideal) m ρ) c)).trans ?_
  rw [l1_r4_rows m ρ c, e3, e4]
  exact Spec.mlpRow_cast _ _ _ _

theorem l1_w20_v82_0 : W20 (F := Ideal) m ρ c (Proc.devRef .tc main_v82_0) = W18 (F := Ideal) m ρ c (Proc.devRef .tc main_v82_0) :=
  (W20_of_ne (F := Ideal) m ρ c main_v82_0 (by decide)).trans (l1_h4_v82_0 (W18 (F := Ideal) m ρ c))
theorem l1_w20_v82_1 : W20 (F := Ideal) m ρ c (Proc.devRef .tc main_v82_1) = W18 (F := Ideal) m ρ c (Proc.devRef .tc main_v82_1) :=
  (W20_of_ne (F := Ideal) m ρ c main_v82_1 (by decide)).trans (l1_h4_v82_1 (W18 (F := Ideal) m ρ c))

theorem l1_h5_v116 (V : Valuation τ sig (Elt Ideal)) :
    StableHlo.after (hostOps5_8 (F := Ideal)) (StableHlo.after (hostOps5_7 (F := Ideal)) (StableHlo.after (hostOps5_6 (F := Ideal))
      (StableHlo.after (hostOps5_5 (F := Ideal)) (StableHlo.after (hostOps5_4 (F := Ideal)) (StableHlo.after (hostOps5_3 (F := Ideal))
      (StableHlo.after (hostOps5_2 (F := Ideal)) (StableHlo.after (hostOps5_1 (F := Ideal)) (StableHlo.after (hostOps5 (F := Ideal)) V))))))))
        (Proc.devRef .tc main_v116)
      = out0 (V (Proc.devRef .tc main_v82_0)) (V (Proc.devRef .tc main_v93_0)) (V (Proc.devRef .tc main_arg3)) (V (Proc.devRef .tc main_arg4))
          (V (Proc.devRef .tc main_arg7)) (V (Proc.devRef .tc main_arg8)) := by
  simp only [hostOps5, hostOps5_1, hostOps5_2, hostOps5_3, hostOps5_4, hostOps5_5, hostOps5_6, hostOps5_7, hostOps5_8]
  after_results_simp
  rfl

theorem l1_h5_v139 (V : Valuation τ sig (Elt Ideal)) :
    StableHlo.after (hostOps5_8 (F := Ideal)) (StableHlo.after (hostOps5_7 (F := Ideal)) (StableHlo.after (hostOps5_6 (F := Ideal))
      (StableHlo.after (hostOps5_5 (F := Ideal)) (StableHlo.after (hostOps5_4 (F := Ideal)) (StableHlo.after (hostOps5_3 (F := Ideal))
      (StableHlo.after (hostOps5_2 (F := Ideal)) (StableHlo.after (hostOps5_1 (F := Ideal)) (StableHlo.after (hostOps5 (F := Ideal)) V))))))))
        (Proc.devRef .tc main_v139)
      = out1 (V (Proc.devRef .tc main_v82_1)) (V (Proc.devRef .tc main_v93_1)) (V (Proc.devRef .tc main_arg5)) (V (Proc.devRef .tc main_arg6))
          (V (Proc.devRef .tc main_arg9)) (V (Proc.devRef .tc main_arg10)) := by
  simp only [hostOps5, hostOps5_1, hostOps5_2, hostOps5_3, hostOps5_4, hostOps5_5, hostOps5_6, hostOps5_7, hostOps5_8]
  after_results_simp
  rfl

theorem layer1_0 : ko0_1 m ρ c
    = out0 (Spec.mlp (Spec.relu (ko0_0 m ρ c)) (wsl ![1, 0, 0, 0] slices_S5x4x128x128_S1x1x128x128_1_0_0_0 (aMW m c)) (bsl ![1, 0, 0] slices_S5x4x128_S1x1x128_1_0_0 (aMB m c)))
        (Spec.mlp (Spec.relu (ko1_0 m ρ c)) (wsl ![1, 1, 0, 0] slices_S5x4x128x128_S1x1x128x128_1_1_0_0 (aMW m c)) (bsl ![1, 1, 0] slices_S5x4x128_S1x1x128_1_1_0 (aMB m c)))
        (aEs0 m c) (aEs1 m c) (aW0 m c) (aW1 m c) := by
  refine (l1_h5_v116 (W20 (F := Ideal) m ρ c)).trans ?_
  rw [l1_w20_v82_0 m ρ c, l1_r3_v82_0 m ρ c, l1_r4_v93_0 m ρ c, W20_arg m ρ c main_arg3 (by decide), W20_arg m ρ c main_arg4 (by decide),
    W20_arg m ρ c main_arg7 (by decide), W20_arg m ρ c main_arg8 (by decide)]

theorem layer1_1 : ko1_1 m ρ c
    = out1 (Spec.mlp (Spec.relu (ko0_0 m ρ c)) (wsl ![1, 2, 0, 0] slices_S5x4x128x128_S1x1x128x128_1_2_0_0 (aMW m c)) (bsl ![1, 2, 0] slices_S5x4x128_S1x1x128_1_2_0 (aMB m c)))
        (Spec.mlp (Spec.relu (ko1_0 m ρ c)) (wsl ![1, 3, 0, 0] slices_S5x4x128x128_S1x1x128x128_1_3_0_0 (aMW m c)) (bsl ![1, 3, 0] slices_S5x4x128_S1x1x128_1_3_0 (aMB m c)))
        (aEs2 m c) (aEs3 m c) (aW2 m c) (aW3 m c) := by
  refine (l1_h5_v139 (W20 (F := Ideal) m ρ c)).trans ?_
  rw [l1_w20_v82_1 m ρ c, l1_r3_v82_1 m ρ c, l1_r4_v93_1 m ρ c, W20_arg m ρ c main_arg5 (by decide), W20_arg m ρ c main_arg6 (by decide),
    W20_arg m ρ c main_arg9 (by decide), W20_arg m ρ c main_arg10 (by decide)]

end Cert.KernelIdeal.KV

end
-- ==== Proof.Reg5.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r5_idx : ∀ t : Fin cfg5.N,
    (∀ a, win5_1.index t a = 0) ∧ (∀ a, win5_2.index t a = 0) ∧ (∀ a, win5_3.index t a = 0) ∧ (∀ a, win5_4.index t a = 0)
      ∧ (win5_0.index t 0 = t.val ∧ win5_0.index t 1 = 0) ∧ (win5_5.index t 0 = t.val ∧ win5_5.index t 1 = 0)
      ∧ (win5_6.index t 0 = t.val ∧ win5_6.index t 1 = 0) :=
  (by decide +kernel : ∀ t : Fin grid5.N, _)

theorem r5_read0 (c : Dev nD) (t : Fin cfg5.N) (y : S4000x128.Idx) (i : S100000x128.Idx)
    (hr : (i 0).val = t.val * 4000 + (y 0).val) (hc : (i 1).val = (y 1).val) :
    iblk5 (F := Ideal) V c 0 t y = V c (Pipeline.arrRef spec5 0) i := by
  obtain ⟨-, -, -, -, ⟨e0, e1⟩, -⟩ := r5_idx t
  unfold iblk5
  refine congrArg (V c (Pipeline.arrRef spec5 0)) (funext fun a => Fin.ext ?_)
  match a with
  | ⟨0, _⟩ => show win5_0.index t (0 : Fin 2) * 4000 + 1 * (y 0).val = (i 0).val; omega
  | ⟨1, _⟩ => show win5_0.index t (1 : Fin 2) * 128 + 1 * (y 1).val = (i 1).val; omega

theorem r5_read1 (c : Dev nD) (t : Fin cfg5.N) : iblk5 (F := Ideal) V c 1 t = V c (Pipeline.arrRef spec5 1) :=
  funext fun y => congrArg (V c (Pipeline.arrRef spec5 1)) (funext fun a => Fin.ext
    (Window.rect_emb_val_of_index_zero win5_1 t a ((r5_idx t).1 a) y))

theorem r5_read2 (c : Dev nD) (t : Fin cfg5.N) : iblk5 (F := Ideal) V c 2 t = V c (Pipeline.arrRef spec5 2) :=
  funext fun y => congrArg (V c (Pipeline.arrRef spec5 2)) (funext fun a => Fin.ext
    (Window.rect_emb_val_of_index_zero win5_2 t a ((r5_idx t).2.1 a) y))

theorem r5_read3 (c : Dev nD) (t : Fin cfg5.N) : iblk5 (F := Ideal) V c 3 t = V c (Pipeline.arrRef spec5 3) :=
  funext fun y => congrArg (V c (Pipeline.arrRef spec5 3)) (funext fun a => Fin.ext
    (Window.rect_emb_val_of_index_zero win5_3 t a ((r5_idx t).2.2.1 a) y))

theorem r5_read4 (c : Dev nD) (t : Fin cfg5.N) : iblk5 (F := Ideal) V c 4 t = V c (Pipeline.arrRef spec5 4) :=
  funext fun y => congrArg (V c (Pipeline.arrRef spec5 4)) (funext fun a => Fin.ext
    (Window.rect_emb_val_of_index_zero win5_4 t a ((r5_idx t).2.2.2.1 a) y))

theorem r5_stored5 (c : Dev nD) (t : Fin cfg5.N) : (dat5 (F := Ideal) V c).flushed 5 t
    = k5_pay2 (F := Ideal) (iblk5 V c 0 t) (iblk5 V c 1 t) (iblk5 V c 2 t) := by
  show (cfg5.win 5).cut (grid5.coords t) ((dat5 V c).after 5 t) = _
  rw [after5_5]
  unfold out5_5
  rw [View.canon_unit_zero RegLib.hz]
  simp only [View.ld_unit_zero (S := S4000x128) RegLib.hz, View.ld_unit_zero (S := S128x128) RegLib.hz,
    View.ld_unit_zero (S := S1x128) RegLib.hz]
  rfl

theorem r5_stored6 (c : Dev nD) (t : Fin cfg5.N) : (dat5 (F := Ideal) V c).flushed 6 t
    = k5_pay3 (F := Ideal) (iblk5 V c 0 t) (iblk5 V c 3 t) (iblk5 V c 4 t) := by
  show (cfg5.win 6).cut (grid5.coords t) ((dat5 V c).after 6 t) = _
  rw [after5_6]
  unfold out5_6
  rw [View.canon_unit_zero RegLib.hz]
  simp only [View.ld_unit_zero (S := S4000x128) RegLib.hz, View.ld_unit_zero (S := S128x128) RegLib.hz,
    View.ld_unit_zero (S := S1x128) RegLib.hz]
  rfl

/-- What point t writes back through output window 5 is block t of the transform of the arrays the region finds. -/
theorem r5_flushed5 (c : Dev nD) (t : Fin cfg5.N) :
    (dat5 (F := Ideal) V c).flushed 5 t = ((cfg5.win 5).blk t).view.read (Elt Ideal)
      (Spec.mlpRow (M := 100000) (K := 128) (Spec.relu (V c (Pipeline.arrRef spec5 0)))
        (V c (Pipeline.arrRef spec5 1)) (V c (Pipeline.arrRef spec5 2))) := by
  refine (r5_stored5 V c t).trans (funext fun j => ?_)
  obtain ⟨p, q, rfl⟩ : ∃ (p : Fin 4000) (q : Fin 128), j = ix2 p q := ⟨j 0, j 1, eq_ix2 j⟩
  obtain ⟨-, -, -, -, -, ⟨e0, e1⟩, -⟩ := r5_idx t
  refine (pay_c (iblk5 V c 0 t) (iblk5 V c 1 t) (iblk5 V c 2 t) p q).trans ?_
  exact RegLib.mlp_at (fun x => max x 0) (V c (Pipeline.arrRef spec5 0)) (V c (Pipeline.arrRef spec5 1))
    (V c (Pipeline.arrRef spec5 2)) (iblk5 V c 0 t) (iblk5 V c 1 t) (iblk5 V c 2 t) t.val (r5_read0 V c t)
    (r5_read1 V c t) (r5_read2 V c t) p q (((cfg5.win 5).blk t).view.emb (ix2 p q))
    (show win5_5.index t (0 : Fin 2) * 4000 + 1 * p.val = t.val * 4000 + p.val by omega)
    (show win5_5.index t (1 : Fin 2) * 128 + 1 * q.val = q.val by omega)

theorem r5_flushed6 (c : Dev nD) (t : Fin cfg5.N) :
    (dat5 (F := Ideal) V c).flushed 6 t = ((cfg5.win 6).blk t).view.read (Elt Ideal)
      (Spec.mlpRow (M := 100000) (K := 128) (Spec.relu (V c (Pipeline.arrRef spec5 0)))
        (V c (Pipeline.arrRef spec5 3)) (V c (Pipeline.arrRef spec5 4))) := by
  refine (r5_stored6 V c t).trans (funext fun j => ?_)
  obtain ⟨p, q, rfl⟩ : ∃ (p : Fin 4000) (q : Fin 128), j = ix2 p q := ⟨j 0, j 1, eq_ix2 j⟩
  obtain ⟨-, -, -, -, -, -, e0, e1⟩ := r5_idx t
  refine (pay_c (iblk5 V c 0 t) (iblk5 V c 3 t) (iblk5 V c 4 t) p q).trans ?_
  exact RegLib.mlp_at (fun x => max x 0) (V c (Pipeline.arrRef spec5 0)) (V c (Pipeline.arrRef spec5 3))
    (V c (Pipeline.arrRef spec5 4)) (iblk5 V c 0 t) (iblk5 V c 3 t) (iblk5 V c 4 t) t.val (r5_read0 V c t)
    (r5_read3 V c t) (r5_read4 V c t) p q (((cfg5.win 6).blk t).view.emb (ix2 p q))
    (show win5_6.index t (0 : Fin 2) * 4000 + 1 * p.val = t.val * 4000 + p.val by omega)
    (show win5_6.index t (1 : Fin 2) * 128 + 1 * q.val = q.val by omega)

theorem r5_cover5 (i : S100000x128.Idx) :
    ∃ t : Fin cfg5.N, (cfg5.win 5).flush t = true ∧ i ∈ ((cfg5.win 5).blk t).view.set :=
  let ⟨t, ht⟩ := RegLib.rows_cover (R := 4000) (by decide) (by rw [show cfg5.grid.N = 25 from N_5])
    (fun t => ((cfg5.win 5).blk t).view.set) win5_5.index (fun t => (r5_idx t).2.2.2.2.2.1) (fun t i => by
      show i ∈ ((View.whole (Pipeline.arrRef spec5 5)).slice (win5_5.rect t)).set ↔ _
      rw [View.set_slice_whole, Rect.mem_set_unit]
      exact Iff.rfl) i
  ⟨t, flush5_5 t, ht⟩

theorem r5_cover6 (i : S100000x128.Idx) :
    ∃ t : Fin cfg5.N, (cfg5.win 6).flush t = true ∧ i ∈ ((cfg5.win 6).blk t).view.set :=
  let ⟨t, ht⟩ := RegLib.rows_cover (R := 4000) (by decide) (by rw [show cfg5.grid.N = 25 from N_5])
    (fun t => ((cfg5.win 6).blk t).view.set) win5_6.index (fun t => (r5_idx t).2.2.2.2.2.2) (fun t i => by
      show i ∈ ((View.whole (Pipeline.arrRef spec5 6)).slice (win5_6.rect t)).set ↔ _
      rw [View.set_slice_whole, Rect.mem_set_unit]
      exact Iff.rfl) i
  ⟨t, flush5_6 t, ht⟩

/-- Output window 5 ends at the transform with the first matrix (window 1) and bias (window 2). -/
theorem final5_5 (c : Dev nD) :
    (dat5 (F := Ideal) V c).arrAt 5 cfg5.N
      = Spec.mlpRow (M := 100000) (K := 128) (Spec.relu (V c (Pipeline.arrRef spec5 0)))
          (V c (Pipeline.arrRef spec5 1)) (V c (Pipeline.arrRef spec5 2)) :=
  (dat5 (F := Ideal) V c).arrAt_eq_of_cover 5 _ (fun t _ => r5_flushed5 V c t) r5_cover5

/-- Output window 6 ends at the transform with the second matrix (window 3) and bias (window 4). -/
theorem final5_6 (c : Dev nD) :
    (dat5 (F := Ideal) V c).arrAt 6 cfg5.N
      = Spec.mlpRow (M := 100000) (K := 128) (Spec.relu (V c (Pipeline.arrRef spec5 0)))
          (V c (Pipeline.arrRef spec5 3)) (V c (Pipeline.arrRef spec5 4)) :=
  (dat5 (F := Ideal) V c).arrAt_eq_of_cover 6 _ (fun t _ => r5_flushed6 V c t) r5_cover6

end Cert.KernelIdeal.RegVal

end
-- ==== Proof.Reg6.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r6_idx : ∀ t : Fin cfg6.N,
    (∀ a, win6_1.index t a = 0) ∧ (∀ a, win6_2.index t a = 0) ∧ (∀ a, win6_3.index t a = 0) ∧ (∀ a, win6_4.index t a = 0)
      ∧ (win6_0.index t 0 = t.val ∧ win6_0.index t 1 = 0) ∧ (win6_5.index t 0 = t.val ∧ win6_5.index t 1 = 0)
      ∧ (win6_6.index t 0 = t.val ∧ win6_6.index t 1 = 0) :=
  (by decide +kernel : ∀ t : Fin grid6.N, _)

theorem r6_read0 (c : Dev nD) (t : Fin cfg6.N) (y : S2000x128.Idx) (i : S2000x128.Idx)
    (hr : (i 0).val = t.val * 2000 + (y 0).val) (hc : (i 1).val = (y 1).val) :
    iblk6 (F := Ideal) V c 0 t y = V c (Pipeline.arrRef spec6 0) i := by
  obtain ⟨-, -, -, -, ⟨e0, e1⟩, -⟩ := r6_idx t
  unfold iblk6
  refine congrArg (V c (Pipeline.arrRef spec6 0)) (funext fun a => Fin.ext ?_)
  match a with
  | ⟨0, _⟩ => show win6_0.index t (0 : Fin 2) * 2000 + 1 * (y 0).val = (i 0).val; omega
  | ⟨1, _⟩ => show win6_0.index t (1 : Fin 2) * 128 + 1 * (y 1).val = (i 1).val; omega

theorem r6_read1 (c : Dev nD) (t : Fin cfg6.N) : iblk6 (F := Ideal) V c 1 t = V c (Pipeline.arrRef spec6 1) :=
  funext fun y => congrArg (V c (Pipeline.arrRef spec6 1)) (funext fun a => Fin.ext
    (Window.rect_emb_val_of_index_zero win6_1 t a ((r6_idx t).1 a) y))

theorem r6_read2 (c : Dev nD) (t : Fin cfg6.N) : iblk6 (F := Ideal) V c 2 t = V c (Pipeline.arrRef spec6 2) :=
  funext fun y => congrArg (V c (Pipeline.arrRef spec6 2)) (funext fun a => Fin.ext
    (Window.rect_emb_val_of_index_zero win6_2 t a ((r6_idx t).2.1 a) y))

theorem r6_read3 (c : Dev nD) (t : Fin cfg6.N) : iblk6 (F := Ideal) V c 3 t = V c (Pipeline.arrRef spec6 3) :=
  funext fun y => congrArg (V c (Pipeline.arrRef spec6 3)) (funext fun a => Fin.ext
    (Window.rect_emb_val_of_index_zero win6_3 t a ((r6_idx t).2.2.1 a) y))

theorem r6_read4 (c : Dev nD) (t : Fin cfg6.N) : iblk6 (F := Ideal) V c 4 t = V c (Pipeline.arrRef spec6 4) :=
  funext fun y => congrArg (V c (Pipeline.arrRef spec6 4)) (funext fun a => Fin.ext
    (Window.rect_emb_val_of_index_zero win6_4 t a ((r6_idx t).2.2.2.1 a) y))

theorem r6_stored5 (c : Dev nD) (t : Fin cfg6.N) : (dat6 (F := Ideal) V c).flushed 5 t
    = k6_pay2 (F := Ideal) (iblk6 V c 0 t) (iblk6 V c 1 t) (iblk6 V c 2 t) := by
  show (cfg6.win 5).cut (grid6.coords t) ((dat6 V c).after 5 t) = _
  rw [after6_5]
  unfold out6_5
  rw [View.canon_unit_zero RegLib.hz]
  simp only [View.ld_unit_zero (S := S2000x128) RegLib.hz, View.ld_unit_zero (S := S128x128) RegLib.hz,
    View.ld_unit_zero (S := S1x128) RegLib.hz]
  rfl

theorem r6_stored6 (c : Dev nD) (t : Fin cfg6.N) : (dat6 (F := Ideal) V c).flushed 6 t
    = k6_pay3 (F := Ideal) (iblk6 V c 0 t) (iblk6 V c 3 t) (iblk6 V c 4 t) := by
  show (cfg6.win 6).cut (grid6.coords t) ((dat6 V c).after 6 t) = _
  rw [after6_6]
  unfold out6_6
  rw [View.canon_unit_zero RegLib.hz]
  simp only [View.ld_unit_zero (S := S2000x128) RegLib.hz, View.ld_unit_zero (S := S128x128) RegLib.hz,
    View.ld_unit_zero (S := S1x128) RegLib.hz]
  rfl

/-- What point t writes back through output window 5 is block t of the transform of the arrays the region finds. -/
theorem r6_flushed5 (c : Dev nD) (t : Fin cfg6.N) :
    (dat6 (F := Ideal) V c).flushed 5 t = ((cfg6.win 5).blk t).view.read (Elt Ideal)
      (Spec.mlpRow (M := 2000) (K := 128) (Spec.relu (V c (Pipeline.arrRef spec6 0)))
        (V c (Pipeline.arrRef spec6 1)) (V c (Pipeline.arrRef spec6 2))) := by
  refine (r6_stored5 V c t).trans (funext fun j => ?_)
  obtain ⟨p, q, rfl⟩ : ∃ (p : Fin 2000) (q : Fin 128), j = ix2 p q := ⟨j 0, j 1, eq_ix2 j⟩
  obtain ⟨-, -, -, -, -, ⟨e0, e1⟩, -⟩ := r6_idx t
  refine (pay_d (iblk6 V c 0 t) (iblk6 V c 1 t) (iblk6 V c 2 t) p q).trans ?_
  exact RegLib.mlp_at (fun x => max x 0) (V c (Pipeline.arrRef spec6 0)) (V c (Pipeline.arrRef spec6 1))
    (V c (Pipeline.arrRef spec6 2)) (iblk6 V c 0 t) (iblk6 V c 1 t) (iblk6 V c 2 t) t.val (r6_read0 V c t)
    (r6_read1 V c t) (r6_read2 V c t) p q (((cfg6.win 5).blk t).view.emb (ix2 p q))
    (show win6_5.index t (0 : Fin 2) * 2000 + 1 * p.val = t.val * 2000 + p.val by omega)
    (show win6_5.index t (1 : Fin 2) * 128 + 1 * q.val = q.val by omega)

theorem r6_flushed6 (c : Dev nD) (t : Fin cfg6.N) :
    (dat6 (F := Ideal) V c).flushed 6 t = ((cfg6.win 6).blk t).view.read (Elt Ideal)
      (Spec.mlpRow (M := 2000) (K := 128) (Spec.relu (V c (Pipeline.arrRef spec6 0)))
        (V c (Pipeline.arrRef spec6 3)) (V c (Pipeline.arrRef spec6 4))) := by
  refine (r6_stored6 V c t).trans (funext fun j => ?_)
  obtain ⟨p, q, rfl⟩ : ∃ (p : Fin 2000) (q : Fin 128), j = ix2 p q := ⟨j 0, j 1, eq_ix2 j⟩
  obtain ⟨-, -, -, -, -, -, e0, e1⟩ := r6_idx t
  refine (pay_d (iblk6 V c 0 t) (iblk6 V c 3 t) (iblk6 V c 4 t) p q).trans ?_
  exact RegLib.mlp_at (fun x => max x 0) (V c (Pipeline.arrRef spec6 0)) (V c (Pipeline.arrRef spec6 3))
    (V c (Pipeline.arrRef spec6 4)) (iblk6 V c 0 t) (iblk6 V c 3 t) (iblk6 V c 4 t) t.val (r6_read0 V c t)
    (r6_read3 V c t) (r6_read4 V c t) p q (((cfg6.win 6).blk t).view.emb (ix2 p q))
    (show win6_6.index t (0 : Fin 2) * 2000 + 1 * p.val = t.val * 2000 + p.val by omega)
    (show win6_6.index t (1 : Fin 2) * 128 + 1 * q.val = q.val by omega)

theorem r6_cover5 (i : S2000x128.Idx) :
    ∃ t : Fin cfg6.N, (cfg6.win 5).flush t = true ∧ i ∈ ((cfg6.win 5).blk t).view.set :=
  let ⟨t, ht⟩ := RegLib.rows_cover (R := 2000) (by decide) (by rw [show cfg6.grid.N = 1 from N_6])
    (fun t => ((cfg6.win 5).blk t).view.set) win6_5.index (fun t => (r6_idx t).2.2.2.2.2.1) (fun t i => by
      show i ∈ ((View.whole (Pipeline.arrRef spec6 5)).slice (win6_5.rect t)).set ↔ _
      rw [View.set_slice_whole, Rect.mem_set_unit]
      exact Iff.rfl) i
  ⟨t, flush6_5 t, ht⟩

theorem r6_cover6 (i : S2000x128.Idx) :
    ∃ t : Fin cfg6.N, (cfg6.win 6).flush t = true ∧ i ∈ ((cfg6.win 6).blk t).view.set :=
  let ⟨t, ht⟩ := RegLib.rows_cover (R := 2000) (by decide) (by rw [show cfg6.grid.N = 1 from N_6])
    (fun t => ((cfg6.win 6).blk t).view.set) win6_6.index (fun t => (r6_idx t).2.2.2.2.2.2) (fun t i => by
      show i ∈ ((View.whole (Pipeline.arrRef spec6 6)).slice (win6_6.rect t)).set ↔ _
      rw [View.set_slice_whole, Rect.mem_set_unit]
      exact Iff.rfl) i
  ⟨t, flush6_6 t, ht⟩

/-- Output window 5 ends at the transform with the first matrix (window 1) and bias (window 2). -/
theorem final6_5 (c : Dev nD) :
    (dat6 (F := Ideal) V c).arrAt 5 cfg6.N
      = Spec.mlpRow (M := 2000) (K := 128) (Spec.relu (V c (Pipeline.arrRef spec6 0)))
          (V c (Pipeline.arrRef spec6 1)) (V c (Pipeline.arrRef spec6 2)) :=
  (dat6 (F := Ideal) V c).arrAt_eq_of_cover 5 _ (fun t _ => r6_flushed5 V c t) r6_cover5

/-- Output window 6 ends at the transform with the second matrix (window 3) and bias (window 4). -/
theorem final6_6 (c : Dev nD) :
    (dat6 (F := Ideal) V c).arrAt 6 cfg6.N
      = Spec.mlpRow (M := 2000) (K := 128) (Spec.relu (V c (Pipeline.arrRef spec6 0)))
          (V c (Pipeline.arrRef spec6 3)) (V c (Pipeline.arrRef spec6 4)) :=
  (dat6 (F := Ideal) V c).arrAt_eq_of_cover 6 _ (fun t _ => r6_flushed6 V c t) r6_cover6

end Cert.KernelIdeal.RegVal

end
-- ==== Proof.KL2.lean ====
/-
  The kernel program's layer 2: regions 3 and 4 rectify layer 1's outputs and transform them; the host aggregates.
-/
import proofs.«409564_j17119739642177_3_alg».proof.Proof.KNames
import proofs.«409564_j17119739642177_3_alg».proof.Proof.SpecLemmas
import proofs.«409564_j17119739642177_3_alg».proof.Proof.Reg5
import proofs.«409564_j17119739642177_3_alg».proof.Proof.Reg6
import proofs.«409564_j17119739642177_3_alg».proof.Proof.KArgs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK Cert.KernelIdeal.RegVal

variable (m : (ℓ : Loc nD τ sig) → Buf (Elt Ideal) ℓ) (ρ : Dev nD → PrngReg) (c : Dev nD)

/-! ## The host operations before region 3: its two weight matrices and its two bias rows, over any contents `V` -/

/-- Region 3's first matrix is slice (1, 0) of the stacked matrices. -/
theorem l2_h3_8_v73 (V : Valuation τ sig (Elt Ideal)) :
    StableHlo.after (hostOps5_8 (F := Ideal)) V (Proc.devRef .tc main_v141)
      = wsl ![2, 0, 0, 0] slices_S5x4x128x128_S1x1x128x128_2_0_0_0 (V (Proc.devRef .tc main_arg15)) := by
  simp only [hostOps5_8]
  after_results
  rfl

/-- Region 3's first bias row is slice (1, 0) of the stacked biases, as a one-row array. -/
theorem l2_h3_8_v80 (V : Valuation τ sig (Elt Ideal)) :
    StableHlo.after (hostOps5_8 (F := Ideal)) V (Proc.devRef .tc main_v148)
      = shapeCast S1x128 (bsl ![2, 0, 0] slices_S5x4x128_S1x1x128_2_0_0 (V (Proc.devRef .tc main_arg16))) shapeCasts_S128_S1x128 := by
  simp only [hostOps5_8]
  after_results
  rfl

/-- Region 3's second matrix is slice (1, 2). -/
theorem l2_h3_8_v77 (V : Valuation τ sig (Elt Ideal)) :
    StableHlo.after (hostOps5_8 (F := Ideal)) V (Proc.devRef .tc main_v145)
      = wsl ![2, 2, 0, 0] slices_S5x4x128x128_S1x1x128x128_2_2_0_0 (V (Proc.devRef .tc main_arg15)) := by
  simp only [hostOps5_8]
  after_results
  rfl

/-- Region 3's second bias row is slice (1, 2). -/
theorem l2_h3_8_v81 (V : Valuation τ sig (Elt Ideal)) :
    StableHlo.after (hostOps5_8 (F := Ideal)) V (Proc.devRef .tc main_v149)
      = shapeCast S1x128 (bsl ![2, 2, 0] slices_S5x4x128_S1x1x128_2_2_0 (V (Proc.devRef .tc main_arg16))) shapeCasts_S128_S1x128 := by
  simp only [hostOps5_8]
  after_results
  rfl

/-! ## Region 3: the two transforms of the rectified N0 rows -/

/-- Region 3's first output: edge type 0's transformed rows. -/
theorem l2_r3_v82_0 : W30 (F := Ideal) m ρ c (Proc.devRef .tc main_v150_0)
    = Spec.mlp (Spec.relu (ko0_1 m ρ c)) (wsl ![2, 0, 0, 0] slices_S5x4x128x128_S1x1x128x128_2_0_0_0 (aMW m c))
        (bsl ![2, 0, 0] slices_S5x4x128_S1x1x128_2_0_0 (aMB m c)) := by
  have e0 : V29 (F := Ideal) m ρ c (Pipeline.arrRef spec5 0) = ko0_1 m ρ c := rfl
  have e1 : V29 (F := Ideal) m ρ c (Pipeline.arrRef spec5 1)
      = wsl ![2, 0, 0, 0] slices_S5x4x128x128_S1x1x128x128_2_0_0_0 (aMW m c) := by
    refine (l2_h3_8_v73 (W28 (F := Ideal) m ρ c)).trans ?_
    rw [W28_arg m ρ c main_arg15 (by decide)]
  have e2 : V29 (F := Ideal) m ρ c (Pipeline.arrRef spec5 2)
      = shapeCast S1x128 (bsl ![2, 0, 0] slices_S5x4x128_S1x1x128_2_0_0 (aMB m c)) shapeCasts_S128_S1x128 := by
    refine (l2_h3_8_v80 (W28 (F := Ideal) m ρ c)).trans ?_
    rw [W28_arg m ρ c main_arg16 (by decide)]
  refine ((W30_arr (F := Ideal) m ρ c 5).trans (final5_5 (V29 (F := Ideal) m ρ) c)).trans ?_
  rw [e0, e1, e2]
  exact Spec.mlpRow_cast _ _ _ _

/-- Region 3's second output: edge type 2's transformed rows. -/
theorem l2_r3_v82_1 : W30 (F := Ideal) m ρ c (Proc.devRef .tc main_v150_1)
    = Spec.mlp (Spec.relu (ko0_1 m ρ c)) (wsl ![2, 2, 0, 0] slices_S5x4x128x128_S1x1x128x128_2_2_0_0 (aMW m c))
        (bsl ![2, 2, 0] slices_S5x4x128_S1x1x128_2_2_0 (aMB m c)) := by
  have e0 : V29 (F := Ideal) m ρ c (Pipeline.arrRef spec5 0) = ko0_1 m ρ c := rfl
  have e3 : V29 (F := Ideal) m ρ c (Pipeline.arrRef spec5 3)
      = wsl ![2, 2, 0, 0] slices_S5x4x128x128_S1x1x128x128_2_2_0_0 (aMW m c) := by
    refine (l2_h3_8_v77 (W28 (F := Ideal) m ρ c)).trans ?_
    rw [W28_arg m ρ c main_arg15 (by decide)]
  have e4 : V29 (F := Ideal) m ρ c (Pipeline.arrRef spec5 4)
      = shapeCast S1x128 (bsl ![2, 2, 0] slices_S5x4x128_S1x1x128_2_2_0 (aMB m c)) shapeCasts_S128_S1x128 := by
    refine (l2_h3_8_v81 (W28 (F := Ideal) m ρ c)).trans ?_
    rw [W28_arg m ρ c main_arg16 (by decide)]
  refine ((W30_arr (F := Ideal) m ρ c 6).trans (final5_6 (V29 (F := Ideal) m ρ) c)).trans ?_
  rw [e0, e3, e4]
  exact Spec.mlpRow_cast _ _ _ _

/-! ## The host operations before region 4: its weights, and what they leave alone, over any contents `V` -/

/-- Region 4's first matrix is slice (1, 1) of the stacked matrices. -/
theorem l2_h4_v84 (V : Valuation τ sig (Elt Ideal)) :
    StableHlo.after (hostOps6 (F := Ideal)) V (Proc.devRef .tc main_v152)
      = wsl ![2, 1, 0, 0] slices_S5x4x128x128_S1x1x128x128_2_1_0_0 (V (Proc.devRef .tc main_arg15)) := by
  simp only [hostOps6]
  after_results
  rfl

/-- Region 4's first bias row is slice (1, 1) of the stacked biases, as a one-row array. -/
theorem l2_h4_v91 (V : Valuation τ sig (Elt Ideal)) :
    StableHlo.after (hostOps6 (F := Ideal)) V (Proc.devRef .tc main_v159)
      = shapeCast S1x128 (bsl ![2, 1, 0] slices_S5x4x128_S1x1x128_2_1_0 (V (Proc.devRef .tc main_arg16))) shapeCasts_S128_S1x128 := by
  simp only [hostOps6]
  after_results
  rfl

/-- Region 4's second matrix is slice (1, 3). -/
theorem l2_h4_v88 (V : Valuation τ sig (Elt Ideal)) :
    StableHlo.after (hostOps6 (F := Ideal)) V (Proc.devRef .tc main_v156)
      = wsl ![2, 3, 0, 0] slices_S5x4x128x128_S1x1x128x128_2_3_0_0 (V (Proc.devRef .tc main_arg15)) := by
  simp only [hostOps6]
  after_results
  rfl

/-- Region 4's second bias row is slice (1, 3). -/
theorem l2_h4_v92 (V : Valuation τ sig (Elt Ideal)) :
    StableHlo.after (hostOps6 (F := Ideal)) V (Proc.devRef .tc main_v160)
      = shapeCast S1x128 (bsl ![2, 3, 0] slices_S5x4x128_S1x1x128_2_3_0 (V (Proc.devRef .tc main_arg16))) shapeCasts_S128_S1x128 := by
  simp only [hostOps6]
  after_results
  rfl

/-- These operations write none of layer 1's N1 output and region 3's two outputs. -/
theorem l2_h4_v71 (V : Valuation τ sig (Elt Ideal)) :
    StableHlo.after (hostOps6 (F := Ideal)) V (Proc.devRef .tc main_v139) = V (Proc.devRef .tc main_v139) := by
  simp only [hostOps6]
  after_results
theorem l2_h4_v82_0 (V : Valuation τ sig (Elt Ideal)) :
    StableHlo.after (hostOps6 (F := Ideal)) V (Proc.devRef .tc main_v150_0) = V (Proc.devRef .tc main_v150_0) := by
  simp only [hostOps6]
  after_results
theorem l2_h4_v82_1 (V : Valuation τ sig (Elt Ideal)) :
    StableHlo.after (hostOps6 (F := Ideal)) V (Proc.devRef .tc main_v150_1) = V (Proc.devRef .tc main_v150_1) := by
  simp only [hostOps6]
  after_results

/-! ## Region 4: the two transforms of the rectified N1 rows -/

/-- Region 4 finds layer 1's N1 output in its row window: neither region 3 nor the operations after it write it. -/
theorem l2_r4_rows : V31 (F := Ideal) m ρ c (Pipeline.arrRef spec6 0) = ko1_1 m ρ c :=
  (l2_h4_v71 (W30 (F := Ideal) m ρ c)).trans (W30_of_ne (F := Ideal) m ρ c main_v139 (by decide))

/-- Region 4's first output: edge type 1's transformed rows. -/
theorem l2_r4_v93_0 : W32 (F := Ideal) m ρ c (Proc.devRef .tc main_v161_0)
    = Spec.mlp (Spec.relu (ko1_1 m ρ c)) (wsl ![2, 1, 0, 0] slices_S5x4x128x128_S1x1x128x128_2_1_0_0 (aMW m c))
        (bsl ![2, 1, 0] slices_S5x4x128_S1x1x128_2_1_0 (aMB m c)) := by
  have e1 : V31 (F := Ideal) m ρ c (Pipeline.arrRef spec6 1)
      = wsl ![2, 1, 0, 0] slices_S5x4x128x128_S1x1x128x128_2_1_0_0 (aMW m c) := by
    refine (l2_h4_v84 (W30 (F := Ideal) m ρ c)).trans ?_
    rw [W30_arg m ρ c main_arg15 (by decide)]
  have e2 : V31 (F := Ideal) m ρ c (Pipeline.arrRef spec6 2)
      = shapeCast S1x128 (bsl ![2, 1, 0] slices_S5x4x128_S1x1x128_2_1_0 (aMB m c)) shapeCasts_S128_S1x128 := by
    refine (l2_h4_v91 (W30 (F := Ideal) m ρ c)).trans ?_
    rw [W30_arg m ρ c main_arg16 (by decide)]
  refine ((W32_arr (F := Ideal) m ρ c 5).trans (final6_5 (V31 (F := Ideal) m ρ) c)).trans ?_
  rw [l2_r4_rows m ρ c, e1, e2]
  exact Spec.mlpRow_cast _ _ _ _

/-- Region 4's second output: edge type 3's transformed rows. -/
theorem l2_r4_v93_1 : W32 (F := Ideal) m ρ c (Proc.devRef .tc main_v161_1)
    = Spec.mlp (Spec.relu (ko1_1 m ρ c)) (wsl ![2, 3, 0, 0] slices_S5x4x128x128_S1x1x128x128_2_3_0_0 (aMW m c))
        (bsl ![2, 3, 0] slices_S5x4x128_S1x1x128_2_3_0 (aMB m c)) := by
  have e3 : V31 (F := Ideal) m ρ c (Pipeline.arrRef spec6 3)
      = wsl ![2, 3, 0, 0] slices_S5x4x128x128_S1x1x128x128_2_3_0_0 (aMW m c) := by
    refine (l2_h4_v88 (W30 (F := Ideal) m ρ c)).trans ?_
    rw [W30_arg m ρ c main_arg15 (by decide)]
  have e4 : V31 (F := Ideal) m ρ c (Pipeline.arrRef spec6 4)
      = shapeCast S1x128 (bsl ![2, 3, 0] slices_S5x4x128_S1x1x128_2_3_0 (aMB m c)) shapeCasts_S128_S1x128 := by
    refine (l2_h4_v92 (W30 (F := Ideal) m ρ c)).trans ?_
    rw [W30_arg m ρ c main_arg16 (by decide)]
  refine ((W32_arr (F := Ideal) m ρ c 6).trans (final6_6 (V31 (F := Ideal) m ρ) c)).trans ?_
  rw [l2_r4_rows m ρ c, e3, e4]
  exact Spec.mlpRow_cast _ _ _ _

/-- Region 3's outputs are still in place when region 4 has run: region 4 writes neither, nor do the operations
    between the two regions. -/
theorem l2_w20_v82_0 : W32 (F := Ideal) m ρ c (Proc.devRef .tc main_v150_0) = W30 (F := Ideal) m ρ c (Proc.devRef .tc main_v150_0) :=
  (W32_of_ne (F := Ideal) m ρ c main_v150_0 (by decide)).trans (l2_h4_v82_0 (W30 (F := Ideal) m ρ c))
theorem l2_w20_v82_1 : W32 (F := Ideal) m ρ c (Proc.devRef .tc main_v150_1) = W30 (F := Ideal) m ρ c (Proc.devRef .tc main_v150_1) :=
  (W32_of_ne (F := Ideal) m ρ c main_v150_1 (by decide)).trans (l2_h4_v82_1 (W30 (F := Ideal) m ρ c))

/-! ## The host's four aggregations, over any contents `V` at region 4's exit -/

/-- The N0 sum: edge types 0 and 1, gathered from region 3's first and region 4's first output. -/
theorem l2_h5_v116 (V : Valuation τ sig (Elt Ideal)) :
    StableHlo.after (hostOps7_8 (F := Ideal)) (StableHlo.after (hostOps7_7 (F := Ideal)) (StableHlo.after (hostOps7_6 (F := Ideal))
      (StableHlo.after (hostOps7_5 (F := Ideal)) (StableHlo.after (hostOps7_4 (F := Ideal)) (StableHlo.after (hostOps7_3 (F := Ideal))
      (StableHlo.after (hostOps7_2 (F := Ideal)) (StableHlo.after (hostOps7_1 (F := Ideal)) (StableHlo.after (hostOps7 (F := Ideal)) V))))))))
        (Proc.devRef .tc main_v184)
      = out0 (V (Proc.devRef .tc main_v150_0)) (V (Proc.devRef .tc main_v161_0)) (V (Proc.devRef .tc main_arg3)) (V (Proc.devRef .tc main_arg4))
          (V (Proc.devRef .tc main_arg7)) (V (Proc.devRef .tc main_arg8)) := by
  simp only [hostOps7, hostOps7_1, hostOps7_2, hostOps7_3, hostOps7_4, hostOps7_5, hostOps7_6, hostOps7_7, hostOps7_8]
  after_results_simp
  rfl

/-- The N1 sum: edge types 2 and 3, gathered from region 3's second and region 4's second output. -/
theorem l2_h5_v139 (V : Valuation τ sig (Elt Ideal)) :
    StableHlo.after (hostOps7_8 (F := Ideal)) (StableHlo.after (hostOps7_7 (F := Ideal)) (StableHlo.after (hostOps7_6 (F := Ideal))
      (StableHlo.after (hostOps7_5 (F := Ideal)) (StableHlo.after (hostOps7_4 (F := Ideal)) (StableHlo.after (hostOps7_3 (F := Ideal))
      (StableHlo.after (hostOps7_2 (F := Ideal)) (StableHlo.after (hostOps7_1 (F := Ideal)) (StableHlo.after (hostOps7 (F := Ideal)) V))))))))
        (Proc.devRef .tc main_v207)
      = out1 (V (Proc.devRef .tc main_v150_1)) (V (Proc.devRef .tc main_v161_1)) (V (Proc.devRef .tc main_arg5)) (V (Proc.devRef .tc main_arg6))
          (V (Proc.devRef .tc main_arg9)) (V (Proc.devRef .tc main_arg10)) := by
  simp only [hostOps7, hostOps7_1, hostOps7_2, hostOps7_3, hostOps7_4, hostOps7_5, hostOps7_6, hostOps7_7, hostOps7_8]
  after_results_simp
  rfl

/-- Layer 1, N0 output: edge types 0 and 1 of the transformed (rectified) inputs. -/
theorem layer2_0 : ko0_2 m ρ c
    = out0 (Spec.mlp (Spec.relu (ko0_1 m ρ c)) (wsl ![2, 0, 0, 0] slices_S5x4x128x128_S1x1x128x128_2_0_0_0 (aMW m c)) (bsl ![2, 0, 0] slices_S5x4x128_S1x1x128_2_0_0 (aMB m c)))
        (Spec.mlp (Spec.relu (ko1_1 m ρ c)) (wsl ![2, 1, 0, 0] slices_S5x4x128x128_S1x1x128x128_2_1_0_0 (aMW m c)) (bsl ![2, 1, 0] slices_S5x4x128_S1x1x128_2_1_0 (aMB m c)))
        (aEs0 m c) (aEs1 m c) (aW0 m c) (aW1 m c) := by
  refine (l2_h5_v116 (W32 (F := Ideal) m ρ c)).trans ?_
  rw [l2_w20_v82_0 m ρ c, l2_r3_v82_0 m ρ c, l2_r4_v93_0 m ρ c, W32_arg m ρ c main_arg3 (by decide), W32_arg m ρ c main_arg4 (by decide),
    W32_arg m ρ c main_arg7 (by decide), W32_arg m ρ c main_arg8 (by decide)]

/-- Layer 1, N1 output: edge types 2 and 3. -/
theorem layer2_1 : ko1_2 m ρ c
    = out1 (Spec.mlp (Spec.relu (ko0_1 m ρ c)) (wsl ![2, 2, 0, 0] slices_S5x4x128x128_S1x1x128x128_2_2_0_0 (aMW m c)) (bsl ![2, 2, 0] slices_S5x4x128_S1x1x128_2_2_0 (aMB m c)))
        (Spec.mlp (Spec.relu (ko1_1 m ρ c)) (wsl ![2, 3, 0, 0] slices_S5x4x128x128_S1x1x128x128_2_3_0_0 (aMW m c)) (bsl ![2, 3, 0] slices_S5x4x128_S1x1x128_2_3_0 (aMB m c)))
        (aEs2 m c) (aEs3 m c) (aW2 m c) (aW3 m c) := by
  refine (l2_h5_v139 (W32 (F := Ideal) m ρ c)).trans ?_
  rw [l2_w20_v82_1 m ρ c, l2_r3_v82_1 m ρ c, l2_r4_v93_1 m ρ c, W32_arg m ρ c main_arg5 (by decide), W32_arg m ρ c main_arg6 (by decide),
    W32_arg m ρ c main_arg9 (by decide), W32_arg m ρ c main_arg10 (by decide)]

end Cert.KernelIdeal.KV

end
-- ==== Proof.Reg7.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r7_idx : ∀ t : Fin cfg7.N,
    (∀ a, win7_1.index t a = 0) ∧ (∀ a, win7_2.index t a = 0) ∧ (∀ a, win7_3.index t a = 0) ∧ (∀ a, win7_4.index t a = 0)
      ∧ (win7_0.index t 0 = t.val ∧ win7_0.index t 1 = 0) ∧ (win7_5.index t 0 = t.val ∧ win7_5.index t 1 = 0)
      ∧ (win7_6.index t 0 = t.val ∧ win7_6.index t 1 = 0) :=
  (by decide +kernel : ∀ t : Fin grid7.N, _)

theorem r7_read0 (c : Dev nD) (t : Fin cfg7.N) (y : S4000x128.Idx) (i : S100000x128.Idx)
    (hr : (i 0).val = t.val * 4000 + (y 0).val) (hc : (i 1).val = (y 1).val) :
    iblk7 (F := Ideal) V c 0 t y = V c (Pipeline.arrRef spec7 0) i := by
  obtain ⟨-, -, -, -, ⟨e0, e1⟩, -⟩ := r7_idx t
  unfold iblk7
  refine congrArg (V c (Pipeline.arrRef spec7 0)) (funext fun a => Fin.ext ?_)
  match a with
  | ⟨0, _⟩ => show win7_0.index t (0 : Fin 2) * 4000 + 1 * (y 0).val = (i 0).val; omega
  | ⟨1, _⟩ => show win7_0.index t (1 : Fin 2) * 128 + 1 * (y 1).val = (i 1).val; omega

theorem r7_read1 (c : Dev nD) (t : Fin cfg7.N) : iblk7 (F := Ideal) V c 1 t = V c (Pipeline.arrRef spec7 1) :=
  funext fun y => congrArg (V c (Pipeline.arrRef spec7 1)) (funext fun a => Fin.ext
    (Window.rect_emb_val_of_index_zero win7_1 t a ((r7_idx t).1 a) y))

theorem r7_read2 (c : Dev nD) (t : Fin cfg7.N) : iblk7 (F := Ideal) V c 2 t = V c (Pipeline.arrRef spec7 2) :=
  funext fun y => congrArg (V c (Pipeline.arrRef spec7 2)) (funext fun a => Fin.ext
    (Window.rect_emb_val_of_index_zero win7_2 t a ((r7_idx t).2.1 a) y))

theorem r7_read3 (c : Dev nD) (t : Fin cfg7.N) : iblk7 (F := Ideal) V c 3 t = V c (Pipeline.arrRef spec7 3) :=
  funext fun y => congrArg (V c (Pipeline.arrRef spec7 3)) (funext fun a => Fin.ext
    (Window.rect_emb_val_of_index_zero win7_3 t a ((r7_idx t).2.2.1 a) y))

theorem r7_read4 (c : Dev nD) (t : Fin cfg7.N) : iblk7 (F := Ideal) V c 4 t = V c (Pipeline.arrRef spec7 4) :=
  funext fun y => congrArg (V c (Pipeline.arrRef spec7 4)) (funext fun a => Fin.ext
    (Window.rect_emb_val_of_index_zero win7_4 t a ((r7_idx t).2.2.2.1 a) y))

theorem r7_stored5 (c : Dev nD) (t : Fin cfg7.N) : (dat7 (F := Ideal) V c).flushed 5 t
    = k7_pay2 (F := Ideal) (iblk7 V c 0 t) (iblk7 V c 1 t) (iblk7 V c 2 t) := by
  show (cfg7.win 5).cut (grid7.coords t) ((dat7 V c).after 5 t) = _
  rw [after7_5]
  unfold out7_5
  rw [View.canon_unit_zero RegLib.hz]
  simp only [View.ld_unit_zero (S := S4000x128) RegLib.hz, View.ld_unit_zero (S := S128x128) RegLib.hz,
    View.ld_unit_zero (S := S1x128) RegLib.hz]
  rfl

theorem r7_stored6 (c : Dev nD) (t : Fin cfg7.N) : (dat7 (F := Ideal) V c).flushed 6 t
    = k7_pay3 (F := Ideal) (iblk7 V c 0 t) (iblk7 V c 3 t) (iblk7 V c 4 t) := by
  show (cfg7.win 6).cut (grid7.coords t) ((dat7 V c).after 6 t) = _
  rw [after7_6]
  unfold out7_6
  rw [View.canon_unit_zero RegLib.hz]
  simp only [View.ld_unit_zero (S := S4000x128) RegLib.hz, View.ld_unit_zero (S := S128x128) RegLib.hz,
    View.ld_unit_zero (S := S1x128) RegLib.hz]
  rfl

/-- What point t writes back through output window 5 is block t of the transform of the arrays the region finds. -/
theorem r7_flushed5 (c : Dev nD) (t : Fin cfg7.N) :
    (dat7 (F := Ideal) V c).flushed 5 t = ((cfg7.win 5).blk t).view.read (Elt Ideal)
      (Spec.mlpRow (M := 100000) (K := 128) (Spec.relu (V c (Pipeline.arrRef spec7 0)))
        (V c (Pipeline.arrRef spec7 1)) (V c (Pipeline.arrRef spec7 2))) := by
  refine (r7_stored5 V c t).trans (funext fun j => ?_)
  obtain ⟨p, q, rfl⟩ : ∃ (p : Fin 4000) (q : Fin 128), j = ix2 p q := ⟨j 0, j 1, eq_ix2 j⟩
  obtain ⟨-, -, -, -, -, ⟨e0, e1⟩, -⟩ := r7_idx t
  refine (pay_c (iblk7 V c 0 t) (iblk7 V c 1 t) (iblk7 V c 2 t) p q).trans ?_
  exact RegLib.mlp_at (fun x => max x 0) (V c (Pipeline.arrRef spec7 0)) (V c (Pipeline.arrRef spec7 1))
    (V c (Pipeline.arrRef spec7 2)) (iblk7 V c 0 t) (iblk7 V c 1 t) (iblk7 V c 2 t) t.val (r7_read0 V c t)
    (r7_read1 V c t) (r7_read2 V c t) p q (((cfg7.win 5).blk t).view.emb (ix2 p q))
    (show win7_5.index t (0 : Fin 2) * 4000 + 1 * p.val = t.val * 4000 + p.val by omega)
    (show win7_5.index t (1 : Fin 2) * 128 + 1 * q.val = q.val by omega)

theorem r7_flushed6 (c : Dev nD) (t : Fin cfg7.N) :
    (dat7 (F := Ideal) V c).flushed 6 t = ((cfg7.win 6).blk t).view.read (Elt Ideal)
      (Spec.mlpRow (M := 100000) (K := 128) (Spec.relu (V c (Pipeline.arrRef spec7 0)))
        (V c (Pipeline.arrRef spec7 3)) (V c (Pipeline.arrRef spec7 4))) := by
  refine (r7_stored6 V c t).trans (funext fun j => ?_)
  obtain ⟨p, q, rfl⟩ : ∃ (p : Fin 4000) (q : Fin 128), j = ix2 p q := ⟨j 0, j 1, eq_ix2 j⟩
  obtain ⟨-, -, -, -, -, -, e0, e1⟩ := r7_idx t
  refine (pay_c (iblk7 V c 0 t) (iblk7 V c 3 t) (iblk7 V c 4 t) p q).trans ?_
  exact RegLib.mlp_at (fun x => max x 0) (V c (Pipeline.arrRef spec7 0)) (V c (Pipeline.arrRef spec7 3))
    (V c (Pipeline.arrRef spec7 4)) (iblk7 V c 0 t) (iblk7 V c 3 t) (iblk7 V c 4 t) t.val (r7_read0 V c t)
    (r7_read3 V c t) (r7_read4 V c t) p q (((cfg7.win 6).blk t).view.emb (ix2 p q))
    (show win7_6.index t (0 : Fin 2) * 4000 + 1 * p.val = t.val * 4000 + p.val by omega)
    (show win7_6.index t (1 : Fin 2) * 128 + 1 * q.val = q.val by omega)

theorem r7_cover5 (i : S100000x128.Idx) :
    ∃ t : Fin cfg7.N, (cfg7.win 5).flush t = true ∧ i ∈ ((cfg7.win 5).blk t).view.set :=
  let ⟨t, ht⟩ := RegLib.rows_cover (R := 4000) (by decide) (by rw [show cfg7.grid.N = 25 from N_7])
    (fun t => ((cfg7.win 5).blk t).view.set) win7_5.index (fun t => (r7_idx t).2.2.2.2.2.1) (fun t i => by
      show i ∈ ((View.whole (Pipeline.arrRef spec7 5)).slice (win7_5.rect t)).set ↔ _
      rw [View.set_slice_whole, Rect.mem_set_unit]
      exact Iff.rfl) i
  ⟨t, flush7_5 t, ht⟩

theorem r7_cover6 (i : S100000x128.Idx) :
    ∃ t : Fin cfg7.N, (cfg7.win 6).flush t = true ∧ i ∈ ((cfg7.win 6).blk t).view.set :=
  let ⟨t, ht⟩ := RegLib.rows_cover (R := 4000) (by decide) (by rw [show cfg7.grid.N = 25 from N_7])
    (fun t => ((cfg7.win 6).blk t).view.set) win7_6.index (fun t => (r7_idx t).2.2.2.2.2.2) (fun t i => by
      show i ∈ ((View.whole (Pipeline.arrRef spec7 6)).slice (win7_6.rect t)).set ↔ _
      rw [View.set_slice_whole, Rect.mem_set_unit]
      exact Iff.rfl) i
  ⟨t, flush7_6 t, ht⟩

/-- Output window 5 ends at the transform with the first matrix (window 1) and bias (window 2). -/
theorem final7_5 (c : Dev nD) :
    (dat7 (F := Ideal) V c).arrAt 5 cfg7.N
      = Spec.mlpRow (M := 100000) (K := 128) (Spec.relu (V c (Pipeline.arrRef spec7 0)))
          (V c (Pipeline.arrRef spec7 1)) (V c (Pipeline.arrRef spec7 2)) :=
  (dat7 (F := Ideal) V c).arrAt_eq_of_cover 5 _ (fun t _ => r7_flushed5 V c t) r7_cover5

/-- Output window 6 ends at the transform with the second matrix (window 3) and bias (window 4). -/
theorem final7_6 (c : Dev nD) :
    (dat7 (F := Ideal) V c).arrAt 6 cfg7.N
      = Spec.mlpRow (M := 100000) (K := 128) (Spec.relu (V c (Pipeline.arrRef spec7 0)))
          (V c (Pipeline.arrRef spec7 3)) (V c (Pipeline.arrRef spec7 4)) :=
  (dat7 (F := Ideal) V c).arrAt_eq_of_cover 6 _ (fun t _ => r7_flushed6 V c t) r7_cover6

end Cert.KernelIdeal.RegVal

end
-- ==== Proof.Reg8.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r8_idx : ∀ t : Fin cfg8.N,
    (∀ a, win8_1.index t a = 0) ∧ (∀ a, win8_2.index t a = 0) ∧ (∀ a, win8_3.index t a = 0) ∧ (∀ a, win8_4.index t a = 0)
      ∧ (win8_0.index t 0 = t.val ∧ win8_0.index t 1 = 0) ∧ (win8_5.index t 0 = t.val ∧ win8_5.index t 1 = 0)
      ∧ (win8_6.index t 0 = t.val ∧ win8_6.index t 1 = 0) :=
  (by decide +kernel : ∀ t : Fin grid8.N, _)

theorem r8_read0 (c : Dev nD) (t : Fin cfg8.N) (y : S2000x128.Idx) (i : S2000x128.Idx)
    (hr : (i 0).val = t.val * 2000 + (y 0).val) (hc : (i 1).val = (y 1).val) :
    iblk8 (F := Ideal) V c 0 t y = V c (Pipeline.arrRef spec8 0) i := by
  obtain ⟨-, -, -, -, ⟨e0, e1⟩, -⟩ := r8_idx t
  unfold iblk8
  refine congrArg (V c (Pipeline.arrRef spec8 0)) (funext fun a => Fin.ext ?_)
  match a with
  | ⟨0, _⟩ => show win8_0.index t (0 : Fin 2) * 2000 + 1 * (y 0).val = (i 0).val; omega
  | ⟨1, _⟩ => show win8_0.index t (1 : Fin 2) * 128 + 1 * (y 1).val = (i 1).val; omega

theorem r8_read1 (c : Dev nD) (t : Fin cfg8.N) : iblk8 (F := Ideal) V c 1 t = V c (Pipeline.arrRef spec8 1) :=
  funext fun y => congrArg (V c (Pipeline.arrRef spec8 1)) (funext fun a => Fin.ext
    (Window.rect_emb_val_of_index_zero win8_1 t a ((r8_idx t).1 a) y))

theorem r8_read2 (c : Dev nD) (t : Fin cfg8.N) : iblk8 (F := Ideal) V c 2 t = V c (Pipeline.arrRef spec8 2) :=
  funext fun y => congrArg (V c (Pipeline.arrRef spec8 2)) (funext fun a => Fin.ext
    (Window.rect_emb_val_of_index_zero win8_2 t a ((r8_idx t).2.1 a) y))

theorem r8_read3 (c : Dev nD) (t : Fin cfg8.N) : iblk8 (F := Ideal) V c 3 t = V c (Pipeline.arrRef spec8 3) :=
  funext fun y => congrArg (V c (Pipeline.arrRef spec8 3)) (funext fun a => Fin.ext
    (Window.rect_emb_val_of_index_zero win8_3 t a ((r8_idx t).2.2.1 a) y))

theorem r8_read4 (c : Dev nD) (t : Fin cfg8.N) : iblk8 (F := Ideal) V c 4 t = V c (Pipeline.arrRef spec8 4) :=
  funext fun y => congrArg (V c (Pipeline.arrRef spec8 4)) (funext fun a => Fin.ext
    (Window.rect_emb_val_of_index_zero win8_4 t a ((r8_idx t).2.2.2.1 a) y))

theorem r8_stored5 (c : Dev nD) (t : Fin cfg8.N) : (dat8 (F := Ideal) V c).flushed 5 t
    = k8_pay2 (F := Ideal) (iblk8 V c 0 t) (iblk8 V c 1 t) (iblk8 V c 2 t) := by
  show (cfg8.win 5).cut (grid8.coords t) ((dat8 V c).after 5 t) = _
  rw [after8_5]
  unfold out8_5
  rw [View.canon_unit_zero RegLib.hz]
  simp only [View.ld_unit_zero (S := S2000x128) RegLib.hz, View.ld_unit_zero (S := S128x128) RegLib.hz,
    View.ld_unit_zero (S := S1x128) RegLib.hz]
  rfl

theorem r8_stored6 (c : Dev nD) (t : Fin cfg8.N) : (dat8 (F := Ideal) V c).flushed 6 t
    = k8_pay3 (F := Ideal) (iblk8 V c 0 t) (iblk8 V c 3 t) (iblk8 V c 4 t) := by
  show (cfg8.win 6).cut (grid8.coords t) ((dat8 V c).after 6 t) = _
  rw [after8_6]
  unfold out8_6
  rw [View.canon_unit_zero RegLib.hz]
  simp only [View.ld_unit_zero (S := S2000x128) RegLib.hz, View.ld_unit_zero (S := S128x128) RegLib.hz,
    View.ld_unit_zero (S := S1x128) RegLib.hz]
  rfl

/-- What point t writes back through output window 5 is block t of the transform of the arrays the region finds. -/
theorem r8_flushed5 (c : Dev nD) (t : Fin cfg8.N) :
    (dat8 (F := Ideal) V c).flushed 5 t = ((cfg8.win 5).blk t).view.read (Elt Ideal)
      (Spec.mlpRow (M := 2000) (K := 128) (Spec.relu (V c (Pipeline.arrRef spec8 0)))
        (V c (Pipeline.arrRef spec8 1)) (V c (Pipeline.arrRef spec8 2))) := by
  refine (r8_stored5 V c t).trans (funext fun j => ?_)
  obtain ⟨p, q, rfl⟩ : ∃ (p : Fin 2000) (q : Fin 128), j = ix2 p q := ⟨j 0, j 1, eq_ix2 j⟩
  obtain ⟨-, -, -, -, -, ⟨e0, e1⟩, -⟩ := r8_idx t
  refine (pay_d (iblk8 V c 0 t) (iblk8 V c 1 t) (iblk8 V c 2 t) p q).trans ?_
  exact RegLib.mlp_at (fun x => max x 0) (V c (Pipeline.arrRef spec8 0)) (V c (Pipeline.arrRef spec8 1))
    (V c (Pipeline.arrRef spec8 2)) (iblk8 V c 0 t) (iblk8 V c 1 t) (iblk8 V c 2 t) t.val (r8_read0 V c t)
    (r8_read1 V c t) (r8_read2 V c t) p q (((cfg8.win 5).blk t).view.emb (ix2 p q))
    (show win8_5.index t (0 : Fin 2) * 2000 + 1 * p.val = t.val * 2000 + p.val by omega)
    (show win8_5.index t (1 : Fin 2) * 128 + 1 * q.val = q.val by omega)

theorem r8_flushed6 (c : Dev nD) (t : Fin cfg8.N) :
    (dat8 (F := Ideal) V c).flushed 6 t = ((cfg8.win 6).blk t).view.read (Elt Ideal)
      (Spec.mlpRow (M := 2000) (K := 128) (Spec.relu (V c (Pipeline.arrRef spec8 0)))
        (V c (Pipeline.arrRef spec8 3)) (V c (Pipeline.arrRef spec8 4))) := by
  refine (r8_stored6 V c t).trans (funext fun j => ?_)
  obtain ⟨p, q, rfl⟩ : ∃ (p : Fin 2000) (q : Fin 128), j = ix2 p q := ⟨j 0, j 1, eq_ix2 j⟩
  obtain ⟨-, -, -, -, -, -, e0, e1⟩ := r8_idx t
  refine (pay_d (iblk8 V c 0 t) (iblk8 V c 3 t) (iblk8 V c 4 t) p q).trans ?_
  exact RegLib.mlp_at (fun x => max x 0) (V c (Pipeline.arrRef spec8 0)) (V c (Pipeline.arrRef spec8 3))
    (V c (Pipeline.arrRef spec8 4)) (iblk8 V c 0 t) (iblk8 V c 3 t) (iblk8 V c 4 t) t.val (r8_read0 V c t)
    (r8_read3 V c t) (r8_read4 V c t) p q (((cfg8.win 6).blk t).view.emb (ix2 p q))
    (show win8_6.index t (0 : Fin 2) * 2000 + 1 * p.val = t.val * 2000 + p.val by omega)
    (show win8_6.index t (1 : Fin 2) * 128 + 1 * q.val = q.val by omega)

theorem r8_cover5 (i : S2000x128.Idx) :
    ∃ t : Fin cfg8.N, (cfg8.win 5).flush t = true ∧ i ∈ ((cfg8.win 5).blk t).view.set :=
  let ⟨t, ht⟩ := RegLib.rows_cover (R := 2000) (by decide) (by rw [show cfg8.grid.N = 1 from N_8])
    (fun t => ((cfg8.win 5).blk t).view.set) win8_5.index (fun t => (r8_idx t).2.2.2.2.2.1) (fun t i => by
      show i ∈ ((View.whole (Pipeline.arrRef spec8 5)).slice (win8_5.rect t)).set ↔ _
      rw [View.set_slice_whole, Rect.mem_set_unit]
      exact Iff.rfl) i
  ⟨t, flush8_5 t, ht⟩

theorem r8_cover6 (i : S2000x128.Idx) :
    ∃ t : Fin cfg8.N, (cfg8.win 6).flush t = true ∧ i ∈ ((cfg8.win 6).blk t).view.set :=
  let ⟨t, ht⟩ := RegLib.rows_cover (R := 2000) (by decide) (by rw [show cfg8.grid.N = 1 from N_8])
    (fun t => ((cfg8.win 6).blk t).view.set) win8_6.index (fun t => (r8_idx t).2.2.2.2.2.2) (fun t i => by
      show i ∈ ((View.whole (Pipeline.arrRef spec8 6)).slice (win8_6.rect t)).set ↔ _
      rw [View.set_slice_whole, Rect.mem_set_unit]
      exact Iff.rfl) i
  ⟨t, flush8_6 t, ht⟩

/-- Output window 5 ends at the transform with the first matrix (window 1) and bias (window 2). -/
theorem final8_5 (c : Dev nD) :
    (dat8 (F := Ideal) V c).arrAt 5 cfg8.N
      = Spec.mlpRow (M := 2000) (K := 128) (Spec.relu (V c (Pipeline.arrRef spec8 0)))
          (V c (Pipeline.arrRef spec8 1)) (V c (Pipeline.arrRef spec8 2)) :=
  (dat8 (F := Ideal) V c).arrAt_eq_of_cover 5 _ (fun t _ => r8_flushed5 V c t) r8_cover5

/-- Output window 6 ends at the transform with the second matrix (window 3) and bias (window 4). -/
theorem final8_6 (c : Dev nD) :
    (dat8 (F := Ideal) V c).arrAt 6 cfg8.N
      = Spec.mlpRow (M := 2000) (K := 128) (Spec.relu (V c (Pipeline.arrRef spec8 0)))
          (V c (Pipeline.arrRef spec8 3)) (V c (Pipeline.arrRef spec8 4)) :=
  (dat8 (F := Ideal) V c).arrAt_eq_of_cover 6 _ (fun t _ => r8_flushed6 V c t) r8_cover6

end Cert.KernelIdeal.RegVal

end
-- ==== Proof.KL3.lean ====
/-
  The kernel program's layer 3: regions 3 and 4 rectify layer 2's outputs and transform them; the host aggregates.
-/
import proofs.«409564_j17119739642177_3_alg».proof.Proof.KNames
import proofs.«409564_j17119739642177_3_alg».proof.Proof.SpecLemmas
import proofs.«409564_j17119739642177_3_alg».proof.Proof.Reg7
import proofs.«409564_j17119739642177_3_alg».proof.Proof.Reg8
import proofs.«409564_j17119739642177_3_alg».proof.Proof.KArgs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK Cert.KernelIdeal.RegVal

variable (m : (ℓ : Loc nD τ sig) → Buf (Elt Ideal) ℓ) (ρ : Dev nD → PrngReg) (c : Dev nD)

/-! ## The host operations before region 3: its two weight matrices and its two bias rows, over any contents `V` -/

/-- Region 3's first matrix is slice (1, 0) of the stacked matrices. -/
theorem l3_h3_8_v73 (V : Valuation τ sig (Elt Ideal)) :
    StableHlo.after (hostOps7_8 (F := Ideal)) V (Proc.devRef .tc main_v209)
      = wsl ![3, 0, 0, 0] slices_S5x4x128x128_S1x1x128x128_3_0_0_0 (V (Proc.devRef .tc main_arg15)) := by
  simp only [hostOps7_8]
  after_results
  rfl

/-- Region 3's first bias row is slice (1, 0) of the stacked biases, as a one-row array. -/
theorem l3_h3_8_v80 (V : Valuation τ sig (Elt Ideal)) :
    StableHlo.after (hostOps7_8 (F := Ideal)) V (Proc.devRef .tc main_v216)
      = shapeCast S1x128 (bsl ![3, 0, 0] slices_S5x4x128_S1x1x128_3_0_0 (V (Proc.devRef .tc main_arg16))) shapeCasts_S128_S1x128 := by
  simp only [hostOps7_8]
  after_results
  rfl

/-- Region 3's second matrix is slice (1, 2). -/
theorem l3_h3_8_v77 (V : Valuation τ sig (Elt Ideal)) :
    StableHlo.after (hostOps7_8 (F := Ideal)) V (Proc.devRef .tc main_v213)
      = wsl ![3, 2, 0, 0] slices_S5x4x128x128_S1x1x128x128_3_2_0_0 (V (Proc.devRef .tc main_arg15)) := by
  simp only [hostOps7_8]
  after_results
  rfl

/-- Region 3's second bias row is slice (1, 2). -/
theorem l3_h3_8_v81 (V : Valuation τ sig (Elt Ideal)) :
    StableHlo.after (hostOps7_8 (F := Ideal)) V (Proc.devRef .tc main_v217)
      = shapeCast S1x128 (bsl ![3, 2, 0] slices_S5x4x128_S1x1x128_3_2_0 (V (Proc.devRef .tc main_arg16))) shapeCasts_S128_S1x128 := by
  simp only [hostOps7_8]
  after_results
  rfl

/-! ## Region 3: the two transforms of the rectified N0 rows -/

/-- Region 3's first output: edge type 0's transformed rows. -/
theorem l3_r3_v82_0 : W42 (F := Ideal) m ρ c (Proc.devRef .tc main_v218_0)
    = Spec.mlp (Spec.relu (ko0_2 m ρ c)) (wsl ![3, 0, 0, 0] slices_S5x4x128x128_S1x1x128x128_3_0_0_0 (aMW m c))
        (bsl ![3, 0, 0] slices_S5x4x128_S1x1x128_3_0_0 (aMB m c)) := by
  have e0 : V41 (F := Ideal) m ρ c (Pipeline.arrRef spec7 0) = ko0_2 m ρ c := rfl
  have e1 : V41 (F := Ideal) m ρ c (Pipeline.arrRef spec7 1)
      = wsl ![3, 0, 0, 0] slices_S5x4x128x128_S1x1x128x128_3_0_0_0 (aMW m c) := by
    refine (l3_h3_8_v73 (W40 (F := Ideal) m ρ c)).trans ?_
    rw [W40_arg m ρ c main_arg15 (by decide)]
  have e2 : V41 (F := Ideal) m ρ c (Pipeline.arrRef spec7 2)
      = shapeCast S1x128 (bsl ![3, 0, 0] slices_S5x4x128_S1x1x128_3_0_0 (aMB m c)) shapeCasts_S128_S1x128 := by
    refine (l3_h3_8_v80 (W40 (F := Ideal) m ρ c)).trans ?_
    rw [W40_arg m ρ c main_arg16 (by decide)]
  refine ((W42_arr (F := Ideal) m ρ c 5).trans (final7_5 (V41 (F := Ideal) m ρ) c)).trans ?_
  rw [e0, e1, e2]
  exact Spec.mlpRow_cast _ _ _ _

/-- Region 3's second output: edge type 2's transformed rows. -/
theorem l3_r3_v82_1 : W42 (F := Ideal) m ρ c (Proc.devRef .tc main_v218_1)
    = Spec.mlp (Spec.relu (ko0_2 m ρ c)) (wsl ![3, 2, 0, 0] slices_S5x4x128x128_S1x1x128x128_3_2_0_0 (aMW m c))
        (bsl ![3, 2, 0] slices_S5x4x128_S1x1x128_3_2_0 (aMB m c)) := by
  have e0 : V41 (F := Ideal) m ρ c (Pipeline.arrRef spec7 0) = ko0_2 m ρ c := rfl
  have e3 : V41 (F := Ideal) m ρ c (Pipeline.arrRef spec7 3)
      = wsl ![3, 2, 0, 0] slices_S5x4x128x128_S1x1x128x128_3_2_0_0 (aMW m c) := by
    refine (l3_h3_8_v77 (W40 (F := Ideal) m ρ c)).trans ?_
    rw [W40_arg m ρ c main_arg15 (by decide)]
  have e4 : V41 (F := Ideal) m ρ c (Pipeline.arrRef spec7 4)
      = shapeCast S1x128 (bsl ![3, 2, 0] slices_S5x4x128_S1x1x128_3_2_0 (aMB m c)) shapeCasts_S128_S1x128 := by
    refine (l3_h3_8_v81 (W40 (F := Ideal) m ρ c)).trans ?_
    rw [W40_arg m ρ c main_arg16 (by decide)]
  refine ((W42_arr (F := Ideal) m ρ c 6).trans (final7_6 (V41 (F := Ideal) m ρ) c)).trans ?_
  rw [e0, e3, e4]
  exact Spec.mlpRow_cast _ _ _ _

/-! ## The host operations before region 4: its weights, and what they leave alone, over any contents `V` -/

/-- Region 4's first matrix is slice (1, 1) of the stacked matrices. -/
theorem l3_h4_v84 (V : Valuation τ sig (Elt Ideal)) :
    StableHlo.after (hostOps8 (F := Ideal)) V (Proc.devRef .tc main_v220)
      = wsl ![3, 1, 0, 0] slices_S5x4x128x128_S1x1x128x128_3_1_0_0 (V (Proc.devRef .tc main_arg15)) := by
  simp only [hostOps8]
  after_results
  rfl

/-- Region 4's first bias row is slice (1, 1) of the stacked biases, as a one-row array. -/
theorem l3_h4_v91 (V : Valuation τ sig (Elt Ideal)) :
    StableHlo.after (hostOps8 (F := Ideal)) V (Proc.devRef .tc main_v227)
      = shapeCast S1x128 (bsl ![3, 1, 0] slices_S5x4x128_S1x1x128_3_1_0 (V (Proc.devRef .tc main_arg16))) shapeCasts_S128_S1x128 := by
  simp only [hostOps8]
  after_results
  rfl

/-- Region 4's second matrix is slice (1, 3). -/
theorem l3_h4_v88 (V : Valuation τ sig (Elt Ideal)) :
    StableHlo.after (hostOps8 (F := Ideal)) V (Proc.devRef .tc main_v224)
      = wsl ![3, 3, 0, 0] slices_S5x4x128x128_S1x1x128x128_3_3_0_0 (V (Proc.devRef .tc main_arg15)) := by
  simp only [hostOps8]
  after_results
  rfl

/-- Region 4's second bias row is slice (1, 3). -/
theorem l3_h4_v92 (V : Valuation τ sig (Elt Ideal)) :
    StableHlo.after (hostOps8 (F := Ideal)) V (Proc.devRef .tc main_v228)
      = shapeCast S1x128 (bsl ![3, 3, 0] slices_S5x4x128_S1x1x128_3_3_0 (V (Proc.devRef .tc main_arg16))) shapeCasts_S128_S1x128 := by
  simp only [hostOps8]
  after_results
  rfl

/-- These operations write none of layer 2's N1 output and region 3's two outputs. -/
theorem l3_h4_v71 (V : Valuation τ sig (Elt Ideal)) :
    StableHlo.after (hostOps8 (F := Ideal)) V (Proc.devRef .tc main_v207) = V (Proc.devRef .tc main_v207) := by
  simp only [hostOps8]
  after_results
theorem l3_h4_v82_0 (V : Valuation τ sig (Elt Ideal)) :
    StableHlo.after (hostOps8 (F := Ideal)) V (Proc.devRef .tc main_v218_0) = V (Proc.devRef .tc main_v218_0) := by
  simp only [hostOps8]
  after_results
theorem l3_h4_v82_1 (V : Valuation τ sig (Elt Ideal)) :
    StableHlo.after (hostOps8 (F := Ideal)) V (Proc.devRef .tc main_v218_1) = V (Proc.devRef .tc main_v218_1) := by
  simp only [hostOps8]
  after_results

/-! ## Region 4: the two transforms of the rectified N1 rows -/

/-- Region 4 finds layer 2's N1 output in its row window: neither region 3 nor the operations after it write it. -/
theorem l3_r4_rows : V43 (F := Ideal) m ρ c (Pipeline.arrRef spec8 0) = ko1_2 m ρ c :=
  (l3_h4_v71 (W42 (F := Ideal) m ρ c)).trans (W42_of_ne (F := Ideal) m ρ c main_v207 (by decide))

/-- Region 4's first output: edge type 1's transformed rows. -/
theorem l3_r4_v93_0 : W44 (F := Ideal) m ρ c (Proc.devRef .tc main_v229_0)
    = Spec.mlp (Spec.relu (ko1_2 m ρ c)) (wsl ![3, 1, 0, 0] slices_S5x4x128x128_S1x1x128x128_3_1_0_0 (aMW m c))
        (bsl ![3, 1, 0] slices_S5x4x128_S1x1x128_3_1_0 (aMB m c)) := by
  have e1 : V43 (F := Ideal) m ρ c (Pipeline.arrRef spec8 1)
      = wsl ![3, 1, 0, 0] slices_S5x4x128x128_S1x1x128x128_3_1_0_0 (aMW m c) := by
    refine (l3_h4_v84 (W42 (F := Ideal) m ρ c)).trans ?_
    rw [W42_arg m ρ c main_arg15 (by decide)]
  have e2 : V43 (F := Ideal) m ρ c (Pipeline.arrRef spec8 2)
      = shapeCast S1x128 (bsl ![3, 1, 0] slices_S5x4x128_S1x1x128_3_1_0 (aMB m c)) shapeCasts_S128_S1x128 := by
    refine (l3_h4_v91 (W42 (F := Ideal) m ρ c)).trans ?_
    rw [W42_arg m ρ c main_arg16 (by decide)]
  refine ((W44_arr (F := Ideal) m ρ c 5).trans (final8_5 (V43 (F := Ideal) m ρ) c)).trans ?_
  rw [l3_r4_rows m ρ c, e1, e2]
  exact Spec.mlpRow_cast _ _ _ _

/-- Region 4's second output: edge type 3's transformed rows. -/
theorem l3_r4_v93_1 : W44 (F := Ideal) m ρ c (Proc.devRef .tc main_v229_1)
    = Spec.mlp (Spec.relu (ko1_2 m ρ c)) (wsl ![3, 3, 0, 0] slices_S5x4x128x128_S1x1x128x128_3_3_0_0 (aMW m c))
        (bsl ![3, 3, 0] slices_S5x4x128_S1x1x128_3_3_0 (aMB m c)) := by
  have e3 : V43 (F := Ideal) m ρ c (Pipeline.arrRef spec8 3)
      = wsl ![3, 3, 0, 0] slices_S5x4x128x128_S1x1x128x128_3_3_0_0 (aMW m c) := by
    refine (l3_h4_v88 (W42 (F := Ideal) m ρ c)).trans ?_
    rw [W42_arg m ρ c main_arg15 (by decide)]
  have e4 : V43 (F := Ideal) m ρ c (Pipeline.arrRef spec8 4)
      = shapeCast S1x128 (bsl ![3, 3, 0] slices_S5x4x128_S1x1x128_3_3_0 (aMB m c)) shapeCasts_S128_S1x128 := by
    refine (l3_h4_v92 (W42 (F := Ideal) m ρ c)).trans ?_
    rw [W42_arg m ρ c main_arg16 (by decide)]
  refine ((W44_arr (F := Ideal) m ρ c 6).trans (final8_6 (V43 (F := Ideal) m ρ) c)).trans ?_
  rw [l3_r4_rows m ρ c, e3, e4]
  exact Spec.mlpRow_cast _ _ _ _

/-- Region 3's outputs are still in place when region 4 has run: region 4 writes neither, nor do the operations
    between the two regions. -/
theorem l3_w20_v82_0 : W44 (F := Ideal) m ρ c (Proc.devRef .tc main_v218_0) = W42 (F := Ideal) m ρ c (Proc.devRef .tc main_v218_0) :=
  (W44_of_ne (F := Ideal) m ρ c main_v218_0 (by decide)).trans (l3_h4_v82_0 (W42 (F := Ideal) m ρ c))
theorem l3_w20_v82_1 : W44 (F := Ideal) m ρ c (Proc.devRef .tc main_v218_1) = W42 (F := Ideal) m ρ c (Proc.devRef .tc main_v218_1) :=
  (W44_of_ne (F := Ideal) m ρ c main_v218_1 (by decide)).trans (l3_h4_v82_1 (W42 (F := Ideal) m ρ c))

/-! ## The host's four aggregations, over any contents `V` at region 4's exit -/

/-- The N0 sum: edge types 0 and 1, gathered from region 3's first and region 4's first output. -/
theorem l3_h5_v116 (V : Valuation τ sig (Elt Ideal)) :
    StableHlo.after (hostOps9_8 (F := Ideal)) (StableHlo.after (hostOps9_7 (F := Ideal)) (StableHlo.after (hostOps9_6 (F := Ideal))
      (StableHlo.after (hostOps9_5 (F := Ideal)) (StableHlo.after (hostOps9_4 (F := Ideal)) (StableHlo.after (hostOps9_3 (F := Ideal))
      (StableHlo.after (hostOps9_2 (F := Ideal)) (StableHlo.after (hostOps9_1 (F := Ideal)) (StableHlo.after (hostOps9 (F := Ideal)) V))))))))
        (Proc.devRef .tc main_v252)
      = out0 (V (Proc.devRef .tc main_v218_0)) (V (Proc.devRef .tc main_v229_0)) (V (Proc.devRef .tc main_arg3)) (V (Proc.devRef .tc main_arg4))
          (V (Proc.devRef .tc main_arg7)) (V (Proc.devRef .tc main_arg8)) := by
  simp only [hostOps9, hostOps9_1, hostOps9_2, hostOps9_3, hostOps9_4, hostOps9_5, hostOps9_6, hostOps9_7, hostOps9_8]
  after_results_simp
  rfl

/-- The N1 sum: edge types 2 and 3, gathered from region 3's second and region 4's second output. -/
theorem l3_h5_v139 (V : Valuation τ sig (Elt Ideal)) :
    StableHlo.after (hostOps9_8 (F := Ideal)) (StableHlo.after (hostOps9_7 (F := Ideal)) (StableHlo.after (hostOps9_6 (F := Ideal))
      (StableHlo.after (hostOps9_5 (F := Ideal)) (StableHlo.after (hostOps9_4 (F := Ideal)) (StableHlo.after (hostOps9_3 (F := Ideal))
      (StableHlo.after (hostOps9_2 (F := Ideal)) (StableHlo.after (hostOps9_1 (F := Ideal)) (StableHlo.after (hostOps9 (F := Ideal)) V))))))))
        (Proc.devRef .tc main_v275)
      = out1 (V (Proc.devRef .tc main_v218_1)) (V (Proc.devRef .tc main_v229_1)) (V (Proc.devRef .tc main_arg5)) (V (Proc.devRef .tc main_arg6))
          (V (Proc.devRef .tc main_arg9)) (V (Proc.devRef .tc main_arg10)) := by
  simp only [hostOps9, hostOps9_1, hostOps9_2, hostOps9_3, hostOps9_4, hostOps9_5, hostOps9_6, hostOps9_7, hostOps9_8]
  after_results_simp
  rfl

/-- Layer 1, N0 output: edge types 0 and 1 of the transformed (rectified) inputs. -/
theorem layer3_0 : ko0_3 m ρ c
    = out0 (Spec.mlp (Spec.relu (ko0_2 m ρ c)) (wsl ![3, 0, 0, 0] slices_S5x4x128x128_S1x1x128x128_3_0_0_0 (aMW m c)) (bsl ![3, 0, 0] slices_S5x4x128_S1x1x128_3_0_0 (aMB m c)))
        (Spec.mlp (Spec.relu (ko1_2 m ρ c)) (wsl ![3, 1, 0, 0] slices_S5x4x128x128_S1x1x128x128_3_1_0_0 (aMW m c)) (bsl ![3, 1, 0] slices_S5x4x128_S1x1x128_3_1_0 (aMB m c)))
        (aEs0 m c) (aEs1 m c) (aW0 m c) (aW1 m c) := by
  refine (l3_h5_v116 (W44 (F := Ideal) m ρ c)).trans ?_
  rw [l3_w20_v82_0 m ρ c, l3_r3_v82_0 m ρ c, l3_r4_v93_0 m ρ c, W44_arg m ρ c main_arg3 (by decide), W44_arg m ρ c main_arg4 (by decide),
    W44_arg m ρ c main_arg7 (by decide), W44_arg m ρ c main_arg8 (by decide)]

/-- Layer 1, N1 output: edge types 2 and 3. -/
theorem layer3_1 : ko1_3 m ρ c
    = out1 (Spec.mlp (Spec.relu (ko0_2 m ρ c)) (wsl ![3, 2, 0, 0] slices_S5x4x128x128_S1x1x128x128_3_2_0_0 (aMW m c)) (bsl ![3, 2, 0] slices_S5x4x128_S1x1x128_3_2_0 (aMB m c)))
        (Spec.mlp (Spec.relu (ko1_2 m ρ c)) (wsl ![3, 3, 0, 0] slices_S5x4x128x128_S1x1x128x128_3_3_0_0 (aMW m c)) (bsl ![3, 3, 0] slices_S5x4x128_S1x1x128_3_3_0 (aMB m c)))
        (aEs2 m c) (aEs3 m c) (aW2 m c) (aW3 m c) := by
  refine (l3_h5_v139 (W44 (F := Ideal) m ρ c)).trans ?_
  rw [l3_w20_v82_1 m ρ c, l3_r3_v82_1 m ρ c, l3_r4_v93_1 m ρ c, W44_arg m ρ c main_arg5 (by decide), W44_arg m ρ c main_arg6 (by decide),
    W44_arg m ρ c main_arg9 (by decide), W44_arg m ρ c main_arg10 (by decide)]

end Cert.KernelIdeal.KV

end
-- ==== Proof.Reg9.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r9_idx : ∀ t : Fin cfg9.N,
    (∀ a, win9_1.index t a = 0) ∧ (∀ a, win9_2.index t a = 0) ∧ (∀ a, win9_3.index t a = 0) ∧ (∀ a, win9_4.index t a = 0)
      ∧ (win9_0.index t 0 = t.val ∧ win9_0.index t 1 = 0) ∧ (win9_5.index t 0 = t.val ∧ win9_5.index t 1 = 0)
      ∧ (win9_6.index t 0 = t.val ∧ win9_6.index t 1 = 0) :=
  (by decide +kernel : ∀ t : Fin grid9.N, _)

theorem r9_read0 (c : Dev nD) (t : Fin cfg9.N) (y : S4000x128.Idx) (i : S100000x128.Idx)
    (hr : (i 0).val = t.val * 4000 + (y 0).val) (hc : (i 1).val = (y 1).val) :
    iblk9 (F := Ideal) V c 0 t y = V c (Pipeline.arrRef spec9 0) i := by
  obtain ⟨-, -, -, -, ⟨e0, e1⟩, -⟩ := r9_idx t
  unfold iblk9
  refine congrArg (V c (Pipeline.arrRef spec9 0)) (funext fun a => Fin.ext ?_)
  match a with
  | ⟨0, _⟩ => show win9_0.index t (0 : Fin 2) * 4000 + 1 * (y 0).val = (i 0).val; omega
  | ⟨1, _⟩ => show win9_0.index t (1 : Fin 2) * 128 + 1 * (y 1).val = (i 1).val; omega

theorem r9_read1 (c : Dev nD) (t : Fin cfg9.N) : iblk9 (F := Ideal) V c 1 t = V c (Pipeline.arrRef spec9 1) :=
  funext fun y => congrArg (V c (Pipeline.arrRef spec9 1)) (funext fun a => Fin.ext
    (Window.rect_emb_val_of_index_zero win9_1 t a ((r9_idx t).1 a) y))

theorem r9_read2 (c : Dev nD) (t : Fin cfg9.N) : iblk9 (F := Ideal) V c 2 t = V c (Pipeline.arrRef spec9 2) :=
  funext fun y => congrArg (V c (Pipeline.arrRef spec9 2)) (funext fun a => Fin.ext
    (Window.rect_emb_val_of_index_zero win9_2 t a ((r9_idx t).2.1 a) y))

theorem r9_read3 (c : Dev nD) (t : Fin cfg9.N) : iblk9 (F := Ideal) V c 3 t = V c (Pipeline.arrRef spec9 3) :=
  funext fun y => congrArg (V c (Pipeline.arrRef spec9 3)) (funext fun a => Fin.ext
    (Window.rect_emb_val_of_index_zero win9_3 t a ((r9_idx t).2.2.1 a) y))

theorem r9_read4 (c : Dev nD) (t : Fin cfg9.N) : iblk9 (F := Ideal) V c 4 t = V c (Pipeline.arrRef spec9 4) :=
  funext fun y => congrArg (V c (Pipeline.arrRef spec9 4)) (funext fun a => Fin.ext
    (Window.rect_emb_val_of_index_zero win9_4 t a ((r9_idx t).2.2.2.1 a) y))

theorem r9_stored5 (c : Dev nD) (t : Fin cfg9.N) : (dat9 (F := Ideal) V c).flushed 5 t
    = k9_pay2 (F := Ideal) (iblk9 V c 0 t) (iblk9 V c 1 t) (iblk9 V c 2 t) := by
  show (cfg9.win 5).cut (grid9.coords t) ((dat9 V c).after 5 t) = _
  rw [after9_5]
  unfold out9_5
  rw [View.canon_unit_zero RegLib.hz]
  simp only [View.ld_unit_zero (S := S4000x128) RegLib.hz, View.ld_unit_zero (S := S128x128) RegLib.hz,
    View.ld_unit_zero (S := S1x128) RegLib.hz]
  rfl

theorem r9_stored6 (c : Dev nD) (t : Fin cfg9.N) : (dat9 (F := Ideal) V c).flushed 6 t
    = k9_pay3 (F := Ideal) (iblk9 V c 0 t) (iblk9 V c 3 t) (iblk9 V c 4 t) := by
  show (cfg9.win 6).cut (grid9.coords t) ((dat9 V c).after 6 t) = _
  rw [after9_6]
  unfold out9_6
  rw [View.canon_unit_zero RegLib.hz]
  simp only [View.ld_unit_zero (S := S4000x128) RegLib.hz, View.ld_unit_zero (S := S128x128) RegLib.hz,
    View.ld_unit_zero (S := S1x128) RegLib.hz]
  rfl

/-- What point t writes back through output window 5 is block t of the transform of the arrays the region finds. -/
theorem r9_flushed5 (c : Dev nD) (t : Fin cfg9.N) :
    (dat9 (F := Ideal) V c).flushed 5 t = ((cfg9.win 5).blk t).view.read (Elt Ideal)
      (Spec.mlpRow (M := 100000) (K := 128) (Spec.relu (V c (Pipeline.arrRef spec9 0)))
        (V c (Pipeline.arrRef spec9 1)) (V c (Pipeline.arrRef spec9 2))) := by
  refine (r9_stored5 V c t).trans (funext fun j => ?_)
  obtain ⟨p, q, rfl⟩ : ∃ (p : Fin 4000) (q : Fin 128), j = ix2 p q := ⟨j 0, j 1, eq_ix2 j⟩
  obtain ⟨-, -, -, -, -, ⟨e0, e1⟩, -⟩ := r9_idx t
  refine (pay_c (iblk9 V c 0 t) (iblk9 V c 1 t) (iblk9 V c 2 t) p q).trans ?_
  exact RegLib.mlp_at (fun x => max x 0) (V c (Pipeline.arrRef spec9 0)) (V c (Pipeline.arrRef spec9 1))
    (V c (Pipeline.arrRef spec9 2)) (iblk9 V c 0 t) (iblk9 V c 1 t) (iblk9 V c 2 t) t.val (r9_read0 V c t)
    (r9_read1 V c t) (r9_read2 V c t) p q (((cfg9.win 5).blk t).view.emb (ix2 p q))
    (show win9_5.index t (0 : Fin 2) * 4000 + 1 * p.val = t.val * 4000 + p.val by omega)
    (show win9_5.index t (1 : Fin 2) * 128 + 1 * q.val = q.val by omega)

theorem r9_flushed6 (c : Dev nD) (t : Fin cfg9.N) :
    (dat9 (F := Ideal) V c).flushed 6 t = ((cfg9.win 6).blk t).view.read (Elt Ideal)
      (Spec.mlpRow (M := 100000) (K := 128) (Spec.relu (V c (Pipeline.arrRef spec9 0)))
        (V c (Pipeline.arrRef spec9 3)) (V c (Pipeline.arrRef spec9 4))) := by
  refine (r9_stored6 V c t).trans (funext fun j => ?_)
  obtain ⟨p, q, rfl⟩ : ∃ (p : Fin 4000) (q : Fin 128), j = ix2 p q := ⟨j 0, j 1, eq_ix2 j⟩
  obtain ⟨-, -, -, -, -, -, e0, e1⟩ := r9_idx t
  refine (pay_c (iblk9 V c 0 t) (iblk9 V c 3 t) (iblk9 V c 4 t) p q).trans ?_
  exact RegLib.mlp_at (fun x => max x 0) (V c (Pipeline.arrRef spec9 0)) (V c (Pipeline.arrRef spec9 3))
    (V c (Pipeline.arrRef spec9 4)) (iblk9 V c 0 t) (iblk9 V c 3 t) (iblk9 V c 4 t) t.val (r9_read0 V c t)
    (r9_read3 V c t) (r9_read4 V c t) p q (((cfg9.win 6).blk t).view.emb (ix2 p q))
    (show win9_6.index t (0 : Fin 2) * 4000 + 1 * p.val = t.val * 4000 + p.val by omega)
    (show win9_6.index t (1 : Fin 2) * 128 + 1 * q.val = q.val by omega)

theorem r9_cover5 (i : S100000x128.Idx) :
    ∃ t : Fin cfg9.N, (cfg9.win 5).flush t = true ∧ i ∈ ((cfg9.win 5).blk t).view.set :=
  let ⟨t, ht⟩ := RegLib.rows_cover (R := 4000) (by decide) (by rw [show cfg9.grid.N = 25 from N_9])
    (fun t => ((cfg9.win 5).blk t).view.set) win9_5.index (fun t => (r9_idx t).2.2.2.2.2.1) (fun t i => by
      show i ∈ ((View.whole (Pipeline.arrRef spec9 5)).slice (win9_5.rect t)).set ↔ _
      rw [View.set_slice_whole, Rect.mem_set_unit]
      exact Iff.rfl) i
  ⟨t, flush9_5 t, ht⟩

theorem r9_cover6 (i : S100000x128.Idx) :
    ∃ t : Fin cfg9.N, (cfg9.win 6).flush t = true ∧ i ∈ ((cfg9.win 6).blk t).view.set :=
  let ⟨t, ht⟩ := RegLib.rows_cover (R := 4000) (by decide) (by rw [show cfg9.grid.N = 25 from N_9])
    (fun t => ((cfg9.win 6).blk t).view.set) win9_6.index (fun t => (r9_idx t).2.2.2.2.2.2) (fun t i => by
      show i ∈ ((View.whole (Pipeline.arrRef spec9 6)).slice (win9_6.rect t)).set ↔ _
      rw [View.set_slice_whole, Rect.mem_set_unit]
      exact Iff.rfl) i
  ⟨t, flush9_6 t, ht⟩

/-- Output window 5 ends at the transform with the first matrix (window 1) and bias (window 2). -/
theorem final9_5 (c : Dev nD) :
    (dat9 (F := Ideal) V c).arrAt 5 cfg9.N
      = Spec.mlpRow (M := 100000) (K := 128) (Spec.relu (V c (Pipeline.arrRef spec9 0)))
          (V c (Pipeline.arrRef spec9 1)) (V c (Pipeline.arrRef spec9 2)) :=
  (dat9 (F := Ideal) V c).arrAt_eq_of_cover 5 _ (fun t _ => r9_flushed5 V c t) r9_cover5

/-- Output window 6 ends at the transform with the second matrix (window 3) and bias (window 4). -/
theorem final9_6 (c : Dev nD) :
    (dat9 (F := Ideal) V c).arrAt 6 cfg9.N
      = Spec.mlpRow (M := 100000) (K := 128) (Spec.relu (V c (Pipeline.arrRef spec9 0)))
          (V c (Pipeline.arrRef spec9 3)) (V c (Pipeline.arrRef spec9 4)) :=
  (dat9 (F := Ideal) V c).arrAt_eq_of_cover 6 _ (fun t _ => r9_flushed6 V c t) r9_cover6

end Cert.KernelIdeal.RegVal

end
-- ==== Proof.Reg10.lean ====
import proofs.«409564_j17119739642177_3_alg».proof.Proof.FrameKI
import proofs.«409564_j17119739642177_3_alg».proof.Proof.RegPay

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- Where each window sits at grid point t: the two matrices and two bias rows (windows 1–4) whole, at block (0, 0); the
    row input (window 0) and the two outputs (windows 5, 6) at block (t, 0). -/
theorem r10_idx : ∀ t : Fin cfg10.N,
    (∀ a, win10_1.index t a = 0) ∧ (∀ a, win10_2.index t a = 0) ∧ (∀ a, win10_3.index t a = 0) ∧ (∀ a, win10_4.index t a = 0)
      ∧ (win10_0.index t 0 = t.val ∧ win10_0.index t 1 = 0) ∧ (win10_5.index t 0 = t.val ∧ win10_5.index t 1 = 0)
      ∧ (win10_6.index t 0 = t.val ∧ win10_6.index t 1 = 0) :=
  (by decide +kernel : ∀ t : Fin grid10.N, _)

theorem r10_read0 (c : Dev nD) (t : Fin cfg10.N) (y : S2000x128.Idx) (i : S2000x128.Idx)
    (hr : (i 0).val = t.val * 2000 + (y 0).val) (hc : (i 1).val = (y 1).val) :
    iblk10 (F := Ideal) V c 0 t y = V c (Pipeline.arrRef spec10 0) i := by
  obtain ⟨-, -, -, -, ⟨e0, e1⟩, -⟩ := r10_idx t
  unfold iblk10
  refine congrArg (V c (Pipeline.arrRef spec10 0)) (funext fun a => Fin.ext ?_)
  match a with
  | ⟨0, _⟩ => show win10_0.index t (0 : Fin 2) * 2000 + 1 * (y 0).val = (i 0).val; omega
  | ⟨1, _⟩ => show win10_0.index t (1 : Fin 2) * 128 + 1 * (y 1).val = (i 1).val; omega

theorem r10_read1 (c : Dev nD) (t : Fin cfg10.N) : iblk10 (F := Ideal) V c 1 t = V c (Pipeline.arrRef spec10 1) :=
  funext fun y => congrArg (V c (Pipeline.arrRef spec10 1)) (funext fun a => Fin.ext
    (Window.rect_emb_val_of_index_zero win10_1 t a ((r10_idx t).1 a) y))

theorem r10_read2 (c : Dev nD) (t : Fin cfg10.N) : iblk10 (F := Ideal) V c 2 t = V c (Pipeline.arrRef spec10 2) :=
  funext fun y => congrArg (V c (Pipeline.arrRef spec10 2)) (funext fun a => Fin.ext
    (Window.rect_emb_val_of_index_zero win10_2 t a ((r10_idx t).2.1 a) y))

theorem r10_read3 (c : Dev nD) (t : Fin cfg10.N) : iblk10 (F := Ideal) V c 3 t = V c (Pipeline.arrRef spec10 3) :=
  funext fun y => congrArg (V c (Pipeline.arrRef spec10 3)) (funext fun a => Fin.ext
    (Window.rect_emb_val_of_index_zero win10_3 t a ((r10_idx t).2.2.1 a) y))

theorem r10_read4 (c : Dev nD) (t : Fin cfg10.N) : iblk10 (F := Ideal) V c 4 t = V c (Pipeline.arrRef spec10 4) :=
  funext fun y => congrArg (V c (Pipeline.arrRef spec10 4)) (funext fun a => Fin.ext
    (Window.rect_emb_val_of_index_zero win10_4 t a ((r10_idx t).2.2.2.1 a) y))

theorem r10_stored5 (c : Dev nD) (t : Fin cfg10.N) : (dat10 (F := Ideal) V c).flushed 5 t
    = k10_pay2 (F := Ideal) (iblk10 V c 0 t) (iblk10 V c 1 t) (iblk10 V c 2 t) := by
  show (cfg10.win 5).cut (grid10.coords t) ((dat10 V c).after 5 t) = _
  rw [after10_5]
  unfold out10_5
  rw [View.canon_unit_zero RegLib.hz]
  simp only [View.ld_unit_zero (S := S2000x128) RegLib.hz, View.ld_unit_zero (S := S128x128) RegLib.hz,
    View.ld_unit_zero (S := S1x128) RegLib.hz]
  rfl

theorem r10_stored6 (c : Dev nD) (t : Fin cfg10.N) : (dat10 (F := Ideal) V c).flushed 6 t
    = k10_pay3 (F := Ideal) (iblk10 V c 0 t) (iblk10 V c 3 t) (iblk10 V c 4 t) := by
  show (cfg10.win 6).cut (grid10.coords t) ((dat10 V c).after 6 t) = _
  rw [after10_6]
  unfold out10_6
  rw [View.canon_unit_zero RegLib.hz]
  simp only [View.ld_unit_zero (S := S2000x128) RegLib.hz, View.ld_unit_zero (S := S128x128) RegLib.hz,
    View.ld_unit_zero (S := S1x128) RegLib.hz]
  rfl

/-- What point t writes back through output window 5 is block t of the transform of the arrays the region finds. -/
theorem r10_flushed5 (c : Dev nD) (t : Fin cfg10.N) :
    (dat10 (F := Ideal) V c).flushed 5 t = ((cfg10.win 5).blk t).view.read (Elt Ideal)
      (Spec.mlpRow (M := 2000) (K := 128) (Spec.relu (V c (Pipeline.arrRef spec10 0)))
        (V c (Pipeline.arrRef spec10 1)) (V c (Pipeline.arrRef spec10 2))) := by
  refine (r10_stored5 V c t).trans (funext fun j => ?_)
  obtain ⟨p, q, rfl⟩ : ∃ (p : Fin 2000) (q : Fin 128), j = ix2 p q := ⟨j 0, j 1, eq_ix2 j⟩
  obtain ⟨-, -, -, -, -, ⟨e0, e1⟩, -⟩ := r10_idx t
  refine (pay_d (iblk10 V c 0 t) (iblk10 V c 1 t) (iblk10 V c 2 t) p q).trans ?_
  exact RegLib.mlp_at (fun x => max x 0) (V c (Pipeline.arrRef spec10 0)) (V c (Pipeline.arrRef spec10 1))
    (V c (Pipeline.arrRef spec10 2)) (iblk10 V c 0 t) (iblk10 V c 1 t) (iblk10 V c 2 t) t.val (r10_read0 V c t)
    (r10_read1 V c t) (r10_read2 V c t) p q (((cfg10.win 5).blk t).view.emb (ix2 p q))
    (show win10_5.index t (0 : Fin 2) * 2000 + 1 * p.val = t.val * 2000 + p.val by omega)
    (show win10_5.index t (1 : Fin 2) * 128 + 1 * q.val = q.val by omega)

theorem r10_flushed6 (c : Dev nD) (t : Fin cfg10.N) :
    (dat10 (F := Ideal) V c).flushed 6 t = ((cfg10.win 6).blk t).view.read (Elt Ideal)
      (Spec.mlpRow (M := 2000) (K := 128) (Spec.relu (V c (Pipeline.arrRef spec10 0)))
        (V c (Pipeline.arrRef spec10 3)) (V c (Pipeline.arrRef spec10 4))) := by
  refine (r10_stored6 V c t).trans (funext fun j => ?_)
  obtain ⟨p, q, rfl⟩ : ∃ (p : Fin 2000) (q : Fin 128), j = ix2 p q := ⟨j 0, j 1, eq_ix2 j⟩
  obtain ⟨-, -, -, -, -, -, e0, e1⟩ := r10_idx t
  refine (pay_d (iblk10 V c 0 t) (iblk10 V c 3 t) (iblk10 V c 4 t) p q).trans ?_
  exact RegLib.mlp_at (fun x => max x 0) (V c (Pipeline.arrRef spec10 0)) (V c (Pipeline.arrRef spec10 3))
    (V c (Pipeline.arrRef spec10 4)) (iblk10 V c 0 t) (iblk10 V c 3 t) (iblk10 V c 4 t) t.val (r10_read0 V c t)
    (r10_read3 V c t) (r10_read4 V c t) p q (((cfg10.win 6).blk t).view.emb (ix2 p q))
    (show win10_6.index t (0 : Fin 2) * 2000 + 1 * p.val = t.val * 2000 + p.val by omega)
    (show win10_6.index t (1 : Fin 2) * 128 + 1 * q.val = q.val by omega)

theorem r10_cover5 (i : S2000x128.Idx) :
    ∃ t : Fin cfg10.N, (cfg10.win 5).flush t = true ∧ i ∈ ((cfg10.win 5).blk t).view.set :=
  let ⟨t, ht⟩ := RegLib.rows_cover (R := 2000) (by decide) (by rw [show cfg10.grid.N = 1 from N_10])
    (fun t => ((cfg10.win 5).blk t).view.set) win10_5.index (fun t => (r10_idx t).2.2.2.2.2.1) (fun t i => by
      show i ∈ ((View.whole (Pipeline.arrRef spec10 5)).slice (win10_5.rect t)).set ↔ _
      rw [View.set_slice_whole, Rect.mem_set_unit]
      exact Iff.rfl) i
  ⟨t, flush10_5 t, ht⟩

theorem r10_cover6 (i : S2000x128.Idx) :
    ∃ t : Fin cfg10.N, (cfg10.win 6).flush t = true ∧ i ∈ ((cfg10.win 6).blk t).view.set :=
  let ⟨t, ht⟩ := RegLib.rows_cover (R := 2000) (by decide) (by rw [show cfg10.grid.N = 1 from N_10])
    (fun t => ((cfg10.win 6).blk t).view.set) win10_6.index (fun t => (r10_idx t).2.2.2.2.2.2) (fun t i => by
      show i ∈ ((View.whole (Pipeline.arrRef spec10 6)).slice (win10_6.rect t)).set ↔ _
      rw [View.set_slice_whole, Rect.mem_set_unit]
      exact Iff.rfl) i
  ⟨t, flush10_6 t, ht⟩

/-- Output window 5 ends at the transform with the first matrix (window 1) and bias (window 2). -/
theorem final10_5 (c : Dev nD) :
    (dat10 (F := Ideal) V c).arrAt 5 cfg10.N
      = Spec.mlpRow (M := 2000) (K := 128) (Spec.relu (V c (Pipeline.arrRef spec10 0)))
          (V c (Pipeline.arrRef spec10 1)) (V c (Pipeline.arrRef spec10 2)) :=
  (dat10 (F := Ideal) V c).arrAt_eq_of_cover 5 _ (fun t _ => r10_flushed5 V c t) r10_cover5

/-- Output window 6 ends at the transform with the second matrix (window 3) and bias (window 4). -/
theorem final10_6 (c : Dev nD) :
    (dat10 (F := Ideal) V c).arrAt 6 cfg10.N
      = Spec.mlpRow (M := 2000) (K := 128) (Spec.relu (V c (Pipeline.arrRef spec10 0)))
          (V c (Pipeline.arrRef spec10 3)) (V c (Pipeline.arrRef spec10 4)) :=
  (dat10 (F := Ideal) V c).arrAt_eq_of_cover 6 _ (fun t _ => r10_flushed6 V c t) r10_cover6

end Cert.KernelIdeal.RegVal

end
-- ==== Proof.KL4.lean ====
/-
  The kernel program's layer 4: regions 3 and 4 rectify layer 3's outputs and transform them; the host aggregates.
-/
import proofs.«409564_j17119739642177_3_alg».proof.Proof.KNames
import proofs.«409564_j17119739642177_3_alg».proof.Proof.SpecLemmas
import proofs.«409564_j17119739642177_3_alg».proof.Proof.Reg9
import proofs.«409564_j17119739642177_3_alg».proof.Proof.Reg10
import proofs.«409564_j17119739642177_3_alg».proof.Proof.KArgs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK Cert.KernelIdeal.RegVal

variable (m : (ℓ : Loc nD τ sig) → Buf (Elt Ideal) ℓ) (ρ : Dev nD → PrngReg) (c : Dev nD)

/-! ## The host operations before region 3: its two weight matrices and its two bias rows, over any contents `V` -/

/-- Region 3's first matrix is slice (1, 0) of the stacked matrices. -/
theorem l4_h3_8_v73 (V : Valuation τ sig (Elt Ideal)) :
    StableHlo.after (hostOps9_8 (F := Ideal)) V (Proc.devRef .tc main_v277)
      = wsl ![4, 0, 0, 0] slices_S5x4x128x128_S1x1x128x128_4_0_0_0 (V (Proc.devRef .tc main_arg15)) := by
  simp only [hostOps9_8]
  after_results
  rfl

/-- Region 3's first bias row is slice (1, 0) of the stacked biases, as a one-row array. -/
theorem l4_h3_8_v80 (V : Valuation τ sig (Elt Ideal)) :
    StableHlo.after (hostOps9_8 (F := Ideal)) V (Proc.devRef .tc main_v284)
      = shapeCast S1x128 (bsl ![4, 0, 0] slices_S5x4x128_S1x1x128_4_0_0 (V (Proc.devRef .tc main_arg16))) shapeCasts_S128_S1x128 := by
  simp only [hostOps9_8]
  after_results
  rfl

/-- Region 3's second matrix is slice (1, 2). -/
theorem l4_h3_8_v77 (V : Valuation τ sig (Elt Ideal)) :
    StableHlo.after (hostOps9_8 (F := Ideal)) V (Proc.devRef .tc main_v281)
      = wsl ![4, 2, 0, 0] slices_S5x4x128x128_S1x1x128x128_4_2_0_0 (V (Proc.devRef .tc main_arg15)) := by
  simp only [hostOps9_8]
  after_results
  rfl

/-- Region 3's second bias row is slice (1, 2). -/
theorem l4_h3_8_v81 (V : Valuation τ sig (Elt Ideal)) :
    StableHlo.after (hostOps9_8 (F := Ideal)) V (Proc.devRef .tc main_v285)
      = shapeCast S1x128 (bsl ![4, 2, 0] slices_S5x4x128_S1x1x128_4_2_0 (V (Proc.devRef .tc main_arg16))) shapeCasts_S128_S1x128 := by
  simp only [hostOps9_8]
  after_results
  rfl

/-! ## Region 3: the two transforms of the rectified N0 rows -/

/-- Region 3's first output: edge type 0's transformed rows. -/
theorem l4_r3_v82_0 : W54 (F := Ideal) m ρ c (Proc.devRef .tc main_v286_0)
    = Spec.mlp (Spec.relu (ko0_3 m ρ c)) (wsl ![4, 0, 0, 0] slices_S5x4x128x128_S1x1x128x128_4_0_0_0 (aMW m c))
        (bsl ![4, 0, 0] slices_S5x4x128_S1x1x128_4_0_0 (aMB m c)) := by
  have e0 : V53 (F := Ideal) m ρ c (Pipeline.arrRef spec9 0) = ko0_3 m ρ c := rfl
  have e1 : V53 (F := Ideal) m ρ c (Pipeline.arrRef spec9 1)
      = wsl ![4, 0, 0, 0] slices_S5x4x128x128_S1x1x128x128_4_0_0_0 (aMW m c) := by
    refine (l4_h3_8_v73 (W52 (F := Ideal) m ρ c)).trans ?_
    rw [W52_arg m ρ c main_arg15 (by decide)]
  have e2 : V53 (F := Ideal) m ρ c (Pipeline.arrRef spec9 2)
      = shapeCast S1x128 (bsl ![4, 0, 0] slices_S5x4x128_S1x1x128_4_0_0 (aMB m c)) shapeCasts_S128_S1x128 := by
    refine (l4_h3_8_v80 (W52 (F := Ideal) m ρ c)).trans ?_
    rw [W52_arg m ρ c main_arg16 (by decide)]
  refine ((W54_arr (F := Ideal) m ρ c 5).trans (final9_5 (V53 (F := Ideal) m ρ) c)).trans ?_
  rw [e0, e1, e2]
  exact Spec.mlpRow_cast _ _ _ _

/-- Region 3's second output: edge type 2's transformed rows. -/
theorem l4_r3_v82_1 : W54 (F := Ideal) m ρ c (Proc.devRef .tc main_v286_1)
    = Spec.mlp (Spec.relu (ko0_3 m ρ c)) (wsl ![4, 2, 0, 0] slices_S5x4x128x128_S1x1x128x128_4_2_0_0 (aMW m c))
        (bsl ![4, 2, 0] slices_S5x4x128_S1x1x128_4_2_0 (aMB m c)) := by
  have e0 : V53 (F := Ideal) m ρ c (Pipeline.arrRef spec9 0) = ko0_3 m ρ c := rfl
  have e3 : V53 (F := Ideal) m ρ c (Pipeline.arrRef spec9 3)
      = wsl ![4, 2, 0, 0] slices_S5x4x128x128_S1x1x128x128_4_2_0_0 (aMW m c) := by
    refine (l4_h3_8_v77 (W52 (F := Ideal) m ρ c)).trans ?_
    rw [W52_arg m ρ c main_arg15 (by decide)]
  have e4 : V53 (F := Ideal) m ρ c (Pipeline.arrRef spec9 4)
      = shapeCast S1x128 (bsl ![4, 2, 0] slices_S5x4x128_S1x1x128_4_2_0 (aMB m c)) shapeCasts_S128_S1x128 := by
    refine (l4_h3_8_v81 (W52 (F := Ideal) m ρ c)).trans ?_
    rw [W52_arg m ρ c main_arg16 (by decide)]
  refine ((W54_arr (F := Ideal) m ρ c 6).trans (final9_6 (V53 (F := Ideal) m ρ) c)).trans ?_
  rw [e0, e3, e4]
  exact Spec.mlpRow_cast _ _ _ _

/-! ## The host operations before region 4: its weights, and what they leave alone, over any contents `V` -/

/-- Region 4's first matrix is slice (1, 1) of the stacked matrices. -/
theorem l4_h4_v84 (V : Valuation τ sig (Elt Ideal)) :
    StableHlo.after (hostOps10 (F := Ideal)) V (Proc.devRef .tc main_v288)
      = wsl ![4, 1, 0, 0] slices_S5x4x128x128_S1x1x128x128_4_1_0_0 (V (Proc.devRef .tc main_arg15)) := by
  simp only [hostOps10]
  after_results
  rfl

/-- Region 4's first bias row is slice (1, 1) of the stacked biases, as a one-row array. -/
theorem l4_h4_v91 (V : Valuation τ sig (Elt Ideal)) :
    StableHlo.after (hostOps10 (F := Ideal)) V (Proc.devRef .tc main_v295)
      = shapeCast S1x128 (bsl ![4, 1, 0] slices_S5x4x128_S1x1x128_4_1_0 (V (Proc.devRef .tc main_arg16))) shapeCasts_S128_S1x128 := by
  simp only [hostOps10]
  after_results
  rfl

/-- Region 4's second matrix is slice (1, 3). -/
theorem l4_h4_v88 (V : Valuation τ sig (Elt Ideal)) :
    StableHlo.after (hostOps10 (F := Ideal)) V (Proc.devRef .tc main_v292)
      = wsl ![4, 3, 0, 0] slices_S5x4x128x128_S1x1x128x128_4_3_0_0 (V (Proc.devRef .tc main_arg15)) := by
  simp only [hostOps10]
  after_results
  rfl

/-- Region 4's second bias row is slice (1, 3). -/
theorem l4_h4_v92 (V : Valuation τ sig (Elt Ideal)) :
    StableHlo.after (hostOps10 (F := Ideal)) V (Proc.devRef .tc main_v296)
      = shapeCast S1x128 (bsl ![4, 3, 0] slices_S5x4x128_S1x1x128_4_3_0 (V (Proc.devRef .tc main_arg16))) shapeCasts_S128_S1x128 := by
  simp only [hostOps10]
  after_results
  rfl

/-- These operations write none of layer 3's N1 output and region 3's two outputs. -/
theorem l4_h4_v71 (V : Valuation τ sig (Elt Ideal)) :
    StableHlo.after (hostOps10 (F := Ideal)) V (Proc.devRef .tc main_v275) = V (Proc.devRef .tc main_v275) := by
  simp only [hostOps10]
  after_results
theorem l4_h4_v82_0 (V : Valuation τ sig (Elt Ideal)) :
    StableHlo.after (hostOps10 (F := Ideal)) V (Proc.devRef .tc main_v286_0) = V (Proc.devRef .tc main_v286_0) := by
  simp only [hostOps10]
  after_results
theorem l4_h4_v82_1 (V : Valuation τ sig (Elt Ideal)) :
    StableHlo.after (hostOps10 (F := Ideal)) V (Proc.devRef .tc main_v286_1) = V (Proc.devRef .tc main_v286_1) := by
  simp only [hostOps10]
  after_results

/-! ## Region 4: the two transforms of the rectified N1 rows -/

/-- Region 4 finds layer 3's N1 output in its row window: neither region 3 nor the operations after it write it. -/
theorem l4_r4_rows : V55 (F := Ideal) m ρ c (Pipeline.arrRef spec10 0) = ko1_3 m ρ c :=
  (l4_h4_v71 (W54 (F := Ideal) m ρ c)).trans (W54_of_ne (F := Ideal) m ρ c main_v275 (by decide))

/-- Region 4's first output: edge type 1's transformed rows. -/
theorem l4_r4_v93_0 : W56 (F := Ideal) m ρ c (Proc.devRef .tc main_v297_0)
    = Spec.mlp (Spec.relu (ko1_3 m ρ c)) (wsl ![4, 1, 0, 0] slices_S5x4x128x128_S1x1x128x128_4_1_0_0 (aMW m c))
        (bsl ![4, 1, 0] slices_S5x4x128_S1x1x128_4_1_0 (aMB m c)) := by
  have e1 : V55 (F := Ideal) m ρ c (Pipeline.arrRef spec10 1)
      = wsl ![4, 1, 0, 0] slices_S5x4x128x128_S1x1x128x128_4_1_0_0 (aMW m c) := by
    refine (l4_h4_v84 (W54 (F := Ideal) m ρ c)).trans ?_
    rw [W54_arg m ρ c main_arg15 (by decide)]
  have e2 : V55 (F := Ideal) m ρ c (Pipeline.arrRef spec10 2)
      = shapeCast S1x128 (bsl ![4, 1, 0] slices_S5x4x128_S1x1x128_4_1_0 (aMB m c)) shapeCasts_S128_S1x128 := by
    refine (l4_h4_v91 (W54 (F := Ideal) m ρ c)).trans ?_
    rw [W54_arg m ρ c main_arg16 (by decide)]
  refine ((W56_arr (F := Ideal) m ρ c 5).trans (final10_5 (V55 (F := Ideal) m ρ) c)).trans ?_
  rw [l4_r4_rows m ρ c, e1, e2]
  exact Spec.mlpRow_cast _ _ _ _

/-- Region 4's second output: edge type 3's transformed rows. -/
theorem l4_r4_v93_1 : W56 (F := Ideal) m ρ c (Proc.devRef .tc main_v297_1)
    = Spec.mlp (Spec.relu (ko1_3 m ρ c)) (wsl ![4, 3, 0, 0] slices_S5x4x128x128_S1x1x128x128_4_3_0_0 (aMW m c))
        (bsl ![4, 3, 0] slices_S5x4x128_S1x1x128_4_3_0 (aMB m c)) := by
  have e3 : V55 (F := Ideal) m ρ c (Pipeline.arrRef spec10 3)
      = wsl ![4, 3, 0, 0] slices_S5x4x128x128_S1x1x128x128_4_3_0_0 (aMW m c) := by
    refine (l4_h4_v88 (W54 (F := Ideal) m ρ c)).trans ?_
    rw [W54_arg m ρ c main_arg15 (by decide)]
  have e4 : V55 (F := Ideal) m ρ c (Pipeline.arrRef spec10 4)
      = shapeCast S1x128 (bsl ![4, 3, 0] slices_S5x4x128_S1x1x128_4_3_0 (aMB m c)) shapeCasts_S128_S1x128 := by
    refine (l4_h4_v92 (W54 (F := Ideal) m ρ c)).trans ?_
    rw [W54_arg m ρ c main_arg16 (by decide)]
  refine ((W56_arr (F := Ideal) m ρ c 6).trans (final10_6 (V55 (F := Ideal) m ρ) c)).trans ?_
  rw [l4_r4_rows m ρ c, e3, e4]
  exact Spec.mlpRow_cast _ _ _ _

/-- Region 3's outputs are still in place when region 4 has run: region 4 writes neither, nor do the operations
    between the two regions. -/
theorem l4_w20_v82_0 : W56 (F := Ideal) m ρ c (Proc.devRef .tc main_v286_0) = W54 (F := Ideal) m ρ c (Proc.devRef .tc main_v286_0) :=
  (W56_of_ne (F := Ideal) m ρ c main_v286_0 (by decide)).trans (l4_h4_v82_0 (W54 (F := Ideal) m ρ c))
theorem l4_w20_v82_1 : W56 (F := Ideal) m ρ c (Proc.devRef .tc main_v286_1) = W54 (F := Ideal) m ρ c (Proc.devRef .tc main_v286_1) :=
  (W56_of_ne (F := Ideal) m ρ c main_v286_1 (by decide)).trans (l4_h4_v82_1 (W54 (F := Ideal) m ρ c))

/-! ## The host's four aggregations, over any contents `V` at region 4's exit -/

/-- The N0 sum: edge types 0 and 1, gathered from region 3's first and region 4's first output. -/
theorem l4_h5_v116 (V : Valuation τ sig (Elt Ideal)) :
    StableHlo.after (hostOps11_8 (F := Ideal)) (StableHlo.after (hostOps11_7 (F := Ideal)) (StableHlo.after (hostOps11_6 (F := Ideal))
      (StableHlo.after (hostOps11_5 (F := Ideal)) (StableHlo.after (hostOps11_4 (F := Ideal)) (StableHlo.after (hostOps11_3 (F := Ideal))
      (StableHlo.after (hostOps11_2 (F := Ideal)) (StableHlo.after (hostOps11_1 (F := Ideal)) (StableHlo.after (hostOps11 (F := Ideal)) V))))))))
        (Proc.devRef .tc main_v320)
      = out0 (V (Proc.devRef .tc main_v286_0)) (V (Proc.devRef .tc main_v297_0)) (V (Proc.devRef .tc main_arg3)) (V (Proc.devRef .tc main_arg4))
          (V (Proc.devRef .tc main_arg7)) (V (Proc.devRef .tc main_arg8)) := by
  simp only [hostOps11, hostOps11_1, hostOps11_2, hostOps11_3, hostOps11_4, hostOps11_5, hostOps11_6, hostOps11_7, hostOps11_8]
  after_results_simp
  rfl

/-- The N1 sum: edge types 2 and 3, gathered from region 3's second and region 4's second output. -/
theorem l4_h5_v139 (V : Valuation τ sig (Elt Ideal)) :
    StableHlo.after (hostOps11_8 (F := Ideal)) (StableHlo.after (hostOps11_7 (F := Ideal)) (StableHlo.after (hostOps11_6 (F := Ideal))
      (StableHlo.after (hostOps11_5 (F := Ideal)) (StableHlo.after (hostOps11_4 (F := Ideal)) (StableHlo.after (hostOps11_3 (F := Ideal))
      (StableHlo.after (hostOps11_2 (F := Ideal)) (StableHlo.after (hostOps11_1 (F := Ideal)) (StableHlo.after (hostOps11 (F := Ideal)) V))))))))
        (Proc.devRef .tc main_v343)
      = out1 (V (Proc.devRef .tc main_v286_1)) (V (Proc.devRef .tc main_v297_1)) (V (Proc.devRef .tc main_arg5)) (V (Proc.devRef .tc main_arg6))
          (V (Proc.devRef .tc main_arg9)) (V (Proc.devRef .tc main_arg10)) := by
  simp only [hostOps11, hostOps11_1, hostOps11_2, hostOps11_3, hostOps11_4, hostOps11_5, hostOps11_6, hostOps11_7, hostOps11_8]
  after_results_simp
  rfl

/-- Layer 1, N0 output: edge types 0 and 1 of the transformed (rectified) inputs. -/
theorem layer4_0 : ko0_4 m ρ c
    = out0 (Spec.mlp (Spec.relu (ko0_3 m ρ c)) (wsl ![4, 0, 0, 0] slices_S5x4x128x128_S1x1x128x128_4_0_0_0 (aMW m c)) (bsl ![4, 0, 0] slices_S5x4x128_S1x1x128_4_0_0 (aMB m c)))
        (Spec.mlp (Spec.relu (ko1_3 m ρ c)) (wsl ![4, 1, 0, 0] slices_S5x4x128x128_S1x1x128x128_4_1_0_0 (aMW m c)) (bsl ![4, 1, 0] slices_S5x4x128_S1x1x128_4_1_0 (aMB m c)))
        (aEs0 m c) (aEs1 m c) (aW0 m c) (aW1 m c) := by
  refine (l4_h5_v116 (W56 (F := Ideal) m ρ c)).trans ?_
  rw [l4_w20_v82_0 m ρ c, l4_r3_v82_0 m ρ c, l4_r4_v93_0 m ρ c, W56_arg m ρ c main_arg3 (by decide), W56_arg m ρ c main_arg4 (by decide),
    W56_arg m ρ c main_arg7 (by decide), W56_arg m ρ c main_arg8 (by decide)]

/-- Layer 1, N1 output: edge types 2 and 3. -/
theorem layer4_1 : ko1_4 m ρ c
    = out1 (Spec.mlp (Spec.relu (ko0_3 m ρ c)) (wsl ![4, 2, 0, 0] slices_S5x4x128x128_S1x1x128x128_4_2_0_0 (aMW m c)) (bsl ![4, 2, 0] slices_S5x4x128_S1x1x128_4_2_0 (aMB m c)))
        (Spec.mlp (Spec.relu (ko1_3 m ρ c)) (wsl ![4, 3, 0, 0] slices_S5x4x128x128_S1x1x128x128_4_3_0_0 (aMW m c)) (bsl ![4, 3, 0] slices_S5x4x128_S1x1x128_4_3_0 (aMB m c)))
        (aEs2 m c) (aEs3 m c) (aW2 m c) (aW3 m c) := by
  refine (l4_h5_v139 (W56 (F := Ideal) m ρ c)).trans ?_
  rw [l4_w20_v82_1 m ρ c, l4_r3_v82_1 m ρ c, l4_r4_v93_1 m ρ c, W56_arg m ρ c main_arg5 (by decide), W56_arg m ρ c main_arg6 (by decide),
    W56_arg m ρ c main_arg9 (by decide), W56_arg m ρ c main_arg10 (by decide)]

end Cert.KernelIdeal.KV

end
-- ==== Proof.KDec.lean ====
import proofs.«409564_j17119739642177_3_alg».proof.Proof.KNames
import proofs.«409564_j17119739642177_3_alg».proof.Proof.KArgs
import proofs.«409564_j17119739642177_3_alg».proof.Proof.SpecLemmas

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.GenP Cert.KernelIdeal.SpecK

variable (m : (ℓ : Loc nD τ sig) → Buf (Elt Ideal) ℓ) (ρ : Dev nD → PrngReg) (c : Dev nD)

theorem dec_v344_of (V : Valuation τ sig (Elt Ideal)) :
    StableHlo.after (hostOps11_9 (F := Ideal)) V (Proc.devRef .tc main_v344)
      = Spec.relu (S := S100000x128) (V (Proc.devRef .tc main_v320)) := by
  after_results
  exact Spec.hrelu_eq (S := S100000x128) bcast_S_S100000x128 (V (Proc.devRef .tc main_v320))

theorem dec_v348_of (V : Valuation τ sig (Elt Ideal)) :
    StableHlo.after (hostOps11_10 (F := Ideal)) V (Proc.devRef .tc main_v348)
      = last (V (Proc.devRef .tc main_v344)) (V (Proc.devRef .tc main_arg17)) (V (Proc.devRef .tc main_arg18)) := by
  after_results
  rfl

theorem dec_v359_of (V : Valuation τ sig (Elt Ideal)) :
    StableHlo.after (hostOps11_10 (F := Ideal)) V (Proc.devRef .tc main_v359)
      = soft (last (V (Proc.devRef .tc main_v344)) (V (Proc.devRef .tc main_arg17)) (V (Proc.devRef .tc main_arg18))) := by
  after_results_simp
  rfl

theorem last_val : kLast m ρ c = last (Spec.relu (ko0_4 m ρ c)) (aDecW m c) (aDecB m c) := by
  have h := dec_v348_of (W66 (F := Ideal) m ρ c)
  rw [show W66 (F := Ideal) m ρ c (Proc.devRef .tc main_v344) = Spec.relu (ko0_4 m ρ c) from dec_v344_of (W65 (F := Ideal) m ρ c),
    W66_arg m ρ c main_arg17 (by decide), W66_arg m ρ c main_arg18 (by decide)] at h
  exact h

theorem soft_val : kSoft m ρ c = soft (kLast m ρ c) := by
  exact (dec_v359_of (W66 (F := Ideal) m ρ c)).trans (congrArg soft (dec_v348_of (W66 (F := Ideal) m ρ c)).symm)

end Cert.KernelIdeal.KV

end
-- ==== Proof.RNonNeg.lean ====
import proofs.«409564_j17119739642177_3_alg».proof.Proof.Spec

noncomputable section

namespace Cert.ReferenceIdeal.RV

open Idealize.ShloMosaic

abbrev NonNeg {E : Nat} (idx : IVec ⟨1, ![E]⟩ 32) : Prop :=
  ∀ (hc : Cert.Spec.S0.BroadcastsInDim ⟨1, ![E]⟩ (![] : Fin 0 → Fin 1)) i,
    cmpi .sge idx (broadcastInDim ⟨1, ![E]⟩ ![] hc (constantI Cert.Spec.S0 32 0#32)) i = 1#1

end Cert.ReferenceIdeal.RV

end
-- ==== Proof.RL0.lean ====
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

theorem ref_enc (h0 : NonNeg a0) : (val_main_v11 (F := Ideal) a0 a1 a11 a12 a13)
    = Cert.Spec.enc a1 a12 a13
        (Host.gather Cert.KernelIdeal.gather_S1000x128_S100000x1_S100000x128_1_0_n_n_0_1_1128 a11
          (broadcastInDim Cert.KernelIdeal.S100000x1 ![0] Cert.KernelIdeal.Facts₀.bcast_S100000_S100000x1_0 a0)) := by
  have hw : val_main_v4 (F := Ideal) a0 = a0 := Cert.Spec.wrap_eq _ 1000#32 a0 (h0 _)
  unfold val_main_v11 val_main_v8 val_main_v10 val_main_v9 val_main_v6 val_main_v7 val_main_v5
  rw [hw]
  exact Cert.Spec.encHost_eq _ rfl rfl rfl rfl rfl rfl _ _ a1 a12 a13 _

theorem ref_x1 : (val_main_v18 (F := Ideal) a2 a14)
    = Host.gather Cert.KernelIdeal.gather_S1x128_S2000x1_S2000x128_1_0_n_n_0_1_1128 a14
        (broadcastInDim Cert.KernelIdeal.S2000x1 ![0] Cert.KernelIdeal.Facts₀.bcast_S2000_S2000x1_0 a2) := by
  unfold val_main_v18
  exact Cert.Spec.gather_one_row _ rfl rfl rfl rfl rfl a14 _ _

theorem ref_layer0_0 (h3 : NonNeg (Cert.KernelIdeal.SpecK.row400000 0 Cert.KernelIdeal.Facts₀.slices_S2x400000_S1x400000_0_0 a3)) (h4 : NonNeg (Cert.KernelIdeal.SpecK.row200000 0 Cert.KernelIdeal.Facts₀.slices_S2x200000_S1x200000_0_0 a4)) :
    (val_main_v129 (F := Ideal) a0 a1 a2 a3 a4 a7 a8 a11 a12 a13 a14 a15 a16)
    = Cert.Spec.relu (Cert.KernelIdeal.SpecK.out0 (Cert.Spec.mlp (val_main_v11 (F := Ideal) a0 a1 a11 a12 a13) (Cert.KernelIdeal.SpecK.wsl ![0, 0, 0, 0] Cert.KernelIdeal.Facts₀.slices_S5x4x128x128_S1x1x128x128_0_0_0_0 a15) (Cert.KernelIdeal.SpecK.bsl ![0, 0, 0] Cert.KernelIdeal.Facts₀.slices_S5x4x128_S1x1x128_0_0_0 a16))
        (Cert.Spec.mlp (val_main_v18 (F := Ideal) a2 a14) (Cert.KernelIdeal.SpecK.wsl ![0, 1, 0, 0] Cert.KernelIdeal.Facts₀.slices_S5x4x128x128_S1x1x128x128_0_1_0_0 a15) (Cert.KernelIdeal.SpecK.bsl ![0, 1, 0] Cert.KernelIdeal.Facts₀.slices_S5x4x128_S1x1x128_0_1_0 a16)) a3 a4 a7 a8) := by

  have e0 : val_main_v29 (F := Ideal) a0 a1 a11 a12 a13 a15 a16 = Cert.Spec.mlp (val_main_v11 (F := Ideal) a0 a1 a11 a12 a13) (Cert.KernelIdeal.SpecK.wsl ![0, 0, 0, 0] Cert.KernelIdeal.Facts₀.slices_S5x4x128x128_S1x1x128x128_0_0_0_0 a15) (Cert.KernelIdeal.SpecK.bsl ![0, 0, 0] Cert.KernelIdeal.Facts₀.slices_S5x4x128_S1x1x128_0_0_0 a16) := by
    unfold val_main_v29 val_main_v28 val_main_v23 val_main_v27 val_main_v26 val_main_call0_v0 val_main_call0_cst
    exact Cert.Spec.mlpHost_eq _ rfl rfl rfl rfl rfl rfl _ _ _ _ _ _
  have e1 : val_main_v56 (F := Ideal) a2 a14 a15 a16 = Cert.Spec.mlp (val_main_v18 (F := Ideal) a2 a14) (Cert.KernelIdeal.SpecK.wsl ![0, 1, 0, 0] Cert.KernelIdeal.Facts₀.slices_S5x4x128x128_S1x1x128x128_0_1_0_0 a15) (Cert.KernelIdeal.SpecK.bsl ![0, 1, 0] Cert.KernelIdeal.Facts₀.slices_S5x4x128_S1x1x128_0_1_0 a16) := by
    unfold val_main_v56 val_main_v55 val_main_v50 val_main_v54 val_main_v53 val_main_call1_v0 val_main_call1_cst
    exact Cert.Spec.mlpHost_eq _ rfl rfl rfl rfl rfl rfl _ _ _ _ _ _

  have w0 : val_main_v36 (F := Ideal) a3 = val_main_v31 (F := Ideal) a3 := Cert.Spec.wrap_eq _ _ _ (h3 _)
  have w1 : val_main_v63 (F := Ideal) a4 = val_main_v58 (F := Ideal) a4 := Cert.Spec.wrap_eq _ _ _ (h4 _)

  have g0 : val_main_v47 (F := Ideal) a0 a1 a3 a7 a11 a12 a13 a15 a16
      = Cert.KernelIdeal.SpecK.agg0 (Cert.Spec.mlp (val_main_v11 (F := Ideal) a0 a1 a11 a12 a13) (Cert.KernelIdeal.SpecK.wsl ![0, 0, 0, 0] Cert.KernelIdeal.Facts₀.slices_S5x4x128x128_S1x1x128x128_0_0_0_0 a15) (Cert.KernelIdeal.SpecK.bsl ![0, 0, 0] Cert.KernelIdeal.Facts₀.slices_S5x4x128_S1x1x128_0_0_0 a16))
          (Cert.KernelIdeal.SpecK.row400000 0 Cert.KernelIdeal.Facts₀.slices_S2x400000_S1x400000_0_0 a3) (Cert.KernelIdeal.SpecK.row400000 1 Cert.KernelIdeal.Facts₀.slices_S2x400000_S1x400000_1_0 a3) a7 := by
    unfold val_main_v47 val_main_v19 val_main_cst
    refine (Cert.Spec.zero_addf _ _).trans ?_
    unfold val_main_v46 val_main_v41 val_main_v38 val_main_v37
    rw [e0, w0]
    rfl
  have g1 : val_main_v73 (F := Ideal) a2 a4 a8 a14 a15 a16
      = Cert.KernelIdeal.SpecK.agg1 (Cert.Spec.mlp (val_main_v18 (F := Ideal) a2 a14) (Cert.KernelIdeal.SpecK.wsl ![0, 1, 0, 0] Cert.KernelIdeal.Facts₀.slices_S5x4x128x128_S1x1x128x128_0_1_0_0 a15) (Cert.KernelIdeal.SpecK.bsl ![0, 1, 0] Cert.KernelIdeal.Facts₀.slices_S5x4x128_S1x1x128_0_1_0 a16))
          (Cert.KernelIdeal.SpecK.row200000 0 Cert.KernelIdeal.Facts₀.slices_S2x200000_S1x200000_0_0 a4) (Cert.KernelIdeal.SpecK.row200000 1 Cert.KernelIdeal.Facts₀.slices_S2x200000_S1x200000_1_0 a4) a8 := by
    unfold val_main_v73 val_main_v68 val_main_v65 val_main_v64
    rw [e1, w1]
    rfl
  unfold val_main_v129 val_main_call4_v0 val_main_call4_cst
  refine (Cert.Spec.hrelu_eq _ _).trans (congrArg Cert.Spec.relu ?_)
  unfold val_main_v74
  rw [g0, g1]
  rfl

theorem ref_layer0_1 (h5 : NonNeg (Cert.KernelIdeal.SpecK.row200000 0 Cert.KernelIdeal.Facts₀.slices_S2x200000_S1x200000_0_0 a5)) (h6 : NonNeg (Cert.KernelIdeal.SpecK.row100000 0 Cert.KernelIdeal.Facts₀.slices_S2x100000_S1x100000_0_0 a6)) :
    (val_main_v130 (F := Ideal) a0 a1 a2 a5 a6 a9 a10 a11 a12 a13 a14 a15 a16)
    = Cert.Spec.relu (Cert.KernelIdeal.SpecK.out1 (Cert.Spec.mlp (val_main_v11 (F := Ideal) a0 a1 a11 a12 a13) (Cert.KernelIdeal.SpecK.wsl ![0, 2, 0, 0] Cert.KernelIdeal.Facts₀.slices_S5x4x128x128_S1x1x128x128_0_2_0_0 a15) (Cert.KernelIdeal.SpecK.bsl ![0, 2, 0] Cert.KernelIdeal.Facts₀.slices_S5x4x128_S1x1x128_0_2_0 a16))
        (Cert.Spec.mlp (val_main_v18 (F := Ideal) a2 a14) (Cert.KernelIdeal.SpecK.wsl ![0, 3, 0, 0] Cert.KernelIdeal.Facts₀.slices_S5x4x128x128_S1x1x128x128_0_3_0_0 a15) (Cert.KernelIdeal.SpecK.bsl ![0, 3, 0] Cert.KernelIdeal.Facts₀.slices_S5x4x128_S1x1x128_0_3_0 a16)) a5 a6 a9 a10) := by

  have e2 : val_main_v83 (F := Ideal) a0 a1 a11 a12 a13 a15 a16 = Cert.Spec.mlp (val_main_v11 (F := Ideal) a0 a1 a11 a12 a13) (Cert.KernelIdeal.SpecK.wsl ![0, 2, 0, 0] Cert.KernelIdeal.Facts₀.slices_S5x4x128x128_S1x1x128x128_0_2_0_0 a15) (Cert.KernelIdeal.SpecK.bsl ![0, 2, 0] Cert.KernelIdeal.Facts₀.slices_S5x4x128_S1x1x128_0_2_0 a16) := by
    unfold val_main_v83 val_main_v82 val_main_v77 val_main_v81 val_main_v80 val_main_call2_v0 val_main_call2_cst
    exact Cert.Spec.mlpHost_eq _ rfl rfl rfl rfl rfl rfl _ _ _ _ _ _
  have e3 : val_main_v110 (F := Ideal) a2 a14 a15 a16 = Cert.Spec.mlp (val_main_v18 (F := Ideal) a2 a14) (Cert.KernelIdeal.SpecK.wsl ![0, 3, 0, 0] Cert.KernelIdeal.Facts₀.slices_S5x4x128x128_S1x1x128x128_0_3_0_0 a15) (Cert.KernelIdeal.SpecK.bsl ![0, 3, 0] Cert.KernelIdeal.Facts₀.slices_S5x4x128_S1x1x128_0_3_0 a16) := by
    unfold val_main_v110 val_main_v109 val_main_v104 val_main_v108 val_main_v107 val_main_call3_v0 val_main_call3_cst
    exact Cert.Spec.mlpHost_eq _ rfl rfl rfl rfl rfl rfl _ _ _ _ _ _

  have w2 : val_main_v90 (F := Ideal) a5 = val_main_v85 (F := Ideal) a5 := Cert.Spec.wrap_eq _ _ _ (h5 _)
  have w3 : val_main_v117 (F := Ideal) a6 = val_main_v112 (F := Ideal) a6 := Cert.Spec.wrap_eq _ _ _ (h6 _)

  have g2 : val_main_v101 (F := Ideal) a0 a1 a5 a9 a11 a12 a13 a15 a16
      = Cert.KernelIdeal.SpecK.agg2 (Cert.Spec.mlp (val_main_v11 (F := Ideal) a0 a1 a11 a12 a13) (Cert.KernelIdeal.SpecK.wsl ![0, 2, 0, 0] Cert.KernelIdeal.Facts₀.slices_S5x4x128x128_S1x1x128x128_0_2_0_0 a15) (Cert.KernelIdeal.SpecK.bsl ![0, 2, 0] Cert.KernelIdeal.Facts₀.slices_S5x4x128_S1x1x128_0_2_0 a16))
          (Cert.KernelIdeal.SpecK.row200000 0 Cert.KernelIdeal.Facts₀.slices_S2x200000_S1x200000_0_0 a5) (Cert.KernelIdeal.SpecK.row200000 1 Cert.KernelIdeal.Facts₀.slices_S2x200000_S1x200000_1_0 a5) a9 := by
    unfold val_main_v101 val_main_v20 val_main_cst_3
    refine (Cert.Spec.zero_addf _ _).trans ?_
    unfold val_main_v100 val_main_v95 val_main_v92 val_main_v91
    rw [e2, w2]
    rfl
  have g3 : val_main_v127 (F := Ideal) a2 a6 a10 a14 a15 a16
      = Cert.KernelIdeal.SpecK.agg3 (Cert.Spec.mlp (val_main_v18 (F := Ideal) a2 a14) (Cert.KernelIdeal.SpecK.wsl ![0, 3, 0, 0] Cert.KernelIdeal.Facts₀.slices_S5x4x128x128_S1x1x128x128_0_3_0_0 a15) (Cert.KernelIdeal.SpecK.bsl ![0, 3, 0] Cert.KernelIdeal.Facts₀.slices_S5x4x128_S1x1x128_0_3_0 a16))
          (Cert.KernelIdeal.SpecK.row100000 0 Cert.KernelIdeal.Facts₀.slices_S2x100000_S1x100000_0_0 a6) (Cert.KernelIdeal.SpecK.row100000 1 Cert.KernelIdeal.Facts₀.slices_S2x100000_S1x100000_1_0 a6) a10 := by
    unfold val_main_v127 val_main_v122 val_main_v119 val_main_v118
    rw [e3, w3]
    rfl
  unfold val_main_v130 val_main_call5_v0 val_main_call5_cst
  refine (Cert.Spec.hrelu_eq _ _).trans (congrArg Cert.Spec.relu ?_)
  unfold val_main_v128
  rw [g2, g3]
  rfl

end Cert.ReferenceIdeal.RV

end
-- ==== Proof.RL1.lean ====
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

theorem rl1_mlp_v141 :
    (val_main_v141 (F := Ideal) a0 a1 a2 a3 a4 a7 a8 a11 a12 a13 a14 a15 a16)
    = Cert.Spec.mlp (val_main_v129 (F := Ideal) a0 a1 a2 a3 a4 a7 a8 a11 a12 a13 a14 a15 a16) (Cert.KernelIdeal.SpecK.wsl ![1, 0, 0, 0] Cert.KernelIdeal.Facts₀.slices_S5x4x128x128_S1x1x128x128_1_0_0_0 a15) (Cert.KernelIdeal.SpecK.bsl ![1, 0, 0] Cert.KernelIdeal.Facts₀.slices_S5x4x128_S1x1x128_1_0_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v129 (F := Ideal) a0 a1 a2 a3 a4 a7 a8 a11 a12 a13 a14 a15 a16) (val_main_v134 (F := Ideal) a15) (val_main_v137 (F := Ideal) a16)

theorem rl1_mlp_v168 :
    (val_main_v168 (F := Ideal) a0 a1 a2 a5 a6 a9 a10 a11 a12 a13 a14 a15 a16)
    = Cert.Spec.mlp (val_main_v130 (F := Ideal) a0 a1 a2 a5 a6 a9 a10 a11 a12 a13 a14 a15 a16) (Cert.KernelIdeal.SpecK.wsl ![1, 1, 0, 0] Cert.KernelIdeal.Facts₀.slices_S5x4x128x128_S1x1x128x128_1_1_0_0 a15) (Cert.KernelIdeal.SpecK.bsl ![1, 1, 0] Cert.KernelIdeal.Facts₀.slices_S5x4x128_S1x1x128_1_1_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v130 (F := Ideal) a0 a1 a2 a5 a6 a9 a10 a11 a12 a13 a14 a15 a16) (val_main_v161 (F := Ideal) a15) (val_main_v164 (F := Ideal) a16)

theorem rl1_mlp_v195 :
    (val_main_v195 (F := Ideal) a0 a1 a2 a3 a4 a7 a8 a11 a12 a13 a14 a15 a16)
    = Cert.Spec.mlp (val_main_v129 (F := Ideal) a0 a1 a2 a3 a4 a7 a8 a11 a12 a13 a14 a15 a16) (Cert.KernelIdeal.SpecK.wsl ![1, 2, 0, 0] Cert.KernelIdeal.Facts₀.slices_S5x4x128x128_S1x1x128x128_1_2_0_0 a15) (Cert.KernelIdeal.SpecK.bsl ![1, 2, 0] Cert.KernelIdeal.Facts₀.slices_S5x4x128_S1x1x128_1_2_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v129 (F := Ideal) a0 a1 a2 a3 a4 a7 a8 a11 a12 a13 a14 a15 a16) (val_main_v188 (F := Ideal) a15) (val_main_v191 (F := Ideal) a16)

theorem rl1_mlp_v222 :
    (val_main_v222 (F := Ideal) a0 a1 a2 a5 a6 a9 a10 a11 a12 a13 a14 a15 a16)
    = Cert.Spec.mlp (val_main_v130 (F := Ideal) a0 a1 a2 a5 a6 a9 a10 a11 a12 a13 a14 a15 a16) (Cert.KernelIdeal.SpecK.wsl ![1, 3, 0, 0] Cert.KernelIdeal.Facts₀.slices_S5x4x128x128_S1x1x128x128_1_3_0_0 a15) (Cert.KernelIdeal.SpecK.bsl ![1, 3, 0] Cert.KernelIdeal.Facts₀.slices_S5x4x128_S1x1x128_1_3_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v130 (F := Ideal) a0 a1 a2 a5 a6 a9 a10 a11 a12 a13 a14 a15 a16) (val_main_v215 (F := Ideal) a15) (val_main_v218 (F := Ideal) a16)

theorem rl1_src_v148 (h3 : NonNeg (Cert.KernelIdeal.SpecK.row400000 0 Cert.KernelIdeal.Facts₀.slices_S2x400000_S1x400000_0_0 a3)) :
    (val_main_v148 (F := Ideal) a3) = (Cert.KernelIdeal.SpecK.row400000 0 Cert.KernelIdeal.Facts₀.slices_S2x400000_S1x400000_0_0 a3) :=
  Cert.Spec.wrap_eq Gen.bcast_S_S400000 100000#32 (Cert.KernelIdeal.SpecK.row400000 0 Cert.KernelIdeal.Facts₀.slices_S2x400000_S1x400000_0_0 a3) (h3 Gen.bcast_S_S400000)

theorem rl1_src_v175 (h4 : NonNeg (Cert.KernelIdeal.SpecK.row200000 0 Cert.KernelIdeal.Facts₀.slices_S2x200000_S1x200000_0_0 a4)) :
    (val_main_v175 (F := Ideal) a4) = (Cert.KernelIdeal.SpecK.row200000 0 Cert.KernelIdeal.Facts₀.slices_S2x200000_S1x200000_0_0 a4) :=
  Cert.Spec.wrap_eq Gen.bcast_S_S200000 2000#32 (Cert.KernelIdeal.SpecK.row200000 0 Cert.KernelIdeal.Facts₀.slices_S2x200000_S1x200000_0_0 a4) (h4 Gen.bcast_S_S200000)

theorem rl1_src_v202 (h5 : NonNeg (Cert.KernelIdeal.SpecK.row200000 0 Cert.KernelIdeal.Facts₀.slices_S2x200000_S1x200000_0_0 a5)) :
    (val_main_v202 (F := Ideal) a5) = (Cert.KernelIdeal.SpecK.row200000 0 Cert.KernelIdeal.Facts₀.slices_S2x200000_S1x200000_0_0 a5) :=
  Cert.Spec.wrap_eq Gen.bcast_S_S200000 100000#32 (Cert.KernelIdeal.SpecK.row200000 0 Cert.KernelIdeal.Facts₀.slices_S2x200000_S1x200000_0_0 a5) (h5 Gen.bcast_S_S200000)

theorem rl1_src_v229 (h6 : NonNeg (Cert.KernelIdeal.SpecK.row100000 0 Cert.KernelIdeal.Facts₀.slices_S2x100000_S1x100000_0_0 a6)) :
    (val_main_v229 (F := Ideal) a6) = (Cert.KernelIdeal.SpecK.row100000 0 Cert.KernelIdeal.Facts₀.slices_S2x100000_S1x100000_0_0 a6) :=
  Cert.Spec.wrap_eq Gen.bcast_S_S100000 2000#32 (Cert.KernelIdeal.SpecK.row100000 0 Cert.KernelIdeal.Facts₀.slices_S2x100000_S1x100000_0_0 a6) (h6 Gen.bcast_S_S100000)

theorem rl1_agg_v158 :
    (val_main_v158 (F := Ideal) a0 a1 a2 a3 a4 a7 a8 a11 a12 a13 a14 a15 a16)
    = Cert.KernelIdeal.SpecK.agg0 (val_main_v141 (F := Ideal) a0 a1 a2 a3 a4 a7 a8 a11 a12 a13 a14 a15 a16) (val_main_v148 (F := Ideal) a3) (Cert.KernelIdeal.SpecK.row400000 1 Cert.KernelIdeal.Facts₀.slices_S2x400000_S1x400000_1_0 a3) a7 := rfl

theorem rl1_agg_v185 :
    (val_main_v185 (F := Ideal) a0 a1 a2 a4 a5 a6 a8 a9 a10 a11 a12 a13 a14 a15 a16)
    = Cert.KernelIdeal.SpecK.agg1 (val_main_v168 (F := Ideal) a0 a1 a2 a5 a6 a9 a10 a11 a12 a13 a14 a15 a16) (val_main_v175 (F := Ideal) a4) (Cert.KernelIdeal.SpecK.row200000 1 Cert.KernelIdeal.Facts₀.slices_S2x200000_S1x200000_1_0 a4) a8 := rfl

theorem rl1_agg_v212 :
    (val_main_v212 (F := Ideal) a0 a1 a2 a3 a4 a5 a7 a8 a9 a11 a12 a13 a14 a15 a16)
    = Cert.KernelIdeal.SpecK.agg2 (val_main_v195 (F := Ideal) a0 a1 a2 a3 a4 a7 a8 a11 a12 a13 a14 a15 a16) (val_main_v202 (F := Ideal) a5) (Cert.KernelIdeal.SpecK.row200000 1 Cert.KernelIdeal.Facts₀.slices_S2x200000_S1x200000_1_0 a5) a9 := rfl

theorem rl1_agg_v239 :
    (val_main_v239 (F := Ideal) a0 a1 a2 a5 a6 a9 a10 a11 a12 a13 a14 a15 a16)
    = Cert.KernelIdeal.SpecK.agg3 (val_main_v222 (F := Ideal) a0 a1 a2 a5 a6 a9 a10 a11 a12 a13 a14 a15 a16) (val_main_v229 (F := Ideal) a6) (Cert.KernelIdeal.SpecK.row100000 1 Cert.KernelIdeal.Facts₀.slices_S2x100000_S1x100000_1_0 a6) a10 := rfl

theorem ref_layer1_0 (h3 : NonNeg (Cert.KernelIdeal.SpecK.row400000 0 Cert.KernelIdeal.Facts₀.slices_S2x400000_S1x400000_0_0 a3)) (h4 : NonNeg (Cert.KernelIdeal.SpecK.row200000 0 Cert.KernelIdeal.Facts₀.slices_S2x200000_S1x200000_0_0 a4)) :
    (val_main_v241 (F := Ideal) a0 a1 a2 a3 a4 a5 a6 a7 a8 a9 a10 a11 a12 a13 a14 a15 a16)
    = Cert.Spec.relu (Cert.KernelIdeal.SpecK.out0 (Cert.Spec.mlp (val_main_v129 (F := Ideal) a0 a1 a2 a3 a4 a7 a8 a11 a12 a13 a14 a15 a16) (Cert.KernelIdeal.SpecK.wsl ![1, 0, 0, 0] Cert.KernelIdeal.Facts₀.slices_S5x4x128x128_S1x1x128x128_1_0_0_0 a15) (Cert.KernelIdeal.SpecK.bsl ![1, 0, 0] Cert.KernelIdeal.Facts₀.slices_S5x4x128_S1x1x128_1_0_0 a16))
        (Cert.Spec.mlp (val_main_v130 (F := Ideal) a0 a1 a2 a5 a6 a9 a10 a11 a12 a13 a14 a15 a16) (Cert.KernelIdeal.SpecK.wsl ![1, 1, 0, 0] Cert.KernelIdeal.Facts₀.slices_S5x4x128x128_S1x1x128x128_1_1_0_0 a15) (Cert.KernelIdeal.SpecK.bsl ![1, 1, 0] Cert.KernelIdeal.Facts₀.slices_S5x4x128_S1x1x128_1_1_0 a16)) a3 a4 a7 a8) := by
  have e1 : (val_main_v241 (F := Ideal) a0 a1 a2 a3 a4 a5 a6 a7 a8 a9 a10 a11 a12 a13 a14 a15 a16) = Cert.Spec.relu (val_main_v186 (F := Ideal) a0 a1 a2 a3 a4 a5 a6 a7 a8 a9 a10 a11 a12 a13 a14 a15 a16) :=
    Cert.Spec.hrelu_eq Gen.bcast_S_S100000x128 _
  have e2 : (val_main_v186 (F := Ideal) a0 a1 a2 a3 a4 a5 a6 a7 a8 a9 a10 a11 a12 a13 a14 a15 a16)
      = addf (F := Ideal) (s := S100000x128) (φ := .f32) (val_main_v159 (F := Ideal) a0 a1 a2 a3 a4 a7 a8 a11 a12 a13 a14 a15 a16) (val_main_v185 (F := Ideal) a0 a1 a2 a4 a5 a6 a8 a9 a10 a11 a12 a13 a14 a15 a16) := rfl
  have e3 : (val_main_v159 (F := Ideal) a0 a1 a2 a3 a4 a7 a8 a11 a12 a13 a14 a15 a16) = (val_main_v158 (F := Ideal) a0 a1 a2 a3 a4 a7 a8 a11 a12 a13 a14 a15 a16) :=
    Cert.Spec.zero_addf Gen.bcast_S_S100000x128 _
  rw [e1, e2, e3, rl1_agg_v158, rl1_agg_v185, rl1_mlp_v141, rl1_mlp_v168, rl1_src_v148 a3 h3, rl1_src_v175 a4 h4]
  rfl

theorem ref_layer1_1 (h5 : NonNeg (Cert.KernelIdeal.SpecK.row200000 0 Cert.KernelIdeal.Facts₀.slices_S2x200000_S1x200000_0_0 a5)) (h6 : NonNeg (Cert.KernelIdeal.SpecK.row100000 0 Cert.KernelIdeal.Facts₀.slices_S2x100000_S1x100000_0_0 a6)) :
    (val_main_v242 (F := Ideal) a0 a1 a2 a3 a4 a5 a6 a7 a8 a9 a10 a11 a12 a13 a14 a15 a16)
    = Cert.Spec.relu (Cert.KernelIdeal.SpecK.out1 (Cert.Spec.mlp (val_main_v129 (F := Ideal) a0 a1 a2 a3 a4 a7 a8 a11 a12 a13 a14 a15 a16) (Cert.KernelIdeal.SpecK.wsl ![1, 2, 0, 0] Cert.KernelIdeal.Facts₀.slices_S5x4x128x128_S1x1x128x128_1_2_0_0 a15) (Cert.KernelIdeal.SpecK.bsl ![1, 2, 0] Cert.KernelIdeal.Facts₀.slices_S5x4x128_S1x1x128_1_2_0 a16))
        (Cert.Spec.mlp (val_main_v130 (F := Ideal) a0 a1 a2 a5 a6 a9 a10 a11 a12 a13 a14 a15 a16) (Cert.KernelIdeal.SpecK.wsl ![1, 3, 0, 0] Cert.KernelIdeal.Facts₀.slices_S5x4x128x128_S1x1x128x128_1_3_0_0 a15) (Cert.KernelIdeal.SpecK.bsl ![1, 3, 0] Cert.KernelIdeal.Facts₀.slices_S5x4x128_S1x1x128_1_3_0 a16)) a5 a6 a9 a10) := by
  have e1 : (val_main_v242 (F := Ideal) a0 a1 a2 a3 a4 a5 a6 a7 a8 a9 a10 a11 a12 a13 a14 a15 a16) = Cert.Spec.relu (val_main_v240 (F := Ideal) a0 a1 a2 a3 a4 a5 a6 a7 a8 a9 a10 a11 a12 a13 a14 a15 a16) :=
    Cert.Spec.hrelu_eq Gen.bcast_S_S2000x128 _
  have e2 : (val_main_v240 (F := Ideal) a0 a1 a2 a3 a4 a5 a6 a7 a8 a9 a10 a11 a12 a13 a14 a15 a16)
      = addf (F := Ideal) (s := S2000x128) (φ := .f32) (val_main_v213 (F := Ideal) a0 a1 a2 a3 a4 a5 a7 a8 a9 a11 a12 a13 a14 a15 a16) (val_main_v239 (F := Ideal) a0 a1 a2 a5 a6 a9 a10 a11 a12 a13 a14 a15 a16) := rfl
  have e3 : (val_main_v213 (F := Ideal) a0 a1 a2 a3 a4 a5 a7 a8 a9 a11 a12 a13 a14 a15 a16) = (val_main_v212 (F := Ideal) a0 a1 a2 a3 a4 a5 a7 a8 a9 a11 a12 a13 a14 a15 a16) :=
    Cert.Spec.zero_addf Gen.bcast_S_S2000x128 _
  rw [e1, e2, e3, rl1_agg_v212, rl1_agg_v239, rl1_mlp_v195, rl1_mlp_v222, rl1_src_v202 a5 h5, rl1_src_v229 a6 h6]
  rfl

end Cert.ReferenceIdeal.RV

end
-- ==== Proof.RL2.lean ====
/-
  Layer 2 of the reference program, read against the specification's functions.
-/
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

/-- Stage 141: the rows edge type 0 gathers from are the transform of the previous N0 rows by matrix and bias (1, 0). -/
theorem rl2_mlp_v141 :
    (val_main_v253 (F := Ideal) a0 a1 a2 a3 a4 a5 a6 a7 a8 a9 a10 a11 a12 a13 a14 a15 a16)
    = Cert.Spec.mlp (val_main_v241 (F := Ideal) a0 a1 a2 a3 a4 a5 a6 a7 a8 a9 a10 a11 a12 a13 a14 a15 a16) (Cert.KernelIdeal.SpecK.wsl ![2, 0, 0, 0] Cert.KernelIdeal.Facts₀.slices_S5x4x128x128_S1x1x128x128_2_0_0_0 a15) (Cert.KernelIdeal.SpecK.bsl ![2, 0, 0] Cert.KernelIdeal.Facts₀.slices_S5x4x128_S1x1x128_2_0_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v241 (F := Ideal) a0 a1 a2 a3 a4 a5 a6 a7 a8 a9 a10 a11 a12 a13 a14 a15 a16) (val_main_v246 (F := Ideal) a15) (val_main_v249 (F := Ideal) a16)

/-- Stage 168: the rows edge type 1 gathers from are the transform of the previous N1 rows by matrix and bias (1, 1). -/
theorem rl2_mlp_v168 :
    (val_main_v280 (F := Ideal) a0 a1 a2 a3 a4 a5 a6 a7 a8 a9 a10 a11 a12 a13 a14 a15 a16)
    = Cert.Spec.mlp (val_main_v242 (F := Ideal) a0 a1 a2 a3 a4 a5 a6 a7 a8 a9 a10 a11 a12 a13 a14 a15 a16) (Cert.KernelIdeal.SpecK.wsl ![2, 1, 0, 0] Cert.KernelIdeal.Facts₀.slices_S5x4x128x128_S1x1x128x128_2_1_0_0 a15) (Cert.KernelIdeal.SpecK.bsl ![2, 1, 0] Cert.KernelIdeal.Facts₀.slices_S5x4x128_S1x1x128_2_1_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v242 (F := Ideal) a0 a1 a2 a3 a4 a5 a6 a7 a8 a9 a10 a11 a12 a13 a14 a15 a16) (val_main_v273 (F := Ideal) a15) (val_main_v276 (F := Ideal) a16)

/-- Stage 195: edge type 2, the previous N0 rows by matrix and bias (1, 2). -/
theorem rl2_mlp_v195 :
    (val_main_v307 (F := Ideal) a0 a1 a2 a3 a4 a5 a6 a7 a8 a9 a10 a11 a12 a13 a14 a15 a16)
    = Cert.Spec.mlp (val_main_v241 (F := Ideal) a0 a1 a2 a3 a4 a5 a6 a7 a8 a9 a10 a11 a12 a13 a14 a15 a16) (Cert.KernelIdeal.SpecK.wsl ![2, 2, 0, 0] Cert.KernelIdeal.Facts₀.slices_S5x4x128x128_S1x1x128x128_2_2_0_0 a15) (Cert.KernelIdeal.SpecK.bsl ![2, 2, 0] Cert.KernelIdeal.Facts₀.slices_S5x4x128_S1x1x128_2_2_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v241 (F := Ideal) a0 a1 a2 a3 a4 a5 a6 a7 a8 a9 a10 a11 a12 a13 a14 a15 a16) (val_main_v300 (F := Ideal) a15) (val_main_v303 (F := Ideal) a16)

/-- Stage 222: edge type 3, the previous N1 rows by matrix and bias (1, 3). -/
theorem rl2_mlp_v222 :
    (val_main_v334 (F := Ideal) a0 a1 a2 a3 a4 a5 a6 a7 a8 a9 a10 a11 a12 a13 a14 a15 a16)
    = Cert.Spec.mlp (val_main_v242 (F := Ideal) a0 a1 a2 a3 a4 a5 a6 a7 a8 a9 a10 a11 a12 a13 a14 a15 a16) (Cert.KernelIdeal.SpecK.wsl ![2, 3, 0, 0] Cert.KernelIdeal.Facts₀.slices_S5x4x128x128_S1x1x128x128_2_3_0_0 a15) (Cert.KernelIdeal.SpecK.bsl ![2, 3, 0] Cert.KernelIdeal.Facts₀.slices_S5x4x128_S1x1x128_2_3_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v242 (F := Ideal) a0 a1 a2 a3 a4 a5 a6 a7 a8 a9 a10 a11 a12 a13 a14 a15 a16) (val_main_v327 (F := Ideal) a15) (val_main_v330 (F := Ideal) a16)

/-- Stage 148: the source indices of edge type 0 after the negative-index convention (row count 100000) are the source row itself. -/
theorem rl2_src_v148 (h3 : NonNeg (Cert.KernelIdeal.SpecK.row400000 0 Cert.KernelIdeal.Facts₀.slices_S2x400000_S1x400000_0_0 a3)) :
    (val_main_v260 (F := Ideal) a3) = (Cert.KernelIdeal.SpecK.row400000 0 Cert.KernelIdeal.Facts₀.slices_S2x400000_S1x400000_0_0 a3) :=
  Cert.Spec.wrap_eq Gen.bcast_S_S400000 100000#32 (Cert.KernelIdeal.SpecK.row400000 0 Cert.KernelIdeal.Facts₀.slices_S2x400000_S1x400000_0_0 a3) (h3 Gen.bcast_S_S400000)

/-- Stage 175: edge type 1 (row count 2000). -/
theorem rl2_src_v175 (h4 : NonNeg (Cert.KernelIdeal.SpecK.row200000 0 Cert.KernelIdeal.Facts₀.slices_S2x200000_S1x200000_0_0 a4)) :
    (val_main_v287 (F := Ideal) a4) = (Cert.KernelIdeal.SpecK.row200000 0 Cert.KernelIdeal.Facts₀.slices_S2x200000_S1x200000_0_0 a4) :=
  Cert.Spec.wrap_eq Gen.bcast_S_S200000 2000#32 (Cert.KernelIdeal.SpecK.row200000 0 Cert.KernelIdeal.Facts₀.slices_S2x200000_S1x200000_0_0 a4) (h4 Gen.bcast_S_S200000)

/-- Stage 202: edge type 2 (row count 100000). -/
theorem rl2_src_v202 (h5 : NonNeg (Cert.KernelIdeal.SpecK.row200000 0 Cert.KernelIdeal.Facts₀.slices_S2x200000_S1x200000_0_0 a5)) :
    (val_main_v314 (F := Ideal) a5) = (Cert.KernelIdeal.SpecK.row200000 0 Cert.KernelIdeal.Facts₀.slices_S2x200000_S1x200000_0_0 a5) :=
  Cert.Spec.wrap_eq Gen.bcast_S_S200000 100000#32 (Cert.KernelIdeal.SpecK.row200000 0 Cert.KernelIdeal.Facts₀.slices_S2x200000_S1x200000_0_0 a5) (h5 Gen.bcast_S_S200000)

/-- Stage 229: edge type 3 (row count 2000). -/
theorem rl2_src_v229 (h6 : NonNeg (Cert.KernelIdeal.SpecK.row100000 0 Cert.KernelIdeal.Facts₀.slices_S2x100000_S1x100000_0_0 a6)) :
    (val_main_v341 (F := Ideal) a6) = (Cert.KernelIdeal.SpecK.row100000 0 Cert.KernelIdeal.Facts₀.slices_S2x100000_S1x100000_0_0 a6) :=
  Cert.Spec.wrap_eq Gen.bcast_S_S100000 2000#32 (Cert.KernelIdeal.SpecK.row100000 0 Cert.KernelIdeal.Facts₀.slices_S2x100000_S1x100000_0_0 a6) (h6 Gen.bcast_S_S100000)

/-- Stage 158: edge type 0's scatter-add is the specification's aggregation of the rows of stage 141 at the indices of stage 148. -/
theorem rl2_agg_v158 :
    (val_main_v270 (F := Ideal) a0 a1 a2 a3 a4 a5 a6 a7 a8 a9 a10 a11 a12 a13 a14 a15 a16)
    = Cert.KernelIdeal.SpecK.agg0 (val_main_v253 (F := Ideal) a0 a1 a2 a3 a4 a5 a6 a7 a8 a9 a10 a11 a12 a13 a14 a15 a16) (val_main_v260 (F := Ideal) a3) (Cert.KernelIdeal.SpecK.row400000 1 Cert.KernelIdeal.Facts₀.slices_S2x400000_S1x400000_1_0 a3) a7 := rfl

/-- Stage 185: edge type 1. -/
theorem rl2_agg_v185 :
    (val_main_v297 (F := Ideal) a0 a1 a2 a3 a4 a5 a6 a7 a8 a9 a10 a11 a12 a13 a14 a15 a16)
    = Cert.KernelIdeal.SpecK.agg1 (val_main_v280 (F := Ideal) a0 a1 a2 a3 a4 a5 a6 a7 a8 a9 a10 a11 a12 a13 a14 a15 a16) (val_main_v287 (F := Ideal) a4) (Cert.KernelIdeal.SpecK.row200000 1 Cert.KernelIdeal.Facts₀.slices_S2x200000_S1x200000_1_0 a4) a8 := rfl

/-- Stage 212: edge type 2. -/
theorem rl2_agg_v212 :
    (val_main_v324 (F := Ideal) a0 a1 a2 a3 a4 a5 a6 a7 a8 a9 a10 a11 a12 a13 a14 a15 a16)
    = Cert.KernelIdeal.SpecK.agg2 (val_main_v307 (F := Ideal) a0 a1 a2 a3 a4 a5 a6 a7 a8 a9 a10 a11 a12 a13 a14 a15 a16) (val_main_v314 (F := Ideal) a5) (Cert.KernelIdeal.SpecK.row200000 1 Cert.KernelIdeal.Facts₀.slices_S2x200000_S1x200000_1_0 a5) a9 := rfl

/-- Stage 239: edge type 3. -/
theorem rl2_agg_v239 :
    (val_main_v351 (F := Ideal) a0 a1 a2 a3 a4 a5 a6 a7 a8 a9 a10 a11 a12 a13 a14 a15 a16)
    = Cert.KernelIdeal.SpecK.agg3 (val_main_v334 (F := Ideal) a0 a1 a2 a3 a4 a5 a6 a7 a8 a9 a10 a11 a12 a13 a14 a15 a16) (val_main_v341 (F := Ideal) a6) (Cert.KernelIdeal.SpecK.row100000 1 Cert.KernelIdeal.Facts₀.slices_S2x100000_S1x100000_1_0 a6) a10 := rfl

/-- Layer 2 of the reference, N0 rows: the rectified sum of edge types 0 and 1 (source indices non-negative). -/
theorem ref_layer2_0 (h3 : NonNeg (Cert.KernelIdeal.SpecK.row400000 0 Cert.KernelIdeal.Facts₀.slices_S2x400000_S1x400000_0_0 a3)) (h4 : NonNeg (Cert.KernelIdeal.SpecK.row200000 0 Cert.KernelIdeal.Facts₀.slices_S2x200000_S1x200000_0_0 a4)) :
    (val_main_v353 (F := Ideal) a0 a1 a2 a3 a4 a5 a6 a7 a8 a9 a10 a11 a12 a13 a14 a15 a16)
    = Cert.Spec.relu (Cert.KernelIdeal.SpecK.out0 (Cert.Spec.mlp (val_main_v241 (F := Ideal) a0 a1 a2 a3 a4 a5 a6 a7 a8 a9 a10 a11 a12 a13 a14 a15 a16) (Cert.KernelIdeal.SpecK.wsl ![2, 0, 0, 0] Cert.KernelIdeal.Facts₀.slices_S5x4x128x128_S1x1x128x128_2_0_0_0 a15) (Cert.KernelIdeal.SpecK.bsl ![2, 0, 0] Cert.KernelIdeal.Facts₀.slices_S5x4x128_S1x1x128_2_0_0 a16))
        (Cert.Spec.mlp (val_main_v242 (F := Ideal) a0 a1 a2 a3 a4 a5 a6 a7 a8 a9 a10 a11 a12 a13 a14 a15 a16) (Cert.KernelIdeal.SpecK.wsl ![2, 1, 0, 0] Cert.KernelIdeal.Facts₀.slices_S5x4x128x128_S1x1x128x128_2_1_0_0 a15) (Cert.KernelIdeal.SpecK.bsl ![2, 1, 0] Cert.KernelIdeal.Facts₀.slices_S5x4x128_S1x1x128_2_1_0 a16)) a3 a4 a7 a8) := by
  have e1 : (val_main_v353 (F := Ideal) a0 a1 a2 a3 a4 a5 a6 a7 a8 a9 a10 a11 a12 a13 a14 a15 a16) = Cert.Spec.relu (val_main_v298 (F := Ideal) a0 a1 a2 a3 a4 a5 a6 a7 a8 a9 a10 a11 a12 a13 a14 a15 a16) :=
    Cert.Spec.hrelu_eq Gen.bcast_S_S100000x128 _
  have e2 : (val_main_v298 (F := Ideal) a0 a1 a2 a3 a4 a5 a6 a7 a8 a9 a10 a11 a12 a13 a14 a15 a16)
      = addf (F := Ideal) (s := S100000x128) (φ := .f32) (val_main_v271 (F := Ideal) a0 a1 a2 a3 a4 a5 a6 a7 a8 a9 a10 a11 a12 a13 a14 a15 a16) (val_main_v297 (F := Ideal) a0 a1 a2 a3 a4 a5 a6 a7 a8 a9 a10 a11 a12 a13 a14 a15 a16) := rfl
  have e3 : (val_main_v271 (F := Ideal) a0 a1 a2 a3 a4 a5 a6 a7 a8 a9 a10 a11 a12 a13 a14 a15 a16) = (val_main_v270 (F := Ideal) a0 a1 a2 a3 a4 a5 a6 a7 a8 a9 a10 a11 a12 a13 a14 a15 a16) :=
    Cert.Spec.zero_addf Gen.bcast_S_S100000x128 _
  rw [e1, e2, e3, rl2_agg_v158, rl2_agg_v185, rl2_mlp_v141, rl2_mlp_v168, rl2_src_v148 a3 h3, rl2_src_v175 a4 h4]
  rfl

/-- Layer 2 of the reference, N1 rows: the rectified sum of edge types 2 and 3. -/
theorem ref_layer2_1 (h5 : NonNeg (Cert.KernelIdeal.SpecK.row200000 0 Cert.KernelIdeal.Facts₀.slices_S2x200000_S1x200000_0_0 a5)) (h6 : NonNeg (Cert.KernelIdeal.SpecK.row100000 0 Cert.KernelIdeal.Facts₀.slices_S2x100000_S1x100000_0_0 a6)) :
    (val_main_v354 (F := Ideal) a0 a1 a2 a3 a4 a5 a6 a7 a8 a9 a10 a11 a12 a13 a14 a15 a16)
    = Cert.Spec.relu (Cert.KernelIdeal.SpecK.out1 (Cert.Spec.mlp (val_main_v241 (F := Ideal) a0 a1 a2 a3 a4 a5 a6 a7 a8 a9 a10 a11 a12 a13 a14 a15 a16) (Cert.KernelIdeal.SpecK.wsl ![2, 2, 0, 0] Cert.KernelIdeal.Facts₀.slices_S5x4x128x128_S1x1x128x128_2_2_0_0 a15) (Cert.KernelIdeal.SpecK.bsl ![2, 2, 0] Cert.KernelIdeal.Facts₀.slices_S5x4x128_S1x1x128_2_2_0 a16))
        (Cert.Spec.mlp (val_main_v242 (F := Ideal) a0 a1 a2 a3 a4 a5 a6 a7 a8 a9 a10 a11 a12 a13 a14 a15 a16) (Cert.KernelIdeal.SpecK.wsl ![2, 3, 0, 0] Cert.KernelIdeal.Facts₀.slices_S5x4x128x128_S1x1x128x128_2_3_0_0 a15) (Cert.KernelIdeal.SpecK.bsl ![2, 3, 0] Cert.KernelIdeal.Facts₀.slices_S5x4x128_S1x1x128_2_3_0 a16)) a5 a6 a9 a10) := by
  have e1 : (val_main_v354 (F := Ideal) a0 a1 a2 a3 a4 a5 a6 a7 a8 a9 a10 a11 a12 a13 a14 a15 a16) = Cert.Spec.relu (val_main_v352 (F := Ideal) a0 a1 a2 a3 a4 a5 a6 a7 a8 a9 a10 a11 a12 a13 a14 a15 a16) :=
    Cert.Spec.hrelu_eq Gen.bcast_S_S2000x128 _
  have e2 : (val_main_v352 (F := Ideal) a0 a1 a2 a3 a4 a5 a6 a7 a8 a9 a10 a11 a12 a13 a14 a15 a16)
      = addf (F := Ideal) (s := S2000x128) (φ := .f32) (val_main_v325 (F := Ideal) a0 a1 a2 a3 a4 a5 a6 a7 a8 a9 a10 a11 a12 a13 a14 a15 a16) (val_main_v351 (F := Ideal) a0 a1 a2 a3 a4 a5 a6 a7 a8 a9 a10 a11 a12 a13 a14 a15 a16) := rfl
  have e3 : (val_main_v325 (F := Ideal) a0 a1 a2 a3 a4 a5 a6 a7 a8 a9 a10 a11 a12 a13 a14 a15 a16) = (val_main_v324 (F := Ideal) a0 a1 a2 a3 a4 a5 a6 a7 a8 a9 a10 a11 a12 a13 a14 a15 a16) :=
    Cert.Spec.zero_addf Gen.bcast_S_S2000x128 _
  rw [e1, e2, e3, rl2_agg_v212, rl2_agg_v239, rl2_mlp_v195, rl2_mlp_v222, rl2_src_v202 a5 h5, rl2_src_v229 a6 h6]
  rfl

end Cert.ReferenceIdeal.RV

end
-- ==== Proof.RL3.lean ====
/-
  Layer 3 of the reference program, read against the specification's functions.
-/
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

/-- Stage 141: the rows edge type 0 gathers from are the transform of the previous N0 rows by matrix and bias (1, 0). -/
theorem rl3_mlp_v141 :
    (val_main_v365 (F := Ideal) a0 a1 a2 a3 a4 a5 a6 a7 a8 a9 a10 a11 a12 a13 a14 a15 a16)
    = Cert.Spec.mlp (val_main_v353 (F := Ideal) a0 a1 a2 a3 a4 a5 a6 a7 a8 a9 a10 a11 a12 a13 a14 a15 a16) (Cert.KernelIdeal.SpecK.wsl ![3, 0, 0, 0] Cert.KernelIdeal.Facts₀.slices_S5x4x128x128_S1x1x128x128_3_0_0_0 a15) (Cert.KernelIdeal.SpecK.bsl ![3, 0, 0] Cert.KernelIdeal.Facts₀.slices_S5x4x128_S1x1x128_3_0_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v353 (F := Ideal) a0 a1 a2 a3 a4 a5 a6 a7 a8 a9 a10 a11 a12 a13 a14 a15 a16) (val_main_v358 (F := Ideal) a15) (val_main_v361 (F := Ideal) a16)

/-- Stage 168: the rows edge type 1 gathers from are the transform of the previous N1 rows by matrix and bias (1, 1). -/
theorem rl3_mlp_v168 :
    (val_main_v392 (F := Ideal) a0 a1 a2 a3 a4 a5 a6 a7 a8 a9 a10 a11 a12 a13 a14 a15 a16)
    = Cert.Spec.mlp (val_main_v354 (F := Ideal) a0 a1 a2 a3 a4 a5 a6 a7 a8 a9 a10 a11 a12 a13 a14 a15 a16) (Cert.KernelIdeal.SpecK.wsl ![3, 1, 0, 0] Cert.KernelIdeal.Facts₀.slices_S5x4x128x128_S1x1x128x128_3_1_0_0 a15) (Cert.KernelIdeal.SpecK.bsl ![3, 1, 0] Cert.KernelIdeal.Facts₀.slices_S5x4x128_S1x1x128_3_1_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v354 (F := Ideal) a0 a1 a2 a3 a4 a5 a6 a7 a8 a9 a10 a11 a12 a13 a14 a15 a16) (val_main_v385 (F := Ideal) a15) (val_main_v388 (F := Ideal) a16)

/-- Stage 195: edge type 2, the previous N0 rows by matrix and bias (1, 2). -/
theorem rl3_mlp_v195 :
    (val_main_v419 (F := Ideal) a0 a1 a2 a3 a4 a5 a6 a7 a8 a9 a10 a11 a12 a13 a14 a15 a16)
    = Cert.Spec.mlp (val_main_v353 (F := Ideal) a0 a1 a2 a3 a4 a5 a6 a7 a8 a9 a10 a11 a12 a13 a14 a15 a16) (Cert.KernelIdeal.SpecK.wsl ![3, 2, 0, 0] Cert.KernelIdeal.Facts₀.slices_S5x4x128x128_S1x1x128x128_3_2_0_0 a15) (Cert.KernelIdeal.SpecK.bsl ![3, 2, 0] Cert.KernelIdeal.Facts₀.slices_S5x4x128_S1x1x128_3_2_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v353 (F := Ideal) a0 a1 a2 a3 a4 a5 a6 a7 a8 a9 a10 a11 a12 a13 a14 a15 a16) (val_main_v412 (F := Ideal) a15) (val_main_v415 (F := Ideal) a16)

/-- Stage 222: edge type 3, the previous N1 rows by matrix and bias (1, 3). -/
theorem rl3_mlp_v222 :
    (val_main_v446 (F := Ideal) a0 a1 a2 a3 a4 a5 a6 a7 a8 a9 a10 a11 a12 a13 a14 a15 a16)
    = Cert.Spec.mlp (val_main_v354 (F := Ideal) a0 a1 a2 a3 a4 a5 a6 a7 a8 a9 a10 a11 a12 a13 a14 a15 a16) (Cert.KernelIdeal.SpecK.wsl ![3, 3, 0, 0] Cert.KernelIdeal.Facts₀.slices_S5x4x128x128_S1x1x128x128_3_3_0_0 a15) (Cert.KernelIdeal.SpecK.bsl ![3, 3, 0] Cert.KernelIdeal.Facts₀.slices_S5x4x128_S1x1x128_3_3_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v354 (F := Ideal) a0 a1 a2 a3 a4 a5 a6 a7 a8 a9 a10 a11 a12 a13 a14 a15 a16) (val_main_v439 (F := Ideal) a15) (val_main_v442 (F := Ideal) a16)

/-- Stage 148: the source indices of edge type 0 after the negative-index convention (row count 100000) are the source row itself. -/
theorem rl3_src_v148 (h3 : NonNeg (Cert.KernelIdeal.SpecK.row400000 0 Cert.KernelIdeal.Facts₀.slices_S2x400000_S1x400000_0_0 a3)) :
    (val_main_v372 (F := Ideal) a3) = (Cert.KernelIdeal.SpecK.row400000 0 Cert.KernelIdeal.Facts₀.slices_S2x400000_S1x400000_0_0 a3) :=
  Cert.Spec.wrap_eq Gen.bcast_S_S400000 100000#32 (Cert.KernelIdeal.SpecK.row400000 0 Cert.KernelIdeal.Facts₀.slices_S2x400000_S1x400000_0_0 a3) (h3 Gen.bcast_S_S400000)

/-- Stage 175: edge type 1 (row count 2000). -/
theorem rl3_src_v175 (h4 : NonNeg (Cert.KernelIdeal.SpecK.row200000 0 Cert.KernelIdeal.Facts₀.slices_S2x200000_S1x200000_0_0 a4)) :
    (val_main_v399 (F := Ideal) a4) = (Cert.KernelIdeal.SpecK.row200000 0 Cert.KernelIdeal.Facts₀.slices_S2x200000_S1x200000_0_0 a4) :=
  Cert.Spec.wrap_eq Gen.bcast_S_S200000 2000#32 (Cert.KernelIdeal.SpecK.row200000 0 Cert.KernelIdeal.Facts₀.slices_S2x200000_S1x200000_0_0 a4) (h4 Gen.bcast_S_S200000)

/-- Stage 202: edge type 2 (row count 100000). -/
theorem rl3_src_v202 (h5 : NonNeg (Cert.KernelIdeal.SpecK.row200000 0 Cert.KernelIdeal.Facts₀.slices_S2x200000_S1x200000_0_0 a5)) :
    (val_main_v426 (F := Ideal) a5) = (Cert.KernelIdeal.SpecK.row200000 0 Cert.KernelIdeal.Facts₀.slices_S2x200000_S1x200000_0_0 a5) :=
  Cert.Spec.wrap_eq Gen.bcast_S_S200000 100000#32 (Cert.KernelIdeal.SpecK.row200000 0 Cert.KernelIdeal.Facts₀.slices_S2x200000_S1x200000_0_0 a5) (h5 Gen.bcast_S_S200000)

/-- Stage 229: edge type 3 (row count 2000). -/
theorem rl3_src_v229 (h6 : NonNeg (Cert.KernelIdeal.SpecK.row100000 0 Cert.KernelIdeal.Facts₀.slices_S2x100000_S1x100000_0_0 a6)) :
    (val_main_v453 (F := Ideal) a6) = (Cert.KernelIdeal.SpecK.row100000 0 Cert.KernelIdeal.Facts₀.slices_S2x100000_S1x100000_0_0 a6) :=
  Cert.Spec.wrap_eq Gen.bcast_S_S100000 2000#32 (Cert.KernelIdeal.SpecK.row100000 0 Cert.KernelIdeal.Facts₀.slices_S2x100000_S1x100000_0_0 a6) (h6 Gen.bcast_S_S100000)

/-- Stage 158: edge type 0's scatter-add is the specification's aggregation of the rows of stage 141 at the indices of stage 148. -/
theorem rl3_agg_v158 :
    (val_main_v382 (F := Ideal) a0 a1 a2 a3 a4 a5 a6 a7 a8 a9 a10 a11 a12 a13 a14 a15 a16)
    = Cert.KernelIdeal.SpecK.agg0 (val_main_v365 (F := Ideal) a0 a1 a2 a3 a4 a5 a6 a7 a8 a9 a10 a11 a12 a13 a14 a15 a16) (val_main_v372 (F := Ideal) a3) (Cert.KernelIdeal.SpecK.row400000 1 Cert.KernelIdeal.Facts₀.slices_S2x400000_S1x400000_1_0 a3) a7 := rfl

/-- Stage 185: edge type 1. -/
theorem rl3_agg_v185 :
    (val_main_v409 (F := Ideal) a0 a1 a2 a3 a4 a5 a6 a7 a8 a9 a10 a11 a12 a13 a14 a15 a16)
    = Cert.KernelIdeal.SpecK.agg1 (val_main_v392 (F := Ideal) a0 a1 a2 a3 a4 a5 a6 a7 a8 a9 a10 a11 a12 a13 a14 a15 a16) (val_main_v399 (F := Ideal) a4) (Cert.KernelIdeal.SpecK.row200000 1 Cert.KernelIdeal.Facts₀.slices_S2x200000_S1x200000_1_0 a4) a8 := rfl

/-- Stage 212: edge type 2. -/
theorem rl3_agg_v212 :
    (val_main_v436 (F := Ideal) a0 a1 a2 a3 a4 a5 a6 a7 a8 a9 a10 a11 a12 a13 a14 a15 a16)
    = Cert.KernelIdeal.SpecK.agg2 (val_main_v419 (F := Ideal) a0 a1 a2 a3 a4 a5 a6 a7 a8 a9 a10 a11 a12 a13 a14 a15 a16) (val_main_v426 (F := Ideal) a5) (Cert.KernelIdeal.SpecK.row200000 1 Cert.KernelIdeal.Facts₀.slices_S2x200000_S1x200000_1_0 a5) a9 := rfl

/-- Stage 239: edge type 3. -/
theorem rl3_agg_v239 :
    (val_main_v463 (F := Ideal) a0 a1 a2 a3 a4 a5 a6 a7 a8 a9 a10 a11 a12 a13 a14 a15 a16)
    = Cert.KernelIdeal.SpecK.agg3 (val_main_v446 (F := Ideal) a0 a1 a2 a3 a4 a5 a6 a7 a8 a9 a10 a11 a12 a13 a14 a15 a16) (val_main_v453 (F := Ideal) a6) (Cert.KernelIdeal.SpecK.row100000 1 Cert.KernelIdeal.Facts₀.slices_S2x100000_S1x100000_1_0 a6) a10 := rfl

/-- Layer 3 of the reference, N0 rows: the rectified sum of edge types 0 and 1 (source indices non-negative). -/
theorem ref_layer3_0 (h3 : NonNeg (Cert.KernelIdeal.SpecK.row400000 0 Cert.KernelIdeal.Facts₀.slices_S2x400000_S1x400000_0_0 a3)) (h4 : NonNeg (Cert.KernelIdeal.SpecK.row200000 0 Cert.KernelIdeal.Facts₀.slices_S2x200000_S1x200000_0_0 a4)) :
    (val_main_v465 (F := Ideal) a0 a1 a2 a3 a4 a5 a6 a7 a8 a9 a10 a11 a12 a13 a14 a15 a16)
    = Cert.Spec.relu (Cert.KernelIdeal.SpecK.out0 (Cert.Spec.mlp (val_main_v353 (F := Ideal) a0 a1 a2 a3 a4 a5 a6 a7 a8 a9 a10 a11 a12 a13 a14 a15 a16) (Cert.KernelIdeal.SpecK.wsl ![3, 0, 0, 0] Cert.KernelIdeal.Facts₀.slices_S5x4x128x128_S1x1x128x128_3_0_0_0 a15) (Cert.KernelIdeal.SpecK.bsl ![3, 0, 0] Cert.KernelIdeal.Facts₀.slices_S5x4x128_S1x1x128_3_0_0 a16))
        (Cert.Spec.mlp (val_main_v354 (F := Ideal) a0 a1 a2 a3 a4 a5 a6 a7 a8 a9 a10 a11 a12 a13 a14 a15 a16) (Cert.KernelIdeal.SpecK.wsl ![3, 1, 0, 0] Cert.KernelIdeal.Facts₀.slices_S5x4x128x128_S1x1x128x128_3_1_0_0 a15) (Cert.KernelIdeal.SpecK.bsl ![3, 1, 0] Cert.KernelIdeal.Facts₀.slices_S5x4x128_S1x1x128_3_1_0 a16)) a3 a4 a7 a8) := by
  have e1 : (val_main_v465 (F := Ideal) a0 a1 a2 a3 a4 a5 a6 a7 a8 a9 a10 a11 a12 a13 a14 a15 a16) = Cert.Spec.relu (val_main_v410 (F := Ideal) a0 a1 a2 a3 a4 a5 a6 a7 a8 a9 a10 a11 a12 a13 a14 a15 a16) :=
    Cert.Spec.hrelu_eq Gen.bcast_S_S100000x128 _
  have e2 : (val_main_v410 (F := Ideal) a0 a1 a2 a3 a4 a5 a6 a7 a8 a9 a10 a11 a12 a13 a14 a15 a16)
      = addf (F := Ideal) (s := S100000x128) (φ := .f32) (val_main_v383 (F := Ideal) a0 a1 a2 a3 a4 a5 a6 a7 a8 a9 a10 a11 a12 a13 a14 a15 a16) (val_main_v409 (F := Ideal) a0 a1 a2 a3 a4 a5 a6 a7 a8 a9 a10 a11 a12 a13 a14 a15 a16) := rfl
  have e3 : (val_main_v383 (F := Ideal) a0 a1 a2 a3 a4 a5 a6 a7 a8 a9 a10 a11 a12 a13 a14 a15 a16) = (val_main_v382 (F := Ideal) a0 a1 a2 a3 a4 a5 a6 a7 a8 a9 a10 a11 a12 a13 a14 a15 a16) :=
    Cert.Spec.zero_addf Gen.bcast_S_S100000x128 _
  rw [e1, e2, e3, rl3_agg_v158, rl3_agg_v185, rl3_mlp_v141, rl3_mlp_v168, rl3_src_v148 a3 h3, rl3_src_v175 a4 h4]
  rfl

/-- Layer 3 of the reference, N1 rows: the rectified sum of edge types 2 and 3. -/
theorem ref_layer3_1 (h5 : NonNeg (Cert.KernelIdeal.SpecK.row200000 0 Cert.KernelIdeal.Facts₀.slices_S2x200000_S1x200000_0_0 a5)) (h6 : NonNeg (Cert.KernelIdeal.SpecK.row100000 0 Cert.KernelIdeal.Facts₀.slices_S2x100000_S1x100000_0_0 a6)) :
    (val_main_v466 (F := Ideal) a0 a1 a2 a3 a4 a5 a6 a7 a8 a9 a10 a11 a12 a13 a14 a15 a16)
    = Cert.Spec.relu (Cert.KernelIdeal.SpecK.out1 (Cert.Spec.mlp (val_main_v353 (F := Ideal) a0 a1 a2 a3 a4 a5 a6 a7 a8 a9 a10 a11 a12 a13 a14 a15 a16) (Cert.KernelIdeal.SpecK.wsl ![3, 2, 0, 0] Cert.KernelIdeal.Facts₀.slices_S5x4x128x128_S1x1x128x128_3_2_0_0 a15) (Cert.KernelIdeal.SpecK.bsl ![3, 2, 0] Cert.KernelIdeal.Facts₀.slices_S5x4x128_S1x1x128_3_2_0 a16))
        (Cert.Spec.mlp (val_main_v354 (F := Ideal) a0 a1 a2 a3 a4 a5 a6 a7 a8 a9 a10 a11 a12 a13 a14 a15 a16) (Cert.KernelIdeal.SpecK.wsl ![3, 3, 0, 0] Cert.KernelIdeal.Facts₀.slices_S5x4x128x128_S1x1x128x128_3_3_0_0 a15) (Cert.KernelIdeal.SpecK.bsl ![3, 3, 0] Cert.KernelIdeal.Facts₀.slices_S5x4x128_S1x1x128_3_3_0 a16)) a5 a6 a9 a10) := by
  have e1 : (val_main_v466 (F := Ideal) a0 a1 a2 a3 a4 a5 a6 a7 a8 a9 a10 a11 a12 a13 a14 a15 a16) = Cert.Spec.relu (val_main_v464 (F := Ideal) a0 a1 a2 a3 a4 a5 a6 a7 a8 a9 a10 a11 a12 a13 a14 a15 a16) :=
    Cert.Spec.hrelu_eq Gen.bcast_S_S2000x128 _
  have e2 : (val_main_v464 (F := Ideal) a0 a1 a2 a3 a4 a5 a6 a7 a8 a9 a10 a11 a12 a13 a14 a15 a16)
      = addf (F := Ideal) (s := S2000x128) (φ := .f32) (val_main_v437 (F := Ideal) a0 a1 a2 a3 a4 a5 a6 a7 a8 a9 a10 a11 a12 a13 a14 a15 a16) (val_main_v463 (F := Ideal) a0 a1 a2 a3 a4 a5 a6 a7 a8 a9 a10 a11 a12 a13 a14 a15 a16) := rfl
  have e3 : (val_main_v437 (F := Ideal) a0 a1 a2 a3 a4 a5 a6 a7 a8 a9 a10 a11 a12 a13 a14 a15 a16) = (val_main_v436 (F := Ideal) a0 a1 a2 a3 a4 a5 a6 a7 a8 a9 a10 a11 a12 a13 a14 a15 a16) :=
    Cert.Spec.zero_addf Gen.bcast_S_S2000x128 _
  rw [e1, e2, e3, rl3_agg_v212, rl3_agg_v239, rl3_mlp_v195, rl3_mlp_v222, rl3_src_v202 a5 h5, rl3_src_v229 a6 h6]
  rfl

end Cert.ReferenceIdeal.RV

end
-- ==== Proof.RL4.lean ====
/-
  Layer 4 of the reference program, read against the specification's functions.
-/
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

/-- Stage 141: the rows edge type 0 gathers from are the transform of the previous N0 rows by matrix and bias (1, 0). -/
theorem rl4_mlp_v141 :
    (val_main_v477 (F := Ideal) a0 a1 a2 a3 a4 a5 a6 a7 a8 a9 a10 a11 a12 a13 a14 a15 a16)
    = Cert.Spec.mlp (val_main_v465 (F := Ideal) a0 a1 a2 a3 a4 a5 a6 a7 a8 a9 a10 a11 a12 a13 a14 a15 a16) (Cert.KernelIdeal.SpecK.wsl ![4, 0, 0, 0] Cert.KernelIdeal.Facts₀.slices_S5x4x128x128_S1x1x128x128_4_0_0_0 a15) (Cert.KernelIdeal.SpecK.bsl ![4, 0, 0] Cert.KernelIdeal.Facts₀.slices_S5x4x128_S1x1x128_4_0_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v465 (F := Ideal) a0 a1 a2 a3 a4 a5 a6 a7 a8 a9 a10 a11 a12 a13 a14 a15 a16) (val_main_v470 (F := Ideal) a15) (val_main_v473 (F := Ideal) a16)

/-- Stage 168: the rows edge type 1 gathers from are the transform of the previous N1 rows by matrix and bias (1, 1). -/
theorem rl4_mlp_v168 :
    (val_main_v504 (F := Ideal) a0 a1 a2 a3 a4 a5 a6 a7 a8 a9 a10 a11 a12 a13 a14 a15 a16)
    = Cert.Spec.mlp (val_main_v466 (F := Ideal) a0 a1 a2 a3 a4 a5 a6 a7 a8 a9 a10 a11 a12 a13 a14 a15 a16) (Cert.KernelIdeal.SpecK.wsl ![4, 1, 0, 0] Cert.KernelIdeal.Facts₀.slices_S5x4x128x128_S1x1x128x128_4_1_0_0 a15) (Cert.KernelIdeal.SpecK.bsl ![4, 1, 0] Cert.KernelIdeal.Facts₀.slices_S5x4x128_S1x1x128_4_1_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v466 (F := Ideal) a0 a1 a2 a3 a4 a5 a6 a7 a8 a9 a10 a11 a12 a13 a14 a15 a16) (val_main_v497 (F := Ideal) a15) (val_main_v500 (F := Ideal) a16)

/-- Stage 195: edge type 2, the previous N0 rows by matrix and bias (1, 2). -/
theorem rl4_mlp_v195 :
    (val_main_v531 (F := Ideal) a0 a1 a2 a3 a4 a5 a6 a7 a8 a9 a10 a11 a12 a13 a14 a15 a16)
    = Cert.Spec.mlp (val_main_v465 (F := Ideal) a0 a1 a2 a3 a4 a5 a6 a7 a8 a9 a10 a11 a12 a13 a14 a15 a16) (Cert.KernelIdeal.SpecK.wsl ![4, 2, 0, 0] Cert.KernelIdeal.Facts₀.slices_S5x4x128x128_S1x1x128x128_4_2_0_0 a15) (Cert.KernelIdeal.SpecK.bsl ![4, 2, 0] Cert.KernelIdeal.Facts₀.slices_S5x4x128_S1x1x128_4_2_0 a16) :=
  Cert.Spec.mlpHost_eq dot_S100000x128_S128x128_S100000x128_1_0_0_1_n_n rfl rfl rfl rfl rfl rfl
    Gen.bcast_S128_S1x128_1 Gen.bcast_S1x128_S100000x128_0_1 Gen.bcast_S_S100000x128
    (val_main_v465 (F := Ideal) a0 a1 a2 a3 a4 a5 a6 a7 a8 a9 a10 a11 a12 a13 a14 a15 a16) (val_main_v524 (F := Ideal) a15) (val_main_v527 (F := Ideal) a16)

/-- Stage 222: edge type 3, the previous N1 rows by matrix and bias (1, 3). -/
theorem rl4_mlp_v222 :
    (val_main_v558 (F := Ideal) a0 a1 a2 a3 a4 a5 a6 a7 a8 a9 a10 a11 a12 a13 a14 a15 a16)
    = Cert.Spec.mlp (val_main_v466 (F := Ideal) a0 a1 a2 a3 a4 a5 a6 a7 a8 a9 a10 a11 a12 a13 a14 a15 a16) (Cert.KernelIdeal.SpecK.wsl ![4, 3, 0, 0] Cert.KernelIdeal.Facts₀.slices_S5x4x128x128_S1x1x128x128_4_3_0_0 a15) (Cert.KernelIdeal.SpecK.bsl ![4, 3, 0] Cert.KernelIdeal.Facts₀.slices_S5x4x128_S1x1x128_4_3_0 a16) :=
  Cert.Spec.mlpHost_eq dot_S2000x128_S128x128_S2000x128_1_0_0_1_n_n rfl rfl rfl rfl rfl rfl
    Gen.bcast_S128_S1x128_1 Gen.bcast_S1x128_S2000x128_0_1 Gen.bcast_S_S2000x128
    (val_main_v466 (F := Ideal) a0 a1 a2 a3 a4 a5 a6 a7 a8 a9 a10 a11 a12 a13 a14 a15 a16) (val_main_v551 (F := Ideal) a15) (val_main_v554 (F := Ideal) a16)

/-- Stage 148: the source indices of edge type 0 after the negative-index convention (row count 100000) are the source row itself. -/
theorem rl4_src_v148 (h3 : NonNeg (Cert.KernelIdeal.SpecK.row400000 0 Cert.KernelIdeal.Facts₀.slices_S2x400000_S1x400000_0_0 a3)) :
    (val_main_v484 (F := Ideal) a3) = (Cert.KernelIdeal.SpecK.row400000 0 Cert.KernelIdeal.Facts₀.slices_S2x400000_S1x400000_0_0 a3) :=
  Cert.Spec.wrap_eq Gen.bcast_S_S400000 100000#32 (Cert.KernelIdeal.SpecK.row400000 0 Cert.KernelIdeal.Facts₀.slices_S2x400000_S1x400000_0_0 a3) (h3 Gen.bcast_S_S400000)

/-- Stage 175: edge type 1 (row count 2000). -/
theorem rl4_src_v175 (h4 : NonNeg (Cert.KernelIdeal.SpecK.row200000 0 Cert.KernelIdeal.Facts₀.slices_S2x200000_S1x200000_0_0 a4)) :
    (val_main_v511 (F := Ideal) a4) = (Cert.KernelIdeal.SpecK.row200000 0 Cert.KernelIdeal.Facts₀.slices_S2x200000_S1x200000_0_0 a4) :=
  Cert.Spec.wrap_eq Gen.bcast_S_S200000 2000#32 (Cert.KernelIdeal.SpecK.row200000 0 Cert.KernelIdeal.Facts₀.slices_S2x200000_S1x200000_0_0 a4) (h4 Gen.bcast_S_S200000)

/-- Stage 202: edge type 2 (row count 100000). -/
theorem rl4_src_v202 (h5 : NonNeg (Cert.KernelIdeal.SpecK.row200000 0 Cert.KernelIdeal.Facts₀.slices_S2x200000_S1x200000_0_0 a5)) :
    (val_main_v538 (F := Ideal) a5) = (Cert.KernelIdeal.SpecK.row200000 0 Cert.KernelIdeal.Facts₀.slices_S2x200000_S1x200000_0_0 a5) :=
  Cert.Spec.wrap_eq Gen.bcast_S_S200000 100000#32 (Cert.KernelIdeal.SpecK.row200000 0 Cert.KernelIdeal.Facts₀.slices_S2x200000_S1x200000_0_0 a5) (h5 Gen.bcast_S_S200000)

/-- Stage 229: edge type 3 (row count 2000). -/
theorem rl4_src_v229 (h6 : NonNeg (Cert.KernelIdeal.SpecK.row100000 0 Cert.KernelIdeal.Facts₀.slices_S2x100000_S1x100000_0_0 a6)) :
    (val_main_v565 (F := Ideal) a6) = (Cert.KernelIdeal.SpecK.row100000 0 Cert.KernelIdeal.Facts₀.slices_S2x100000_S1x100000_0_0 a6) :=
  Cert.Spec.wrap_eq Gen.bcast_S_S100000 2000#32 (Cert.KernelIdeal.SpecK.row100000 0 Cert.KernelIdeal.Facts₀.slices_S2x100000_S1x100000_0_0 a6) (h6 Gen.bcast_S_S100000)

/-- Stage 158: edge type 0's scatter-add is the specification's aggregation of the rows of stage 141 at the indices of stage 148. -/
theorem rl4_agg_v158 :
    (val_main_v494 (F := Ideal) a0 a1 a2 a3 a4 a5 a6 a7 a8 a9 a10 a11 a12 a13 a14 a15 a16)
    = Cert.KernelIdeal.SpecK.agg0 (val_main_v477 (F := Ideal) a0 a1 a2 a3 a4 a5 a6 a7 a8 a9 a10 a11 a12 a13 a14 a15 a16) (val_main_v484 (F := Ideal) a3) (Cert.KernelIdeal.SpecK.row400000 1 Cert.KernelIdeal.Facts₀.slices_S2x400000_S1x400000_1_0 a3) a7 := rfl

/-- Stage 185: edge type 1. -/
theorem rl4_agg_v185 :
    (val_main_v521 (F := Ideal) a0 a1 a2 a3 a4 a5 a6 a7 a8 a9 a10 a11 a12 a13 a14 a15 a16)
    = Cert.KernelIdeal.SpecK.agg1 (val_main_v504 (F := Ideal) a0 a1 a2 a3 a4 a5 a6 a7 a8 a9 a10 a11 a12 a13 a14 a15 a16) (val_main_v511 (F := Ideal) a4) (Cert.KernelIdeal.SpecK.row200000 1 Cert.KernelIdeal.Facts₀.slices_S2x200000_S1x200000_1_0 a4) a8 := rfl

/-- Stage 212: edge type 2. -/
theorem rl4_agg_v212 :
    (val_main_v548 (F := Ideal) a0 a1 a2 a3 a4 a5 a6 a7 a8 a9 a10 a11 a12 a13 a14 a15 a16)
    = Cert.KernelIdeal.SpecK.agg2 (val_main_v531 (F := Ideal) a0 a1 a2 a3 a4 a5 a6 a7 a8 a9 a10 a11 a12 a13 a14 a15 a16) (val_main_v538 (F := Ideal) a5) (Cert.KernelIdeal.SpecK.row200000 1 Cert.KernelIdeal.Facts₀.slices_S2x200000_S1x200000_1_0 a5) a9 := rfl

/-- Stage 239: edge type 3. -/
theorem rl4_agg_v239 :
    (val_main_v575 (F := Ideal) a0 a1 a2 a3 a4 a5 a6 a7 a8 a9 a10 a11 a12 a13 a14 a15 a16)
    = Cert.KernelIdeal.SpecK.agg3 (val_main_v558 (F := Ideal) a0 a1 a2 a3 a4 a5 a6 a7 a8 a9 a10 a11 a12 a13 a14 a15 a16) (val_main_v565 (F := Ideal) a6) (Cert.KernelIdeal.SpecK.row100000 1 Cert.KernelIdeal.Facts₀.slices_S2x100000_S1x100000_1_0 a6) a10 := rfl

/-- Layer 4 of the reference, N0 rows: the rectified sum of edge types 0 and 1 (source indices non-negative). -/
theorem ref_layer4_0 (h3 : NonNeg (Cert.KernelIdeal.SpecK.row400000 0 Cert.KernelIdeal.Facts₀.slices_S2x400000_S1x400000_0_0 a3)) (h4 : NonNeg (Cert.KernelIdeal.SpecK.row200000 0 Cert.KernelIdeal.Facts₀.slices_S2x200000_S1x200000_0_0 a4)) :
    (val_main_v577 (F := Ideal) a0 a1 a2 a3 a4 a5 a6 a7 a8 a9 a10 a11 a12 a13 a14 a15 a16)
    = Cert.Spec.relu (Cert.KernelIdeal.SpecK.out0 (Cert.Spec.mlp (val_main_v465 (F := Ideal) a0 a1 a2 a3 a4 a5 a6 a7 a8 a9 a10 a11 a12 a13 a14 a15 a16) (Cert.KernelIdeal.SpecK.wsl ![4, 0, 0, 0] Cert.KernelIdeal.Facts₀.slices_S5x4x128x128_S1x1x128x128_4_0_0_0 a15) (Cert.KernelIdeal.SpecK.bsl ![4, 0, 0] Cert.KernelIdeal.Facts₀.slices_S5x4x128_S1x1x128_4_0_0 a16))
        (Cert.Spec.mlp (val_main_v466 (F := Ideal) a0 a1 a2 a3 a4 a5 a6 a7 a8 a9 a10 a11 a12 a13 a14 a15 a16) (Cert.KernelIdeal.SpecK.wsl ![4, 1, 0, 0] Cert.KernelIdeal.Facts₀.slices_S5x4x128x128_S1x1x128x128_4_1_0_0 a15) (Cert.KernelIdeal.SpecK.bsl ![4, 1, 0] Cert.KernelIdeal.Facts₀.slices_S5x4x128_S1x1x128_4_1_0 a16)) a3 a4 a7 a8) := by
  have e1 : (val_main_v577 (F := Ideal) a0 a1 a2 a3 a4 a5 a6 a7 a8 a9 a10 a11 a12 a13 a14 a15 a16) = Cert.Spec.relu (val_main_v522 (F := Ideal) a0 a1 a2 a3 a4 a5 a6 a7 a8 a9 a10 a11 a12 a13 a14 a15 a16) :=
    Cert.Spec.hrelu_eq Gen.bcast_S_S100000x128 _
  have e2 : (val_main_v522 (F := Ideal) a0 a1 a2 a3 a4 a5 a6 a7 a8 a9 a10 a11 a12 a13 a14 a15 a16)
      = addf (F := Ideal) (s := S100000x128) (φ := .f32) (val_main_v495 (F := Ideal) a0 a1 a2 a3 a4 a5 a6 a7 a8 a9 a10 a11 a12 a13 a14 a15 a16) (val_main_v521 (F := Ideal) a0 a1 a2 a3 a4 a5 a6 a7 a8 a9 a10 a11 a12 a13 a14 a15 a16) := rfl
  have e3 : (val_main_v495 (F := Ideal) a0 a1 a2 a3 a4 a5 a6 a7 a8 a9 a10 a11 a12 a13 a14 a15 a16) = (val_main_v494 (F := Ideal) a0 a1 a2 a3 a4 a5 a6 a7 a8 a9 a10 a11 a12 a13 a14 a15 a16) :=
    Cert.Spec.zero_addf Gen.bcast_S_S100000x128 _
  rw [e1, e2, e3, rl4_agg_v158, rl4_agg_v185, rl4_mlp_v141, rl4_mlp_v168, rl4_src_v148 a3 h3, rl4_src_v175 a4 h4]
  rfl

/-- Layer 4 of the reference, N1 rows: the rectified sum of edge types 2 and 3. -/
theorem ref_layer4_1 (h5 : NonNeg (Cert.KernelIdeal.SpecK.row200000 0 Cert.KernelIdeal.Facts₀.slices_S2x200000_S1x200000_0_0 a5)) (h6 : NonNeg (Cert.KernelIdeal.SpecK.row100000 0 Cert.KernelIdeal.Facts₀.slices_S2x100000_S1x100000_0_0 a6)) :
    (val_main_v578 (F := Ideal) a0 a1 a2 a3 a4 a5 a6 a7 a8 a9 a10 a11 a12 a13 a14 a15 a16)
    = Cert.Spec.relu (Cert.KernelIdeal.SpecK.out1 (Cert.Spec.mlp (val_main_v465 (F := Ideal) a0 a1 a2 a3 a4 a5 a6 a7 a8 a9 a10 a11 a12 a13 a14 a15 a16) (Cert.KernelIdeal.SpecK.wsl ![4, 2, 0, 0] Cert.KernelIdeal.Facts₀.slices_S5x4x128x128_S1x1x128x128_4_2_0_0 a15) (Cert.KernelIdeal.SpecK.bsl ![4, 2, 0] Cert.KernelIdeal.Facts₀.slices_S5x4x128_S1x1x128_4_2_0 a16))
        (Cert.Spec.mlp (val_main_v466 (F := Ideal) a0 a1 a2 a3 a4 a5 a6 a7 a8 a9 a10 a11 a12 a13 a14 a15 a16) (Cert.KernelIdeal.SpecK.wsl ![4, 3, 0, 0] Cert.KernelIdeal.Facts₀.slices_S5x4x128x128_S1x1x128x128_4_3_0_0 a15) (Cert.KernelIdeal.SpecK.bsl ![4, 3, 0] Cert.KernelIdeal.Facts₀.slices_S5x4x128_S1x1x128_4_3_0 a16)) a5 a6 a9 a10) := by
  have e1 : (val_main_v578 (F := Ideal) a0 a1 a2 a3 a4 a5 a6 a7 a8 a9 a10 a11 a12 a13 a14 a15 a16) = Cert.Spec.relu (val_main_v576 (F := Ideal) a0 a1 a2 a3 a4 a5 a6 a7 a8 a9 a10 a11 a12 a13 a14 a15 a16) :=
    Cert.Spec.hrelu_eq Gen.bcast_S_S2000x128 _
  have e2 : (val_main_v576 (F := Ideal) a0 a1 a2 a3 a4 a5 a6 a7 a8 a9 a10 a11 a12 a13 a14 a15 a16)
      = addf (F := Ideal) (s := S2000x128) (φ := .f32) (val_main_v549 (F := Ideal) a0 a1 a2 a3 a4 a5 a6 a7 a8 a9 a10 a11 a12 a13 a14 a15 a16) (val_main_v575 (F := Ideal) a0 a1 a2 a3 a4 a5 a6 a7 a8 a9 a10 a11 a12 a13 a14 a15 a16) := rfl
  have e3 : (val_main_v549 (F := Ideal) a0 a1 a2 a3 a4 a5 a6 a7 a8 a9 a10 a11 a12 a13 a14 a15 a16) = (val_main_v548 (F := Ideal) a0 a1 a2 a3 a4 a5 a6 a7 a8 a9 a10 a11 a12 a13 a14 a15 a16) :=
    Cert.Spec.zero_addf Gen.bcast_S_S2000x128 _
  rw [e1, e2, e3, rl4_agg_v212, rl4_agg_v239, rl4_mlp_v195, rl4_mlp_v222, rl4_src_v202 a5 h5, rl4_src_v229 a6 h6]
  rfl

end Cert.ReferenceIdeal.RV

end
-- ==== Proof.RDec.lean ====
import proofs.«409564_j17119739642177_3_alg».proof.Proof.RRead
import proofs.«409564_j17119739642177_3_alg».proof.Proof.Gen.KernelIdeal
import proofs.«409564_j17119739642177_3_alg».proof.Proof.SpecK
import proofs.«409564_j17119739642177_3_alg».proof.Proof.SpecLemmas
import proofs.«409564_j17119739642177_3_alg».proof.Proof.RNonNeg

set_option maxRecDepth 16384

noncomputable section

namespace Cert.ReferenceIdeal.RV

open Idealize.ShloMosaic Cert.ReferenceIdeal Cert.ReferenceIdeal.ReadP

variable (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)

theorem ref_last : (val_main_v582 (F := Ideal) a0 a1 a2 a3 a4 a5 a6 a7 a8 a9 a10 a11 a12 a13 a14 a15 a16 a17 a18) = Cert.KernelIdeal.SpecK.last (val_main_v577 (F := Ideal) a0 a1 a2 a3 a4 a5 a6 a7 a8 a9 a10 a11 a12 a13 a14 a15 a16) a17 a18 := by
  rfl

theorem ref_soft : (val_main_v593 (F := Ideal) a0 a1 a2 a3 a4 a5 a6 a7 a8 a9 a10 a11 a12 a13 a14 a15 a16 a17 a18) = Cert.KernelIdeal.SpecK.soft (val_main_v582 (F := Ideal) a0 a1 a2 a3 a4 a5 a6 a7 a8 a9 a10 a11 a12 a13 a14 a15 a16 a17 a18) := by
  rfl

end Cert.ReferenceIdeal.RV

end
-- ==== Proof.PreFacts.lean ====
import proofs.«409564_j17119739642177_3_alg».proof.Pre_finite_inputs
import proofs.«409564_j17119739642177_3_alg».proof.Proof.Gen.Pre_finite_inputs
import Idealize.ShloMosaic.Lib.ReduceAll
import Idealize.ShloMosaic.Lib.StableHlo.Predicate
import Idealize.ShloMosaic.PureOps.Ideal
import Idealize.ShloMosaic.Lib.ValueIdx

noncomputable section

namespace Cert.Proof.PreFacts

open Idealize.ShloMosaic Cert.Pre_finite_inputs

variable [Cert.Pre_finite_inputs.Facts]
open Cert.Pre_finite_inputs.Facts

abbrev row400000 (r : Nat) (h : S2x400000.Slices ![r, 0] S1x400000) (es : IVec S2x400000 32) : IVec S400000 32 :=
  shapeCast S400000 (extractStridedSlice S1x400000 ![r, 0] es h) shapeCasts_S1x400000_S400000
abbrev row200000 (r : Nat) (h : S2x200000.Slices ![r, 0] S1x200000) (es : IVec S2x200000 32) : IVec S200000 32 :=
  shapeCast S200000 (extractStridedSlice S1x200000 ![r, 0] es h) shapeCasts_S1x200000_S200000
abbrev row100000 (r : Nat) (h : S2x100000.Slices ![r, 0] S1x100000) (es : IVec S2x100000 32) : IVec S100000 32 :=
  shapeCast S100000 (extractStridedSlice S1x100000 ![r, 0] es h) shapeCasts_S1x100000_S100000

theorem nonneg_of_pre (a0 : IVec S100000 32) (a1 : FVec Ideal S100000x64 .f32) (a2 : IVec S2000 32) (a3 : IVec S2x400000 32) (a4 : IVec S2x200000 32) (a5 : IVec S2x200000 32) (a6 : IVec S2x100000 32) (a7 : FVec Ideal S400000 .f32) (a8 : FVec Ideal S200000 .f32) (a9 : FVec Ideal S200000 .f32) (a10 : FVec Ideal S100000 .f32) (a11 : FVec Ideal S1000x128 .f32) (a12 : FVec Ideal S64x128 .f32) (a13 : FVec Ideal S128 .f32) (a14 : FVec Ideal S1x128 .f32) (a15 : FVec Ideal S5x4x128x128 .f32) (a16 : FVec Ideal S5x4x128 .f32) (a17 : FVec Ideal S128x3 .f32) (a18 : FVec Ideal S3 .f32)
    (h : Cert.Pre_finite_inputs.fn (F := Ideal) a0 a1 a2 a3 a4 a5 a6 a7 a8 a9 a10 a11 a12 a13 a14 a15 a16 a17 a18 = fun _ => 1#1) :
    (∀ i, cmpi .sge a0 (broadcastInDim S100000 ![] bcast_S_S100000 (constantI S_ 32 0#32)) i = 1#1)
    ∧ (∀ i, cmpi .sge (row400000 0 slices_S2x400000_S1x400000_0_0 a3) (broadcastInDim S400000 ![] bcast_S_S400000 (constantI S_ 32 0#32)) i = 1#1)
    ∧ (∀ i, cmpi .sge (row200000 0 slices_S2x200000_S1x200000_0_0 a4) (broadcastInDim S200000 ![] bcast_S_S200000 (constantI S_ 32 0#32)) i = 1#1)
    ∧ (∀ i, cmpi .sge (row200000 0 slices_S2x200000_S1x200000_0_0 a5) (broadcastInDim S200000 ![] bcast_S_S200000 (constantI S_ 32 0#32)) i = 1#1)
    ∧ (∀ i, cmpi .sge (row100000 0 slices_S2x100000_S1x100000_0_0 a6) (broadcastInDim S100000 ![] bcast_S_S100000 (constantI S_ 32 0#32)) i = 1#1) := by

  haveI : Subsingleton S_.Idx := ⟨fun a b => funext fun d => d.elim0⟩
  have h0 := congrFun h ValueIdx.ix0

  dsimp only [fn, fn_part1, fn_part2, fn_part3, fn_part4, fn_part5] at h0
  simp only [andi, IntOp.andi_eq_one] at h0

  obtain ⟨⟨⟨⟨⟨-, h66⟩, h72⟩, h78⟩, h84⟩, h90⟩ := h0
  exact ⟨fun i => Host.reduce_andi_all _ _ _ _ _ h66 i, fun i => Host.reduce_andi_all _ _ _ _ _ h72 i,
    fun i => Host.reduce_andi_all _ _ _ _ _ h78 i, fun i => Host.reduce_andi_all _ _ _ _ _ h84 i,
    fun i => Host.reduce_andi_all _ _ _ _ _ h90 i⟩

end Cert.Proof.PreFacts

end
-- ==== Proof.IdxFacts.lean ====
import proofs.«409564_j17119739642177_3_alg».proof.Proof.PreFacts
import proofs.«409564_j17119739642177_3_alg».proof.Proof.RL0

noncomputable section

namespace Cert.Proof

open Idealize.ShloMosaic

structure Idx (al : IVec Cert.KernelIdeal.S100000 32) (es0 : IVec Cert.KernelIdeal.S2x400000 32) (es1 es2 : IVec Cert.KernelIdeal.S2x200000 32)
    (es3 : IVec Cert.KernelIdeal.S2x100000 32) : Prop where
  al : Cert.ReferenceIdeal.RV.NonNeg al
  s0 : Cert.ReferenceIdeal.RV.NonNeg (Cert.KernelIdeal.SpecK.row400000 0 Cert.KernelIdeal.Facts₀.slices_S2x400000_S1x400000_0_0 es0)
  s1 : Cert.ReferenceIdeal.RV.NonNeg (Cert.KernelIdeal.SpecK.row200000 0 Cert.KernelIdeal.Facts₀.slices_S2x200000_S1x200000_0_0 es1)
  s2 : Cert.ReferenceIdeal.RV.NonNeg (Cert.KernelIdeal.SpecK.row200000 0 Cert.KernelIdeal.Facts₀.slices_S2x200000_S1x200000_0_0 es2)
  s3 : Cert.ReferenceIdeal.RV.NonNeg (Cert.KernelIdeal.SpecK.row100000 0 Cert.KernelIdeal.Facts₀.slices_S2x100000_S1x100000_0_0 es3)

theorem idx_of_pre (a0 : IVec Cert.Pre_finite_inputs.S100000 32) (a1 : FVec Ideal Cert.Pre_finite_inputs.S100000x64 .f32) (a2 : IVec Cert.Pre_finite_inputs.S2000 32) (a3 : IVec Cert.Pre_finite_inputs.S2x400000 32) (a4 : IVec Cert.Pre_finite_inputs.S2x200000 32) (a5 : IVec Cert.Pre_finite_inputs.S2x200000 32) (a6 : IVec Cert.Pre_finite_inputs.S2x100000 32) (a7 : FVec Ideal Cert.Pre_finite_inputs.S400000 .f32) (a8 : FVec Ideal Cert.Pre_finite_inputs.S200000 .f32) (a9 : FVec Ideal Cert.Pre_finite_inputs.S200000 .f32) (a10 : FVec Ideal Cert.Pre_finite_inputs.S100000 .f32) (a11 : FVec Ideal Cert.Pre_finite_inputs.S1000x128 .f32) (a12 : FVec Ideal Cert.Pre_finite_inputs.S64x128 .f32) (a13 : FVec Ideal Cert.Pre_finite_inputs.S128 .f32) (a14 : FVec Ideal Cert.Pre_finite_inputs.S1x128 .f32) (a15 : FVec Ideal Cert.Pre_finite_inputs.S5x4x128x128 .f32) (a16 : FVec Ideal Cert.Pre_finite_inputs.S5x4x128 .f32) (a17 : FVec Ideal Cert.Pre_finite_inputs.S128x3 .f32) (a18 : FVec Ideal Cert.Pre_finite_inputs.S3 .f32)
    (h : Cert.Pre_finite_inputs.fn (F := Ideal) a0 a1 a2 a3 a4 a5 a6 a7 a8 a9 a10 a11 a12 a13 a14 a15 a16 a17 a18 = fun _ => 1#1) : Idx a0 a3 a4 a5 a6 := by
  have p := Cert.Proof.PreFacts.nonneg_of_pre a0 a1 a2 a3 a4 a5 a6 a7 a8 a9 a10 a11 a12 a13 a14 a15 a16 a17 a18 h
  exact ⟨fun hc i => p.1 i, fun hc i => p.2.1 i, fun hc i => p.2.2.1 i, fun hc i => p.2.2.2.1 i,
    fun hc i => p.2.2.2.2 i⟩

end Cert.Proof

end
-- ==== Proof.Bridge.lean ====
import proofs.«409564_j17119739642177_3_alg».proof.Proof.KL0
import proofs.«409564_j17119739642177_3_alg».proof.Proof.KL1
import proofs.«409564_j17119739642177_3_alg».proof.Proof.KL2
import proofs.«409564_j17119739642177_3_alg».proof.Proof.KL3
import proofs.«409564_j17119739642177_3_alg».proof.Proof.KL4
import proofs.«409564_j17119739642177_3_alg».proof.Proof.KDec
import proofs.«409564_j17119739642177_3_alg».proof.Proof.RL0
import proofs.«409564_j17119739642177_3_alg».proof.Proof.RL1
import proofs.«409564_j17119739642177_3_alg».proof.Proof.RL2
import proofs.«409564_j17119739642177_3_alg».proof.Proof.RL3
import proofs.«409564_j17119739642177_3_alg».proof.Proof.RL4
import proofs.«409564_j17119739642177_3_alg».proof.Proof.RDec
import proofs.«409564_j17119739642177_3_alg».proof.Proof.IdxFacts

set_option maxRecDepth 16384

noncomputable section

namespace Cert.Proof.Bridge

open Idealize.ShloMosaic Idealize.ShloMosaic.TcCoe Idealize.SL.Sem
open Cert.KernelIdeal Cert.KernelIdeal.Gen Cert.KernelIdeal.GenP Cert.KernelIdeal.KV Cert.KernelIdeal.SpecK
open Cert.ReferenceIdeal.ReadP

variable (m : (ℓ : Loc nD τ sig) → Buf (Elt Ideal) ℓ) (ρ : Dev nD → PrngReg) (c : Dev nD)

variable (hI : Cert.Proof.Idx (aAl m c) (aEs0 m c) (aEs1 m c) (aEs2 m c) (aEs3 m c))
include hI

theorem x0_eq : (val_main_v11 (F := Ideal) (aAl m c) (aAc m c) (aEncAl m c) (aEncW m c) (aEncB m c)) = kx0 m ρ c :=
  (Cert.ReferenceIdeal.RV.ref_enc (h0 := hI.al) ..).trans (enc_val m ρ c).symm

omit hI in

theorem x1_eq : (val_main_v18 (F := Ideal) (aT m c) (aEmbT m c)) = kx1 m ρ c :=
  (Cert.ReferenceIdeal.RV.ref_x1 ..).trans (x1_val m ρ c).symm

theorem r0_0 : (val_main_v129 (F := Ideal) (aAl m c) (aAc m c) (aT m c) (aEs0 m c) (aEs1 m c) (aW0 m c) (aW1 m c) (aEncAl m c) (aEncW m c) (aEncB m c) (aEmbT m c) (aMW m c) (aMB m c)) = Spec.relu (ko0_0 m ρ c) := by
  rw [Cert.ReferenceIdeal.RV.ref_layer0_0 (h3 := hI.s0) (h4 := hI.s1), x0_eq m ρ c hI, x1_eq m ρ c, layer0_0 m ρ c]

theorem r0_1 : (val_main_v130 (F := Ideal) (aAl m c) (aAc m c) (aT m c) (aEs2 m c) (aEs3 m c) (aW2 m c) (aW3 m c) (aEncAl m c) (aEncW m c) (aEncB m c) (aEmbT m c) (aMW m c) (aMB m c)) = Spec.relu (ko1_0 m ρ c) := by
  rw [Cert.ReferenceIdeal.RV.ref_layer0_1 (h5 := hI.s2) (h6 := hI.s3), x0_eq m ρ c hI, x1_eq m ρ c, layer0_1 m ρ c]

theorem r1_0 : (val_main_v241 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko0_1 m ρ c) := by
  rw [Cert.ReferenceIdeal.RV.ref_layer1_0 (h3 := hI.s0) (h4 := hI.s1), r0_0 m ρ c hI, r0_1 m ρ c hI, layer1_0 m ρ c]

theorem r1_1 : (val_main_v242 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko1_1 m ρ c) := by
  rw [Cert.ReferenceIdeal.RV.ref_layer1_1 (h5 := hI.s2) (h6 := hI.s3), r0_0 m ρ c hI, r0_1 m ρ c hI, layer1_1 m ρ c]

theorem r2_0 : (val_main_v353 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko0_2 m ρ c) := by
  rw [Cert.ReferenceIdeal.RV.ref_layer2_0 (h3 := hI.s0) (h4 := hI.s1), r1_0 m ρ c hI, r1_1 m ρ c hI, layer2_0 m ρ c]

theorem r2_1 : (val_main_v354 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko1_2 m ρ c) := by
  rw [Cert.ReferenceIdeal.RV.ref_layer2_1 (h5 := hI.s2) (h6 := hI.s3), r1_0 m ρ c hI, r1_1 m ρ c hI, layer2_1 m ρ c]

theorem r3_0 : (val_main_v465 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko0_3 m ρ c) := by
  rw [Cert.ReferenceIdeal.RV.ref_layer3_0 (h3 := hI.s0) (h4 := hI.s1), r2_0 m ρ c hI, r2_1 m ρ c hI, layer3_0 m ρ c]

theorem r3_1 : (val_main_v466 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko1_3 m ρ c) := by
  rw [Cert.ReferenceIdeal.RV.ref_layer3_1 (h5 := hI.s2) (h6 := hI.s3), r2_0 m ρ c hI, r2_1 m ρ c hI, layer3_1 m ρ c]

theorem r4_0 : (val_main_v577 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c)) = Spec.relu (ko0_4 m ρ c) := by
  rw [Cert.ReferenceIdeal.RV.ref_layer4_0 (h3 := hI.s0) (h4 := hI.s1), r3_0 m ρ c hI, r3_1 m ρ c hI, layer4_0 m ρ c]

theorem last_eq : (val_main_v582 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c) (aDecW m c) (aDecB m c)) = kLast m ρ c := by
  rw [Cert.ReferenceIdeal.RV.ref_last, r4_0 m ρ c hI, last_val m ρ c]

theorem soft_eq : (val_main_v593 (F := Ideal) (aAl m c) (aAc m c) (aT m c) (aEs0 m c) (aEs1 m c) (aEs2 m c) (aEs3 m c) (aW0 m c) (aW1 m c) (aW2 m c) (aW3 m c) (aEncAl m c) (aEncW m c) (aEncB m c) (aEmbT m c) (aMW m c) (aMB m c) (aDecW m c) (aDecB m c)) = kSoft m ρ c := by
  rw [Cert.ReferenceIdeal.RV.ref_soft, last_eq m ρ c hI, soft_val m ρ c]

end Cert.Proof.Bridge

end
-- ==== Proof.RRunSeq.lean ====
import proofs.«409564_j17119739642177_3_alg».proof.Proof.ROpsList

set_option Elab.async false

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem rs_w0_sub : (ops_w0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., nullary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub ..⟩

theorem rs_w0_fresh : (ops_w0 : List (HloOp τ sig (Elt F))).Forall fun op => op.fresh = ∅ := by
  simp only [ops_w0, List.Forall]; repeat' constructor

theorem rs_w0_main (d : Dev nD) : main_part0 (F := F) d = seq ops_w0 := rfl

theorem rs_w1_sub : (ops_w1 : List (HloOp τ sig (Elt F))).Forall fun op => op.bufs ⊆ tcRefs τ sig :=
  ⟨unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    unary_bufs_sub .., reshape_bufs_sub .., nullary_bufs_sub .., unary_bufs_sub .., unary_bufs_sub .., ternary_bufs_sub ..,
    binary_bufs_sub .., unary_bufs_sub .., reshape_bufs_sub .., binary_bufs_sub ..⟩

theorem rs_w1_fresh : (ops_w1 : List (HloOp τ sig (Elt F))).Forall fun op => op.fresh = ∅ := by
  simp only [ops_w1, List.Forall]; repeat' constructor

theorem rs_w1_main (d : Dev nD) : main_part1 (F := F) d = seq ops_w1 := rfl

theorem rs_w2_sub : (ops_w2 : List (HloOp τ sig (Elt F))).Forall fun op => op.bufs ⊆ tcRefs τ sig :=
  ⟨unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., nullary_bufs_sub ..,
    unary_bufs_sub .., nullary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub ..⟩

theorem rs_w2_fresh : (ops_w2 : List (HloOp τ sig (Elt F))).Forall fun op => op.fresh = ∅ := by
  simp only [ops_w2, List.Forall]; repeat' constructor

theorem rs_w2_main (d : Dev nD) : main_part2 (F := F) d = seq ops_w2 := rfl

theorem rs_w3_sub : (ops_w3 : List (HloOp τ sig (Elt F))).Forall fun op => op.bufs ⊆ tcRefs τ sig :=
  ⟨unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    unary_bufs_sub .., reshape_bufs_sub .., nullary_bufs_sub .., unary_bufs_sub ..⟩

theorem rs_w3_fresh : (ops_w3 : List (HloOp τ sig (Elt F))).Forall fun op => op.fresh = ∅ := by
  simp only [ops_w3, List.Forall]; repeat' constructor

theorem rs_w3_main (d : Dev nD) : main_part3 (F := F) d = seq ops_w3 := rfl

theorem rs_w4_sub : (ops_w4 : List (HloOp τ sig (Elt F))).Forall fun op => op.bufs ⊆ tcRefs τ sig :=
  ⟨unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., nullary_bufs_sub ..,
    unary_bufs_sub .., nullary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub ..⟩

theorem rs_w4_fresh : (ops_w4 : List (HloOp τ sig (Elt F))).Forall fun op => op.fresh = ∅ := by
  simp only [ops_w4, List.Forall]; repeat' constructor

theorem rs_w4_main (d : Dev nD) : main_part4 (F := F) d = seq ops_w4 := rfl

theorem rs_w5_sub : (ops_w5 : List (HloOp τ sig (Elt F))).Forall fun op => op.bufs ⊆ tcRefs τ sig :=
  ⟨unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..⟩

theorem rs_w5_fresh : (ops_w5 : List (HloOp τ sig (Elt F))).Forall fun op => op.fresh = ∅ := by
  simp only [ops_w5, List.Forall]; repeat' constructor

theorem rs_w5_main (d : Dev nD) : main_part5 (F := F) d = seq ops_w5 := rfl

theorem rs_w6_sub : (ops_w6 : List (HloOp τ sig (Elt F))).Forall fun op => op.bufs ⊆ tcRefs τ sig :=
  ⟨unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., nullary_bufs_sub ..,
    unary_bufs_sub .., nullary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub ..⟩

theorem rs_w6_fresh : (ops_w6 : List (HloOp τ sig (Elt F))).Forall fun op => op.fresh = ∅ := by
  simp only [ops_w6, List.Forall]; repeat' constructor

theorem rs_w6_main (d : Dev nD) : main_part6 (F := F) d = seq ops_w6 := rfl

theorem rs_w7_sub : (ops_w7 : List (HloOp τ sig (Elt F))).Forall fun op => op.bufs ⊆ tcRefs τ sig :=
  ⟨unary_bufs_sub .., binary_bufs_sub .., ternary_bufs_sub .., unary_bufs_sub .., binary_bufs_sub .., unary_bufs_sub ..,
    unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    nullary_bufs_sub .., unary_bufs_sub .., binary_bufs_sub .., nullary_bufs_sub ..⟩

theorem rs_w7_fresh : (ops_w7 : List (HloOp τ sig (Elt F))).Forall fun op => op.fresh = ∅ := by
  simp only [ops_w7, List.Forall]; repeat' constructor

theorem rs_w7_main (d : Dev nD) : main_part7 (F := F) d = seq ops_w7 := rfl

theorem rs_w8_sub : (ops_w8 : List (HloOp τ sig (Elt F))).Forall fun op => op.bufs ⊆ tcRefs τ sig :=
  ⟨unary_bufs_sub .., binary_bufs_sub .., ternary_bufs_sub .., unary_bufs_sub .., binary_bufs_sub .., unary_bufs_sub ..,
    unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., nullary_bufs_sub ..,
    unary_bufs_sub .., nullary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub ..⟩

theorem rs_w8_fresh : (ops_w8 : List (HloOp τ sig (Elt F))).Forall fun op => op.fresh = ∅ := by
  simp only [ops_w8, List.Forall]; repeat' constructor

theorem rs_w8_main (d : Dev nD) : main_part8 (F := F) d = seq ops_w8 := rfl

theorem rs_w9_sub : (ops_w9 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub ..⟩

theorem rs_w9_fresh : (ops_w9 : List (HloOp τ sig (Elt F))).Forall fun op => op.fresh = ∅ := by
  simp only [ops_w9, List.Forall]; repeat' constructor

theorem rs_w9_main (d : Dev nD) : main_part9 (F := F) d = seq ops_w9 := rfl

theorem rs_w10_sub : (ops_w10 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., unary_bufs_sub .., reshape_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., reshape_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., nullary_bufs_sub ..⟩

theorem rs_w10_fresh : (ops_w10 : List (HloOp τ sig (Elt F))).Forall fun op => op.fresh = ∅ := by
  simp only [ops_w10, List.Forall]; repeat' constructor

theorem rs_w10_main (d : Dev nD) : main_part10 (F := F) d = seq ops_w10 := rfl

theorem rs_w11_sub : (ops_w11 : List (HloOp τ sig (Elt F))).Forall fun op => op.bufs ⊆ tcRefs τ sig :=
  ⟨unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

theorem rs_w11_fresh : (ops_w11 : List (HloOp τ sig (Elt F))).Forall fun op => op.fresh = ∅ := by
  simp only [ops_w11, List.Forall]; repeat' constructor

theorem rs_w11_main (d : Dev nD) : main_part11 (F := F) d = seq ops_w11 := rfl

theorem rs_main_eq (d : Dev nD) : main (F := F) d = seq ops := by
  unfold main
  rw [rs_w0_main, rs_w1_main, rs_w2_main, rs_w3_main, rs_w4_main, rs_w5_main, rs_w6_main, rs_w7_main, rs_w8_main, rs_w9_main, rs_w10_main, rs_w11_main]
  simp only [ops, seq_append]

theorem rs_ops_sub : (ops : List (HloOp τ sig (Elt F))).Forall fun op => op.bufs ⊆ tcRefs τ sig := by
  simp only [ops, List.forall_append]
  exact ⟨rs_w0_sub, rs_w1_sub, rs_w2_sub, rs_w3_sub, rs_w4_sub, rs_w5_sub, rs_w6_sub, rs_w7_sub, rs_w8_sub, rs_w9_sub, rs_w10_sub, rs_w11_sub⟩

theorem rs_ops_fresh : ∀ op ∈ (ops : List (HloOp τ sig (Elt F))), op.fresh = ∅ := by
  refine List.forall_iff_forall_mem.1 ?_
  simp only [ops, List.forall_append]
  exact ⟨rs_w0_fresh, rs_w1_fresh, rs_w2_fresh, rs_w3_fresh, rs_w4_fresh, rs_w5_fresh, rs_w6_fresh, rs_w7_fresh, rs_w8_fresh, rs_w9_fresh, rs_w10_fresh, rs_w11_fresh⟩

theorem rs_scopedRefs_eq : (Finset.univ.filter fun b : Ref sig .tc => b.isScoped) = ∅ := by decide

theorem rs_scopedSems_eq : (Finset.univ.filter fun sm : SemLoc sig => sm.isScoped .tc) = ∅ := by decide

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq rs_scopedRefs_eq rs_scopedSems_eq defs main (fun _ => ops) rs_main_eq (fun _ => rs_ops_sub) m ρ
    (fun _ => rs_ops_fresh)

end Cert.ReferenceIdeal.ValueP

end
-- ==== Proof.RAfter.lean ====
import proofs.«409564_j17119739642177_3_alg».proof.Proof.ROpsList
import proofs.«409564_j17119739642177_3_alg».proof.Proof.RRead

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem ra_after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, ra_after_append l₁ l₂]

abbrev ra_args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

theorem ra_args_lt : ∀ b ∈ ra_args, b.idx.val < 19 := by
  intro b hb
  simp only [ra_args, List.mem_cons, List.mem_nil_iff, or_false] at hb
  rcases hb with rfl | rfl | rfl | rfl | rfl | rfl | rfl | rfl | rfl | rfl | rfl | rfl | rfl | rfl | rfl | rfl | rfl | rfl | rfl <;> decide

theorem ra_keep_of (l : List (HloOp τ sig (Elt F))) (lo : Nat)
    (hl : l.Forall fun op => ∀ b ∈ op.writes, ∃ y : Ref sig .tc, b = Proc.devRef .tc y ∧ lo ≤ y.idx.val)
    (W : Valuation τ sig (Elt F)) (r : Ref sig .tc) (hr : r.idx.val < lo) :
    after l W (Proc.devRef .tc r) = W (Proc.devRef .tc r) :=
  after_of_forall_not_mem l W fun op hop hb => by
    obtain ⟨y, hy, hle⟩ := List.forall_iff_forall_mem.mp hl op hop _ hb
    have hry : r = y := Proc.devRef_injective _ hy
    subst hry
    exact absurd hle (Nat.not_le.mpr hr)

def ra_c0 : List (HloOp τ sig (Elt F)) := (ops_w0.take 23)

theorem ra_c0_writes : (ra_c0 (F := F)).Forall fun op => ∀ b ∈ op.writes, ∃ y : Ref sig .tc, b = Proc.devRef .tc y ∧ 19 ≤ y.idx.val := by
  simp only [ra_c0, ops_w0, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c0_keep (W : Valuation τ sig (Elt F)) (r : Ref sig .tc) (h : r.idx.val < 19) :
    after (ra_c0 (F := F)) W (Proc.devRef .tc r) = W (Proc.devRef .tc r) :=
  ra_keep_of ra_c0 19 ra_c0_writes W r h

theorem ra_c0_arg (W : Valuation τ sig (Elt F)) (b : Ref sig .tc) (hb : b ∈ ra_args) :
    after (ra_c0 (F := F)) W (Proc.devRef .tc b) = W (Proc.devRef .tc b) :=
  ra_c0_keep W b (Nat.lt_of_lt_of_le (ra_args_lt b hb) (by decide))

abbrev ra_s11 (V : Valuation τ sig (Elt F)) := val_main_v11 (F := F) (V (Proc.devRef .tc main_arg0)) (V (Proc.devRef .tc main_arg1)) (V (Proc.devRef .tc main_arg11)) (V (Proc.devRef .tc main_arg12)) (V (Proc.devRef .tc main_arg13))

theorem ra_c0_v11 (V W : Valuation τ sig (Elt F))
    (hA : ∀ b ∈ ra_args, W (Proc.devRef .tc b) = V (Proc.devRef .tc b)) :
    after (ra_c0 (F := F)) W (Proc.devRef .tc main_v11) = ra_s11 V := by
  have a0 := hA main_arg0 (by decide)
  have a1 := hA main_arg1 (by decide)
  have a11 := hA main_arg11 (by decide)
  have a12 := hA main_arg12 (by decide)
  have a13 := hA main_arg13 (by decide)
  simp only [ra_c0, ops_w0, List.drop_succ_cons, List.drop_zero, List.take_succ_cons, List.take_zero, List.cons_append, List.nil_append]
  after_results_simp
  simp only [a0, a1, a11, a12, a13]
  rfl

abbrev ra_s18 (V : Valuation τ sig (Elt F)) := val_main_v18 (F := F) (V (Proc.devRef .tc main_arg2)) (V (Proc.devRef .tc main_arg14))

theorem ra_c0_v18 (V W : Valuation τ sig (Elt F))
    (hA : ∀ b ∈ ra_args, W (Proc.devRef .tc b) = V (Proc.devRef .tc b)) :
    after (ra_c0 (F := F)) W (Proc.devRef .tc main_v18) = ra_s18 V := by
  have a2 := hA main_arg2 (by decide)
  have a14 := hA main_arg14 (by decide)
  simp only [ra_c0, ops_w0, List.drop_succ_cons, List.drop_zero, List.take_succ_cons, List.take_zero, List.cons_append, List.nil_append]
  after_results_simp
  simp only [a2, a14]
  rfl

def ra_c1 : List (HloOp τ sig (Elt F)) := ((ops_w0.drop 23).take 36)

theorem ra_c1_writes : (ra_c1 (F := F)).Forall fun op => ∀ b ∈ op.writes, ∃ y : Ref sig .tc, b = Proc.devRef .tc y ∧ 42 ≤ y.idx.val := by
  simp only [ra_c1, ops_w0, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c1_keep (W : Valuation τ sig (Elt F)) (r : Ref sig .tc) (h : r.idx.val < 42) :
    after (ra_c1 (F := F)) W (Proc.devRef .tc r) = W (Proc.devRef .tc r) :=
  ra_keep_of ra_c1 42 ra_c1_writes W r h

theorem ra_c1_arg (W : Valuation τ sig (Elt F)) (b : Ref sig .tc) (hb : b ∈ ra_args) :
    after (ra_c1 (F := F)) W (Proc.devRef .tc b) = W (Proc.devRef .tc b) :=
  ra_c1_keep W b (Nat.lt_of_lt_of_le (ra_args_lt b hb) (by decide))

theorem ra_c1_v20 (V W : Valuation τ sig (Elt F))
    (hA : ∀ b ∈ ra_args, W (Proc.devRef .tc b) = V (Proc.devRef .tc b)) :
    after (ra_c1 (F := F)) W (Proc.devRef .tc main_v20) = val_main_v20 (F := F) := by
  simp only [ra_c1, ops_w0, List.drop_succ_cons, List.drop_zero, List.take_succ_cons, List.take_zero, List.cons_append, List.nil_append]
  after_results_simp
  rfl

abbrev ra_s47 (V : Valuation τ sig (Elt F)) := val_main_v47 (F := F) (V (Proc.devRef .tc main_arg0)) (V (Proc.devRef .tc main_arg1)) (V (Proc.devRef .tc main_arg3)) (V (Proc.devRef .tc main_arg7)) (V (Proc.devRef .tc main_arg11)) (V (Proc.devRef .tc main_arg12)) (V (Proc.devRef .tc main_arg13)) (V (Proc.devRef .tc main_arg15)) (V (Proc.devRef .tc main_arg16))

theorem ra_c1_v47 (V W : Valuation τ sig (Elt F))
    (hA : ∀ b ∈ ra_args, W (Proc.devRef .tc b) = V (Proc.devRef .tc b))
    (h_v11 : W (Proc.devRef .tc main_v11) = ra_s11 V) :
    after (ra_c1 (F := F)) W (Proc.devRef .tc main_v47) = ra_s47 V := by
  have a3 := hA main_arg3 (by decide)
  have a7 := hA main_arg7 (by decide)
  have a15 := hA main_arg15 (by decide)
  have a16 := hA main_arg16 (by decide)
  simp only [ra_c1, ops_w0, List.drop_succ_cons, List.drop_zero, List.take_succ_cons, List.take_zero, List.cons_append, List.nil_append]
  after_results_simp
  simp only [h_v11, a3, a7, a15, a16]
  rfl

def ra_c2 : List (HloOp τ sig (Elt F)) := (ops_w0.drop 59) ++ (ops_w1.take 29)

theorem ra_c2_writes : (ra_c2 (F := F)).Forall fun op => ∀ b ∈ op.writes, ∃ y : Ref sig .tc, b = Proc.devRef .tc y ∧ 78 ≤ y.idx.val := by
  simp only [ra_c2, ops_w0, ops_w1, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c2_keep (W : Valuation τ sig (Elt F)) (r : Ref sig .tc) (h : r.idx.val < 78) :
    after (ra_c2 (F := F)) W (Proc.devRef .tc r) = W (Proc.devRef .tc r) :=
  ra_keep_of ra_c2 78 ra_c2_writes W r h

theorem ra_c2_arg (W : Valuation τ sig (Elt F)) (b : Ref sig .tc) (hb : b ∈ ra_args) :
    after (ra_c2 (F := F)) W (Proc.devRef .tc b) = W (Proc.devRef .tc b) :=
  ra_c2_keep W b (Nat.lt_of_lt_of_le (ra_args_lt b hb) (by decide))

abbrev ra_s74 (V : Valuation τ sig (Elt F)) := val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c2_v74 (V W : Valuation τ sig (Elt F))
    (hA : ∀ b ∈ ra_args, W (Proc.devRef .tc b) = V (Proc.devRef .tc b))
    (h_v18 : W (Proc.devRef .tc main_v18) = ra_s18 V)
    (h_v47 : W (Proc.devRef .tc main_v47) = ra_s47 V) :
    after (ra_c2 (F := F)) W (Proc.devRef .tc main_v74) = ra_s74 V := by
  have a4 := hA main_arg4 (by decide)
  have a8 := hA main_arg8 (by decide)
  have a15 := hA main_arg15 (by decide)
  have a16 := hA main_arg16 (by decide)
  simp only [ra_c2, ops_w0, ops_w1, List.drop_succ_cons, List.drop_zero, List.take_succ_cons, List.take_zero, List.cons_append, List.nil_append]
  after_results_simp
  simp only [h_v18, h_v47, a4, a8, a15, a16]
  rfl

def ra_c3 : List (HloOp τ sig (Elt F)) := ((ops_w1.drop 29).take 32)

theorem ra_c3_writes : (ra_c3 (F := F)).Forall fun op => ∀ b ∈ op.writes, ∃ y : Ref sig .tc, b = Proc.devRef .tc y ∧ 110 ≤ y.idx.val := by
  simp only [ra_c3, ops_w1, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c3_keep (W : Valuation τ sig (Elt F)) (r : Ref sig .tc) (h : r.idx.val < 110) :
    after (ra_c3 (F := F)) W (Proc.devRef .tc r) = W (Proc.devRef .tc r) :=
  ra_keep_of ra_c3 110 ra_c3_writes W r h

theorem ra_c3_arg (W : Valuation τ sig (Elt F)) (b : Ref sig .tc) (hb : b ∈ ra_args) :
    after (ra_c3 (F := F)) W (Proc.devRef .tc b) = W (Proc.devRef .tc b) :=
  ra_c3_keep W b (Nat.lt_of_lt_of_le (ra_args_lt b hb) (by decide))

abbrev ra_s101 (V : Valuation τ sig (Elt F)) := val_main_v101 (F := F) (V (Proc.devRef .tc main_arg0)) (V (Proc.devRef .tc main_arg1)) (V (Proc.devRef .tc main_arg5)) (V (Proc.devRef .tc main_arg9)) (V (Proc.devRef .tc main_arg11)) (V (Proc.devRef .tc main_arg12)) (V (Proc.devRef .tc main_arg13)) (V (Proc.devRef .tc main_arg15)) (V (Proc.devRef .tc main_arg16))

theorem ra_c3_v101 (V W : Valuation τ sig (Elt F))
    (hA : ∀ b ∈ ra_args, W (Proc.devRef .tc b) = V (Proc.devRef .tc b))
    (h_v11 : W (Proc.devRef .tc main_v11) = ra_s11 V)
    (h_v20 : W (Proc.devRef .tc main_v20) = val_main_v20 (F := F)) :
    after (ra_c3 (F := F)) W (Proc.devRef .tc main_v101) = ra_s101 V := by
  have a5 := hA main_arg5 (by decide)
  have a9 := hA main_arg9 (by decide)
  have a15 := hA main_arg15 (by decide)
  have a16 := hA main_arg16 (by decide)
  simp only [ra_c3, ops_w1, List.drop_succ_cons, List.drop_zero, List.take_succ_cons, List.take_zero, List.cons_append, List.nil_append]
  after_results_simp
  simp only [h_v11, h_v20, a5, a9, a15, a16]
  rfl

def ra_c4 : List (HloOp τ sig (Elt F)) := (ops_w1.drop 61) ++ (ops_w2.take 35)

theorem ra_c4_writes : (ra_c4 (F := F)).Forall fun op => ∀ b ∈ op.writes, ∃ y : Ref sig .tc, b = Proc.devRef .tc y ∧ 142 ≤ y.idx.val := by
  simp only [ra_c4, ops_w1, ops_w2, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c4_keep (W : Valuation τ sig (Elt F)) (r : Ref sig .tc) (h : r.idx.val < 142) :
    after (ra_c4 (F := F)) W (Proc.devRef .tc r) = W (Proc.devRef .tc r) :=
  ra_keep_of ra_c4 142 ra_c4_writes W r h

theorem ra_c4_arg (W : Valuation τ sig (Elt F)) (b : Ref sig .tc) (hb : b ∈ ra_args) :
    after (ra_c4 (F := F)) W (Proc.devRef .tc b) = W (Proc.devRef .tc b) :=
  ra_c4_keep W b (Nat.lt_of_lt_of_le (ra_args_lt b hb) (by decide))

abbrev ra_s129 (V : Valuation τ sig (Elt F)) := val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c4_v129 (V W : Valuation τ sig (Elt F))
    (hA : ∀ b ∈ ra_args, W (Proc.devRef .tc b) = V (Proc.devRef .tc b))
    (h_v74 : W (Proc.devRef .tc main_v74) = ra_s74 V) :
    after (ra_c4 (F := F)) W (Proc.devRef .tc main_v129) = ra_s129 V := by
  simp only [ra_c4, ops_w1, ops_w2, List.drop_succ_cons, List.drop_zero, List.take_succ_cons, List.take_zero, List.cons_append, List.nil_append]
  after_results_simp
  simp only [h_v74]
  rfl

abbrev ra_s130 (V : Valuation τ sig (Elt F)) := val_main_v130 (F := F) (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c4_v130 (V W : Valuation τ sig (Elt F))
    (hA : ∀ b ∈ ra_args, W (Proc.devRef .tc b) = V (Proc.devRef .tc b))
    (h_v18 : W (Proc.devRef .tc main_v18) = ra_s18 V)
    (h_v101 : W (Proc.devRef .tc main_v101) = ra_s101 V) :
    after (ra_c4 (F := F)) W (Proc.devRef .tc main_v130) = ra_s130 V := by
  have a6 := hA main_arg6 (by decide)
  have a10 := hA main_arg10 (by decide)
  have a15 := hA main_arg15 (by decide)
  have a16 := hA main_arg16 (by decide)
  simp only [ra_c4, ops_w1, ops_w2, List.drop_succ_cons, List.drop_zero, List.take_succ_cons, List.take_zero, List.cons_append, List.nil_append]
  after_results_simp
  simp only [h_v18, h_v101, a6, a10, a15, a16]
  rfl

def ra_c5 : List (HloOp τ sig (Elt F)) := (ops_w2.drop 35) ++ (ops_w3.take 3)

theorem ra_c5_writes : (ra_c5 (F := F)).Forall fun op => ∀ b ∈ op.writes, ∃ y : Ref sig .tc, b = Proc.devRef .tc y ∧ 180 ≤ y.idx.val := by
  simp only [ra_c5, ops_w2, ops_w3, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c5_keep (W : Valuation τ sig (Elt F)) (r : Ref sig .tc) (h : r.idx.val < 180) :
    after (ra_c5 (F := F)) W (Proc.devRef .tc r) = W (Proc.devRef .tc r) :=
  ra_keep_of ra_c5 180 ra_c5_writes W r h

theorem ra_c5_arg (W : Valuation τ sig (Elt F)) (b : Ref sig .tc) (hb : b ∈ ra_args) :
    after (ra_c5 (F := F)) W (Proc.devRef .tc b) = W (Proc.devRef .tc b) :=
  ra_c5_keep W b (Nat.lt_of_lt_of_le (ra_args_lt b hb) (by decide))

theorem ra_c5_v132 (V W : Valuation τ sig (Elt F))
    (hA : ∀ b ∈ ra_args, W (Proc.devRef .tc b) = V (Proc.devRef .tc b)) :
    after (ra_c5 (F := F)) W (Proc.devRef .tc main_v132) = val_main_v132 (F := F) := by
  simp only [ra_c5, ops_w2, ops_w3, List.drop_succ_cons, List.drop_zero, List.take_succ_cons, List.take_zero, List.cons_append, List.nil_append]
  after_results_simp
  rfl

abbrev ra_s159 (V : Valuation τ sig (Elt F)) := val_main_v159 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c5_v159 (V W : Valuation τ sig (Elt F))
    (hA : ∀ b ∈ ra_args, W (Proc.devRef .tc b) = V (Proc.devRef .tc b))
    (h_v129 : W (Proc.devRef .tc main_v129) = ra_s129 V) :
    after (ra_c5 (F := F)) W (Proc.devRef .tc main_v159) = ra_s159 V := by
  have a3 := hA main_arg3 (by decide)
  have a7 := hA main_arg7 (by decide)
  have a15 := hA main_arg15 (by decide)
  have a16 := hA main_arg16 (by decide)
  simp only [ra_c5, ops_w2, ops_w3, List.drop_succ_cons, List.drop_zero, List.take_succ_cons, List.take_zero, List.cons_append, List.nil_append]
  after_results_simp
  simp only [h_v129, a3, a7, a15, a16]
  rfl

def ra_c6 : List (HloOp τ sig (Elt F)) := ((ops_w3.drop 3).take 32)

theorem ra_c6_writes : (ra_c6 (F := F)).Forall fun op => ∀ b ∈ op.writes, ∃ y : Ref sig .tc, b = Proc.devRef .tc y ∧ 216 ≤ y.idx.val := by
  simp only [ra_c6, ops_w3, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c6_keep (W : Valuation τ sig (Elt F)) (r : Ref sig .tc) (h : r.idx.val < 216) :
    after (ra_c6 (F := F)) W (Proc.devRef .tc r) = W (Proc.devRef .tc r) :=
  ra_keep_of ra_c6 216 ra_c6_writes W r h

theorem ra_c6_arg (W : Valuation τ sig (Elt F)) (b : Ref sig .tc) (hb : b ∈ ra_args) :
    after (ra_c6 (F := F)) W (Proc.devRef .tc b) = W (Proc.devRef .tc b) :=
  ra_c6_keep W b (Nat.lt_of_lt_of_le (ra_args_lt b hb) (by decide))

abbrev ra_s186 (V : Valuation τ sig (Elt F)) := val_main_v186 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c6_v186 (V W : Valuation τ sig (Elt F))
    (hA : ∀ b ∈ ra_args, W (Proc.devRef .tc b) = V (Proc.devRef .tc b))
    (h_v130 : W (Proc.devRef .tc main_v130) = ra_s130 V)
    (h_v159 : W (Proc.devRef .tc main_v159) = ra_s159 V) :
    after (ra_c6 (F := F)) W (Proc.devRef .tc main_v186) = ra_s186 V := by
  have a4 := hA main_arg4 (by decide)
  have a8 := hA main_arg8 (by decide)
  have a15 := hA main_arg15 (by decide)
  have a16 := hA main_arg16 (by decide)
  simp only [ra_c6, ops_w3, List.drop_succ_cons, List.drop_zero, List.take_succ_cons, List.take_zero, List.cons_append, List.nil_append]
  after_results_simp
  simp only [h_v130, h_v159, a4, a8, a15, a16]
  rfl

def ra_c7 : List (HloOp τ sig (Elt F)) := (ops_w3.drop 35) ++ (ops_w4.take 3)

theorem ra_c7_writes : (ra_c7 (F := F)).Forall fun op => ∀ b ∈ op.writes, ∃ y : Ref sig .tc, b = Proc.devRef .tc y ∧ 248 ≤ y.idx.val := by
  simp only [ra_c7, ops_w3, ops_w4, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c7_keep (W : Valuation τ sig (Elt F)) (r : Ref sig .tc) (h : r.idx.val < 248) :
    after (ra_c7 (F := F)) W (Proc.devRef .tc r) = W (Proc.devRef .tc r) :=
  ra_keep_of ra_c7 248 ra_c7_writes W r h

theorem ra_c7_arg (W : Valuation τ sig (Elt F)) (b : Ref sig .tc) (hb : b ∈ ra_args) :
    after (ra_c7 (F := F)) W (Proc.devRef .tc b) = W (Proc.devRef .tc b) :=
  ra_c7_keep W b (Nat.lt_of_lt_of_le (ra_args_lt b hb) (by decide))

abbrev ra_s213 (V : Valuation τ sig (Elt F)) := val_main_v213 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c7_v213 (V W : Valuation τ sig (Elt F))
    (hA : ∀ b ∈ ra_args, W (Proc.devRef .tc b) = V (Proc.devRef .tc b))
    (h_v129 : W (Proc.devRef .tc main_v129) = ra_s129 V)
    (h_v132 : W (Proc.devRef .tc main_v132) = val_main_v132 (F := F)) :
    after (ra_c7 (F := F)) W (Proc.devRef .tc main_v213) = ra_s213 V := by
  have a5 := hA main_arg5 (by decide)
  have a9 := hA main_arg9 (by decide)
  have a15 := hA main_arg15 (by decide)
  have a16 := hA main_arg16 (by decide)
  simp only [ra_c7, ops_w3, ops_w4, List.drop_succ_cons, List.drop_zero, List.take_succ_cons, List.take_zero, List.cons_append, List.nil_append]
  after_results_simp
  simp only [h_v129, h_v132, a5, a9, a15, a16]
  rfl

def ra_c8 : List (HloOp τ sig (Elt F)) := ((ops_w4.drop 3).take 38)

theorem ra_c8_writes : (ra_c8 (F := F)).Forall fun op => ∀ b ∈ op.writes, ∃ y : Ref sig .tc, b = Proc.devRef .tc y ∧ 280 ≤ y.idx.val := by
  simp only [ra_c8, ops_w4, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c8_keep (W : Valuation τ sig (Elt F)) (r : Ref sig .tc) (h : r.idx.val < 280) :
    after (ra_c8 (F := F)) W (Proc.devRef .tc r) = W (Proc.devRef .tc r) :=
  ra_keep_of ra_c8 280 ra_c8_writes W r h

theorem ra_c8_arg (W : Valuation τ sig (Elt F)) (b : Ref sig .tc) (hb : b ∈ ra_args) :
    after (ra_c8 (F := F)) W (Proc.devRef .tc b) = W (Proc.devRef .tc b) :=
  ra_c8_keep W b (Nat.lt_of_lt_of_le (ra_args_lt b hb) (by decide))

abbrev ra_s241 (V : Valuation τ sig (Elt F)) := val_main_v241 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c8_v241 (V W : Valuation τ sig (Elt F))
    (hA : ∀ b ∈ ra_args, W (Proc.devRef .tc b) = V (Proc.devRef .tc b))
    (h_v186 : W (Proc.devRef .tc main_v186) = ra_s186 V) :
    after (ra_c8 (F := F)) W (Proc.devRef .tc main_v241) = ra_s241 V := by
  simp only [ra_c8, ops_w4, List.drop_succ_cons, List.drop_zero, List.take_succ_cons, List.take_zero, List.cons_append, List.nil_append]
  after_results_simp
  simp only [h_v186]
  rfl

abbrev ra_s242 (V : Valuation τ sig (Elt F)) := val_main_v242 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c8_v242 (V W : Valuation τ sig (Elt F))
    (hA : ∀ b ∈ ra_args, W (Proc.devRef .tc b) = V (Proc.devRef .tc b))
    (h_v130 : W (Proc.devRef .tc main_v130) = ra_s130 V)
    (h_v213 : W (Proc.devRef .tc main_v213) = ra_s213 V) :
    after (ra_c8 (F := F)) W (Proc.devRef .tc main_v242) = ra_s242 V := by
  have a6 := hA main_arg6 (by decide)
  have a10 := hA main_arg10 (by decide)
  have a15 := hA main_arg15 (by decide)
  have a16 := hA main_arg16 (by decide)
  simp only [ra_c8, ops_w4, List.drop_succ_cons, List.drop_zero, List.take_succ_cons, List.take_zero, List.cons_append, List.nil_append]
  after_results_simp
  simp only [h_v130, h_v213, a6, a10, a15, a16]
  rfl

def ra_c9 : List (HloOp τ sig (Elt F)) := (ops_w4.drop 41) ++ (ops_w5.take 9)

theorem ra_c9_writes : (ra_c9 (F := F)).Forall fun op => ∀ b ∈ op.writes, ∃ y : Ref sig .tc, b = Proc.devRef .tc y ∧ 318 ≤ y.idx.val := by
  simp only [ra_c9, ops_w4, ops_w5, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c9_keep (W : Valuation τ sig (Elt F)) (r : Ref sig .tc) (h : r.idx.val < 318) :
    after (ra_c9 (F := F)) W (Proc.devRef .tc r) = W (Proc.devRef .tc r) :=
  ra_keep_of ra_c9 318 ra_c9_writes W r h

theorem ra_c9_arg (W : Valuation τ sig (Elt F)) (b : Ref sig .tc) (hb : b ∈ ra_args) :
    after (ra_c9 (F := F)) W (Proc.devRef .tc b) = W (Proc.devRef .tc b) :=
  ra_c9_keep W b (Nat.lt_of_lt_of_le (ra_args_lt b hb) (by decide))

theorem ra_c9_v244 (V W : Valuation τ sig (Elt F))
    (hA : ∀ b ∈ ra_args, W (Proc.devRef .tc b) = V (Proc.devRef .tc b)) :
    after (ra_c9 (F := F)) W (Proc.devRef .tc main_v244) = val_main_v244 (F := F) := by
  simp only [ra_c9, ops_w4, ops_w5, List.drop_succ_cons, List.drop_zero, List.take_succ_cons, List.take_zero, List.cons_append, List.nil_append]
  after_results_simp
  rfl

abbrev ra_s271 (V : Valuation τ sig (Elt F)) := val_main_v271 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c9_v271 (V W : Valuation τ sig (Elt F))
    (hA : ∀ b ∈ ra_args, W (Proc.devRef .tc b) = V (Proc.devRef .tc b))
    (h_v241 : W (Proc.devRef .tc main_v241) = ra_s241 V) :
    after (ra_c9 (F := F)) W (Proc.devRef .tc main_v271) = ra_s271 V := by
  have a3 := hA main_arg3 (by decide)
  have a7 := hA main_arg7 (by decide)
  have a15 := hA main_arg15 (by decide)
  have a16 := hA main_arg16 (by decide)
  simp only [ra_c9, ops_w4, ops_w5, List.drop_succ_cons, List.drop_zero, List.take_succ_cons, List.take_zero, List.cons_append, List.nil_append]
  after_results_simp
  simp only [h_v241, a3, a7, a15, a16]
  rfl

def ra_c10 : List (HloOp τ sig (Elt F)) := ((ops_w5.drop 9).take 32)

theorem ra_c10_writes : (ra_c10 (F := F)).Forall fun op => ∀ b ∈ op.writes, ∃ y : Ref sig .tc, b = Proc.devRef .tc y ∧ 354 ≤ y.idx.val := by
  simp only [ra_c10, ops_w5, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c10_keep (W : Valuation τ sig (Elt F)) (r : Ref sig .tc) (h : r.idx.val < 354) :
    after (ra_c10 (F := F)) W (Proc.devRef .tc r) = W (Proc.devRef .tc r) :=
  ra_keep_of ra_c10 354 ra_c10_writes W r h

theorem ra_c10_arg (W : Valuation τ sig (Elt F)) (b : Ref sig .tc) (hb : b ∈ ra_args) :
    after (ra_c10 (F := F)) W (Proc.devRef .tc b) = W (Proc.devRef .tc b) :=
  ra_c10_keep W b (Nat.lt_of_lt_of_le (ra_args_lt b hb) (by decide))

abbrev ra_s298 (V : Valuation τ sig (Elt F)) := val_main_v298 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c10_v298 (V W : Valuation τ sig (Elt F))
    (hA : ∀ b ∈ ra_args, W (Proc.devRef .tc b) = V (Proc.devRef .tc b))
    (h_v242 : W (Proc.devRef .tc main_v242) = ra_s242 V)
    (h_v271 : W (Proc.devRef .tc main_v271) = ra_s271 V) :
    after (ra_c10 (F := F)) W (Proc.devRef .tc main_v298) = ra_s298 V := by
  have a4 := hA main_arg4 (by decide)
  have a8 := hA main_arg8 (by decide)
  have a15 := hA main_arg15 (by decide)
  have a16 := hA main_arg16 (by decide)
  simp only [ra_c10, ops_w5, List.drop_succ_cons, List.drop_zero, List.take_succ_cons, List.take_zero, List.cons_append, List.nil_append]
  after_results_simp
  simp only [h_v242, h_v271, a4, a8, a15, a16]
  rfl

def ra_c11 : List (HloOp τ sig (Elt F)) := (ops_w5.drop 41) ++ (ops_w6.take 9)

theorem ra_c11_writes : (ra_c11 (F := F)).Forall fun op => ∀ b ∈ op.writes, ∃ y : Ref sig .tc, b = Proc.devRef .tc y ∧ 386 ≤ y.idx.val := by
  simp only [ra_c11, ops_w5, ops_w6, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c11_keep (W : Valuation τ sig (Elt F)) (r : Ref sig .tc) (h : r.idx.val < 386) :
    after (ra_c11 (F := F)) W (Proc.devRef .tc r) = W (Proc.devRef .tc r) :=
  ra_keep_of ra_c11 386 ra_c11_writes W r h

theorem ra_c11_arg (W : Valuation τ sig (Elt F)) (b : Ref sig .tc) (hb : b ∈ ra_args) :
    after (ra_c11 (F := F)) W (Proc.devRef .tc b) = W (Proc.devRef .tc b) :=
  ra_c11_keep W b (Nat.lt_of_lt_of_le (ra_args_lt b hb) (by decide))

abbrev ra_s325 (V : Valuation τ sig (Elt F)) := val_main_v325 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c11_v325 (V W : Valuation τ sig (Elt F))
    (hA : ∀ b ∈ ra_args, W (Proc.devRef .tc b) = V (Proc.devRef .tc b))
    (h_v241 : W (Proc.devRef .tc main_v241) = ra_s241 V)
    (h_v244 : W (Proc.devRef .tc main_v244) = val_main_v244 (F := F)) :
    after (ra_c11 (F := F)) W (Proc.devRef .tc main_v325) = ra_s325 V := by
  have a5 := hA main_arg5 (by decide)
  have a9 := hA main_arg9 (by decide)
  have a15 := hA main_arg15 (by decide)
  have a16 := hA main_arg16 (by decide)
  simp only [ra_c11, ops_w5, ops_w6, List.drop_succ_cons, List.drop_zero, List.take_succ_cons, List.take_zero, List.cons_append, List.nil_append]
  after_results_simp
  simp only [h_v241, h_v244, a5, a9, a15, a16]
  rfl

def ra_c12 : List (HloOp τ sig (Elt F)) := ((ops_w6.drop 9).take 38)

theorem ra_c12_writes : (ra_c12 (F := F)).Forall fun op => ∀ b ∈ op.writes, ∃ y : Ref sig .tc, b = Proc.devRef .tc y ∧ 418 ≤ y.idx.val := by
  simp only [ra_c12, ops_w6, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c12_keep (W : Valuation τ sig (Elt F)) (r : Ref sig .tc) (h : r.idx.val < 418) :
    after (ra_c12 (F := F)) W (Proc.devRef .tc r) = W (Proc.devRef .tc r) :=
  ra_keep_of ra_c12 418 ra_c12_writes W r h

theorem ra_c12_arg (W : Valuation τ sig (Elt F)) (b : Ref sig .tc) (hb : b ∈ ra_args) :
    after (ra_c12 (F := F)) W (Proc.devRef .tc b) = W (Proc.devRef .tc b) :=
  ra_c12_keep W b (Nat.lt_of_lt_of_le (ra_args_lt b hb) (by decide))

abbrev ra_s353 (V : Valuation τ sig (Elt F)) := val_main_v353 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c12_v353 (V W : Valuation τ sig (Elt F))
    (hA : ∀ b ∈ ra_args, W (Proc.devRef .tc b) = V (Proc.devRef .tc b))
    (h_v298 : W (Proc.devRef .tc main_v298) = ra_s298 V) :
    after (ra_c12 (F := F)) W (Proc.devRef .tc main_v353) = ra_s353 V := by
  simp only [ra_c12, ops_w6, List.drop_succ_cons, List.drop_zero, List.take_succ_cons, List.take_zero, List.cons_append, List.nil_append]
  after_results_simp
  simp only [h_v298]
  rfl

abbrev ra_s354 (V : Valuation τ sig (Elt F)) := val_main_v354 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c12_v354 (V W : Valuation τ sig (Elt F))
    (hA : ∀ b ∈ ra_args, W (Proc.devRef .tc b) = V (Proc.devRef .tc b))
    (h_v242 : W (Proc.devRef .tc main_v242) = ra_s242 V)
    (h_v325 : W (Proc.devRef .tc main_v325) = ra_s325 V) :
    after (ra_c12 (F := F)) W (Proc.devRef .tc main_v354) = ra_s354 V := by
  have a6 := hA main_arg6 (by decide)
  have a10 := hA main_arg10 (by decide)
  have a15 := hA main_arg15 (by decide)
  have a16 := hA main_arg16 (by decide)
  simp only [ra_c12, ops_w6, List.drop_succ_cons, List.drop_zero, List.take_succ_cons, List.take_zero, List.cons_append, List.nil_append]
  after_results_simp
  simp only [h_v242, h_v325, a6, a10, a15, a16]
  rfl

def ra_c13 : List (HloOp τ sig (Elt F)) := (ops_w6.drop 47) ++ (ops_w7.take 15)

theorem ra_c13_writes : (ra_c13 (F := F)).Forall fun op => ∀ b ∈ op.writes, ∃ y : Ref sig .tc, b = Proc.devRef .tc y ∧ 456 ≤ y.idx.val := by
  simp only [ra_c13, ops_w6, ops_w7, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c13_keep (W : Valuation τ sig (Elt F)) (r : Ref sig .tc) (h : r.idx.val < 456) :
    after (ra_c13 (F := F)) W (Proc.devRef .tc r) = W (Proc.devRef .tc r) :=
  ra_keep_of ra_c13 456 ra_c13_writes W r h

theorem ra_c13_arg (W : Valuation τ sig (Elt F)) (b : Ref sig .tc) (hb : b ∈ ra_args) :
    after (ra_c13 (F := F)) W (Proc.devRef .tc b) = W (Proc.devRef .tc b) :=
  ra_c13_keep W b (Nat.lt_of_lt_of_le (ra_args_lt b hb) (by decide))

theorem ra_c13_v356 (V W : Valuation τ sig (Elt F))
    (hA : ∀ b ∈ ra_args, W (Proc.devRef .tc b) = V (Proc.devRef .tc b)) :
    after (ra_c13 (F := F)) W (Proc.devRef .tc main_v356) = val_main_v356 (F := F) := by
  simp only [ra_c13, ops_w6, ops_w7, List.drop_succ_cons, List.drop_zero, List.take_succ_cons, List.take_zero, List.cons_append, List.nil_append]
  after_results_simp
  rfl

abbrev ra_s383 (V : Valuation τ sig (Elt F)) := val_main_v383 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c13_v383 (V W : Valuation τ sig (Elt F))
    (hA : ∀ b ∈ ra_args, W (Proc.devRef .tc b) = V (Proc.devRef .tc b))
    (h_v353 : W (Proc.devRef .tc main_v353) = ra_s353 V) :
    after (ra_c13 (F := F)) W (Proc.devRef .tc main_v383) = ra_s383 V := by
  have a3 := hA main_arg3 (by decide)
  have a7 := hA main_arg7 (by decide)
  have a15 := hA main_arg15 (by decide)
  have a16 := hA main_arg16 (by decide)
  simp only [ra_c13, ops_w6, ops_w7, List.drop_succ_cons, List.drop_zero, List.take_succ_cons, List.take_zero, List.cons_append, List.nil_append]
  after_results_simp
  simp only [h_v353, a3, a7, a15, a16]
  rfl

def ra_c14 : List (HloOp τ sig (Elt F)) := ((ops_w7.drop 15).take 32)

theorem ra_c14_writes : (ra_c14 (F := F)).Forall fun op => ∀ b ∈ op.writes, ∃ y : Ref sig .tc, b = Proc.devRef .tc y ∧ 492 ≤ y.idx.val := by
  simp only [ra_c14, ops_w7, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c14_keep (W : Valuation τ sig (Elt F)) (r : Ref sig .tc) (h : r.idx.val < 492) :
    after (ra_c14 (F := F)) W (Proc.devRef .tc r) = W (Proc.devRef .tc r) :=
  ra_keep_of ra_c14 492 ra_c14_writes W r h

theorem ra_c14_arg (W : Valuation τ sig (Elt F)) (b : Ref sig .tc) (hb : b ∈ ra_args) :
    after (ra_c14 (F := F)) W (Proc.devRef .tc b) = W (Proc.devRef .tc b) :=
  ra_c14_keep W b (Nat.lt_of_lt_of_le (ra_args_lt b hb) (by decide))

abbrev ra_s410 (V : Valuation τ sig (Elt F)) := val_main_v410 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c14_v410 (V W : Valuation τ sig (Elt F))
    (hA : ∀ b ∈ ra_args, W (Proc.devRef .tc b) = V (Proc.devRef .tc b))
    (h_v354 : W (Proc.devRef .tc main_v354) = ra_s354 V)
    (h_v383 : W (Proc.devRef .tc main_v383) = ra_s383 V) :
    after (ra_c14 (F := F)) W (Proc.devRef .tc main_v410) = ra_s410 V := by
  have a4 := hA main_arg4 (by decide)
  have a8 := hA main_arg8 (by decide)
  have a15 := hA main_arg15 (by decide)
  have a16 := hA main_arg16 (by decide)
  simp only [ra_c14, ops_w7, List.drop_succ_cons, List.drop_zero, List.take_succ_cons, List.take_zero, List.cons_append, List.nil_append]
  after_results_simp
  simp only [h_v354, h_v383, a4, a8, a15, a16]
  rfl

def ra_c15 : List (HloOp τ sig (Elt F)) := (ops_w7.drop 47) ++ (ops_w8.take 15)

theorem ra_c15_writes : (ra_c15 (F := F)).Forall fun op => ∀ b ∈ op.writes, ∃ y : Ref sig .tc, b = Proc.devRef .tc y ∧ 524 ≤ y.idx.val := by
  simp only [ra_c15, ops_w7, ops_w8, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c15_keep (W : Valuation τ sig (Elt F)) (r : Ref sig .tc) (h : r.idx.val < 524) :
    after (ra_c15 (F := F)) W (Proc.devRef .tc r) = W (Proc.devRef .tc r) :=
  ra_keep_of ra_c15 524 ra_c15_writes W r h

theorem ra_c15_arg (W : Valuation τ sig (Elt F)) (b : Ref sig .tc) (hb : b ∈ ra_args) :
    after (ra_c15 (F := F)) W (Proc.devRef .tc b) = W (Proc.devRef .tc b) :=
  ra_c15_keep W b (Nat.lt_of_lt_of_le (ra_args_lt b hb) (by decide))

abbrev ra_s437 (V : Valuation τ sig (Elt F)) := val_main_v437 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c15_v437 (V W : Valuation τ sig (Elt F))
    (hA : ∀ b ∈ ra_args, W (Proc.devRef .tc b) = V (Proc.devRef .tc b))
    (h_v353 : W (Proc.devRef .tc main_v353) = ra_s353 V)
    (h_v356 : W (Proc.devRef .tc main_v356) = val_main_v356 (F := F)) :
    after (ra_c15 (F := F)) W (Proc.devRef .tc main_v437) = ra_s437 V := by
  have a5 := hA main_arg5 (by decide)
  have a9 := hA main_arg9 (by decide)
  have a15 := hA main_arg15 (by decide)
  have a16 := hA main_arg16 (by decide)
  simp only [ra_c15, ops_w7, ops_w8, List.drop_succ_cons, List.drop_zero, List.take_succ_cons, List.take_zero, List.cons_append, List.nil_append]
  after_results_simp
  simp only [h_v353, h_v356, a5, a9, a15, a16]
  rfl

def ra_c16 : List (HloOp τ sig (Elt F)) := ((ops_w8.drop 15).take 38)

theorem ra_c16_writes : (ra_c16 (F := F)).Forall fun op => ∀ b ∈ op.writes, ∃ y : Ref sig .tc, b = Proc.devRef .tc y ∧ 556 ≤ y.idx.val := by
  simp only [ra_c16, ops_w8, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c16_keep (W : Valuation τ sig (Elt F)) (r : Ref sig .tc) (h : r.idx.val < 556) :
    after (ra_c16 (F := F)) W (Proc.devRef .tc r) = W (Proc.devRef .tc r) :=
  ra_keep_of ra_c16 556 ra_c16_writes W r h

theorem ra_c16_arg (W : Valuation τ sig (Elt F)) (b : Ref sig .tc) (hb : b ∈ ra_args) :
    after (ra_c16 (F := F)) W (Proc.devRef .tc b) = W (Proc.devRef .tc b) :=
  ra_c16_keep W b (Nat.lt_of_lt_of_le (ra_args_lt b hb) (by decide))

abbrev ra_s465 (V : Valuation τ sig (Elt F)) := val_main_v465 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c16_v465 (V W : Valuation τ sig (Elt F))
    (hA : ∀ b ∈ ra_args, W (Proc.devRef .tc b) = V (Proc.devRef .tc b))
    (h_v410 : W (Proc.devRef .tc main_v410) = ra_s410 V) :
    after (ra_c16 (F := F)) W (Proc.devRef .tc main_v465) = ra_s465 V := by
  simp only [ra_c16, ops_w8, List.drop_succ_cons, List.drop_zero, List.take_succ_cons, List.take_zero, List.cons_append, List.nil_append]
  after_results_simp
  simp only [h_v410]
  rfl

abbrev ra_s466 (V : Valuation τ sig (Elt F)) := val_main_v466 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c16_v466 (V W : Valuation τ sig (Elt F))
    (hA : ∀ b ∈ ra_args, W (Proc.devRef .tc b) = V (Proc.devRef .tc b))
    (h_v354 : W (Proc.devRef .tc main_v354) = ra_s354 V)
    (h_v437 : W (Proc.devRef .tc main_v437) = ra_s437 V) :
    after (ra_c16 (F := F)) W (Proc.devRef .tc main_v466) = ra_s466 V := by
  have a6 := hA main_arg6 (by decide)
  have a10 := hA main_arg10 (by decide)
  have a15 := hA main_arg15 (by decide)
  have a16 := hA main_arg16 (by decide)
  simp only [ra_c16, ops_w8, List.drop_succ_cons, List.drop_zero, List.take_succ_cons, List.take_zero, List.cons_append, List.nil_append]
  after_results_simp
  simp only [h_v354, h_v437, a6, a10, a15, a16]
  rfl

def ra_c17 : List (HloOp τ sig (Elt F)) := (ops_w8.drop 53) ++ (ops_w9.take 21)

theorem ra_c17_writes : (ra_c17 (F := F)).Forall fun op => ∀ b ∈ op.writes, ∃ y : Ref sig .tc, b = Proc.devRef .tc y ∧ 594 ≤ y.idx.val := by
  simp only [ra_c17, ops_w8, ops_w9, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c17_keep (W : Valuation τ sig (Elt F)) (r : Ref sig .tc) (h : r.idx.val < 594) :
    after (ra_c17 (F := F)) W (Proc.devRef .tc r) = W (Proc.devRef .tc r) :=
  ra_keep_of ra_c17 594 ra_c17_writes W r h

theorem ra_c17_arg (W : Valuation τ sig (Elt F)) (b : Ref sig .tc) (hb : b ∈ ra_args) :
    after (ra_c17 (F := F)) W (Proc.devRef .tc b) = W (Proc.devRef .tc b) :=
  ra_c17_keep W b (Nat.lt_of_lt_of_le (ra_args_lt b hb) (by decide))

theorem ra_c17_v468 (V W : Valuation τ sig (Elt F))
    (hA : ∀ b ∈ ra_args, W (Proc.devRef .tc b) = V (Proc.devRef .tc b)) :
    after (ra_c17 (F := F)) W (Proc.devRef .tc main_v468) = val_main_v468 (F := F) := by
  simp only [ra_c17, ops_w8, ops_w9, List.drop_succ_cons, List.drop_zero, List.take_succ_cons, List.take_zero, List.cons_append, List.nil_append]
  after_results_simp
  rfl

abbrev ra_s495 (V : Valuation τ sig (Elt F)) := val_main_v495 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c17_v495 (V W : Valuation τ sig (Elt F))
    (hA : ∀ b ∈ ra_args, W (Proc.devRef .tc b) = V (Proc.devRef .tc b))
    (h_v465 : W (Proc.devRef .tc main_v465) = ra_s465 V) :
    after (ra_c17 (F := F)) W (Proc.devRef .tc main_v495) = ra_s495 V := by
  have a3 := hA main_arg3 (by decide)
  have a7 := hA main_arg7 (by decide)
  have a15 := hA main_arg15 (by decide)
  have a16 := hA main_arg16 (by decide)
  simp only [ra_c17, ops_w8, ops_w9, List.drop_succ_cons, List.drop_zero, List.take_succ_cons, List.take_zero, List.cons_append, List.nil_append]
  after_results_simp
  simp only [h_v465, a3, a7, a15, a16]
  rfl

def ra_c18 : List (HloOp τ sig (Elt F)) := ((ops_w9.drop 21).take 32)

theorem ra_c18_writes : (ra_c18 (F := F)).Forall fun op => ∀ b ∈ op.writes, ∃ y : Ref sig .tc, b = Proc.devRef .tc y ∧ 630 ≤ y.idx.val := by
  simp only [ra_c18, ops_w9, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c18_keep (W : Valuation τ sig (Elt F)) (r : Ref sig .tc) (h : r.idx.val < 630) :
    after (ra_c18 (F := F)) W (Proc.devRef .tc r) = W (Proc.devRef .tc r) :=
  ra_keep_of ra_c18 630 ra_c18_writes W r h

theorem ra_c18_arg (W : Valuation τ sig (Elt F)) (b : Ref sig .tc) (hb : b ∈ ra_args) :
    after (ra_c18 (F := F)) W (Proc.devRef .tc b) = W (Proc.devRef .tc b) :=
  ra_c18_keep W b (Nat.lt_of_lt_of_le (ra_args_lt b hb) (by decide))

abbrev ra_s522 (V : Valuation τ sig (Elt F)) := val_main_v522 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c18_v522 (V W : Valuation τ sig (Elt F))
    (hA : ∀ b ∈ ra_args, W (Proc.devRef .tc b) = V (Proc.devRef .tc b))
    (h_v466 : W (Proc.devRef .tc main_v466) = ra_s466 V)
    (h_v495 : W (Proc.devRef .tc main_v495) = ra_s495 V) :
    after (ra_c18 (F := F)) W (Proc.devRef .tc main_v522) = ra_s522 V := by
  have a4 := hA main_arg4 (by decide)
  have a8 := hA main_arg8 (by decide)
  have a15 := hA main_arg15 (by decide)
  have a16 := hA main_arg16 (by decide)
  simp only [ra_c18, ops_w9, List.drop_succ_cons, List.drop_zero, List.take_succ_cons, List.take_zero, List.cons_append, List.nil_append]
  after_results_simp
  simp only [h_v466, h_v495, a4, a8, a15, a16]
  rfl

def ra_c19 : List (HloOp τ sig (Elt F)) := (ops_w9.drop 53) ++ (ops_w10.take 21)

theorem ra_c19_writes : (ra_c19 (F := F)).Forall fun op => ∀ b ∈ op.writes, ∃ y : Ref sig .tc, b = Proc.devRef .tc y ∧ 662 ≤ y.idx.val := by
  simp only [ra_c19, ops_w9, ops_w10, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c19_keep (W : Valuation τ sig (Elt F)) (r : Ref sig .tc) (h : r.idx.val < 662) :
    after (ra_c19 (F := F)) W (Proc.devRef .tc r) = W (Proc.devRef .tc r) :=
  ra_keep_of ra_c19 662 ra_c19_writes W r h

theorem ra_c19_arg (W : Valuation τ sig (Elt F)) (b : Ref sig .tc) (hb : b ∈ ra_args) :
    after (ra_c19 (F := F)) W (Proc.devRef .tc b) = W (Proc.devRef .tc b) :=
  ra_c19_keep W b (Nat.lt_of_lt_of_le (ra_args_lt b hb) (by decide))

abbrev ra_s549 (V : Valuation τ sig (Elt F)) := val_main_v549 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c19_v549 (V W : Valuation τ sig (Elt F))
    (hA : ∀ b ∈ ra_args, W (Proc.devRef .tc b) = V (Proc.devRef .tc b))
    (h_v465 : W (Proc.devRef .tc main_v465) = ra_s465 V)
    (h_v468 : W (Proc.devRef .tc main_v468) = val_main_v468 (F := F)) :
    after (ra_c19 (F := F)) W (Proc.devRef .tc main_v549) = ra_s549 V := by
  have a5 := hA main_arg5 (by decide)
  have a9 := hA main_arg9 (by decide)
  have a15 := hA main_arg15 (by decide)
  have a16 := hA main_arg16 (by decide)
  simp only [ra_c19, ops_w9, ops_w10, List.drop_succ_cons, List.drop_zero, List.take_succ_cons, List.take_zero, List.cons_append, List.nil_append]
  after_results_simp
  simp only [h_v465, h_v468, a5, a9, a15, a16]
  rfl

def ra_c20 : List (HloOp τ sig (Elt F)) := ((ops_w10.drop 21).take 38)

theorem ra_c20_writes : (ra_c20 (F := F)).Forall fun op => ∀ b ∈ op.writes, ∃ y : Ref sig .tc, b = Proc.devRef .tc y ∧ 694 ≤ y.idx.val := by
  simp only [ra_c20, ops_w10, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c20_keep (W : Valuation τ sig (Elt F)) (r : Ref sig .tc) (h : r.idx.val < 694) :
    after (ra_c20 (F := F)) W (Proc.devRef .tc r) = W (Proc.devRef .tc r) :=
  ra_keep_of ra_c20 694 ra_c20_writes W r h

theorem ra_c20_arg (W : Valuation τ sig (Elt F)) (b : Ref sig .tc) (hb : b ∈ ra_args) :
    after (ra_c20 (F := F)) W (Proc.devRef .tc b) = W (Proc.devRef .tc b) :=
  ra_c20_keep W b (Nat.lt_of_lt_of_le (ra_args_lt b hb) (by decide))

abbrev ra_s577 (V : Valuation τ sig (Elt F)) := val_main_v577 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

theorem ra_c20_v577 (V W : Valuation τ sig (Elt F))
    (hA : ∀ b ∈ ra_args, W (Proc.devRef .tc b) = V (Proc.devRef .tc b))
    (h_v522 : W (Proc.devRef .tc main_v522) = ra_s522 V) :
    after (ra_c20 (F := F)) W (Proc.devRef .tc main_v577) = ra_s577 V := by
  simp only [ra_c20, ops_w10, List.drop_succ_cons, List.drop_zero, List.take_succ_cons, List.take_zero, List.cons_append, List.nil_append]
  after_results_simp
  simp only [h_v522]
  rfl

def ra_c21 : List (HloOp τ sig (Elt F)) := (ops_w10.drop 59) ++ ops_w11

theorem ra_c21_writes : (ra_c21 (F := F)).Forall fun op => ∀ b ∈ op.writes, ∃ y : Ref sig .tc, b = Proc.devRef .tc y ∧ 732 ≤ y.idx.val := by
  simp only [ra_c21, ops_w10, ops_w11, List.drop_succ_cons, List.drop_zero, List.take_succ_cons, List.take_zero, List.cons_append, List.nil_append, List.Forall, nullary_writes, unary_writes, binary_writes, ternary_writes, reshape_writes,
    Finset.mem_singleton, forall_eq]
  repeat' apply And.intro
  all_goals exact ⟨_, rfl, by decide⟩

theorem ra_c21_keep (W : Valuation τ sig (Elt F)) (r : Ref sig .tc) (h : r.idx.val < 732) :
    after (ra_c21 (F := F)) W (Proc.devRef .tc r) = W (Proc.devRef .tc r) :=
  ra_keep_of ra_c21 732 ra_c21_writes W r h

theorem ra_c21_arg (W : Valuation τ sig (Elt F)) (b : Ref sig .tc) (hb : b ∈ ra_args) :
    after (ra_c21 (F := F)) W (Proc.devRef .tc b) = W (Proc.devRef .tc b) :=
  ra_c21_keep W b (Nat.lt_of_lt_of_le (ra_args_lt b hb) (by decide))

abbrev ra_s582 (V : Valuation τ sig (Elt F)) := val_main_v582 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))

theorem ra_c21_v582 (V W : Valuation τ sig (Elt F))
    (hA : ∀ b ∈ ra_args, W (Proc.devRef .tc b) = V (Proc.devRef .tc b))
    (h_v577 : W (Proc.devRef .tc main_v577) = ra_s577 V) :
    after (ra_c21 (F := F)) W (Proc.devRef .tc main_v582) = ra_s582 V := by
  have a17 := hA main_arg17 (by decide)
  have a18 := hA main_arg18 (by decide)
  simp only [ra_c21, ops_w10, ops_w11, List.drop_succ_cons, List.drop_zero, List.take_succ_cons, List.take_zero, List.cons_append, List.nil_append]
  after_results_simp
  simp only [h_v577, a17, a18]
  rfl

abbrev ra_s593 (V : Valuation τ sig (Elt F)) := val_main_v593 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))

theorem ra_c21_v593 (V W : Valuation τ sig (Elt F))
    (hA : ∀ b ∈ ra_args, W (Proc.devRef .tc b) = V (Proc.devRef .tc b))
    (h_v577 : W (Proc.devRef .tc main_v577) = ra_s577 V) :
    after (ra_c21 (F := F)) W (Proc.devRef .tc main_v593) = ra_s593 V := by
  have a17 := hA main_arg17 (by decide)
  have a18 := hA main_arg18 (by decide)
  simp only [ra_c21, ops_w10, ops_w11, List.drop_succ_cons, List.drop_zero, List.take_succ_cons, List.take_zero, List.cons_append, List.nil_append]
  after_results_simp
  simp only [h_v577, a17, a18]
  rfl

def ra_W1 (V : Valuation τ sig (Elt F)) : Valuation τ sig (Elt F) := after (ra_c0 (F := F)) V

theorem ra_W1_arg (V : Valuation τ sig (Elt F)) : ∀ b ∈ ra_args, ra_W1 V (Proc.devRef .tc b) = V (Proc.devRef .tc b) :=
  fun b hb => ra_c0_arg V b hb

theorem ra_W1_v11 (V : Valuation τ sig (Elt F)) : ra_W1 V (Proc.devRef .tc main_v11) = ra_s11 V :=
  ra_c0_v11 V V (fun _ _ => rfl)

theorem ra_W1_v18 (V : Valuation τ sig (Elt F)) : ra_W1 V (Proc.devRef .tc main_v18) = ra_s18 V :=
  ra_c0_v18 V V (fun _ _ => rfl)

def ra_W2 (V : Valuation τ sig (Elt F)) : Valuation τ sig (Elt F) := after (ra_c1 (F := F)) (ra_W1 V)

theorem ra_W2_arg (V : Valuation τ sig (Elt F)) : ∀ b ∈ ra_args, ra_W2 V (Proc.devRef .tc b) = V (Proc.devRef .tc b) :=
  fun b hb => (ra_c1_arg (ra_W1 V) b hb).trans (ra_W1_arg V b hb)

theorem ra_W2_v11 (V : Valuation τ sig (Elt F)) : ra_W2 V (Proc.devRef .tc main_v11) = ra_s11 V :=
  (ra_c1_keep (ra_W1 V) main_v11 (by decide)).trans (ra_W1_v11 V)

theorem ra_W2_v18 (V : Valuation τ sig (Elt F)) : ra_W2 V (Proc.devRef .tc main_v18) = ra_s18 V :=
  (ra_c1_keep (ra_W1 V) main_v18 (by decide)).trans (ra_W1_v18 V)

theorem ra_W2_v20 (V : Valuation τ sig (Elt F)) : ra_W2 V (Proc.devRef .tc main_v20) = val_main_v20 (F := F) :=
  ra_c1_v20 V (ra_W1 V) (ra_W1_arg V)

theorem ra_W2_v47 (V : Valuation τ sig (Elt F)) : ra_W2 V (Proc.devRef .tc main_v47) = ra_s47 V :=
  ra_c1_v47 V (ra_W1 V) (ra_W1_arg V) (ra_W1_v11 V)

def ra_W3 (V : Valuation τ sig (Elt F)) : Valuation τ sig (Elt F) := after (ra_c2 (F := F)) (ra_W2 V)

theorem ra_W3_arg (V : Valuation τ sig (Elt F)) : ∀ b ∈ ra_args, ra_W3 V (Proc.devRef .tc b) = V (Proc.devRef .tc b) :=
  fun b hb => (ra_c2_arg (ra_W2 V) b hb).trans (ra_W2_arg V b hb)

theorem ra_W3_v11 (V : Valuation τ sig (Elt F)) : ra_W3 V (Proc.devRef .tc main_v11) = ra_s11 V :=
  (ra_c2_keep (ra_W2 V) main_v11 (by decide)).trans (ra_W2_v11 V)

theorem ra_W3_v18 (V : Valuation τ sig (Elt F)) : ra_W3 V (Proc.devRef .tc main_v18) = ra_s18 V :=
  (ra_c2_keep (ra_W2 V) main_v18 (by decide)).trans (ra_W2_v18 V)

theorem ra_W3_v20 (V : Valuation τ sig (Elt F)) : ra_W3 V (Proc.devRef .tc main_v20) = val_main_v20 (F := F) :=
  (ra_c2_keep (ra_W2 V) main_v20 (by decide)).trans (ra_W2_v20 V)

theorem ra_W3_v74 (V : Valuation τ sig (Elt F)) : ra_W3 V (Proc.devRef .tc main_v74) = ra_s74 V :=
  ra_c2_v74 V (ra_W2 V) (ra_W2_arg V) (ra_W2_v18 V) (ra_W2_v47 V)

def ra_W4 (V : Valuation τ sig (Elt F)) : Valuation τ sig (Elt F) := after (ra_c3 (F := F)) (ra_W3 V)

theorem ra_W4_arg (V : Valuation τ sig (Elt F)) : ∀ b ∈ ra_args, ra_W4 V (Proc.devRef .tc b) = V (Proc.devRef .tc b) :=
  fun b hb => (ra_c3_arg (ra_W3 V) b hb).trans (ra_W3_arg V b hb)

theorem ra_W4_v18 (V : Valuation τ sig (Elt F)) : ra_W4 V (Proc.devRef .tc main_v18) = ra_s18 V :=
  (ra_c3_keep (ra_W3 V) main_v18 (by decide)).trans (ra_W3_v18 V)

theorem ra_W4_v74 (V : Valuation τ sig (Elt F)) : ra_W4 V (Proc.devRef .tc main_v74) = ra_s74 V :=
  (ra_c3_keep (ra_W3 V) main_v74 (by decide)).trans (ra_W3_v74 V)

theorem ra_W4_v101 (V : Valuation τ sig (Elt F)) : ra_W4 V (Proc.devRef .tc main_v101) = ra_s101 V :=
  ra_c3_v101 V (ra_W3 V) (ra_W3_arg V) (ra_W3_v11 V) (ra_W3_v20 V)

def ra_W5 (V : Valuation τ sig (Elt F)) : Valuation τ sig (Elt F) := after (ra_c4 (F := F)) (ra_W4 V)

theorem ra_W5_arg (V : Valuation τ sig (Elt F)) : ∀ b ∈ ra_args, ra_W5 V (Proc.devRef .tc b) = V (Proc.devRef .tc b) :=
  fun b hb => (ra_c4_arg (ra_W4 V) b hb).trans (ra_W4_arg V b hb)

theorem ra_W5_v129 (V : Valuation τ sig (Elt F)) : ra_W5 V (Proc.devRef .tc main_v129) = ra_s129 V :=
  ra_c4_v129 V (ra_W4 V) (ra_W4_arg V) (ra_W4_v74 V)

theorem ra_W5_v130 (V : Valuation τ sig (Elt F)) : ra_W5 V (Proc.devRef .tc main_v130) = ra_s130 V :=
  ra_c4_v130 V (ra_W4 V) (ra_W4_arg V) (ra_W4_v18 V) (ra_W4_v101 V)

def ra_W6 (V : Valuation τ sig (Elt F)) : Valuation τ sig (Elt F) := after (ra_c5 (F := F)) (ra_W5 V)

theorem ra_W6_arg (V : Valuation τ sig (Elt F)) : ∀ b ∈ ra_args, ra_W6 V (Proc.devRef .tc b) = V (Proc.devRef .tc b) :=
  fun b hb => (ra_c5_arg (ra_W5 V) b hb).trans (ra_W5_arg V b hb)

theorem ra_W6_v129 (V : Valuation τ sig (Elt F)) : ra_W6 V (Proc.devRef .tc main_v129) = ra_s129 V :=
  (ra_c5_keep (ra_W5 V) main_v129 (by decide)).trans (ra_W5_v129 V)

theorem ra_W6_v130 (V : Valuation τ sig (Elt F)) : ra_W6 V (Proc.devRef .tc main_v130) = ra_s130 V :=
  (ra_c5_keep (ra_W5 V) main_v130 (by decide)).trans (ra_W5_v130 V)

theorem ra_W6_v132 (V : Valuation τ sig (Elt F)) : ra_W6 V (Proc.devRef .tc main_v132) = val_main_v132 (F := F) :=
  ra_c5_v132 V (ra_W5 V) (ra_W5_arg V)

theorem ra_W6_v159 (V : Valuation τ sig (Elt F)) : ra_W6 V (Proc.devRef .tc main_v159) = ra_s159 V :=
  ra_c5_v159 V (ra_W5 V) (ra_W5_arg V) (ra_W5_v129 V)

def ra_W7 (V : Valuation τ sig (Elt F)) : Valuation τ sig (Elt F) := after (ra_c6 (F := F)) (ra_W6 V)

theorem ra_W7_arg (V : Valuation τ sig (Elt F)) : ∀ b ∈ ra_args, ra_W7 V (Proc.devRef .tc b) = V (Proc.devRef .tc b) :=
  fun b hb => (ra_c6_arg (ra_W6 V) b hb).trans (ra_W6_arg V b hb)

theorem ra_W7_v129 (V : Valuation τ sig (Elt F)) : ra_W7 V (Proc.devRef .tc main_v129) = ra_s129 V :=
  (ra_c6_keep (ra_W6 V) main_v129 (by decide)).trans (ra_W6_v129 V)

theorem ra_W7_v130 (V : Valuation τ sig (Elt F)) : ra_W7 V (Proc.devRef .tc main_v130) = ra_s130 V :=
  (ra_c6_keep (ra_W6 V) main_v130 (by decide)).trans (ra_W6_v130 V)

theorem ra_W7_v132 (V : Valuation τ sig (Elt F)) : ra_W7 V (Proc.devRef .tc main_v132) = val_main_v132 (F := F) :=
  (ra_c6_keep (ra_W6 V) main_v132 (by decide)).trans (ra_W6_v132 V)

theorem ra_W7_v186 (V : Valuation τ sig (Elt F)) : ra_W7 V (Proc.devRef .tc main_v186) = ra_s186 V :=
  ra_c6_v186 V (ra_W6 V) (ra_W6_arg V) (ra_W6_v130 V) (ra_W6_v159 V)

def ra_W8 (V : Valuation τ sig (Elt F)) : Valuation τ sig (Elt F) := after (ra_c7 (F := F)) (ra_W7 V)

theorem ra_W8_arg (V : Valuation τ sig (Elt F)) : ∀ b ∈ ra_args, ra_W8 V (Proc.devRef .tc b) = V (Proc.devRef .tc b) :=
  fun b hb => (ra_c7_arg (ra_W7 V) b hb).trans (ra_W7_arg V b hb)

theorem ra_W8_v130 (V : Valuation τ sig (Elt F)) : ra_W8 V (Proc.devRef .tc main_v130) = ra_s130 V :=
  (ra_c7_keep (ra_W7 V) main_v130 (by decide)).trans (ra_W7_v130 V)

theorem ra_W8_v186 (V : Valuation τ sig (Elt F)) : ra_W8 V (Proc.devRef .tc main_v186) = ra_s186 V :=
  (ra_c7_keep (ra_W7 V) main_v186 (by decide)).trans (ra_W7_v186 V)

theorem ra_W8_v213 (V : Valuation τ sig (Elt F)) : ra_W8 V (Proc.devRef .tc main_v213) = ra_s213 V :=
  ra_c7_v213 V (ra_W7 V) (ra_W7_arg V) (ra_W7_v129 V) (ra_W7_v132 V)

def ra_W9 (V : Valuation τ sig (Elt F)) : Valuation τ sig (Elt F) := after (ra_c8 (F := F)) (ra_W8 V)

theorem ra_W9_arg (V : Valuation τ sig (Elt F)) : ∀ b ∈ ra_args, ra_W9 V (Proc.devRef .tc b) = V (Proc.devRef .tc b) :=
  fun b hb => (ra_c8_arg (ra_W8 V) b hb).trans (ra_W8_arg V b hb)

theorem ra_W9_v241 (V : Valuation τ sig (Elt F)) : ra_W9 V (Proc.devRef .tc main_v241) = ra_s241 V :=
  ra_c8_v241 V (ra_W8 V) (ra_W8_arg V) (ra_W8_v186 V)

theorem ra_W9_v242 (V : Valuation τ sig (Elt F)) : ra_W9 V (Proc.devRef .tc main_v242) = ra_s242 V :=
  ra_c8_v242 V (ra_W8 V) (ra_W8_arg V) (ra_W8_v130 V) (ra_W8_v213 V)

def ra_W10 (V : Valuation τ sig (Elt F)) : Valuation τ sig (Elt F) := after (ra_c9 (F := F)) (ra_W9 V)

theorem ra_W10_arg (V : Valuation τ sig (Elt F)) : ∀ b ∈ ra_args, ra_W10 V (Proc.devRef .tc b) = V (Proc.devRef .tc b) :=
  fun b hb => (ra_c9_arg (ra_W9 V) b hb).trans (ra_W9_arg V b hb)

theorem ra_W10_v241 (V : Valuation τ sig (Elt F)) : ra_W10 V (Proc.devRef .tc main_v241) = ra_s241 V :=
  (ra_c9_keep (ra_W9 V) main_v241 (by decide)).trans (ra_W9_v241 V)

theorem ra_W10_v242 (V : Valuation τ sig (Elt F)) : ra_W10 V (Proc.devRef .tc main_v242) = ra_s242 V :=
  (ra_c9_keep (ra_W9 V) main_v242 (by decide)).trans (ra_W9_v242 V)

theorem ra_W10_v244 (V : Valuation τ sig (Elt F)) : ra_W10 V (Proc.devRef .tc main_v244) = val_main_v244 (F := F) :=
  ra_c9_v244 V (ra_W9 V) (ra_W9_arg V)

theorem ra_W10_v271 (V : Valuation τ sig (Elt F)) : ra_W10 V (Proc.devRef .tc main_v271) = ra_s271 V :=
  ra_c9_v271 V (ra_W9 V) (ra_W9_arg V) (ra_W9_v241 V)

def ra_W11 (V : Valuation τ sig (Elt F)) : Valuation τ sig (Elt F) := after (ra_c10 (F := F)) (ra_W10 V)

theorem ra_W11_arg (V : Valuation τ sig (Elt F)) : ∀ b ∈ ra_args, ra_W11 V (Proc.devRef .tc b) = V (Proc.devRef .tc b) :=
  fun b hb => (ra_c10_arg (ra_W10 V) b hb).trans (ra_W10_arg V b hb)

theorem ra_W11_v241 (V : Valuation τ sig (Elt F)) : ra_W11 V (Proc.devRef .tc main_v241) = ra_s241 V :=
  (ra_c10_keep (ra_W10 V) main_v241 (by decide)).trans (ra_W10_v241 V)

theorem ra_W11_v242 (V : Valuation τ sig (Elt F)) : ra_W11 V (Proc.devRef .tc main_v242) = ra_s242 V :=
  (ra_c10_keep (ra_W10 V) main_v242 (by decide)).trans (ra_W10_v242 V)

theorem ra_W11_v244 (V : Valuation τ sig (Elt F)) : ra_W11 V (Proc.devRef .tc main_v244) = val_main_v244 (F := F) :=
  (ra_c10_keep (ra_W10 V) main_v244 (by decide)).trans (ra_W10_v244 V)

theorem ra_W11_v298 (V : Valuation τ sig (Elt F)) : ra_W11 V (Proc.devRef .tc main_v298) = ra_s298 V :=
  ra_c10_v298 V (ra_W10 V) (ra_W10_arg V) (ra_W10_v242 V) (ra_W10_v271 V)

def ra_W12 (V : Valuation τ sig (Elt F)) : Valuation τ sig (Elt F) := after (ra_c11 (F := F)) (ra_W11 V)

theorem ra_W12_arg (V : Valuation τ sig (Elt F)) : ∀ b ∈ ra_args, ra_W12 V (Proc.devRef .tc b) = V (Proc.devRef .tc b) :=
  fun b hb => (ra_c11_arg (ra_W11 V) b hb).trans (ra_W11_arg V b hb)

theorem ra_W12_v242 (V : Valuation τ sig (Elt F)) : ra_W12 V (Proc.devRef .tc main_v242) = ra_s242 V :=
  (ra_c11_keep (ra_W11 V) main_v242 (by decide)).trans (ra_W11_v242 V)

theorem ra_W12_v298 (V : Valuation τ sig (Elt F)) : ra_W12 V (Proc.devRef .tc main_v298) = ra_s298 V :=
  (ra_c11_keep (ra_W11 V) main_v298 (by decide)).trans (ra_W11_v298 V)

theorem ra_W12_v325 (V : Valuation τ sig (Elt F)) : ra_W12 V (Proc.devRef .tc main_v325) = ra_s325 V :=
  ra_c11_v325 V (ra_W11 V) (ra_W11_arg V) (ra_W11_v241 V) (ra_W11_v244 V)

def ra_W13 (V : Valuation τ sig (Elt F)) : Valuation τ sig (Elt F) := after (ra_c12 (F := F)) (ra_W12 V)

theorem ra_W13_arg (V : Valuation τ sig (Elt F)) : ∀ b ∈ ra_args, ra_W13 V (Proc.devRef .tc b) = V (Proc.devRef .tc b) :=
  fun b hb => (ra_c12_arg (ra_W12 V) b hb).trans (ra_W12_arg V b hb)

theorem ra_W13_v353 (V : Valuation τ sig (Elt F)) : ra_W13 V (Proc.devRef .tc main_v353) = ra_s353 V :=
  ra_c12_v353 V (ra_W12 V) (ra_W12_arg V) (ra_W12_v298 V)

theorem ra_W13_v354 (V : Valuation τ sig (Elt F)) : ra_W13 V (Proc.devRef .tc main_v354) = ra_s354 V :=
  ra_c12_v354 V (ra_W12 V) (ra_W12_arg V) (ra_W12_v242 V) (ra_W12_v325 V)

def ra_W14 (V : Valuation τ sig (Elt F)) : Valuation τ sig (Elt F) := after (ra_c13 (F := F)) (ra_W13 V)

theorem ra_W14_arg (V : Valuation τ sig (Elt F)) : ∀ b ∈ ra_args, ra_W14 V (Proc.devRef .tc b) = V (Proc.devRef .tc b) :=
  fun b hb => (ra_c13_arg (ra_W13 V) b hb).trans (ra_W13_arg V b hb)

theorem ra_W14_v353 (V : Valuation τ sig (Elt F)) : ra_W14 V (Proc.devRef .tc main_v353) = ra_s353 V :=
  (ra_c13_keep (ra_W13 V) main_v353 (by decide)).trans (ra_W13_v353 V)

theorem ra_W14_v354 (V : Valuation τ sig (Elt F)) : ra_W14 V (Proc.devRef .tc main_v354) = ra_s354 V :=
  (ra_c13_keep (ra_W13 V) main_v354 (by decide)).trans (ra_W13_v354 V)

theorem ra_W14_v356 (V : Valuation τ sig (Elt F)) : ra_W14 V (Proc.devRef .tc main_v356) = val_main_v356 (F := F) :=
  ra_c13_v356 V (ra_W13 V) (ra_W13_arg V)

theorem ra_W14_v383 (V : Valuation τ sig (Elt F)) : ra_W14 V (Proc.devRef .tc main_v383) = ra_s383 V :=
  ra_c13_v383 V (ra_W13 V) (ra_W13_arg V) (ra_W13_v353 V)

def ra_W15 (V : Valuation τ sig (Elt F)) : Valuation τ sig (Elt F) := after (ra_c14 (F := F)) (ra_W14 V)

theorem ra_W15_arg (V : Valuation τ sig (Elt F)) : ∀ b ∈ ra_args, ra_W15 V (Proc.devRef .tc b) = V (Proc.devRef .tc b) :=
  fun b hb => (ra_c14_arg (ra_W14 V) b hb).trans (ra_W14_arg V b hb)

theorem ra_W15_v353 (V : Valuation τ sig (Elt F)) : ra_W15 V (Proc.devRef .tc main_v353) = ra_s353 V :=
  (ra_c14_keep (ra_W14 V) main_v353 (by decide)).trans (ra_W14_v353 V)

theorem ra_W15_v354 (V : Valuation τ sig (Elt F)) : ra_W15 V (Proc.devRef .tc main_v354) = ra_s354 V :=
  (ra_c14_keep (ra_W14 V) main_v354 (by decide)).trans (ra_W14_v354 V)

theorem ra_W15_v356 (V : Valuation τ sig (Elt F)) : ra_W15 V (Proc.devRef .tc main_v356) = val_main_v356 (F := F) :=
  (ra_c14_keep (ra_W14 V) main_v356 (by decide)).trans (ra_W14_v356 V)

theorem ra_W15_v410 (V : Valuation τ sig (Elt F)) : ra_W15 V (Proc.devRef .tc main_v410) = ra_s410 V :=
  ra_c14_v410 V (ra_W14 V) (ra_W14_arg V) (ra_W14_v354 V) (ra_W14_v383 V)

def ra_W16 (V : Valuation τ sig (Elt F)) : Valuation τ sig (Elt F) := after (ra_c15 (F := F)) (ra_W15 V)

theorem ra_W16_arg (V : Valuation τ sig (Elt F)) : ∀ b ∈ ra_args, ra_W16 V (Proc.devRef .tc b) = V (Proc.devRef .tc b) :=
  fun b hb => (ra_c15_arg (ra_W15 V) b hb).trans (ra_W15_arg V b hb)

theorem ra_W16_v354 (V : Valuation τ sig (Elt F)) : ra_W16 V (Proc.devRef .tc main_v354) = ra_s354 V :=
  (ra_c15_keep (ra_W15 V) main_v354 (by decide)).trans (ra_W15_v354 V)

theorem ra_W16_v410 (V : Valuation τ sig (Elt F)) : ra_W16 V (Proc.devRef .tc main_v410) = ra_s410 V :=
  (ra_c15_keep (ra_W15 V) main_v410 (by decide)).trans (ra_W15_v410 V)

theorem ra_W16_v437 (V : Valuation τ sig (Elt F)) : ra_W16 V (Proc.devRef .tc main_v437) = ra_s437 V :=
  ra_c15_v437 V (ra_W15 V) (ra_W15_arg V) (ra_W15_v353 V) (ra_W15_v356 V)

def ra_W17 (V : Valuation τ sig (Elt F)) : Valuation τ sig (Elt F) := after (ra_c16 (F := F)) (ra_W16 V)

theorem ra_W17_arg (V : Valuation τ sig (Elt F)) : ∀ b ∈ ra_args, ra_W17 V (Proc.devRef .tc b) = V (Proc.devRef .tc b) :=
  fun b hb => (ra_c16_arg (ra_W16 V) b hb).trans (ra_W16_arg V b hb)

theorem ra_W17_v465 (V : Valuation τ sig (Elt F)) : ra_W17 V (Proc.devRef .tc main_v465) = ra_s465 V :=
  ra_c16_v465 V (ra_W16 V) (ra_W16_arg V) (ra_W16_v410 V)

theorem ra_W17_v466 (V : Valuation τ sig (Elt F)) : ra_W17 V (Proc.devRef .tc main_v466) = ra_s466 V :=
  ra_c16_v466 V (ra_W16 V) (ra_W16_arg V) (ra_W16_v354 V) (ra_W16_v437 V)

def ra_W18 (V : Valuation τ sig (Elt F)) : Valuation τ sig (Elt F) := after (ra_c17 (F := F)) (ra_W17 V)

theorem ra_W18_arg (V : Valuation τ sig (Elt F)) : ∀ b ∈ ra_args, ra_W18 V (Proc.devRef .tc b) = V (Proc.devRef .tc b) :=
  fun b hb => (ra_c17_arg (ra_W17 V) b hb).trans (ra_W17_arg V b hb)

theorem ra_W18_v465 (V : Valuation τ sig (Elt F)) : ra_W18 V (Proc.devRef .tc main_v465) = ra_s465 V :=
  (ra_c17_keep (ra_W17 V) main_v465 (by decide)).trans (ra_W17_v465 V)

theorem ra_W18_v466 (V : Valuation τ sig (Elt F)) : ra_W18 V (Proc.devRef .tc main_v466) = ra_s466 V :=
  (ra_c17_keep (ra_W17 V) main_v466 (by decide)).trans (ra_W17_v466 V)

theorem ra_W18_v468 (V : Valuation τ sig (Elt F)) : ra_W18 V (Proc.devRef .tc main_v468) = val_main_v468 (F := F) :=
  ra_c17_v468 V (ra_W17 V) (ra_W17_arg V)

theorem ra_W18_v495 (V : Valuation τ sig (Elt F)) : ra_W18 V (Proc.devRef .tc main_v495) = ra_s495 V :=
  ra_c17_v495 V (ra_W17 V) (ra_W17_arg V) (ra_W17_v465 V)

def ra_W19 (V : Valuation τ sig (Elt F)) : Valuation τ sig (Elt F) := after (ra_c18 (F := F)) (ra_W18 V)

theorem ra_W19_arg (V : Valuation τ sig (Elt F)) : ∀ b ∈ ra_args, ra_W19 V (Proc.devRef .tc b) = V (Proc.devRef .tc b) :=
  fun b hb => (ra_c18_arg (ra_W18 V) b hb).trans (ra_W18_arg V b hb)

theorem ra_W19_v465 (V : Valuation τ sig (Elt F)) : ra_W19 V (Proc.devRef .tc main_v465) = ra_s465 V :=
  (ra_c18_keep (ra_W18 V) main_v465 (by decide)).trans (ra_W18_v465 V)

theorem ra_W19_v466 (V : Valuation τ sig (Elt F)) : ra_W19 V (Proc.devRef .tc main_v466) = ra_s466 V :=
  (ra_c18_keep (ra_W18 V) main_v466 (by decide)).trans (ra_W18_v466 V)

theorem ra_W19_v468 (V : Valuation τ sig (Elt F)) : ra_W19 V (Proc.devRef .tc main_v468) = val_main_v468 (F := F) :=
  (ra_c18_keep (ra_W18 V) main_v468 (by decide)).trans (ra_W18_v468 V)

theorem ra_W19_v522 (V : Valuation τ sig (Elt F)) : ra_W19 V (Proc.devRef .tc main_v522) = ra_s522 V :=
  ra_c18_v522 V (ra_W18 V) (ra_W18_arg V) (ra_W18_v466 V) (ra_W18_v495 V)

def ra_W20 (V : Valuation τ sig (Elt F)) : Valuation τ sig (Elt F) := after (ra_c19 (F := F)) (ra_W19 V)

theorem ra_W20_arg (V : Valuation τ sig (Elt F)) : ∀ b ∈ ra_args, ra_W20 V (Proc.devRef .tc b) = V (Proc.devRef .tc b) :=
  fun b hb => (ra_c19_arg (ra_W19 V) b hb).trans (ra_W19_arg V b hb)

theorem ra_W20_v466 (V : Valuation τ sig (Elt F)) : ra_W20 V (Proc.devRef .tc main_v466) = ra_s466 V :=
  (ra_c19_keep (ra_W19 V) main_v466 (by decide)).trans (ra_W19_v466 V)

theorem ra_W20_v522 (V : Valuation τ sig (Elt F)) : ra_W20 V (Proc.devRef .tc main_v522) = ra_s522 V :=
  (ra_c19_keep (ra_W19 V) main_v522 (by decide)).trans (ra_W19_v522 V)

theorem ra_W20_v549 (V : Valuation τ sig (Elt F)) : ra_W20 V (Proc.devRef .tc main_v549) = ra_s549 V :=
  ra_c19_v549 V (ra_W19 V) (ra_W19_arg V) (ra_W19_v465 V) (ra_W19_v468 V)

def ra_W21 (V : Valuation τ sig (Elt F)) : Valuation τ sig (Elt F) := after (ra_c20 (F := F)) (ra_W20 V)

theorem ra_W21_arg (V : Valuation τ sig (Elt F)) : ∀ b ∈ ra_args, ra_W21 V (Proc.devRef .tc b) = V (Proc.devRef .tc b) :=
  fun b hb => (ra_c20_arg (ra_W20 V) b hb).trans (ra_W20_arg V b hb)

theorem ra_W21_v577 (V : Valuation τ sig (Elt F)) : ra_W21 V (Proc.devRef .tc main_v577) = ra_s577 V :=
  ra_c20_v577 V (ra_W20 V) (ra_W20_arg V) (ra_W20_v522 V)

def ra_W22 (V : Valuation τ sig (Elt F)) : Valuation τ sig (Elt F) := after (ra_c21 (F := F)) (ra_W21 V)

theorem ra_W22_arg (V : Valuation τ sig (Elt F)) : ∀ b ∈ ra_args, ra_W22 V (Proc.devRef .tc b) = V (Proc.devRef .tc b) :=
  fun b hb => (ra_c21_arg (ra_W21 V) b hb).trans (ra_W21_arg V b hb)

theorem ra_W22_v582 (V : Valuation τ sig (Elt F)) : ra_W22 V (Proc.devRef .tc main_v582) = ra_s582 V :=
  ra_c21_v582 V (ra_W21 V) (ra_W21_arg V) (ra_W21_v577 V)

theorem ra_W22_v593 (V : Valuation τ sig (Elt F)) : ra_W22 V (Proc.devRef .tc main_v593) = ra_s593 V :=
  ra_c21_v593 V (ra_W21 V) (ra_W21_arg V) (ra_W21_v577 V)

theorem ra_ops_eq : ops (F := F) = ra_c0 ++ (ra_c1 ++ (ra_c2 ++ (ra_c3 ++ (ra_c4 ++ (ra_c5 ++ (ra_c6 ++ (ra_c7 ++ (ra_c8 ++ (ra_c9 ++ (ra_c10 ++ (ra_c11 ++ (ra_c12 ++ (ra_c13 ++ (ra_c14 ++ (ra_c15 ++ (ra_c16 ++ (ra_c17 ++ (ra_c18 ++ (ra_c19 ++ (ra_c20 ++ (ra_c21))))))))))))))))))))) := rfl

theorem ra_after_ops (V : Valuation τ sig (Elt F)) : after (ops (F := F)) V = ra_W22 V := by
  rw [ra_ops_eq]
  simp only [ra_after_append]
  rfl

variable (V : Valuation τ sig (Elt F))

theorem after_arg (b : Ref sig .tc)
    (hb : b ∈ [main_arg0, main_arg1, main_arg2, main_arg3, main_arg4, main_arg5, main_arg6, main_arg7, main_arg8, main_arg9,
      main_arg10, main_arg11, main_arg12, main_arg13, main_arg14, main_arg15, main_arg16, main_arg17, main_arg18]) :
    after (ops (F := F)) V (Proc.devRef .tc b) = V (Proc.devRef .tc b) := by
  rw [ra_after_ops]
  exact ra_W22_arg V b hb

theorem after_v582 : after (ops (F := F)) V (Proc.devRef .tc main_v582)
    = val_main_v582 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [ra_after_ops]
  exact ra_W22_v582 V

theorem after_v593 : after (ops (F := F)) V (Proc.devRef .tc main_v593)
    = val_main_v593 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [ra_after_ops]
  exact ra_W22_v593 V

end Cert.ReferenceIdeal.ValueP

end
-- ==== Proof.Final.lean ====
import proofs.«409564_j17119739642177_3_alg».proof.Defs
import proofs.«409564_j17119739642177_3_alg».proof.Proof.KRun
import proofs.«409564_j17119739642177_3_alg».proof.Proof.Bridge
import proofs.«409564_j17119739642177_3_alg».proof.Proof.RRunSeq
import proofs.«409564_j17119739642177_3_alg».proof.Proof.RAfter
import proofs.«409564_j17119739642177_3_alg».proof.Proof.IdxFacts

set_option maxRecDepth 16384

noncomputable section

namespace Cert.Proof.Final

open Idealize.ShloMosaic Idealize.ShloMosaic.TcCoe Idealize.SL.Sem

theorem frame_ri : Cert.frame_ReferenceIdeal := fun m ρ _ =>
  (θ_run Cert.ReferenceIdeal.defs _ _).mono (fun _ h c =>
    ⟨(h c Cert.ReferenceIdeal.main_arg0).trans (Cert.ReferenceIdeal.ValueP.after_arg (F := Ideal) _ Cert.ReferenceIdeal.main_arg0 (by decide)),
     (h c Cert.ReferenceIdeal.main_arg1).trans (Cert.ReferenceIdeal.ValueP.after_arg (F := Ideal) _ Cert.ReferenceIdeal.main_arg1 (by decide)),
     (h c Cert.ReferenceIdeal.main_arg2).trans (Cert.ReferenceIdeal.ValueP.after_arg (F := Ideal) _ Cert.ReferenceIdeal.main_arg2 (by decide)),
     (h c Cert.ReferenceIdeal.main_arg3).trans (Cert.ReferenceIdeal.ValueP.after_arg (F := Ideal) _ Cert.ReferenceIdeal.main_arg3 (by decide)),
     (h c Cert.ReferenceIdeal.main_arg4).trans (Cert.ReferenceIdeal.ValueP.after_arg (F := Ideal) _ Cert.ReferenceIdeal.main_arg4 (by decide)),
     (h c Cert.ReferenceIdeal.main_arg5).trans (Cert.ReferenceIdeal.ValueP.after_arg (F := Ideal) _ Cert.ReferenceIdeal.main_arg5 (by decide)),
     (h c Cert.ReferenceIdeal.main_arg6).trans (Cert.ReferenceIdeal.ValueP.after_arg (F := Ideal) _ Cert.ReferenceIdeal.main_arg6 (by decide)),
     (h c Cert.ReferenceIdeal.main_arg7).trans (Cert.ReferenceIdeal.ValueP.after_arg (F := Ideal) _ Cert.ReferenceIdeal.main_arg7 (by decide)),
     (h c Cert.ReferenceIdeal.main_arg8).trans (Cert.ReferenceIdeal.ValueP.after_arg (F := Ideal) _ Cert.ReferenceIdeal.main_arg8 (by decide)),
     (h c Cert.ReferenceIdeal.main_arg9).trans (Cert.ReferenceIdeal.ValueP.after_arg (F := Ideal) _ Cert.ReferenceIdeal.main_arg9 (by decide)),
     (h c Cert.ReferenceIdeal.main_arg10).trans (Cert.ReferenceIdeal.ValueP.after_arg (F := Ideal) _ Cert.ReferenceIdeal.main_arg10 (by decide)),
     (h c Cert.ReferenceIdeal.main_arg11).trans (Cert.ReferenceIdeal.ValueP.after_arg (F := Ideal) _ Cert.ReferenceIdeal.main_arg11 (by decide)),
     (h c Cert.ReferenceIdeal.main_arg12).trans (Cert.ReferenceIdeal.ValueP.after_arg (F := Ideal) _ Cert.ReferenceIdeal.main_arg12 (by decide)),
     (h c Cert.ReferenceIdeal.main_arg13).trans (Cert.ReferenceIdeal.ValueP.after_arg (F := Ideal) _ Cert.ReferenceIdeal.main_arg13 (by decide)),
     (h c Cert.ReferenceIdeal.main_arg14).trans (Cert.ReferenceIdeal.ValueP.after_arg (F := Ideal) _ Cert.ReferenceIdeal.main_arg14 (by decide)),
     (h c Cert.ReferenceIdeal.main_arg15).trans (Cert.ReferenceIdeal.ValueP.after_arg (F := Ideal) _ Cert.ReferenceIdeal.main_arg15 (by decide)),
     (h c Cert.ReferenceIdeal.main_arg16).trans (Cert.ReferenceIdeal.ValueP.after_arg (F := Ideal) _ Cert.ReferenceIdeal.main_arg16 (by decide)),
     (h c Cert.ReferenceIdeal.main_arg17).trans (Cert.ReferenceIdeal.ValueP.after_arg (F := Ideal) _ Cert.ReferenceIdeal.main_arg17 (by decide)),
     (h c Cert.ReferenceIdeal.main_arg18).trans (Cert.ReferenceIdeal.ValueP.after_arg (F := Ideal) _ Cert.ReferenceIdeal.main_arg18 (by decide))⟩)
    (Cert.ReferenceIdeal.ValueP.run_after (F := Ideal) m ρ)

theorem algebraic : Cert.algebraic_KernelIdeal_ReferenceIdeal := by
  intro m g m' g' hpre hag
  refine ⟨fun c => Cert.KernelIdeal.KV.kLast m g c, fun c => Cert.KernelIdeal.KV.kSoft m g c, Cert.KernelIdeal.GenRun.run_main m g, ?_⟩
  refine (θ_run Cert.ReferenceIdeal.defs _ _).mono (fun r h c => ?_) (Cert.ReferenceIdeal.ValueP.run_after (F := Ideal) m' g')
  have hI : Cert.Proof.Idx (Cert.KernelIdeal.KV.aAl m c) (Cert.KernelIdeal.KV.aEs0 m c) (Cert.KernelIdeal.KV.aEs1 m c) (Cert.KernelIdeal.KV.aEs2 m c) (Cert.KernelIdeal.KV.aEs3 m c) :=
    Cert.Proof.idx_of_pre _ _ _ _ _ _ _ _ _ _ _ _ _ _ _ _ _ _ _ (hpre c)
  obtain ⟨e0, e1, e2, e3, e4, e5, e6, e7, e8, e9, e10, e11, e12, e13, e14, e15, e16, e17, e18⟩ := hag c
  have h582 := Cert.ReferenceIdeal.ValueP.after_v582 (F := Ideal) (StableHlo.launchContents m' c)
  have h593 := Cert.ReferenceIdeal.ValueP.after_v593 (F := Ideal) (StableHlo.launchContents m' c)
  rw [show StableHlo.launchContents m' c (Proc.devRef .tc Cert.ReferenceIdeal.main_arg0) = Cert.KernelIdeal.KV.aAl m c from e0,
    show StableHlo.launchContents m' c (Proc.devRef .tc Cert.ReferenceIdeal.main_arg1) = Cert.KernelIdeal.KV.aAc m c from e1,
    show StableHlo.launchContents m' c (Proc.devRef .tc Cert.ReferenceIdeal.main_arg2) = Cert.KernelIdeal.KV.aT m c from e2,
    show StableHlo.launchContents m' c (Proc.devRef .tc Cert.ReferenceIdeal.main_arg3) = Cert.KernelIdeal.KV.aEs0 m c from e3,
    show StableHlo.launchContents m' c (Proc.devRef .tc Cert.ReferenceIdeal.main_arg4) = Cert.KernelIdeal.KV.aEs1 m c from e4,
    show StableHlo.launchContents m' c (Proc.devRef .tc Cert.ReferenceIdeal.main_arg5) = Cert.KernelIdeal.KV.aEs2 m c from e5,
    show StableHlo.launchContents m' c (Proc.devRef .tc Cert.ReferenceIdeal.main_arg6) = Cert.KernelIdeal.KV.aEs3 m c from e6,
    show StableHlo.launchContents m' c (Proc.devRef .tc Cert.ReferenceIdeal.main_arg7) = Cert.KernelIdeal.KV.aW0 m c from e7,
    show StableHlo.launchContents m' c (Proc.devRef .tc Cert.ReferenceIdeal.main_arg8) = Cert.KernelIdeal.KV.aW1 m c from e8,
    show StableHlo.launchContents m' c (Proc.devRef .tc Cert.ReferenceIdeal.main_arg9) = Cert.KernelIdeal.KV.aW2 m c from e9,
    show StableHlo.launchContents m' c (Proc.devRef .tc Cert.ReferenceIdeal.main_arg10) = Cert.KernelIdeal.KV.aW3 m c from e10,
    show StableHlo.launchContents m' c (Proc.devRef .tc Cert.ReferenceIdeal.main_arg11) = Cert.KernelIdeal.KV.aEncAl m c from e11,
    show StableHlo.launchContents m' c (Proc.devRef .tc Cert.ReferenceIdeal.main_arg12) = Cert.KernelIdeal.KV.aEncW m c from e12,
    show StableHlo.launchContents m' c (Proc.devRef .tc Cert.ReferenceIdeal.main_arg13) = Cert.KernelIdeal.KV.aEncB m c from e13,
    show StableHlo.launchContents m' c (Proc.devRef .tc Cert.ReferenceIdeal.main_arg14) = Cert.KernelIdeal.KV.aEmbT m c from e14,
    show StableHlo.launchContents m' c (Proc.devRef .tc Cert.ReferenceIdeal.main_arg15) = Cert.KernelIdeal.KV.aMW m c from e15,
    show StableHlo.launchContents m' c (Proc.devRef .tc Cert.ReferenceIdeal.main_arg16) = Cert.KernelIdeal.KV.aMB m c from e16,
    show StableHlo.launchContents m' c (Proc.devRef .tc Cert.ReferenceIdeal.main_arg17) = Cert.KernelIdeal.KV.aDecW m c from e17,
    show StableHlo.launchContents m' c (Proc.devRef .tc Cert.ReferenceIdeal.main_arg18) = Cert.KernelIdeal.KV.aDecB m c from e18] at h582 h593
  exact ⟨(h c Cert.ReferenceIdeal.main_v582).trans (h582.trans (Cert.Proof.Bridge.last_eq m g c hI)),
    (h c Cert.ReferenceIdeal.main_v593).trans (h593.trans (Cert.Proof.Bridge.soft_eq m g c hI)),
    (h c Cert.ReferenceIdeal.main_arg0).trans (Cert.ReferenceIdeal.ValueP.after_arg (F := Ideal) _ Cert.ReferenceIdeal.main_arg0 (by decide)),
    (h c Cert.ReferenceIdeal.main_arg1).trans (Cert.ReferenceIdeal.ValueP.after_arg (F := Ideal) _ Cert.ReferenceIdeal.main_arg1 (by decide)),
    (h c Cert.ReferenceIdeal.main_arg2).trans (Cert.ReferenceIdeal.ValueP.after_arg (F := Ideal) _ Cert.ReferenceIdeal.main_arg2 (by decide)),
    (h c Cert.ReferenceIdeal.main_arg3).trans (Cert.ReferenceIdeal.ValueP.after_arg (F := Ideal) _ Cert.ReferenceIdeal.main_arg3 (by decide)),
    (h c Cert.ReferenceIdeal.main_arg4).trans (Cert.ReferenceIdeal.ValueP.after_arg (F := Ideal) _ Cert.ReferenceIdeal.main_arg4 (by decide)),
    (h c Cert.ReferenceIdeal.main_arg5).trans (Cert.ReferenceIdeal.ValueP.after_arg (F := Ideal) _ Cert.ReferenceIdeal.main_arg5 (by decide)),
    (h c Cert.ReferenceIdeal.main_arg6).trans (Cert.ReferenceIdeal.ValueP.after_arg (F := Ideal) _ Cert.ReferenceIdeal.main_arg6 (by decide)),
    (h c Cert.ReferenceIdeal.main_arg7).trans (Cert.ReferenceIdeal.ValueP.after_arg (F := Ideal) _ Cert.ReferenceIdeal.main_arg7 (by decide)),
    (h c Cert.ReferenceIdeal.main_arg8).trans (Cert.ReferenceIdeal.ValueP.after_arg (F := Ideal) _ Cert.ReferenceIdeal.main_arg8 (by decide)),
    (h c Cert.ReferenceIdeal.main_arg9).trans (Cert.ReferenceIdeal.ValueP.after_arg (F := Ideal) _ Cert.ReferenceIdeal.main_arg9 (by decide)),
    (h c Cert.ReferenceIdeal.main_arg10).trans (Cert.ReferenceIdeal.ValueP.after_arg (F := Ideal) _ Cert.ReferenceIdeal.main_arg10 (by decide)),
    (h c Cert.ReferenceIdeal.main_arg11).trans (Cert.ReferenceIdeal.ValueP.after_arg (F := Ideal) _ Cert.ReferenceIdeal.main_arg11 (by decide)),
    (h c Cert.ReferenceIdeal.main_arg12).trans (Cert.ReferenceIdeal.ValueP.after_arg (F := Ideal) _ Cert.ReferenceIdeal.main_arg12 (by decide)),
    (h c Cert.ReferenceIdeal.main_arg13).trans (Cert.ReferenceIdeal.ValueP.after_arg (F := Ideal) _ Cert.ReferenceIdeal.main_arg13 (by decide)),
    (h c Cert.ReferenceIdeal.main_arg14).trans (Cert.ReferenceIdeal.ValueP.after_arg (F := Ideal) _ Cert.ReferenceIdeal.main_arg14 (by decide)),
    (h c Cert.ReferenceIdeal.main_arg15).trans (Cert.ReferenceIdeal.ValueP.after_arg (F := Ideal) _ Cert.ReferenceIdeal.main_arg15 (by decide)),
    (h c Cert.ReferenceIdeal.main_arg16).trans (Cert.ReferenceIdeal.ValueP.after_arg (F := Ideal) _ Cert.ReferenceIdeal.main_arg16 (by decide)),
    (h c Cert.ReferenceIdeal.main_arg17).trans (Cert.ReferenceIdeal.ValueP.after_arg (F := Ideal) _ Cert.ReferenceIdeal.main_arg17 (by decide)),
    (h c Cert.ReferenceIdeal.main_arg18).trans (Cert.ReferenceIdeal.ValueP.after_arg (F := Ideal) _ Cert.ReferenceIdeal.main_arg18 (by decide))⟩

end Cert.Proof.Final

end
-- ==== Proof.lean ====
import proofs.«409564_j17119739642177_3_alg».proof.Defs
import proofs.«409564_j17119739642177_3_alg».proof.Proof.Gen.Kernel
import proofs.«409564_j17119739642177_3_alg».proof.Proof.Gen.KernelIdeal
import proofs.«409564_j17119739642177_3_alg».proof.Proof.Gen.ReferenceIdeal
import proofs.«409564_j17119739642177_3_alg».proof.Proof.Gen.Pre_finite_inputs
import proofs.«409564_j17119739642177_3_alg».proof.Proof.FrameK
import proofs.«409564_j17119739642177_3_alg».proof.Proof.FrameKI
import proofs.«409564_j17119739642177_3_alg».proof.Proof.Final
import Idealize.ShloMosaic.Adequacy
import Idealize.ShloMosaic.Init

noncomputable section

namespace Cert.Proof

open Idealize.ShloMosaic Idealize.SL.Sem

/-- Each kernel program terminates from every launch state, without a fault, and leaves its nineteen argument arrays unchanged. -/
theorem frame_k : Cert.frame_Kernel := fun m ρ _ => Cert.Kernel.GenP.frame m ρ

theorem frame_ki : Cert.frame_KernelIdeal := fun m ρ _ => Cert.KernelIdeal.GenP.frame m ρ

/-- The idealization rewrote nothing (an empty ledger), and over the extended reals the kernel program and the reference end with
    equal results: both compute the same five message-passing layers, read-out and softmax of the same arguments. -/
theorem claim : Cert.Claim := ⟨Cert.Kernel.Gen.facts, Cert.KernelIdeal.Gen.facts, Cert.ReferenceIdeal.Gen.facts, Cert.Pre_finite_inputs.Gen.facts,
  frame_k, frame_ki, Cert.Proof.Final.frame_ri, trivial, Cert.Proof.Final.algebraic⟩

end Cert.Proof

end
